-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v150)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v150) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v124) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S8192 : Shape := ⟨1, ![8192]⟩
abbrev S5000 : Shape := ⟨1, ![5000]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S8192 : S_.BroadcastsInDim S8192 (![] : Fin 0 → Fin S8192.rank)
  reducesTo_S8192_S_d0 : S8192.ReducesTo [0] S_

variable [Facts]

def fn_part1 {F : FTy → Type} [FloatOps F] (main_v10 : IVec S_ 1) (main_v15 : IVec S8192 1) (main_c_5 : IVec S_ 1) : IVec S_ 1 :=
  let main_v16 : IVec S_ 1 := (fun x v => Host.reduce IntOp.andi x v reducesTo_S8192_S_d0 h_S_) main_v15 main_c_5
  let main_v17 : IVec S_ 1 := andi main_v10 main_v16
  main_v17

def fn {F : FTy → Type} [FloatOps F] (main_arg0 : FVec F S8192x512 .f32) (main_arg1 : IVec S8192 32) (main_arg2 : IVec S8192 32) (main_arg3 : IVec S8192 32) (main_arg4 : IVec S5000 32) (main_arg5 : IVec S5000 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_c_0 : IVec S_ 32 := constantI S_ 32 0#32
  let main_v4 : IVec S8192 32 := broadcastInDim S8192 ![] bcast_S_S8192 main_c_0
  let main_v5 : IVec S8192 1 := cmpi .sge main_arg1 main_v4
  let main_c_1 : IVec S_ 32 := constantI S_ 32 512#32
  let main_v6 : IVec S8192 32 := broadcastInDim S8192 ![] bcast_S_S8192 main_c_1
  let main_v7 : IVec S8192 1 := cmpi .slt main_arg1 main_v6
  let main_v8 : IVec S8192 1 := andi main_v5 main_v7
  let main_c_2 : IVec S_ 1 := constantI S_ 1 1#1
  let main_v9 : IVec S_ 1 := (fun x v => Host.reduce IntOp.andi x v reducesTo_S8192_S_d0 h_S_) main_v8 main_c_2
  let main_v10 : IVec S_ 1 := andi main_v3 main_v9
  let main_c_3 : IVec S_ 32 := constantI S_ 32 0#32
  let main_v11 : IVec S8192 32 := broadcastInDim S8192 ![] bcast_S_S8192 main_c_3
  let main_v12 : IVec S8192 1 := cmpi .sge main_arg2 main_v11
  let main_c_4 : IVec S_ 32 := constantI S_ 32 16#32
  let main_v13 : IVec S8192 32 := broadcastInDim S8192 ![] bcast_S_S8192 main_c_4
  let main_v14 : IVec S8192 1 := cmpi .slt main_arg2 main_v13
  let main_v15 : IVec S8192 1 := andi main_v12 main_v14
  let main_c_5 : IVec S_ 1 := constantI S_ 1 1#1
  fn_part1 (F := F) main_v10 main_v15 main_c_5
-- ==== Kernel.lean ====
abbrev S8192x512 : Shape := ⟨2, ![8192, 512]⟩
abbrev S8192 : Shape := ⟨1, ![8192]⟩
abbrev S5000 : Shape := ⟨1, ![5000]⟩
abbrev S20 : Shape := ⟨1, ![20]⟩
abbrev S_ : Shape := ⟨0, ![]⟩
abbrev S8192x1 : Shape := ⟨2, ![8192, 1]⟩
abbrev S1x8192 : Shape := ⟨2, ![1, 8192]⟩
abbrev S20x8x128 : Shape := ⟨3, ![20, 8, 128]⟩
abbrev S1024x512 : Shape := ⟨2, ![1024, 512]⟩
abbrev S1 : Shape := ⟨1, ![1]⟩
abbrev S2048x512 : Shape := ⟨2, ![2048, 512]⟩
abbrev S1024x1 : Shape := ⟨2, ![1024, 1]⟩
abbrev S1x2048 : Shape := ⟨2, ![1, 2048]⟩
abbrev S1x8x128 : Shape := ⟨3, ![1, 8, 128]⟩
abbrev S1024x2048 : Shape := ⟨2, ![1024, 2048]⟩
abbrev S1024 : Shape := ⟨1, ![1024]⟩
abbrev S1x1 : Shape := ⟨2, ![1, 1]⟩
abbrev S8x128 : Shape := ⟨2, ![8, 128]⟩
abbrev S20x1x1 : Shape := ⟨3, ![20, 1, 1]⟩
abbrev S8193 : Shape := ⟨1, ![8193]⟩
abbrev S512x16 : Shape := ⟨2, ![512, 16]⟩
abbrev S512 : Shape := ⟨1, ![512]⟩
abbrev S5000x1 : Shape := ⟨2, ![5000, 1]⟩
abbrev S5000x512 : Shape := ⟨2, ![5000, 512]⟩

abbrev nBuf : Space → Nat
  | .hbm => 254
  | .vmem => 14
  | .smem => 2
  | _ => 0

abbrev hbmTy0_0 (i : Nat) : BufTy := match i % 128 with
  | 0 => ⟨S8192x512, .f32⟩
  | 1 => ⟨S8192, .i32⟩
  | 2 => ⟨S8192, .i32⟩
  | 3 => ⟨S8192, .i32⟩
  | 4 => ⟨S5000, .i32⟩
  | 5 => ⟨S5000, .i32⟩
  | 6 => ⟨S8192x512, .f32⟩
  | 7 => ⟨S_, .f32⟩
  | 8 => ⟨S8192, .f32⟩
  | 9 => ⟨S8192x1, .f32⟩
  | 10 => ⟨S8192x1, .f32⟩
  | 11 => ⟨S_, .f32⟩
  | 12 => ⟨S8192x1, .f32⟩
  | 13 => ⟨S8192x1, .f32⟩
  | 14 => ⟨S_, .f32⟩
  | 15 => ⟨S8192x1, .f32⟩
  | 16 => ⟨S8192x1, .f32⟩
  | 17 => ⟨S8192x512, .f32⟩
  | 18 => ⟨S8192x512, .f32⟩
  | 19 => ⟨S8192x512, .bf16⟩
  | 20 => ⟨S_, .i32⟩
  | 21 => ⟨S8192, .i32⟩
  | 22 => ⟨S8192, .i1⟩
  | 23 => ⟨S_, .i32⟩
  | 24 => ⟨S8192, .i32⟩
  | 25 => ⟨S8192, .i32⟩
  | 26 => ⟨S8192x1, .i32⟩
  | 27 => ⟨S_, .i32⟩
  | 28 => ⟨S8192, .i32⟩
  | 29 => ⟨S8192, .i32⟩
  | 30 => ⟨S1x8192, .i32⟩
  | 31 => ⟨S8192x1, .i32⟩
  | 32 => ⟨S1x8192, .i32⟩
  | 33 => ⟨S20x8x128, .f32⟩
  | 34 => ⟨S20x1x1, .f32⟩
  | 35 => ⟨S20, .f32⟩
  | 36 => ⟨S_, .f32⟩
  | 37 => ⟨S_, .f32⟩
  | 38 => ⟨S_, .i32⟩
  | 39 => ⟨S8192, .i32⟩
  | 40 => ⟨S8192, .i32⟩
  | 41 => ⟨S8192, .i32⟩
  | 42 => ⟨S_, .i32⟩
  | 43 => ⟨S_, .i32⟩
  | 44 => ⟨S8192, .i32⟩
  | 45 => ⟨S8192, .i32⟩
  | 46 => ⟨S_, .i32⟩
  | 47 => ⟨S8193, .i32⟩
  | 48 => ⟨S_, .i32⟩
  | 49 => ⟨S8192, .i32⟩
  | 50 => ⟨S8192, .i1⟩
  | 51 => ⟨S_, .i32⟩
  | 52 => ⟨S8192, .i32⟩
  | 53 => ⟨S8192, .i32⟩
  | 54 => ⟨S8192, .i32⟩
  | 55 => ⟨S8192x1, .i32⟩
  | 56 => ⟨S_, .i32⟩
  | 57 => ⟨S8192, .i32⟩
  | 58 => ⟨S8193, .i32⟩
  | 59 => ⟨S8192, .i32⟩
  | 60 => ⟨S512x16, .i32⟩
  | 61 => ⟨S_, .i32⟩
  | 62 => ⟨S512, .i32⟩
  | 63 => ⟨S_, .i32⟩
  | 64 => ⟨S512, .i32⟩
  | 65 => ⟨S512, .i32⟩
  | 66 => ⟨S512, .i32⟩
  | 67 => ⟨S_, .i32⟩
  | 68 => ⟨S_, .i32⟩
  | 69 => ⟨S512, .i32⟩
  | 70 => ⟨S512, .i32⟩
  | 71 => ⟨S512, .i32⟩
  | 72 => ⟨S_, .i32⟩
  | 73 => ⟨S512, .i32⟩
  | 74 => ⟨S512, .i1⟩
  | 75 => ⟨S512, .i32⟩
  | 76 => ⟨S512, .i32⟩
  | 77 => ⟨S_, .i32⟩
  | 78 => ⟨S512, .i32⟩
  | 79 => ⟨S512, .i1⟩
  | 80 => ⟨S512, .i1⟩
  | 81 => ⟨S_, .i32⟩
  | 82 => ⟨S512, .i32⟩
  | 83 => ⟨S512, .i32⟩
  | 84 => ⟨S512, .i32⟩
  | 85 => ⟨S_, .i32⟩
  | 86 => ⟨S512x16, .i32⟩
  | 87 => ⟨S512x16, .i32⟩
  | 88 => ⟨S512x16, .i32⟩
  | 89 => ⟨S_, .i32⟩
  | 90 => ⟨S_, .i32⟩
  | 91 => ⟨S512x16, .i32⟩
  | 92 => ⟨S512x16, .i32⟩
  | 93 => ⟨S512x16, .i32⟩
  | 94 => ⟨S_, .i32⟩
  | 95 => ⟨S512x16, .i32⟩
  | 96 => ⟨S512x16, .i1⟩
  | 97 => ⟨S512x16, .i32⟩
  | 98 => ⟨S512x16, .i32⟩
  | 99 => ⟨S_, .i32⟩
  | 100 => ⟨S512x16, .i32⟩
  | 101 => ⟨S512x16, .i1⟩
  | 102 => ⟨S512x16, .i1⟩
  | 103 => ⟨S_, .i32⟩
  | 104 => ⟨S512x16, .i32⟩
  | 105 => ⟨S512x16, .i32⟩
  | 106 => ⟨S512x16, .i32⟩
  | 107 => ⟨S_, .i32⟩
  | 108 => ⟨S512, .i32⟩
  | 109 => ⟨S512, .i32⟩
  | 110 => ⟨S_, .i32⟩
  | 111 => ⟨S_, .i32⟩
  | 112 => ⟨S_, .i32⟩
  | 113 => ⟨S_, .i1⟩
  | 114 => ⟨S_, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .i32⟩
  | 122 => ⟨S5000, .i32⟩
  | 123 => ⟨S5000, .i1⟩
  | 124 => ⟨S_, .i32⟩
  | 125 => ⟨S5000, .i32⟩
  | 126 => ⟨S5000, .i32⟩
  | 127 => ⟨S5000, .i32⟩
  | _ => ⟨S8192x512, .f32⟩

abbrev hbmTy0_1 (i : Nat) : BufTy := match i % 128 with
  | 0 => ⟨S5000x1, .i32⟩
  | 1 => ⟨S5000x512, .f32⟩
  | 2 => ⟨S_, .i32⟩
  | 3 => ⟨S5000, .i32⟩
  | 4 => ⟨S5000, .i1⟩
  | 5 => ⟨S_, .i32⟩
  | 6 => ⟨S5000, .i32⟩
  | 7 => ⟨S5000, .i32⟩
  | 8 => ⟨S5000, .i32⟩
  | 9 => ⟨S5000x1, .i32⟩
  | 10 => ⟨S5000x512, .f32⟩
  | 11 => ⟨S_, .i32⟩
  | 12 => ⟨S5000, .i32⟩
  | 13 => ⟨S5000, .i1⟩
  | 14 => ⟨S_, .i32⟩
  | 15 => ⟨S5000, .i32⟩
  | 16 => ⟨S5000, .i32⟩
  | 17 => ⟨S5000, .i32⟩
  | 18 => ⟨S5000x1, .i32⟩
  | 19 => ⟨S5000x1, .f32⟩
  | 20 => ⟨S5000x512, .f32⟩
  | 21 => ⟨S5000x512, .f32⟩
  | 22 => ⟨S_, .i32⟩
  | 23 => ⟨S5000, .i32⟩
  | 24 => ⟨S5000, .i1⟩
  | 25 => ⟨S_, .i32⟩
  | 26 => ⟨S5000, .i32⟩
  | 27 => ⟨S5000, .i32⟩
  | 28 => ⟨S5000, .i32⟩
  | 29 => ⟨S5000x1, .i32⟩
  | 30 => ⟨S5000x1, .f32⟩
  | 31 => ⟨S5000x512, .f32⟩
  | 32 => ⟨S5000x512, .f32⟩
  | 33 => ⟨S_, .i32⟩
  | 34 => ⟨S5000, .i32⟩
  | 35 => ⟨S5000, .i1⟩
  | 36 => ⟨S_, .i32⟩
  | 37 => ⟨S5000, .i32⟩
  | 38 => ⟨S5000, .i32⟩
  | 39 => ⟨S5000, .i32⟩
  | 40 => ⟨S5000x1, .i32⟩
  | 41 => ⟨S5000, .i32⟩
  | 42 => ⟨S_, .i32⟩
  | 43 => ⟨S5000, .i32⟩
  | 44 => ⟨S5000, .i1⟩
  | 45 => ⟨S_, .i32⟩
  | 46 => ⟨S5000, .i32⟩
  | 47 => ⟨S5000, .i32⟩
  | 48 => ⟨S5000, .i32⟩
  | 49 => ⟨S5000x1, .i32⟩
  | 50 => ⟨S5000, .i32⟩
  | 51 => ⟨S5000, .i1⟩
  | 52 => ⟨S_, .i32⟩
  | 53 => ⟨S5000, .i32⟩
  | 54 => ⟨S5000, .i1⟩
  | 55 => ⟨S_, .i32⟩
  | 56 => ⟨S5000, .i32⟩
  | 57 => ⟨S5000, .i32⟩
  | 58 => ⟨S5000, .i32⟩
  | 59 => ⟨S5000x1, .i32⟩
  | 60 => ⟨S5000, .i32⟩
  | 61 => ⟨S_, .i32⟩
  | 62 => ⟨S5000, .i32⟩
  | 63 => ⟨S5000, .i1⟩
  | 64 => ⟨S_, .i32⟩
  | 65 => ⟨S5000, .i32⟩
  | 66 => ⟨S5000, .i32⟩
  | 67 => ⟨S5000, .i32⟩
  | 68 => ⟨S5000x1, .i32⟩
  | 69 => ⟨S5000, .i32⟩
  | 70 => ⟨S5000, .i1⟩
  | 71 => ⟨S5000, .i1⟩
  | 72 => ⟨S_, .i32⟩
  | 73 => ⟨S5000, .i32⟩
  | 74 => ⟨S5000, .i1⟩
  | 75 => ⟨S_, .i32⟩
  | 76 => ⟨S5000, .i32⟩
  | 77 => ⟨S5000, .i32⟩
  | 78 => ⟨S5000, .i32⟩
  | 79 => ⟨S5000x1, .i32⟩
  | 80 => ⟨S5000, .i32⟩
  | 81 => ⟨S_, .i32⟩
  | 82 => ⟨S5000, .i32⟩
  | 83 => ⟨S5000, .i1⟩
  | 84 => ⟨S_, .i32⟩
  | 85 => ⟨S5000, .i32⟩
  | 86 => ⟨S5000, .i1⟩
  | 87 => ⟨S_, .i32⟩
  | 88 => ⟨S5000, .i32⟩
  | 89 => ⟨S5000, .i32⟩
  | 90 => ⟨S5000, .i32⟩
  | 91 => ⟨S5000x1, .i32⟩
  | 92 => ⟨S5000, .i32⟩
  | 93 => ⟨S_, .i32⟩
  | 94 => ⟨S5000, .i32⟩
  | 95 => ⟨S5000, .i1⟩
  | 96 => ⟨S5000, .i1⟩
  | 97 => ⟨S5000, .i1⟩
  | 98 => ⟨S5000x512, .f32⟩
  | 99 => ⟨S_, .f32⟩
  | 100 => ⟨S5000, .f32⟩
  | 101 => ⟨S_, .f32⟩
  | 102 => ⟨S5000, .f32⟩
  | 103 => ⟨S5000, .f32⟩
  | 104 => ⟨S_, .f32⟩
  | 105 => ⟨S5000, .f32⟩
  | 106 => ⟨S5000, .f32⟩
  | 107 => ⟨S5000, .i32⟩
  | 108 => ⟨S_, .i32⟩
  | 109 => ⟨S_, .i32⟩
  | 110 => ⟨S_, .f32⟩
  | 111 => ⟨S_, .f32⟩
  | 112 => ⟨S5000, .f32⟩
  | 113 => ⟨S5000, .f32⟩
  | 114 => ⟨S_, .f32⟩
  | 115 => ⟨S_, .f32⟩
  | 116 => ⟨S_, .i32⟩
  | 117 => ⟨S_, .i1⟩
  | 118 => ⟨S_, .i32⟩
  | 119 => ⟨S_, .i32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | .local _ .vmem, ⟨0, _⟩ => ⟨S1024x512, .bf16⟩
  | .local _ .vmem, ⟨1, _⟩ => ⟨S1024x512, .bf16⟩
  | .local _ .vmem, ⟨2, _⟩ => ⟨S2048x512, .bf16⟩
  | .local _ .vmem, ⟨3, _⟩ => ⟨S2048x512, .bf16⟩
  | .local _ .vmem, ⟨4, _⟩ => ⟨S1024x1, .i32⟩
  | .local _ .vmem, ⟨5, _⟩ => ⟨S1024x1, .i32⟩
  | .local _ .vmem, ⟨6, _⟩ => ⟨S1x2048, .i32⟩
  | .local _ .vmem, ⟨7, _⟩ => ⟨S1x2048, .i32⟩
  | .local _ .vmem, ⟨8, _⟩ => ⟨S1024x1, .i32⟩
  | .local _ .vmem, ⟨9, _⟩ => ⟨S1024x1, .i32⟩
  | .local _ .vmem, ⟨10, _⟩ => ⟨S1x2048, .i32⟩
  | .local _ .vmem, ⟨11, _⟩ => ⟨S1x2048, .i32⟩
  | .local _ .vmem, ⟨12, _⟩ => ⟨S1x8x128, .f32⟩
  | .local _ .vmem, ⟨13, _⟩ => ⟨S1x8x128, .f32⟩
  | .local _ .smem, ⟨0, _⟩ => ⟨S20, .i32⟩
  | .local _ .smem, ⟨1, _⟩ => ⟨S20, .i32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_1 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_c_2 : Ref sig .tc := ⟨.hbm, 20, rfl⟩
abbrev main_v8 : Ref sig .tc := ⟨.hbm, 21, rfl⟩
abbrev main_v9 : Ref sig .tc := ⟨.hbm, 22, rfl⟩
abbrev main_c_3 : Ref sig .tc := ⟨.hbm, 23, rfl⟩
abbrev main_call1_v0 : Ref sig .tc := ⟨.hbm, 24, rfl⟩
abbrev main_v10 : Ref sig .tc := ⟨.hbm, 25, rfl⟩
abbrev main_v11 : Ref sig .tc := ⟨.hbm, 26, rfl⟩
abbrev main_c_4 : Ref sig .tc := ⟨.hbm, 27, rfl⟩
abbrev main_call2_v0 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_5 : Ref sig .tc := ⟨.hbm, 36, rfl⟩
abbrev main_v19 : Ref sig .tc := ⟨.hbm, 37, rfl⟩
abbrev main_c_6 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_7 : Ref sig .tc := ⟨.hbm, 42, rfl⟩
abbrev main_call3_v0 : Ref sig .tc := ⟨.hbm, 43, rfl⟩
abbrev main_call3_v1 : Ref sig .tc := ⟨.hbm, 44, rfl⟩
abbrev main_v23 : Ref sig .tc := ⟨.hbm, 45, rfl⟩
abbrev main_c_8 : Ref sig .tc := ⟨.hbm, 46, rfl⟩
abbrev main_v24 : Ref sig .tc := ⟨.hbm, 47, rfl⟩
abbrev main_c_9 : Ref sig .tc := ⟨.hbm, 48, rfl⟩
abbrev main_v25 : Ref sig .tc := ⟨.hbm, 49, rfl⟩
abbrev main_v26 : Ref sig .tc := ⟨.hbm, 50, rfl⟩
abbrev main_c_10 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_c_11 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_c_12 : Ref sig .tc := ⟨.hbm, 61, rfl⟩
abbrev main_v35 : Ref sig .tc := ⟨.hbm, 62, rfl⟩
abbrev main_c_13 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_c_14 : Ref sig .tc := ⟨.hbm, 67, rfl⟩
abbrev main_call4_v0 : Ref sig .tc := ⟨.hbm, 68, rfl⟩
abbrev main_call4_v1 : Ref sig .tc := ⟨.hbm, 69, rfl⟩
abbrev main_call4_v2 : Ref sig .tc := ⟨.hbm, 70, rfl⟩
abbrev main_call4_v3 : Ref sig .tc := ⟨.hbm, 71, rfl⟩
abbrev main_call4_v4 : Ref sig .tc := ⟨.hbm, 72, rfl⟩
abbrev main_call4_v5 : Ref sig .tc := ⟨.hbm, 73, rfl⟩
abbrev main_call4_v6 : Ref sig .tc := ⟨.hbm, 74, rfl⟩
abbrev main_call4_v7 : Ref sig .tc := ⟨.hbm, 75, rfl⟩
abbrev main_call4_v8 : Ref sig .tc := ⟨.hbm, 76, rfl⟩
abbrev main_call4_c : Ref sig .tc := ⟨.hbm, 77, rfl⟩
abbrev main_call4_v9 : Ref sig .tc := ⟨.hbm, 78, rfl⟩
abbrev main_call4_v10 : Ref sig .tc := ⟨.hbm, 79, rfl⟩
abbrev main_call4_v11 : Ref sig .tc := ⟨.hbm, 80, rfl⟩
abbrev main_call4_c_0 : Ref sig .tc := ⟨.hbm, 81, rfl⟩
abbrev main_call4_v12 : Ref sig .tc := ⟨.hbm, 82, rfl⟩
abbrev main_call4_v13 : Ref sig .tc := ⟨.hbm, 83, rfl⟩
abbrev main_v39 : Ref sig .tc := ⟨.hbm, 84, rfl⟩
abbrev main_c_15 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_c_16 : Ref sig .tc := ⟨.hbm, 89, rfl⟩
abbrev main_call5_v0 : Ref sig .tc := ⟨.hbm, 90, rfl⟩
abbrev main_call5_v1 : Ref sig .tc := ⟨.hbm, 91, rfl⟩
abbrev main_call5_v2 : Ref sig .tc := ⟨.hbm, 92, rfl⟩
abbrev main_call5_v3 : Ref sig .tc := ⟨.hbm, 93, rfl⟩
abbrev main_call5_v4 : Ref sig .tc := ⟨.hbm, 94, rfl⟩
abbrev main_call5_v5 : Ref sig .tc := ⟨.hbm, 95, rfl⟩
abbrev main_call5_v6 : Ref sig .tc := ⟨.hbm, 96, rfl⟩
abbrev main_call5_v7 : Ref sig .tc := ⟨.hbm, 97, rfl⟩
abbrev main_call5_v8 : Ref sig .tc := ⟨.hbm, 98, rfl⟩
abbrev main_call5_c : Ref sig .tc := ⟨.hbm, 99, rfl⟩
abbrev main_call5_v9 : Ref sig .tc := ⟨.hbm, 100, rfl⟩
abbrev main_call5_v10 : Ref sig .tc := ⟨.hbm, 101, rfl⟩
abbrev main_call5_v11 : Ref sig .tc := ⟨.hbm, 102, rfl⟩
abbrev main_call5_c_0 : Ref sig .tc := ⟨.hbm, 103, rfl⟩
abbrev main_call5_v12 : Ref sig .tc := ⟨.hbm, 104, rfl⟩
abbrev main_call5_v13 : Ref sig .tc := ⟨.hbm, 105, rfl⟩
abbrev main_v43 : Ref sig .tc := ⟨.hbm, 106, rfl⟩
abbrev main_c_17 : Ref sig .tc := ⟨.hbm, 107, rfl⟩
abbrev main_v44 : Ref sig .tc := ⟨.hbm, 108, rfl⟩
abbrev main_v45 : Ref sig .tc := ⟨.hbm, 109, rfl⟩
abbrev main_c_18 : Ref sig .tc := ⟨.hbm, 110, rfl⟩
abbrev main_v46 : Ref sig .tc := ⟨.hbm, 111, rfl⟩
abbrev main_c_19 : Ref sig .tc := ⟨.hbm, 112, rfl⟩
abbrev main_v47 : Ref sig .tc := ⟨.hbm, 113, rfl⟩
abbrev main_v48 : Ref sig .tc := ⟨.hbm, 114, rfl⟩
abbrev main_cst_20 : Ref sig .tc := ⟨.hbm, 115, rfl⟩
abbrev main_v49 : Ref sig .tc := ⟨.hbm, 116, rfl⟩
abbrev main_v50 : Ref sig .tc := ⟨.hbm, 117, rfl⟩
abbrev main_cst_21 : Ref sig .tc := ⟨.hbm, 118, rfl⟩
abbrev main_call6_v0 : Ref sig .tc := ⟨.hbm, 119, rfl⟩
abbrev main_v51 : Ref sig .tc := ⟨.hbm, 120, rfl⟩
abbrev main_c_22 : Ref sig .tc := ⟨.hbm, 121, rfl⟩
abbrev main_v52 : Ref sig .tc := ⟨.hbm, 122, rfl⟩
abbrev main_v53 : Ref sig .tc := ⟨.hbm, 123, rfl⟩
abbrev main_c_23 : Ref sig .tc := ⟨.hbm, 124, rfl⟩
abbrev main_v54 : Ref sig .tc := ⟨.hbm, 125, rfl⟩
abbrev main_v55 : Ref sig .tc := ⟨.hbm, 126, rfl⟩
abbrev main_v56 : Ref sig .tc := ⟨.hbm, 127, rfl⟩
abbrev main_v57 : Ref sig .tc := ⟨.hbm, 128, rfl⟩
abbrev main_v58 : Ref sig .tc := ⟨.hbm, 129, rfl⟩
abbrev main_c_24 : Ref sig .tc := ⟨.hbm, 130, rfl⟩
abbrev main_v59 : Ref sig .tc := ⟨.hbm, 131, rfl⟩
abbrev main_v60 : Ref sig .tc := ⟨.hbm, 132, rfl⟩
abbrev main_c_25 : Ref sig .tc := ⟨.hbm, 133, rfl⟩
abbrev main_v61 : Ref sig .tc := ⟨.hbm, 134, rfl⟩
abbrev main_v62 : Ref sig .tc := ⟨.hbm, 135, rfl⟩
abbrev main_v63 : Ref sig .tc := ⟨.hbm, 136, rfl⟩
abbrev main_v64 : Ref sig .tc := ⟨.hbm, 137, rfl⟩
abbrev main_v65 : Ref sig .tc := ⟨.hbm, 138, rfl⟩
abbrev main_c_26 : Ref sig .tc := ⟨.hbm, 139, rfl⟩
abbrev main_v66 : Ref sig .tc := ⟨.hbm, 140, rfl⟩
abbrev main_v67 : Ref sig .tc := ⟨.hbm, 141, rfl⟩
abbrev main_c_27 : Ref sig .tc := ⟨.hbm, 142, rfl⟩
abbrev main_v68 : Ref sig .tc := ⟨.hbm, 143, rfl⟩
abbrev main_v69 : Ref sig .tc := ⟨.hbm, 144, rfl⟩
abbrev main_v70 : Ref sig .tc := ⟨.hbm, 145, rfl⟩
abbrev main_v71 : Ref sig .tc := ⟨.hbm, 146, rfl⟩
abbrev main_v72 : Ref sig .tc := ⟨.hbm, 147, rfl⟩
abbrev main_v73 : Ref sig .tc := ⟨.hbm, 148, rfl⟩
abbrev main_v74 : Ref sig .tc := ⟨.hbm, 149, rfl⟩
abbrev main_c_28 : Ref sig .tc := ⟨.hbm, 150, rfl⟩
abbrev main_v75 : Ref sig .tc := ⟨.hbm, 151, rfl⟩
abbrev main_v76 : Ref sig .tc := ⟨.hbm, 152, rfl⟩
abbrev main_c_29 : Ref sig .tc := ⟨.hbm, 153, rfl⟩
abbrev main_v77 : Ref sig .tc := ⟨.hbm, 154, rfl⟩
abbrev main_v78 : Ref sig .tc := ⟨.hbm, 155, rfl⟩
abbrev main_v79 : Ref sig .tc := ⟨.hbm, 156, rfl⟩
abbrev main_v80 : Ref sig .tc := ⟨.hbm, 157, rfl⟩
abbrev main_v81 : Ref sig .tc := ⟨.hbm, 158, rfl⟩
abbrev main_v82 : Ref sig .tc := ⟨.hbm, 159, rfl⟩
abbrev main_v83 : Ref sig .tc := ⟨.hbm, 160, rfl⟩
abbrev main_c_30 : Ref sig .tc := ⟨.hbm, 161, rfl⟩
abbrev main_v84 : Ref sig .tc := ⟨.hbm, 162, rfl⟩
abbrev main_v85 : Ref sig .tc := ⟨.hbm, 163, rfl⟩
abbrev main_c_31 : Ref sig .tc := ⟨.hbm, 164, rfl⟩
abbrev main_v86 : Ref sig .tc := ⟨.hbm, 165, rfl⟩
abbrev main_v87 : Ref sig .tc := ⟨.hbm, 166, rfl⟩
abbrev main_v88 : Ref sig .tc := ⟨.hbm, 167, rfl⟩
abbrev main_v89 : Ref sig .tc := ⟨.hbm, 168, rfl⟩
abbrev main_v90 : Ref sig .tc := ⟨.hbm, 169, rfl⟩
abbrev main_c_32 : Ref sig .tc := ⟨.hbm, 170, rfl⟩
abbrev main_v91 : Ref sig .tc := ⟨.hbm, 171, rfl⟩
abbrev main_v92 : Ref sig .tc := ⟨.hbm, 172, rfl⟩
abbrev main_c_33 : Ref sig .tc := ⟨.hbm, 173, rfl⟩
abbrev main_v93 : Ref sig .tc := ⟨.hbm, 174, rfl⟩
abbrev main_v94 : Ref sig .tc := ⟨.hbm, 175, rfl⟩
abbrev main_v95 : Ref sig .tc := ⟨.hbm, 176, rfl⟩
abbrev main_v96 : Ref sig .tc := ⟨.hbm, 177, rfl⟩
abbrev main_v97 : Ref sig .tc := ⟨.hbm, 178, rfl⟩
abbrev main_v98 : Ref sig .tc := ⟨.hbm, 179, rfl⟩
abbrev main_c_34 : Ref sig .tc := ⟨.hbm, 180, rfl⟩
abbrev main_v99 : Ref sig .tc := ⟨.hbm, 181, rfl⟩
abbrev main_v100 : Ref sig .tc := ⟨.hbm, 182, rfl⟩
abbrev main_c_35 : Ref sig .tc := ⟨.hbm, 183, rfl⟩
abbrev main_v101 : Ref sig .tc := ⟨.hbm, 184, rfl⟩
abbrev main_v102 : Ref sig .tc := ⟨.hbm, 185, rfl⟩
abbrev main_v103 : Ref sig .tc := ⟨.hbm, 186, rfl⟩
abbrev main_v104 : Ref sig .tc := ⟨.hbm, 187, rfl⟩
abbrev main_v105 : Ref sig .tc := ⟨.hbm, 188, rfl⟩
abbrev main_c_36 : Ref sig .tc := ⟨.hbm, 189, rfl⟩
abbrev main_v106 : Ref sig .tc := ⟨.hbm, 190, rfl⟩
abbrev main_v107 : Ref sig .tc := ⟨.hbm, 191, rfl⟩
abbrev main_c_37 : Ref sig .tc := ⟨.hbm, 192, rfl⟩
abbrev main_v108 : Ref sig .tc := ⟨.hbm, 193, rfl⟩
abbrev main_v109 : Ref sig .tc := ⟨.hbm, 194, rfl⟩
abbrev main_v110 : Ref sig .tc := ⟨.hbm, 195, rfl⟩
abbrev main_v111 : Ref sig .tc := ⟨.hbm, 196, rfl⟩
abbrev main_v112 : Ref sig .tc := ⟨.hbm, 197, rfl⟩
abbrev main_v113 : Ref sig .tc := ⟨.hbm, 198, rfl⟩
abbrev main_v114 : Ref sig .tc := ⟨.hbm, 199, rfl⟩
abbrev main_c_38 : Ref sig .tc := ⟨.hbm, 200, rfl⟩
abbrev main_v115 : Ref sig .tc := ⟨.hbm, 201, rfl⟩
abbrev main_v116 : Ref sig .tc := ⟨.hbm, 202, rfl⟩
abbrev main_c_39 : Ref sig .tc := ⟨.hbm, 203, rfl⟩
abbrev main_v117 : Ref sig .tc := ⟨.hbm, 204, rfl⟩
abbrev main_v118 : Ref sig .tc := ⟨.hbm, 205, rfl⟩
abbrev main_v119 : Ref sig .tc := ⟨.hbm, 206, rfl⟩
abbrev main_v120 : Ref sig .tc := ⟨.hbm, 207, rfl⟩
abbrev main_v121 : Ref sig .tc := ⟨.hbm, 208, rfl⟩
abbrev main_c_40 : Ref sig .tc := ⟨.hbm, 209, rfl⟩
abbrev main_v122 : Ref sig .tc := ⟨.hbm, 210, rfl⟩
abbrev main_v123 : Ref sig .tc := ⟨.hbm, 211, rfl⟩
abbrev main_c_41 : Ref sig .tc := ⟨.hbm, 212, rfl⟩
abbrev main_v124 : Ref sig .tc := ⟨.hbm, 213, rfl⟩
abbrev main_v125 : Ref sig .tc := ⟨.hbm, 214, rfl⟩
abbrev main_c_42 : Ref sig .tc := ⟨.hbm, 215, rfl⟩
abbrev main_v126 : Ref sig .tc := ⟨.hbm, 216, rfl⟩
abbrev main_v127 : Ref sig .tc := ⟨.hbm, 217, rfl⟩
abbrev main_v128 : Ref sig .tc := ⟨.hbm, 218, rfl⟩
abbrev main_v129 : Ref sig .tc := ⟨.hbm, 219, rfl⟩
abbrev main_v130 : Ref sig .tc := ⟨.hbm, 220, rfl⟩
abbrev main_c_43 : Ref sig .tc := ⟨.hbm, 221, rfl⟩
abbrev main_v131 : Ref sig .tc := ⟨.hbm, 222, rfl⟩
abbrev main_v132 : Ref sig .tc := ⟨.hbm, 223, rfl⟩
abbrev main_v133 : Ref sig .tc := ⟨.hbm, 224, rfl⟩
abbrev main_v134 : Ref sig .tc := ⟨.hbm, 225, rfl⟩
abbrev main_v135 : Ref sig .tc := ⟨.hbm, 226, rfl⟩
abbrev main_cst_44 : Ref sig .tc := ⟨.hbm, 227, rfl⟩
abbrev main_v136 : Ref sig .tc := ⟨.hbm, 228, rfl⟩
abbrev main_cst_45 : Ref sig .tc := ⟨.hbm, 229, rfl⟩
abbrev main_v137 : Ref sig .tc := ⟨.hbm, 230, rfl⟩
abbrev main_v138 : Ref sig .tc := ⟨.hbm, 231, rfl⟩
abbrev main_cst_46 : Ref sig .tc := ⟨.hbm, 232, rfl⟩
abbrev main_v139 : Ref sig .tc := ⟨.hbm, 233, rfl⟩
abbrev main_v140 : Ref sig .tc := ⟨.hbm, 234, rfl⟩
abbrev main_v141 : Ref sig .tc := ⟨.hbm, 235, rfl⟩
abbrev main_c_47 : Ref sig .tc := ⟨.hbm, 236, rfl⟩
abbrev main_v142 : Ref sig .tc := ⟨.hbm, 237, rfl⟩
abbrev main_cst_48 : Ref sig .tc := ⟨.hbm, 238, rfl⟩
abbrev main_call7_v0 : Ref sig .tc := ⟨.hbm, 239, rfl⟩
abbrev main_call7_v1 : Ref sig .tc := ⟨.hbm, 240, rfl⟩
abbrev main_v143 : Ref sig .tc := ⟨.hbm, 241, rfl⟩
abbrev main_cst_49 : Ref sig .tc := ⟨.hbm, 242, rfl⟩
abbrev main_v144 : Ref sig .tc := ⟨.hbm, 243, rfl⟩
abbrev main_c_50 : Ref sig .tc := ⟨.hbm, 244, rfl⟩
abbrev main_v145 : Ref sig .tc := ⟨.hbm, 245, rfl⟩
abbrev main_c_51 : Ref sig .tc := ⟨.hbm, 246, rfl⟩
abbrev main_v146 : Ref sig .tc := ⟨.hbm, 247, rfl⟩
abbrev main_v147 : Ref sig .tc := ⟨.hbm, 248, rfl⟩
abbrev main_v148 : Ref sig .tc := ⟨.hbm, 249, rfl⟩
abbrev main_cst_52 : Ref sig .tc := ⟨.hbm, 250, rfl⟩
abbrev main_call8_v0 : Ref sig .tc := ⟨.hbm, 251, rfl⟩
abbrev main_v149 : Ref sig .tc := ⟨.hbm, 252, rfl⟩
abbrev main_v150 : Ref sig .tc := ⟨.hbm, 253, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![20], ![false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S20.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S20) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S20.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S20) ![v0.toNat] S1.size (k0_off1_inb i)) numel1_S1
  let c0_i32 : BitVec 32 := 0#32
  let c0_i32_0 : BitVec 32 := 0#32
  ![v1.toNat, c0_i32.toNat]

def cc0_transform_2 (k0_off1_inb : ∀ i : grid0.Coords, ∀ a, (k0_off1 i) a + S1.size a ≤ S20.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S20) ![v0.toNat] S1.size (k0_off1_inb i)) numel1_S1
  let c0_i32 : BitVec 32 := 0#32
  let c0_i32_0 : BitVec 32 := 0#32
  ![v1.toNat, c0_i32.toNat]

def cc0_transform_3 (k0_off1_inb : ∀ i : grid0.Coords, ∀ a, (k0_off1 i) a + S1.size a ≤ S20.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S20) ![v0.toNat] S1.size (k0_off1_inb i)) numel1_S1
  let c0_i32 : BitVec 32 := 0#32
  let c0_i32_0 : BitVec 32 := 0#32
  ![c0_i32.toNat, v1.toNat]

def cc0_transform_4 (k0_off1_inb : ∀ i : grid0.Coords, ∀ a, (k0_off1 i) a + S1.size a ≤ S20.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 0 (Rect.unit (s := S20) ![v0.toNat] S1.size (k0_off1_inb i)) numel1_S1
  let c0_i32 : BitVec 32 := 0#32
  let c0_i32_0 : BitVec 32 := 0#32
  ![v1.toNat, c0_i32.toNat]

def cc0_transform_5 (k0_off1_inb : ∀ i : grid0.Coords, ∀ a, (k0_off1 i) a + S1.size a ≤ S20.size a) (numel1_S1 : S1.numel = 1) (pf : pre0.Contents (Elt F)) (i : grid0.Coords) : Fin 2 → Nat :=
  let arg0 : BitVec 32 := BitVec.ofNat 32 (i 0).val
  let v0 : Index := Scalar.indexCast arg0
  let v1 : BitVec 32 := pf.at 1 (Rect.unit (s := S20) ![v0.toNat] S1.size (k0_off1_inb i)) numel1_S1
  let c0_i32 : BitVec 32 := 0#32
  let c0_i32_0 : BitVec 32 := 0#32
  ![c0_i32.toNat, v1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  bitsLt_bf16_f32 : FTy.bits .bf16 < FTy.bits .f32
  bcast_S_S8192 : S_.BroadcastsInDim S8192 (![] : Fin 0 → Fin S8192.rank)
  shapeCasts_S8192_S8192x1 : S8192.ShapeCasts S8192x1
  shapeCasts_S8192_S1x8192 : S8192.ShapeCasts S1x8192
  numel1_S1 : S1.numel = 1
  iota_S1024x1_d0_w32 : S1024x1.Iotas .tc 32 [0]
  iota_S1x2048_d1_w32 : S1x2048.Iotas .tc 32 [1]
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1024x1_S1024x2048 : S1024x1.Broadcasts S1024x2048
  broadcasts_S1x2048_S1024x2048 : S1x2048.Broadcasts S1024x2048
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  reduces_S1024x2048_S1024 : S1024x2048.Reduces [1] S1024
  shapeCasts_S1024_S1024x1 : S1024.ShapeCasts S1024x1
  reduces_S1024x1_S1 : S1024x1.Reduces [0] S1
  shapeCasts_S1_S1x1 : S1.ShapeCasts S1x1
  shapeCasts_S1x1_S1x1 : S1x1.ShapeCasts S1x1
  broadcasts_S1x1_S8x128 : S1x1.Broadcasts S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S20x8x128_S20x1x1_0_0_0 : S20x8x128.Slices ![0, 0, 0] S20x1x1
  shapeCasts_S20x1x1_S20 : S20x1x1.ShapeCasts S20
  reducesTo_S20_S_d0 : S20.ReducesTo [0] S_
  bcast_S_S8193 : S_.BroadcastsInDim S8193 (![] : Fin 0 → Fin S8193.rank)
  slices_S8193_S8192_0 : S8193.Slices ![0] S8192
  shapeCasts_S8192_S512x16 : S8192.ShapeCasts S512x16
  reducesTo_S512x16_S512_d1 : S512x16.ReducesTo [1] S512
  bcast_S_S512 : S_.BroadcastsInDim S512 (![] : Fin 0 → Fin S512.rank)
  bcast_S_S512x16 : S_.BroadcastsInDim S512x16 (![] : Fin 0 → Fin S512x16.rank)
  reducesTo_S512_S_d0 : S512.ReducesTo [0] S_
  bcast_S_S5000 : S_.BroadcastsInDim S5000 (![] : Fin 0 → Fin S5000.rank)
  bcast_S5000_S5000x1_0 : S5000.BroadcastsInDim S5000x1 (![0] : Fin 1 → Fin S5000x1.rank)
  bcast_S5000x1_S5000x512_0_1 : S5000x1.BroadcastsInDim S5000x512 (![0, 1] : Fin 2 → Fin S5000x512.rank)
  reducesTo_S5000x512_S5000_d1 : S5000x512.ReducesTo [1] S5000
  natLt_1_32 : 1 < 32
  reducesTo_S5000_S_d0 : S5000.ReducesTo [0] S_
  dot_S1024x512_S2048x512_S1024x2048_1_1_0_0_n_n_wf : DotDims.WF S1024x512 S2048x512 S1024x2048 [1] [1] [0] [0] [] []
  scatter_S8193_S8192x1_S8192_n_0_0_1_wf : ScatterDims.WF S8193 S8192x1 S8192 [] [0] [0] 1
  gather_S8192x512_S5000x1_S5000x512_1_0_n_n_0_1_1512_wf : GatherDims.WF S8192x512 S5000x1 S5000x512 [1] [0] [] [0] [] 1 ![1, 512]
  gather_S8192x1_S5000x1_S5000x1_1_0_n_n_0_1_11_wf : GatherDims.WF S8192x1 S5000x1 S5000x1 [1] [0] [] [0] [] 1 ![1, 1]
  gather_S8192_S5000x1_S5000_n_0_n_n_0_1_1_wf : GatherDims.WF S8192 S5000x1 S5000 [] [0] [] [0] [] 1 ![1]
  hrank0 : 0 < grid0.rank
  k0_off1_inb : ∀ i : grid0.Coords, ∀ a, (k0_off1 i) a + S1.size a ≤ S20.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'
  hstage0_4 : ∀ j, (stage0_4 j).IsWhole
  nbuf0_4 : grid0.bufCount reads0_4 false = 2
  hreads0_4 : ∀ {F : FTy → Type} [FloatOps F] (pf : pre0.Contents (Elt F)) (i i' : grid0.Coords), (∀ a, reads0_4 a = true → i a = i' a) → cc0_transform_4 k0_off1_inb numel1_S1 pf i = cc0_transform_4 k0_off1_inb numel1_S1 pf i'
  hstage0_5 : ∀ j, (stage0_5 j).IsWhole
  nbuf0_5 : grid0.bufCount reads0_5 false = 2
  hreads0_5 : ∀ {F : FTy → Type} [FloatOps F] (pf : pre0.Contents (Elt F)) (i i' : grid0.Coords), (∀ a, reads0_5 a = true → i a = i' a) → cc0_transform_5 k0_off1_inb numel1_S1 pf i = cc0_transform_5 k0_off1_inb numel1_S1 pf i'
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x128.size a ≤ S20x8x128.size a
  hwx0_6 : ∀ i : grid0.Coords, EltTy.bits .f32 = 32 ∨ (Rect.block (s := S20x8x128) S1x8x128.size (cc0_transform_6 i) (hinb0_6 i)).WholeWords (EltTy.packing .f32)

variable [Facts₀]

def dot_S1024x512_S2048x512_S1024x2048_1_1_0_0_n_n : DotDims S1024x512 S2048x512 S1024x2048 where
  lhsContracting := [1]
  rhsContracting := [1]
  lhsNonContracting := [0]
  rhsNonContracting := [0]
  lhsBatch := []
  rhsBatch := []
  wf := dot_S1024x512_S2048x512_S1024x2048_1_1_0_0_n_n_wf
def scatter_S8193_S8192x1_S8192_n_0_0_1 : ScatterDims S8193 S8192x1 S8192 where
  updateWindowDims := []
  insertedWindowDims := [0]
  scatterDimsToOperandDims := [0]
  indexVectorDim := 1
  wf := scatter_S8193_S8192x1_S8192_n_0_0_1_wf
def gather_S8192x512_S5000x1_S5000x512_1_0_n_n_0_1_1512 : GatherDims S8192x512 S5000x1 S5000x512 where
  offsetDims := [1]
  collapsedSliceDims := [0]
  operandBatchingDims := []
  startIndicesBatchingDims := []
  startIndexMap := [0]
  indexVectorDim := 1
  sliceSizes := ![1, 512]
  wf := gather_S8192x512_S5000x1_S5000x512_1_0_n_n_0_1_1512_wf
def gather_S8192x1_S5000x1_S5000x1_1_0_n_n_0_1_11 : GatherDims S8192x1 S5000x1 S5000x1 where
  offsetDims := [1]
  collapsedSliceDims := [0]
  operandBatchingDims := []
  startIndicesBatchingDims := []
  startIndexMap := [0]
  indexVectorDim := 1
  sliceSizes := ![1, 1]
  wf := gather_S8192x1_S5000x1_S5000x1_1_0_n_n_0_1_11_wf
def gather_S8192_S5000x1_S5000_n_0_n_n_0_1_1 : GatherDims S8192 S5000x1 S5000 where
  offsetDims := []
  collapsedSliceDims := [0]
  operandBatchingDims := []
  startIndicesBatchingDims := []
  startIndexMap := [0]
  indexVectorDim := 1
  sliceSizes := ![1]
  wf := gather_S8192_S5000x1_S5000_n_0_n_n_0_1_1_wf

abbrev spec0_0 : Pipeline.WinSpec sig grid0.rank :=
  Pipeline.WinSpec.ofSpec (Memref.whole main_v7) S1024x512.size reads0_0 false false 2 stage0_0 sem0_0 nbuf0_0 hstage0_0

abbrev spec0_1 : Pipeline.WinSpec sig grid0.rank :=
  Pipeline.WinSpec.ofSpec (Memref.whole main_v7) S2048x512.size reads0_1 false false 2 stage0_1 sem0_1 nbuf0_1 hstage0_1

abbrev spec0_2 : Pipeline.WinSpec sig grid0.rank :=
  Pipeline.WinSpec.ofSpec (Memref.whole main_v11) S1024x1.size reads0_2 false false 2 stage0_2 sem0_2 nbuf0_2 hstage0_2

abbrev spec0_3 : Pipeline.WinSpec sig grid0.rank :=
  Pipeline.WinSpec.ofSpec (Memref.whole main_v13) S1x2048.size reads0_3 false false 2 stage0_3 sem0_3 nbuf0_3 hstage0_3

abbrev spec0_4 : Pipeline.WinSpec sig grid0.rank :=
  Pipeline.WinSpec.ofSpec (Memref.whole main_v14) S1024x1.size reads0_4 false false 2 stage0_4 sem0_4 nbuf0_4 hstage0_4

abbrev spec0_5 : Pipeline.WinSpec sig grid0.rank :=
  Pipeline.WinSpec.ofSpec (Memref.whole main_v15) S1x2048.size reads0_5 false false 2 stage0_5 sem0_5 nbuf0_5 hstage0_5

abbrev spec0_6 : Pipeline.WinSpec sig grid0.rank :=
  Pipeline.WinSpec.ofSpec (Memref.whole main_v16) S1x8x128.size reads0_6 true false 2 stage0_6 sem0_6 nbuf0_6 hstage0_6

abbrev spec0 : Fin 7 → Pipeline.WinSpec sig grid0.rank := fun | 0 => spec0_0 | 1 => spec0_1 | 2 => spec0_2 | 3 => spec0_3 | 4 => spec0_4 | 5 => spec0_5 | 6 => spec0_6 | ⟨_ + 7, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | ⟨_ + 7, h⟩ => absurd h (Nat.not_lt.2 (Nat.le_add_left _ _))
abbrev ix0 (pf : pre0.Contents (Elt F)) : (w : Fin 7) → grid0.Coords → Fin (spec0 w).shape.rank → Nat := fun | 0 => cc0_transform_0 k0_off1_inb numel1_S1 pf | 1 => cc0_transform_1 k0_off1_inb numel1_S1 pf | 2 => cc0_transform_2 k0_off1_inb numel1_S1 pf | 3 => cc0_transform_3 k0_off1_inb numel1_S1 pf | 4 => cc0_transform_4 k0_off1_inb numel1_S1 pf | 5 => cc0_transform_5 k0_off1_inb numel1_S1 pf | 6 => cc0_transform_6 | ⟨_ + 7, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 pf | 3 => hreads0_3 pf | 4 => hreads0_4 pf | 5 => hreads0_5 pf | 6 => hreads0_6 | ⟨_ + 7, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1024x512.size a ≤ S8192x512.size a), EltTy.bits .bf16 = 32 ∨ (Rect.block (s := S8192x512) S1024x512.size (cc0_transform_0 k0_off1_inb numel1_S1 pf i) h).WholeWords (EltTy.packing .bf16)) ∧
  (∀ i : grid0.Coords, ∃ h : (∀ a, (cc0_transform_1 k0_off1_inb numel1_S1 pf i a + 1) * S2048x512.size a ≤ S8192x512.size a), EltTy.bits .bf16 = 32 ∨ (Rect.block (s := S8192x512) S2048x512.size (cc0_transform_1 k0_off1_inb numel1_S1 pf i) h).WholeWords (EltTy.packing .bf16)) ∧
  (∀ i : grid0.Coords, ∃ h : (∀ a, (cc0_transform_2 k0_off1_inb numel1_S1 pf i a + 1) * S1024x1.size a ≤ S8192x1.size a), EltTy.bits .i32 = 32 ∨ (Rect.block (s := S8192x1) S1024x1.size (cc0_transform_2 k0_off1_inb numel1_S1 pf i) h).WholeWords (EltTy.packing .i32)) ∧
  (∀ i : grid0.Coords, ∃ h : (∀ a, (cc0_transform_3 k0_off1_inb numel1_S1 pf i a + 1) * S1x2048.size a ≤ S1x8192.size a), EltTy.bits .i32 = 32 ∨ (Rect.block (s := S1x8192) S1x2048.size (cc0_transform_3 k0_off1_inb numel1_S1 pf i) h).WholeWords (EltTy.packing .i32)) ∧
  (∀ i : grid0.Coords, ∃ h : (∀ a, (cc0_transform_4 k0_off1_inb numel1_S1 pf i a + 1) * S1024x1.size a ≤ S8192x1.size a), EltTy.bits .i32 = 32 ∨ (Rect.block (s := S8192x1) S1024x1.size (cc0_transform_4 k0_off1_inb numel1_S1 pf i) h).WholeWords (EltTy.packing .i32)) ∧
  (∀ i : grid0.Coords, ∃ h : (∀ a, (cc0_transform_5 k0_off1_inb numel1_S1 pf i a + 1) * S1x2048.size a ≤ S1x8192.size a), EltTy.bits .i32 = 32 ∨ (Rect.block (s := S1x8192) S1x2048.size (cc0_transform_5 k0_off1_inb numel1_S1 pf i) h).WholeWords (EltTy.packing .i32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2.1 i).elim fun h _ => h a | 4 => fun i a => (hok.2.2.2.2.1 i).elim fun h _ => h a | 5 => fun i a => (hok.2.2.2.2.2 i).elim fun h _ => h a | 6 => hinb0_6 | ⟨_ + 7, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2.1 i).elim fun _ h => h | 2 => fun i => (hok.2.2.1 i).elim fun _ h => h | 3 => fun i => (hok.2.2.2.1 i).elim fun _ h => h | 4 => fun i => (hok.2.2.2.2.1 i).elim fun _ h => h | 5 => fun i => (hok.2.2.2.2.2 i).elim fun _ h => h | 6 => hwx0_6 | ⟨_ + 7, h⟩ => absurd h (Nat.not_lt.2 (Nat.le_add_left _ _))

class Facts : Prop extends Facts₀ where
  harr0 : ∀ w, (spec0 w).arr.IsWhole

variable [Facts]
-- ==== ReferenceIdeal.lean ====
abbrev S8192x512 : Shape := ⟨2, ![8192, 512]⟩
abbrev S8192 : Shape := ⟨1, ![8192]⟩
abbrev S5000 : Shape := ⟨1, ![5000]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S512x8192 : Shape := ⟨2, ![512, 8192]⟩
abbrev S5000x1 : Shape := ⟨2, ![5000, 1]⟩
abbrev S5000x512 : Shape := ⟨2, ![5000, 512]⟩

abbrev nBuf : Space → Nat
  | .hbm => 177
  | .vmem => 0
  | .smem => 0
  | _ => 0

abbrev hbmTy0_0 (i : Nat) : BufTy := match i % 128 with
  | 0 => ⟨S8192x512, .f32⟩
  | 1 => ⟨S8192, .i32⟩
  | 2 => ⟨S8192, .i32⟩
  | 3 => ⟨S8192, .i32⟩
  | 4 => ⟨S5000, .i32⟩
  | 5 => ⟨S5000, .i32⟩
  | 6 => ⟨S8192x512, .f32⟩
  | 7 => ⟨S_, .f32⟩
  | 8 => ⟨S8192, .f32⟩
  | 9 => ⟨S8192x1, .f32⟩
  | 10 => ⟨S8192x1, .f32⟩
  | 11 => ⟨S_, .f32⟩
  | 12 => ⟨S8192x1, .f32⟩
  | 13 => ⟨S8192x1, .f32⟩
  | 14 => ⟨S8192x512, .f32⟩
  | 15 => ⟨S8192x512, .f32⟩
  | 16 => ⟨S_, .i32⟩
  | 17 => ⟨S8192, .i32⟩
  | 18 => ⟨S8192, .i1⟩
  | 19 => ⟨S8192, .i32⟩
  | 20 => ⟨S8192x1, .i32⟩
  | 21 => ⟨S1x8192, .i32⟩
  | 22 => ⟨S8192x8192, .i32⟩
  | 23 => ⟨S8192x8192, .i32⟩
  | 24 => ⟨S8192x8192, .i1⟩
  | 25 => ⟨S8192x1, .i32⟩
  | 26 => ⟨S1x8192, .i32⟩
  | 27 => ⟨S8192x8192, .i32⟩
  | 28 => ⟨S8192x8192, .i32⟩
  | 29 => ⟨S8192x8192, .i1⟩
  | 30 => ⟨S8192x1, .i32⟩
  | 31 => ⟨S1x8192, .i32⟩
  | 32 => ⟨S8192x8192, .i32⟩
  | 33 => ⟨S8192x8192, .i32⟩
  | 34 => ⟨S8192x8192, .i1⟩
  | 35 => ⟨S8192x8192, .i1⟩
  | 36 => ⟨S8192x8192, .i1⟩
  | 37 => ⟨S8192x1, .i1⟩
  | 38 => ⟨S8192x8192, .i1⟩
  | 39 => ⟨S8192x8192, .i1⟩
  | 40 => ⟨S1x8192, .i1⟩
  | 41 => ⟨S8192x8192, .i1⟩
  | 42 => ⟨S8192x8192, .i1⟩
  | 43 => ⟨S512x8192, .f32⟩
  | 44 => ⟨S8192x8192, .f32⟩
  | 45 => ⟨S8192x8192, .i32⟩
  | 46 => ⟨S_, .i32⟩
  | 47 => ⟨S_, .i32⟩
  | 48 => ⟨S_, .f32⟩
  | 49 => ⟨S8192x8192, .f32⟩
  | 50 => ⟨S8192x8192, .f32⟩
  | 51 => ⟨S_, .f32⟩
  | 52 => ⟨S_, .f32⟩
  | 53 => ⟨S8192x8192, .f32⟩
  | 54 => ⟨S8192x8192, .f32⟩
  | 55 => ⟨S_, .f32⟩
  | 56 => ⟨S_, .f32⟩
  | 57 => ⟨S_, .i32⟩
  | 58 => ⟨S_, .i1⟩
  | 59 => ⟨S_, .i32⟩
  | 60 => ⟨S_, .i32⟩
  | 61 => ⟨S_, .f32⟩
  | 62 => ⟨S_, .f32⟩
  | 63 => ⟨S_, .f32⟩
  | 64 => ⟨S_, .f32⟩
  | 65 => ⟨S_, .f32⟩
  | 66 => ⟨S_, .i32⟩
  | 67 => ⟨S5000, .i32⟩
  | 68 => ⟨S5000, .i1⟩
  | 69 => ⟨S_, .i32⟩
  | 70 => ⟨S5000, .i32⟩
  | 71 => ⟨S5000, .i32⟩
  | 72 => ⟨S5000, .i32⟩
  | 73 => ⟨S5000x1, .i32⟩
  | 74 => ⟨S5000, .i32⟩
  | 75 => ⟨S_, .i32⟩
  | 76 => ⟨S5000, .i32⟩
  | 77 => ⟨S5000, .i1⟩
  | 78 => ⟨S_, .i32⟩
  | 79 => ⟨S5000, .i32⟩
  | 80 => ⟨S5000, .i32⟩
  | 81 => ⟨S5000, .i32⟩
  | 82 => ⟨S5000x1, .i32⟩
  | 83 => ⟨S5000, .i32⟩
  | 84 => ⟨S5000, .i1⟩
  | 85 => ⟨S_, .i32⟩
  | 86 => ⟨S5000, .i32⟩
  | 87 => ⟨S5000, .i1⟩
  | 88 => ⟨S_, .i32⟩
  | 89 => ⟨S5000, .i32⟩
  | 90 => ⟨S5000, .i32⟩
  | 91 => ⟨S5000, .i32⟩
  | 92 => ⟨S5000x1, .i32⟩
  | 93 => ⟨S5000, .i32⟩
  | 94 => ⟨S_, .i32⟩
  | 95 => ⟨S5000, .i32⟩
  | 96 => ⟨S5000, .i1⟩
  | 97 => ⟨S_, .i32⟩
  | 98 => ⟨S5000, .i32⟩
  | 99 => ⟨S5000, .i32⟩
  | 100 => ⟨S5000, .i32⟩
  | 101 => ⟨S5000x1, .i32⟩
  | 102 => ⟨S5000, .i32⟩
  | 103 => ⟨S5000, .i1⟩
  | 104 => ⟨S5000, .i1⟩
  | 105 => ⟨S_, .i32⟩
  | 106 => ⟨S5000, .i32⟩
  | 107 => ⟨S5000, .i1⟩
  | 108 => ⟨S_, .i32⟩
  | 109 => ⟨S5000, .i32⟩
  | 110 => ⟨S5000, .i32⟩
  | 111 => ⟨S5000, .i32⟩
  | 112 => ⟨S5000x1, .i32⟩
  | 113 => ⟨S5000, .i32⟩
  | 114 => ⟨S_, .i32⟩
  | 115 => ⟨S5000, .i32⟩
  | 116 => ⟨S5000, .i1⟩
  | 117 => ⟨S_, .i32⟩
  | 118 => ⟨S5000, .i32⟩
  | 119 => ⟨S5000, .i1⟩
  | 120 => ⟨S_, .i32⟩
  | 121 => ⟨S5000, .i32⟩
  | 122 => ⟨S5000, .i32⟩
  | 123 => ⟨S5000, .i32⟩
  | 124 => ⟨S5000x1, .i32⟩
  | 125 => ⟨S5000, .i32⟩
  | 126 => ⟨S_, .i32⟩
  | 127 => ⟨S5000, .i32⟩
  | _ => ⟨S8192x512, .f32⟩

abbrev hbmTy0_1 (i : Nat) : BufTy := match i % 128 with
  | 0 => ⟨S5000, .i1⟩
  | 1 => ⟨S5000, .i1⟩
  | 2 => ⟨S5000, .i1⟩
  | 3 => ⟨S_, .i32⟩
  | 4 => ⟨S5000, .i32⟩
  | 5 => ⟨S5000, .i1⟩
  | 6 => ⟨S_, .i32⟩
  | 7 => ⟨S5000, .i32⟩
  | 8 => ⟨S5000, .i32⟩
  | 9 => ⟨S5000, .i32⟩
  | 10 => ⟨S5000x1, .i32⟩
  | 11 => ⟨S5000x512, .f32⟩
  | 12 => ⟨S_, .i32⟩
  | 13 => ⟨S5000, .i32⟩
  | 14 => ⟨S5000, .i1⟩
  | 15 => ⟨S_, .i32⟩
  | 16 => ⟨S5000, .i32⟩
  | 17 => ⟨S5000, .i32⟩
  | 18 => ⟨S5000, .i32⟩
  | 19 => ⟨S5000x1, .i32⟩
  | 20 => ⟨S5000x512, .f32⟩
  | 21 => ⟨S5000x512, .f32⟩
  | 22 => ⟨S_, .f32⟩
  | 23 => ⟨S5000, .f32⟩
  | 24 => ⟨S_, .f32⟩
  | 25 => ⟨S5000, .f32⟩
  | 26 => ⟨S5000, .f32⟩
  | 27 => ⟨S_, .f32⟩
  | 28 => ⟨S5000, .f32⟩
  | 29 => ⟨S5000, .f32⟩
  | 30 => ⟨S5000, .i32⟩
  | 31 => ⟨S_, .i32⟩
  | 32 => ⟨S_, .i32⟩
  | 33 => ⟨S_, .f32⟩
  | 34 => ⟨S_, .f32⟩
  | 35 => ⟨S5000, .f32⟩
  | 36 => ⟨S5000, .f32⟩
  | 37 => ⟨S_, .f32⟩
  | 38 => ⟨S_, .f32⟩
  | 39 => ⟨S_, .i32⟩
  | 40 => ⟨S_, .i1⟩
  | 41 => ⟨S_, .i32⟩
  | 42 => ⟨S_, .i32⟩
  | 43 => ⟨S_, .f32⟩
  | 44 => ⟨S_, .f32⟩
  | 45 => ⟨S_, .f32⟩
  | 46 => ⟨S_, .f32⟩
  | 47 => ⟨S_, .f32⟩
  | 48 => ⟨S_, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_0 : Ref sig .tc := ⟨.hbm, 46, rfl⟩
abbrev main_v34 : Ref sig .tc := ⟨.hbm, 47, rfl⟩
abbrev main_cst_1 : Ref sig .tc := ⟨.hbm, 48, rfl⟩
abbrev main_v35 : Ref sig .tc := ⟨.hbm, 49, rfl⟩
abbrev main_v36 : Ref sig .tc := ⟨.hbm, 50, rfl⟩
abbrev main_cst_2 : Ref sig .tc := ⟨.hbm, 51, rfl⟩
abbrev main_call1_v0 : Ref sig .tc := ⟨.hbm, 52, rfl⟩
abbrev main_call1_v1 : Ref sig .tc := ⟨.hbm, 53, rfl⟩
abbrev main_v37 : Ref sig .tc := ⟨.hbm, 54, rfl⟩
abbrev main_cst_3 : Ref sig .tc := ⟨.hbm, 55, rfl⟩
abbrev main_v38 : Ref sig .tc := ⟨.hbm, 56, rfl⟩
abbrev main_c_4 : Ref sig .tc := ⟨.hbm, 57, rfl⟩
abbrev main_v39 : Ref sig .tc := ⟨.hbm, 58, rfl⟩
abbrev main_c_5 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_6 : Ref sig .tc := ⟨.hbm, 63, rfl⟩
abbrev main_call2_v0 : Ref sig .tc := ⟨.hbm, 64, rfl⟩
abbrev main_v43 : Ref sig .tc := ⟨.hbm, 65, rfl⟩
abbrev main_c_7 : Ref sig .tc := ⟨.hbm, 66, rfl⟩
abbrev main_v44 : Ref sig .tc := ⟨.hbm, 67, rfl⟩
abbrev main_v45 : Ref sig .tc := ⟨.hbm, 68, rfl⟩
abbrev main_c_8 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_c_9 : Ref sig .tc := ⟨.hbm, 75, rfl⟩
abbrev main_v51 : Ref sig .tc := ⟨.hbm, 76, rfl⟩
abbrev main_v52 : Ref sig .tc := ⟨.hbm, 77, rfl⟩
abbrev main_c_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_c_11 : Ref sig .tc := ⟨.hbm, 85, rfl⟩
abbrev main_v59 : Ref sig .tc := ⟨.hbm, 86, rfl⟩
abbrev main_v60 : Ref sig .tc := ⟨.hbm, 87, rfl⟩
abbrev main_c_12 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_c_13 : Ref sig .tc := ⟨.hbm, 94, rfl⟩
abbrev main_v66 : Ref sig .tc := ⟨.hbm, 95, rfl⟩
abbrev main_v67 : Ref sig .tc := ⟨.hbm, 96, rfl⟩
abbrev main_c_14 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_c_15 : Ref sig .tc := ⟨.hbm, 105, rfl⟩
abbrev main_v75 : Ref sig .tc := ⟨.hbm, 106, rfl⟩
abbrev main_v76 : Ref sig .tc := ⟨.hbm, 107, rfl⟩
abbrev main_c_16 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_c_17 : Ref sig .tc := ⟨.hbm, 114, rfl⟩
abbrev main_v82 : Ref sig .tc := ⟨.hbm, 115, rfl⟩
abbrev main_v83 : Ref sig .tc := ⟨.hbm, 116, rfl⟩
abbrev main_c_18 : Ref sig .tc := ⟨.hbm, 117, rfl⟩
abbrev main_v84 : Ref sig .tc := ⟨.hbm, 118, rfl⟩
abbrev main_v85 : Ref sig .tc := ⟨.hbm, 119, rfl⟩
abbrev main_c_19 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_c_20 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_c_21 : Ref sig .tc := ⟨.hbm, 131, rfl⟩
abbrev main_v95 : Ref sig .tc := ⟨.hbm, 132, rfl⟩
abbrev main_v96 : Ref sig .tc := ⟨.hbm, 133, rfl⟩
abbrev main_c_22 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_c_23 : Ref sig .tc := ⟨.hbm, 140, rfl⟩
abbrev main_v102 : Ref sig .tc := ⟨.hbm, 141, rfl⟩
abbrev main_v103 : Ref sig .tc := ⟨.hbm, 142, rfl⟩
abbrev main_c_24 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_cst_25 : Ref sig .tc := ⟨.hbm, 150, rfl⟩
abbrev main_v110 : Ref sig .tc := ⟨.hbm, 151, rfl⟩
abbrev main_cst_26 : Ref sig .tc := ⟨.hbm, 152, rfl⟩
abbrev main_v111 : Ref sig .tc := ⟨.hbm, 153, rfl⟩
abbrev main_v112 : Ref sig .tc := ⟨.hbm, 154, rfl⟩
abbrev main_cst_27 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_c_28 : Ref sig .tc := ⟨.hbm, 159, rfl⟩
abbrev main_v116 : Ref sig .tc := ⟨.hbm, 160, rfl⟩
abbrev main_cst_29 : Ref sig .tc := ⟨.hbm, 161, rfl⟩
abbrev main_call3_v0 : Ref sig .tc := ⟨.hbm, 162, rfl⟩
abbrev main_call3_v1 : Ref sig .tc := ⟨.hbm, 163, rfl⟩
abbrev main_v117 : Ref sig .tc := ⟨.hbm, 164, rfl⟩
abbrev main_cst_30 : Ref sig .tc := ⟨.hbm, 165, rfl⟩
abbrev main_v118 : Ref sig .tc := ⟨.hbm, 166, rfl⟩
abbrev main_c_31 : Ref sig .tc := ⟨.hbm, 167, rfl⟩
abbrev main_v119 : Ref sig .tc := ⟨.hbm, 168, rfl⟩
abbrev main_c_32 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_cst_33 : Ref sig .tc := ⟨.hbm, 173, rfl⟩
abbrev main_call4_v0 : Ref sig .tc := ⟨.hbm, 174, rfl⟩
abbrev main_v123 : Ref sig .tc := ⟨.hbm, 175, rfl⟩
abbrev main_v124 : Ref sig .tc := ⟨.hbm, 176, rfl⟩

abbrev nD : Nat := 1
abbrev τ : Topo := Topo.v7x

variable {F : FTy → Type} [FloatOps F]

class Facts₀ : Prop where
  reducesTo_S8192x512_S8192_d1 : S8192x512.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x512_0_1 : S8192x1.BroadcastsInDim S8192x512 (![0, 1] : Fin 2 → Fin S8192x512.rank)
  bcast_S_S8192 : S_.BroadcastsInDim S8192 (![] : Fin 0 → Fin S8192.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x512_S512x8192_1_0 : S8192x512.Transposes [1, 0] S512x8192
  natLt_1_32 : 1 < 32
  reducesTo_S8192x8192_S_d0_1 : S8192x8192.ReducesTo [0, 1] S_
  bcast_S_S8192x8192 : S_.BroadcastsInDim S8192x8192 (![] : Fin 0 → Fin S8192x8192.rank)
  bcast_S_S5000 : S_.BroadcastsInDim S5000 (![] : Fin 0 → Fin S5000.rank)
  bcast_S5000_S5000x1_0 : S5000.BroadcastsInDim S5000x1 (![0] : Fin 1 → Fin S5000x1.rank)
  reducesTo_S5000x512_S5000_d1 : S5000x512.ReducesTo [1] S5000
  reducesTo_S5000_S_d0 : S5000.ReducesTo [0] S_
  dot_S8192x512_S512x8192_S8192x8192_1_0_0_1_n_n_wf : DotDims.WF S8192x512 S512x8192 S8192x8192 [1] [0] [0] [1] [] []
  gather_S8192_S5000x1_S5000_n_0_n_n_0_1_1_wf : GatherDims.WF S8192 S5000x1 S5000 [] [0] [] [0] [] 1 ![1]
  gather_S8192x512_S5000x1_S5000x512_1_0_n_n_0_1_1512_wf : GatherDims.WF S8192x512 S5000x1 S5000x512 [1] [0] [] [0] [] 1 ![1, 512]

variable [Facts₀]

def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf
def gather_S8192_S5000x1_S5000_n_0_n_n_0_1_1 : GatherDims S8192 S5000x1 S5000 where
  offsetDims := []
  collapsedSliceDims := [0]
  operandBatchingDims := []
  startIndicesBatchingDims := []
  startIndexMap := [0]
  indexVectorDim := 1
  sliceSizes := ![1]
  wf := gather_S8192_S5000x1_S5000_n_0_n_n_0_1_1_wf
def gather_S8192x512_S5000x1_S5000x512_1_0_n_n_0_1_1512 : GatherDims S8192x512 S5000x1 S5000x512 where
  offsetDims := [1]
  collapsedSliceDims := [0]
  operandBatchingDims := []
  startIndicesBatchingDims := []
  startIndexMap := [0]
  indexVectorDim := 1
  sliceSizes := ![1, 512]
  wf := gather_S8192x512_S5000x1_S5000x512_1_0_n_n_0_1_1512_wf

class Facts : Prop extends Facts₀ where

variable [Facts]
-- ==== Proof.ValsK.lean ====
import proofs.«407225_j55808805044518_3_alg».proof.Proof.Gen.Kernel.Launch
import Idealize.ShloMosaic.Lib.StableHlo.Run

noncomputable section

namespace Cert.Kernel.Hand

open Idealize.ShloMosaic Idealize.ShloMosaic.TcCoe Idealize.SL.Sem
open Cert.Kernel Cert.Kernel.Gen

variable {F : FTy → Type} [FloatOps F]
variable (m : (ℓ : Loc nD τ sig) → Buf (Elt F) ℓ)

abbrev Out : Type := (c : Dev nD) → Buf (Elt F) ((c : Thread nD τ).loc main_v16)

variable (out : Out (F := F))

abbrev V0 (c : Dev nD) : Valuation τ sig (Elt F) := fun b => m (c, b)

abbrev V1 (c : Dev nD) : Valuation τ sig (Elt F) := StableHlo.after hostOps0 (V0 m c)

abbrev V2 (c : Dev nD) : Valuation τ sig (Elt F) := StableHlo.after hostOps0_1 (V1 m c)

abbrev V3 (c : Dev nD) : Valuation τ sig (Elt F) := StableHlo.after hostOps0_2 (V2 m c)

abbrev V4 (c : Dev nD) : Valuation τ sig (Elt F) := StableHlo.after hostOps0_3 (V3 m c)

abbrev V5 (c : Dev nD) : Valuation τ sig (Elt F) := StableHlo.after hostOps0_4 (V4 m c)

abbrev V6 (c : Dev nD) : Valuation τ sig (Elt F) := StableHlo.after hostOps0_5 (V5 m c)

abbrev V7 (c : Dev nD) : Valuation τ sig (Elt F) := StableHlo.after hostOps0_6 (V6 m c)

abbrev V8 (c : Dev nD) : Valuation τ sig (Elt F) := Function.update (V7 m c) (Proc.devRef .tc main_v16) (out c)

abbrev V9 (c : Dev nD) : Valuation τ sig (Elt F) := StableHlo.after hostOps1 (V8 m out c)

abbrev V10 (c : Dev nD) : Valuation τ sig (Elt F) := StableHlo.after hostOps1_1 (V9 m out c)

abbrev V11 (c : Dev nD) : Valuation τ sig (Elt F) := StableHlo.after hostOps1_2 (V10 m out c)

abbrev V12 (c : Dev nD) : Valuation τ sig (Elt F) := StableHlo.after hostOps1_3 (V11 m out c)

abbrev V13 (c : Dev nD) : Valuation τ sig (Elt F) := StableHlo.after hostOps1_4 (V12 m out c)

abbrev V14 (c : Dev nD) : Valuation τ sig (Elt F) := StableHlo.after hostOps1_5 (V13 m out c)

abbrev V15 (c : Dev nD) : Valuation τ sig (Elt F) := StableHlo.after hostOps1_6 (V14 m out c)

abbrev V16 (c : Dev nD) : Valuation τ sig (Elt F) := StableHlo.after hostOps1_7 (V15 m out c)

abbrev V17 (c : Dev nD) : Valuation τ sig (Elt F) := StableHlo.after hostOps1_8 (V16 m out c)

abbrev V18 (c : Dev nD) : Valuation τ sig (Elt F) := StableHlo.after hostOps1_9 (V17 m out c)

abbrev V19 (c : Dev nD) : Valuation τ sig (Elt F) := StableHlo.after hostOps1_10 (V18 m out c)

abbrev V20 (c : Dev nD) : Valuation τ sig (Elt F) := StableHlo.after hostOps1_11 (V19 m out c)

abbrev V21 (c : Dev nD) : Valuation τ sig (Elt F) := StableHlo.after hostOps1_12 (V20 m out c)

end Cert.Kernel.Hand

end
-- ==== Proof.RefStage.lean ====
import Idealize.ShloMosaic.Lib.StableHlo.Run

/-! A line of host operations, each writing one reference of a list, read piece by piece. -/

noncomputable section

namespace Cert.RefStage

open Idealize.ShloMosaic Idealize.ShloMosaic.StableHlo

variable {τ : Topo} {sig : RefSig} {Val : EltTy → Type}

abbrev WritesAt (ops : List (HloOp τ sig Val)) (W : List (Ref sig .tc)) : Prop :=
  List.Forall₂ (fun op y => op.fresh = ∅ ∧ op.writes = {Proc.devRef (τ := τ) .tc y}) ops W

theorem WritesAt.fresh {ops : List (HloOp τ sig Val)} {W : List (Ref sig .tc)} (h : WritesAt ops W) :
    ∀ op ∈ ops, op.fresh = ∅ := by
  intro op hop
  induction h with
  | nil => cases hop
  | cons hab _ ih =>
    rcases List.mem_cons.mp hop with rfl | hop
    · exact hab.1
    · exact ih hop

theorem WritesAt.writes {ops : List (HloOp τ sig Val)} {W : List (Ref sig .tc)} (h : WritesAt ops W) :
    ops.Forall fun op => op.writes ⊆ (W.map (Proc.devRef (τ := τ) .tc)).toFinset := by
  rw [List.forall_iff_forall_mem]
  intro op hop
  induction h with
  | nil => cases hop
  | cons hab _ ih =>
    rcases List.mem_cons.mp hop with rfl | hop
    · rw [hab.2, Finset.singleton_subset_iff, List.mem_toFinset]
      exact List.mem_map_of_mem List.mem_cons_self
    · intro d hd
      have := ih hop hd
      rw [List.mem_toFinset] at this ⊢
      rw [List.map_cons]
      exact List.mem_cons_of_mem _ this

theorem WritesAt.carry {ops : List (HloOp τ sig Val)} {W : List (Ref sig .tc)} (h : WritesAt ops W)
    (V : Valuation τ sig Val) {r : Ref sig .tc} (hr : r ∉ W) :
    after ops V (Proc.devRef .tc r) = V (Proc.devRef .tc r) :=
  after_of_writes_sub ops V h.writes hr

theorem after_app : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

/-- The contents after the first `k` pieces of a line given piece by piece. -/
def afterPieces (piece : ℕ → List (HloOp τ sig Val)) (V : Valuation τ sig Val) : ℕ → Valuation τ sig Val
  | 0 => V
  | k + 1 => after (piece k) (afterPieces piece V k)

/-- A reference that pieces `j` up to `k` do not write holds after `k` pieces what it held after `j`. -/
theorem afterPieces_stable {piece : ℕ → List (HloOp τ sig Val)} {W : ℕ → List (Ref sig .tc)}
    (h : ∀ k, WritesAt (piece k) (W k)) (V : Valuation τ sig Val) {r : Ref sig .tc} {j k : ℕ} (hjk : j ≤ k)
    (hr : ∀ i, i < k → j ≤ i → r ∉ W i) :
    afterPieces piece V k (Proc.devRef .tc r) = afterPieces piece V j (Proc.devRef .tc r) := by
  induction k, hjk using Nat.le_induction with
  | base => rfl
  | succ k hjk ih =>
    exact ((h k).carry _ (hr k (Nat.lt_succ_self k) hjk)).trans (ih fun i hik hji => hr i (Nat.lt_succ_of_lt hik) hji)

/-- The fold over the first `n` pieces one after the other is the contents after `n` pieces. -/
theorem after_appends (piece : ℕ → List (HloOp τ sig Val)) (V : Valuation τ sig Val) :
    ∀ n, after ((List.range n).map piece).flatten V = afterPieces piece V n
  | 0 => rfl
  | n + 1 => by
    rw [List.range_succ, List.map_append, List.flatten_append, after_app, after_appends piece V n]
    simp only [List.map_cons, List.map_nil, List.flatten_cons, List.flatten_nil, List.append_nil]
    rfl

theorem appends_fresh {piece : ℕ → List (HloOp τ sig Val)} {W : ℕ → List (Ref sig .tc)} (h : ∀ k, WritesAt (piece k) (W k)) (n : ℕ) :
    ∀ op ∈ ((List.range n).map piece).flatten, op.fresh = ∅ := by
  intro op hop
  obtain ⟨l, hl, hop⟩ := List.mem_flatten.1 hop
  obtain ⟨k, _, rfl⟩ := List.mem_map.1 hl
  exact (h k).fresh op hop

theorem appends_forall {piece : ℕ → List (HloOp τ sig Val)} {p : HloOp τ sig Val → Prop} (h : ∀ k, (piece k).Forall p) (n : ℕ) :
    (((List.range n).map piece).flatten).Forall p := by
  rw [List.forall_iff_forall_mem]
  intro op hop
  obtain ⟨l, hl, hop⟩ := List.mem_flatten.1 hop
  obtain ⟨k, _, rfl⟩ := List.mem_map.1 hl
  exact List.forall_iff_forall_mem.1 (h k) op hop

end Cert.RefStage

end
-- ==== Proof.WritesK.lean ====
import proofs.«407225_j55808805044518_3_alg».proof.Proof.ValsK
import proofs.«407225_j55808805044518_3_alg».proof.Proof.RefStage

/-! What the host stretches of the main function write, and what each item leaves unchanged. -/

noncomputable section

namespace Cert.Kernel.Hand

open Idealize.ShloMosaic Idealize.ShloMosaic.TcCoe Idealize.SL.Sem
open Cert.Kernel Cert.Kernel.Gen Cert.RefStage

variable {F : FTy → Type} [FloatOps F]

abbrev hostOps0_W : List (Ref sig .tc) := [ main_c, main_c_0 ]
theorem hostOps0_at : WritesAt (hostOps0 : List (HloOp τ sig (Elt F))) hostOps0_W := by repeat' first | exact .nil | refine .cons ⟨rfl, rfl⟩ ?_
abbrev hostOps0_1_W : List (Ref sig .tc) := [ main_call0_v0, main_call0_cst, main_call0_v1, main_call0_v2, main_v0 ]
theorem hostOps0_1_at : WritesAt (hostOps0_1 : List (HloOp τ sig (Elt F))) hostOps0_1_W := by repeat' first | exact .nil | refine .cons ⟨rfl, rfl⟩ ?_
abbrev hostOps0_2_W : List (Ref sig .tc) := [ main_cst, main_v1, main_v2, main_cst_1, main_v3, main_v4, main_v5, main_v6, main_v7, main_c_2, main_v8, main_v9, main_c_3 ]
theorem hostOps0_2_at : WritesAt (hostOps0_2 : List (HloOp τ sig (Elt F))) hostOps0_2_W := by repeat' first | exact .nil | refine .cons ⟨rfl, rfl⟩ ?_
abbrev hostOps0_3_W : List (Ref sig .tc) := [ main_call1_v0, main_v10 ]
theorem hostOps0_3_at : WritesAt (hostOps0_3 : List (HloOp τ sig (Elt F))) hostOps0_3_W := by repeat' first | exact .nil | refine .cons ⟨rfl, rfl⟩ ?_
abbrev hostOps0_4_W : List (Ref sig .tc) := [ main_v11, main_c_4 ]
theorem hostOps0_4_at : WritesAt (hostOps0_4 : List (HloOp τ sig (Elt F))) hostOps0_4_W := by repeat' first | exact .nil | refine .cons ⟨rfl, rfl⟩ ?_
abbrev hostOps0_5_W : List (Ref sig .tc) := [ main_call2_v0, main_v12 ]
theorem hostOps0_5_at : WritesAt (hostOps0_5 : List (HloOp τ sig (Elt F))) hostOps0_5_W := by repeat' first | exact .nil | refine .cons ⟨rfl, rfl⟩ ?_
abbrev hostOps0_6_W : List (Ref sig .tc) := [ main_v13, main_v14, main_v15 ]
theorem hostOps0_6_at : WritesAt (hostOps0_6 : List (HloOp τ sig (Elt F))) hostOps0_6_W := by repeat' first | exact .nil | refine .cons ⟨rfl, rfl⟩ ?_
abbrev hostOps1_W : List (Ref sig .tc) := [ main_v17, main_v18, main_cst_5, main_v19, main_c_6, main_v20, main_v21, main_v22, main_c_7 ]
theorem hostOps1_at : WritesAt (hostOps1 : List (HloOp τ sig (Elt F))) hostOps1_W := by repeat' first | exact .nil | refine .cons ⟨rfl, rfl⟩ ?_
abbrev hostOps1_1_W : List (Ref sig .tc) := [ main_call3_v0, main_call3_v1, main_v23 ]
theorem hostOps1_1_at : WritesAt (hostOps1_1 : List (HloOp τ sig (Elt F))) hostOps1_1_W := by repeat' first | exact .nil | refine .cons ⟨rfl, rfl⟩ ?_
abbrev hostOps1_2_W : List (Ref sig .tc) := [ main_c_8, main_v24, main_c_9, main_v25, main_v26, main_c_10, main_v27, main_v28, main_v29, main_v30, main_c_11, main_v31, main_v32, main_v33, main_v34, main_c_12, main_v35, main_c_13, main_v36, main_v37, main_v38, main_c_14 ]
theorem hostOps1_2_at : WritesAt (hostOps1_2 : List (HloOp τ sig (Elt F))) hostOps1_2_W := by repeat' first | exact .nil | refine .cons ⟨rfl, rfl⟩ ?_
abbrev hostOps1_3_W : List (Ref sig .tc) := [ main_call4_v0, main_call4_v1, main_call4_v2, main_call4_v3, main_call4_v4, main_call4_v5, main_call4_v6, main_call4_v7, main_call4_v8, main_call4_c, main_call4_v9, main_call4_v10, main_call4_v11, main_call4_c_0, main_call4_v12, main_call4_v13, main_v39 ]
theorem hostOps1_3_at : WritesAt (hostOps1_3 : List (HloOp τ sig (Elt F))) hostOps1_3_W := by repeat' first | exact .nil | refine .cons ⟨rfl, rfl⟩ ?_
abbrev hostOps1_4_W : List (Ref sig .tc) := [ main_c_15, main_v40, main_v41, main_v42, main_c_16 ]
theorem hostOps1_4_at : WritesAt (hostOps1_4 : List (HloOp τ sig (Elt F))) hostOps1_4_W := by repeat' first | exact .nil | refine .cons ⟨rfl, rfl⟩ ?_
abbrev hostOps1_5_W : List (Ref sig .tc) := [ main_call5_v0, main_call5_v1, main_call5_v2, main_call5_v3, main_call5_v4, main_call5_v5, main_call5_v6, main_call5_v7, main_call5_v8, main_call5_c, main_call5_v9, main_call5_v10, main_call5_v11, main_call5_c_0, main_call5_v12, main_call5_v13, main_v43 ]
theorem hostOps1_5_at : WritesAt (hostOps1_5 : List (HloOp τ sig (Elt F))) hostOps1_5_W := by repeat' first | exact .nil | refine .cons ⟨rfl, rfl⟩ ?_
abbrev hostOps1_6_W : List (Ref sig .tc) := [ main_c_17, main_v44, main_v45, main_c_18, main_v46, main_c_19, main_v47, main_v48, main_cst_20, main_v49, main_v50, main_cst_21 ]
theorem hostOps1_6_at : WritesAt (hostOps1_6 : List (HloOp τ sig (Elt F))) hostOps1_6_W := by repeat' first | exact .nil | refine .cons ⟨rfl, rfl⟩ ?_
abbrev hostOps1_7_W : List (Ref sig .tc) := [ main_call6_v0, main_v51 ]
theorem hostOps1_7_at : WritesAt (hostOps1_7 : List (HloOp τ sig (Elt F))) hostOps1_7_W := by repeat' first | exact .nil | refine .cons ⟨rfl, rfl⟩ ?_
abbrev hostOps1_8_W : List (Ref sig .tc) := [ main_c_22, main_v52, main_v53, main_c_23, main_v54, main_v55, main_v56, main_v57, main_v58, main_c_24, main_v59, main_v60, main_c_25, main_v61, main_v62, main_v63, main_v64, main_v65, main_c_26, main_v66, main_v67, main_c_27, main_v68, main_v69, main_v70, main_v71, main_v72, main_v73, main_v74, main_c_28, main_v75, main_v76, main_c_29, main_v77, main_v78, main_v79, main_v80, main_v81, main_v82, main_v83, main_c_30, main_v84, main_v85, main_c_31, main_v86, main_v87, main_v88, main_v89, main_v90, main_c_32, main_v91, main_v92, main_c_33, main_v93, main_v94, main_v95, main_v96, main_v97, main_v98, main_c_34, main_v99, main_v100, main_c_35, main_v101, main_v102, main_v103, main_v104, main_v105, main_c_36, main_v106, main_v107, main_c_37, main_v108, main_v109, main_v110, main_v111, main_v112, main_v113, main_v114, main_c_38, main_v115, main_v116, main_c_39, main_v117, main_v118, main_v119, main_v120, main_v121, main_c_40, main_v122, main_v123, main_c_41, main_v124, main_v125, main_c_42, main_v126, main_v127, main_v128, main_v129, main_v130, main_c_43, main_v131, main_v132, main_v133, main_v134, main_v135, main_cst_44, main_v136, main_cst_45, main_v137, main_v138, main_cst_46, main_v139, main_v140, main_v141, main_c_47, main_v142, main_cst_48 ]
theorem hostOps1_8_at : WritesAt (hostOps1_8 : List (HloOp τ sig (Elt F))) hostOps1_8_W := by repeat' first | exact .nil | refine .cons ⟨rfl, rfl⟩ ?_
abbrev hostOps1_9_W : List (Ref sig .tc) := [ main_call7_v0, main_call7_v1, main_v143 ]
theorem hostOps1_9_at : WritesAt (hostOps1_9 : List (HloOp τ sig (Elt F))) hostOps1_9_W := by repeat' first | exact .nil | refine .cons ⟨rfl, rfl⟩ ?_
abbrev hostOps1_10_W : List (Ref sig .tc) := [ main_cst_49, main_v144, main_c_50, main_v145, main_c_51, main_v146, main_v147, main_v148, main_cst_52 ]
theorem hostOps1_10_at : WritesAt (hostOps1_10 : List (HloOp τ sig (Elt F))) hostOps1_10_W := by repeat' first | exact .nil | refine .cons ⟨rfl, rfl⟩ ?_
abbrev hostOps1_11_W : List (Ref sig .tc) := [ main_call8_v0, main_v149 ]
theorem hostOps1_11_at : WritesAt (hostOps1_11 : List (HloOp τ sig (Elt F))) hostOps1_11_W := by repeat' first | exact .nil | refine .cons ⟨rfl, rfl⟩ ?_
abbrev hostOps1_12_W : List (Ref sig .tc) := [ main_v150 ]
theorem hostOps1_12_at : WritesAt (hostOps1_12 : List (HloOp τ sig (Elt F))) hostOps1_12_W := by repeat' first | exact .nil | refine .cons ⟨rfl, rfl⟩ ?_

variable (m : (ℓ : Loc nD τ sig) → Buf (Elt F) ℓ) (out : Out (F := F))

theorem V1_of (c : Dev nD) (r : Ref sig .tc) (h : r ∉ hostOps0_W) : V1 m c r = V0 m c r := hostOps0_at.carry _ h
theorem V2_of (c : Dev nD) (r : Ref sig .tc) (h : r ∉ hostOps0_1_W) : V2 m c r = V1 m c r := hostOps0_1_at.carry _ h
theorem V3_of (c : Dev nD) (r : Ref sig .tc) (h : r ∉ hostOps0_2_W) : V3 m c r = V2 m c r := hostOps0_2_at.carry _ h
theorem V4_of (c : Dev nD) (r : Ref sig .tc) (h : r ∉ hostOps0_3_W) : V4 m c r = V3 m c r := hostOps0_3_at.carry _ h
theorem V5_of (c : Dev nD) (r : Ref sig .tc) (h : r ∉ hostOps0_4_W) : V5 m c r = V4 m c r := hostOps0_4_at.carry _ h
theorem V6_of (c : Dev nD) (r : Ref sig .tc) (h : r ∉ hostOps0_5_W) : V6 m c r = V5 m c r := hostOps0_5_at.carry _ h
theorem V7_of (c : Dev nD) (r : Ref sig .tc) (h : r ∉ hostOps0_6_W) : V7 m c r = V6 m c r := hostOps0_6_at.carry _ h
theorem V8_of (c : Dev nD) (r : Ref sig .tc) (h : r ≠ main_v16) : V8 m out c r = V7 m c r := by
  simp only [V8, Function.update_of_ne (StableHlo.devRef_ne_of_ne h : (Proc.devRef .tc r : DevRef τ sig) ≠ Proc.devRef .tc main_v16)]
theorem V9_of (c : Dev nD) (r : Ref sig .tc) (h : r ∉ hostOps1_W) : V9 m out c r = V8 m out c r := hostOps1_at.carry _ h
theorem V10_of (c : Dev nD) (r : Ref sig .tc) (h : r ∉ hostOps1_1_W) : V10 m out c r = V9 m out c r := hostOps1_1_at.carry _ h
theorem V11_of (c : Dev nD) (r : Ref sig .tc) (h : r ∉ hostOps1_2_W) : V11 m out c r = V10 m out c r := hostOps1_2_at.carry _ h
theorem V12_of (c : Dev nD) (r : Ref sig .tc) (h : r ∉ hostOps1_3_W) : V12 m out c r = V11 m out c r := hostOps1_3_at.carry _ h
theorem V13_of (c : Dev nD) (r : Ref sig .tc) (h : r ∉ hostOps1_4_W) : V13 m out c r = V12 m out c r := hostOps1_4_at.carry _ h
theorem V14_of (c : Dev nD) (r : Ref sig .tc) (h : r ∉ hostOps1_5_W) : V14 m out c r = V13 m out c r := hostOps1_5_at.carry _ h
theorem V15_of (c : Dev nD) (r : Ref sig .tc) (h : r ∉ hostOps1_6_W) : V15 m out c r = V14 m out c r := hostOps1_6_at.carry _ h
theorem V16_of (c : Dev nD) (r : Ref sig .tc) (h : r ∉ hostOps1_7_W) : V16 m out c r = V15 m out c r := hostOps1_7_at.carry _ h
theorem V17_of (c : Dev nD) (r : Ref sig .tc) (h : r ∉ hostOps1_8_W) : V17 m out c r = V16 m out c r := hostOps1_8_at.carry _ h
theorem V18_of (c : Dev nD) (r : Ref sig .tc) (h : r ∉ hostOps1_9_W) : V18 m out c r = V17 m out c r := hostOps1_9_at.carry _ h
theorem V19_of (c : Dev nD) (r : Ref sig .tc) (h : r ∉ hostOps1_10_W) : V19 m out c r = V18 m out c r := hostOps1_10_at.carry _ h
theorem V20_of (c : Dev nD) (r : Ref sig .tc) (h : r ∉ hostOps1_11_W) : V20 m out c r = V19 m out c r := hostOps1_11_at.carry _ h
theorem V21_of (c : Dev nD) (r : Ref sig .tc) (h : r ∉ hostOps1_12_W) : V21 m out c r = V20 m out c r := hostOps1_12_at.carry _ h

/-- The references item `i` of the main function writes (the kernel region writes its output array). -/
noncomputable def itemW : ℕ → List (Ref sig .tc)
  | 0 => hostOps0_W
  | 1 => hostOps0_1_W
  | 2 => hostOps0_2_W
  | 3 => hostOps0_3_W
  | 4 => hostOps0_4_W
  | 5 => hostOps0_5_W
  | 6 => hostOps0_6_W
  | 7 => [main_v16]
  | 8 => hostOps1_W
  | 9 => hostOps1_1_W
  | 10 => hostOps1_2_W
  | 11 => hostOps1_3_W
  | 12 => hostOps1_4_W
  | 13 => hostOps1_5_W
  | 14 => hostOps1_6_W
  | 15 => hostOps1_7_W
  | 16 => hostOps1_8_W
  | 17 => hostOps1_9_W
  | 18 => hostOps1_10_W
  | 19 => hostOps1_11_W
  | 20 => hostOps1_12_W
  | _ => []

/-- A reference no item writes holds at the end what it held at launch. -/
theorem V21_keep (c : Dev nD) (r : Ref sig .tc) (h : ∀ i, i < 21 → r ∉ itemW i) : V21 m out c r = m ((c : Thread nD τ).loc r) :=
  (V21_of m out c r (h 20 (by decide))).trans <|
  (V20_of m out c r (h 19 (by decide))).trans <|
  (V19_of m out c r (h 18 (by decide))).trans <|
  (V18_of m out c r (h 17 (by decide))).trans <|
  (V17_of m out c r (h 16 (by decide))).trans <|
  (V16_of m out c r (h 15 (by decide))).trans <|
  (V15_of m out c r (h 14 (by decide))).trans <|
  (V14_of m out c r (h 13 (by decide))).trans <|
  (V13_of m out c r (h 12 (by decide))).trans <|
  (V12_of m out c r (h 11 (by decide))).trans <|
  (V11_of m out c r (h 10 (by decide))).trans <|
  (V10_of m out c r (h 9 (by decide))).trans <|
  (V9_of m out c r (h 8 (by decide))).trans <|
  (V8_of m out c r fun e => h 7 (by decide) (List.mem_singleton.2 e)).trans <|
  (V7_of m c r (h 6 (by decide))).trans <|
  (V6_of m c r (h 5 (by decide))).trans <|
  (V5_of m c r (h 4 (by decide))).trans <|
  (V4_of m c r (h 3 (by decide))).trans <|
  (V3_of m c r (h 2 (by decide))).trans <|
  (V2_of m c r (h 1 (by decide))).trans <|
  (V1_of m c r (h 0 (by decide))).trans rfl

end Cert.Kernel.Hand

end
-- ==== Proof.HostRunK.lean ====
import proofs.«407225_j55808805044518_3_alg».proof.Proof.WritesK
import Idealize.ShloMosaic.Lib.Pipeline.Frame
import Idealize.ShloMosaic.Lib.Pipeline.Regions

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

section Segs

variable {Ix : Type} [DecidableEq Ix] {U : Type} [URA U] {Lvl : Type} [Preorder Lvl]
variable (𝒱₀ : Variants) (L : GSem nD τ sig → Finset Ix) (lv : GSem nD τ sig → Ix → Lvl)

def hostSeg (ops : List (HloOp τ sig (Elt F)))
    (hsub : ops.Forall fun op => op.bufs ⊆ StableHlo.tcRefs τ sig) (hfresh : ∀ op ∈ ops, op.fresh = ∅)
    (V : Dev nD → Valuation τ sig (Elt F)) (R : Dev nD → sProp (MT nD τ sig Ix (Elt F) ℕ U Lvl)) :
    HostSeg (Ix := Ix) (Name := ℕ) (U := U) (Lvl := Lvl) (pcfgs (F := F)) defs₀ 𝒱₀ L lv :=
  HostSeg.ofOps _ _ _ _ _ (Pipeline.ucRefs τ sig) ops
    (fun op h => Pipeline.sub_ucRefs op ((List.forall_iff_forall_mem.mp hsub) op h))
    hfresh V R

end Segs

section

variable {Ix : Type} [DecidableEq Ix] {U : Type} [URA U] {Lvl : Type} [Preorder Lvl]
variable (m : (ℓ : Loc nD τ sig) → Buf (Elt F) ℓ) (out : Out (F := F))

abbrev segs (𝒱₀ : Variants) (L : GSem nD τ sig → Finset Ix) (lv : GSem nD τ sig → Ix → Lvl)
    (E : Fin 2 → Dev nD → sProp (MT nD τ sig Ix (Elt F) ℕ U Lvl)) (ι : Ix)
    (adm : (p : Fin 1) → (pcfgs (F := F) p).Adm)
    (pdats : (p : Fin 1) → (c : Dev nD) → Dat τ (Elt F) Ix ℕ U Lvl (Pipeline.pin (pcfgs (F := F)) adm p) c)
    (R0 : RegionSeg (pcfgs (F := F)) adm pdats ι defs₀ 𝒱₀ L lv 0) :
    List (Seg (pcfgs (F := F)) adm pdats ι defs₀ 𝒱₀ L lv) :=
  [ .host (hostSeg 𝒱₀ L lv hostOps0 hostOps0_sub hostOps0_at.fresh (V0 m) (E 0)),
    .host (hostSeg 𝒱₀ L lv hostOps0_1 hostOps0_1_sub hostOps0_1_at.fresh (V1 m) (E 0)),
    .host (hostSeg 𝒱₀ L lv hostOps0_2 hostOps0_2_sub hostOps0_2_at.fresh (V2 m) (E 0)),
    .host (hostSeg 𝒱₀ L lv hostOps0_3 hostOps0_3_sub hostOps0_3_at.fresh (V3 m) (E 0)),
    .host (hostSeg 𝒱₀ L lv hostOps0_4 hostOps0_4_sub hostOps0_4_at.fresh (V4 m) (E 0)),
    .host (hostSeg 𝒱₀ L lv hostOps0_5 hostOps0_5_sub hostOps0_5_at.fresh (V5 m) (E 0)),
    .host (hostSeg 𝒱₀ L lv hostOps0_6 hostOps0_6_sub hostOps0_6_at.fresh (V6 m) (E 0)),
    .region R0,
    .host (hostSeg 𝒱₀ L lv hostOps1 hostOps1_sub hostOps1_at.fresh (V8 m out) (E 1)),
    .host (hostSeg 𝒱₀ L lv hostOps1_1 hostOps1_1_sub hostOps1_1_at.fresh (V9 m out) (E 1)),
    .host (hostSeg 𝒱₀ L lv hostOps1_2 hostOps1_2_sub hostOps1_2_at.fresh (V10 m out) (E 1)),
    .host (hostSeg 𝒱₀ L lv hostOps1_3 hostOps1_3_sub hostOps1_3_at.fresh (V11 m out) (E 1)),
    .host (hostSeg 𝒱₀ L lv hostOps1_4 hostOps1_4_sub hostOps1_4_at.fresh (V12 m out) (E 1)),
    .host (hostSeg 𝒱₀ L lv hostOps1_5 hostOps1_5_sub hostOps1_5_at.fresh (V13 m out) (E 1)),
    .host (hostSeg 𝒱₀ L lv hostOps1_6 hostOps1_6_sub hostOps1_6_at.fresh (V14 m out) (E 1)),
    .host (hostSeg 𝒱₀ L lv hostOps1_7 hostOps1_7_sub hostOps1_7_at.fresh (V15 m out) (E 1)),
    .host (hostSeg 𝒱₀ L lv hostOps1_8 hostOps1_8_sub hostOps1_8_at.fresh (V16 m out) (E 1)),
    .host (hostSeg 𝒱₀ L lv hostOps1_9 hostOps1_9_sub hostOps1_9_at.fresh (V17 m out) (E 1)),
    .host (hostSeg 𝒱₀ L lv hostOps1_10 hostOps1_10_sub hostOps1_10_at.fresh (V18 m out) (E 1)),
    .host (hostSeg 𝒱₀ L lv hostOps1_11 hostOps1_11_sub hostOps1_11_at.fresh (V19 m out) (E 1)),
    .host (hostSeg 𝒱₀ L lv hostOps1_12 hostOps1_12_sub hostOps1_12_at.fresh (V20 m out) (E 1)) ]

end

theorem segs_progs {Ix : Type} [DecidableEq Ix] {U : Type} [URA U] {Lvl : Type} [Preorder Lvl]
    (m : (ℓ : Loc nD τ sig) → Buf (Elt F) ℓ) (out : Out (F := F))
    (𝒱₀ : Variants) (L : GSem nD τ sig → Finset Ix) (lv : GSem nD τ sig → Ix → Lvl)
    (E : Fin 2 → Dev nD → sProp (MT nD τ sig Ix (Elt F) ℕ U Lvl)) (ι : Ix)
    (adm : (p : Fin 1) → (pcfgs (F := F) p).Adm)
    (pdats : (p : Fin 1) → (c : Dev nD) → Dat τ (Elt F) Ix ℕ U Lvl (Pipeline.pin (pcfgs (F := F)) adm p) c)
    (R0 : RegionSeg (pcfgs (F := F)) adm pdats ι defs₀ 𝒱₀ L lv 0) :
    (segs m out 𝒱₀ L lv E ι adm pdats R0).map Seg.prog =
      [ StableHlo.seq hostOps0, StableHlo.seq hostOps0_1, StableHlo.seq hostOps0_2, StableHlo.seq hostOps0_3,
        StableHlo.seq hostOps0_4, StableHlo.seq hostOps0_5, StableHlo.seq hostOps0_6,
        Prog.lift (.customCall (Pipeline.entry 0) ()),
        StableHlo.seq hostOps1, StableHlo.seq hostOps1_1, StableHlo.seq hostOps1_2, StableHlo.seq hostOps1_3,
        StableHlo.seq hostOps1_4, StableHlo.seq hostOps1_5, StableHlo.seq hostOps1_6, StableHlo.seq hostOps1_7,
        StableHlo.seq hostOps1_8, StableHlo.seq hostOps1_9, StableHlo.seq hostOps1_10, StableHlo.seq hostOps1_11,
        StableHlo.seq hostOps1_12 ] := rfl

section Ends

variable {Ix : Type} [DecidableEq Ix] {U : Type} [URA U] {Lvl : Type} [Preorder Lvl]

theorem entails_of_eq {M : Type} [URA M] {P Q : sProp M} (h : P = Q) : P ⊢ Q := h ▸ BI.Entails.refl P

theorem mem_ucRefs {b : Ref sig .tc} (hb : b.isScoped = false) : Proc.devRef (τ := τ) .tc b ∈ Pipeline.ucRefs τ sig :=
  Finset.mem_filter.mpr ⟨StableHlo.devRef_mem_tcRefs b, fun h => Bool.false_ne_true (hb.symm.trans h)⟩

theorem launch_deal (m : (ℓ : Loc nD τ sig) → Buf (Elt F) ℓ) (X : Dev nD → sProp (MT nD τ sig Ix (Elt F) ℕ U Lvl)) :
    (bigSep Finset.univ fun c : Dev nD => iprop(unscopedBufs c (fun b => m ((c.tc : Thread nD τ).loc b)) ∗ X c))
      ⊢ iprop((bigSep Finset.univ fun c : Dev nD => StableHlo.held (c : Thread nD τ) (Pipeline.ucRefs τ sig) (V0 m c))
          ∗ bigSep Finset.univ X) := by
  rw [← bigSep_sep']
  exact bigSep_mono fun c _ => BI.sep_mono
    (entails_of_eq (Pipeline.unscopedBufs_held (Ix := Ix) (Name := ℕ) (U := U) (Lvl := Lvl) c (V0 m c))) (BI.Entails.refl _)

theorem held_read (c : Dev nD) (V : Valuation τ sig (Elt F)) (s' : Phys nD τ sig (Elt F)) :
    (iprop(StableHlo.held (c : Thread nD τ) (Pipeline.ucRefs τ sig) V ∗ SI s') : sProp (MT nD τ sig Ix (Elt F) ℕ U Lvl))
      ⊢ iprop(⌜∀ b : Ref sig .tc, b.isScoped = false → s'.mem.mem ((c.tc : Thread nD τ).loc b) = V (Proc.devRef .tc b)⌝ ∗ SI s') :=
  (pointsTo_read_all (Pipeline.ucRefs τ sig) (fun b => ((c : Thread nD τ).1, b)) V s').trans <|
    BI.sep_mono (BI.pure_mono fun h b hb => h (Proc.devRef .tc b) (mem_ucRefs hb)) (BI.Entails.refl _)

end Ends

set_option backward.isDefEq.respectTransparency.types false in
set_option maxRecDepth 4096 in

theorem run_cond {Ix : Type} [DecidableEq Ix] {U : Type} [URA U] {Lvl : Type} [Preorder Lvl]
    (m : (ℓ : Loc nD τ sig) → Buf (Elt F) ℓ) (out : Out (F := F))
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg)
    (adm : (p : Fin 1) → (pcfgs (F := F) p).Adm)
    (pdats : (p : Fin 1) → (c : Dev nD) → Dat τ (Elt F) Ix ℕ U Lvl (Pipeline.pin (pcfgs (F := F)) adm p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells (Pipeline.pin (pcfgs (F := F)) adm) (cellOf_inj adm)) (Pipeline.launchToks (Pipeline.pin (pcfgs (F := F)) adm) (cellOf_inj adm)))) ∗ bigSep Finset.univ G))
    (E : Fin 2 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE1 : ∀ c : Dev nD, E 1 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V7 m c) ∗ E 0 c) ⊢ R0.pre c)
    (hpost0 : ∀ c : Dev nD, R0.post c ⊢ iprop(StableHlo.held (c : Thread nD τ) (Pipeline.ucRefs τ sig) (V8 m out c) ∗ E 1 c)) :
    θ_run defs (onTc (τ := τ) (main (F := F))) ⟨m, fun _ => 0, ρ⟩ (fun r => ∀ c : Dev nD, ∀ b : Ref sig .tc,
      b.isScoped = false → r.2.mem ((c.tc : Thread nD τ).loc b) = V21 m out c (Proc.devRef .tc b)) := by
  refine Pipeline.θ_run_regions_kit_dev (pcfgs (F := F)) adm pdats ι (cellOf_inj adm) EP defs₀ 𝒱₀ L lv m ρ main
    (fun _ => segs m out 𝒱₀ L lv E ι adm pdats R0) (fun c Q => ?_) (fun c => ?_) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V21 m out c))
    (hch := fun c => ?_) (hinit := ?_)
    (QY := fun c s => ∀ b : Ref sig .tc, b.isScoped = false → s.mem ((c.tc : Thread nD τ).loc b) = V21 m out c (Proc.devRef .tc b))
    (hfin := fun c s' => ?_) (hQ := fun _ h => h)
  ·

    rewrite [main_chain c, Seg.run_eq_chain, segs_progs]
    exact BI.Entails.refl _
  ·
    simp only [segs, Seg.pipes_host, Seg.pipes_region, Seg.pipes_nil]; decide
  ·

    have hrfl : ∀ P : sProp (MT nD τ sig Ix (Elt F) ℕ U Lvl), P ⊢ P := fun _ => .rfl
    exact ⟨hrfl _, hrfl _, hrfl _, hrfl _, hrfl _, hrfl _, hrfl _, hpre0 c, hpost0 c,
      hrfl _, hrfl _, hrfl _, hrfl _, hrfl _, hrfl _, hrfl _, hrfl _, hrfl _, hrfl _, hrfl _, hrfl _, sep_mono .rfl (hE1 c)⟩
  ·
    exact (BI.sep_mono (launch_deal m _) (BI.Entails.refl _)).trans <| BI.sep_assoc.trans <|
      (BI.sep_mono (BI.Entails.refl _) hE0).trans <| fupd_frame_left.trans <| fupd_mono <| entails_of_eq (bigSep_sep' _ _ _).symm
  ·
    exact (held_read c (V21 m out c) s').trans fupd_intro

end Cert.Kernel.Hand

end
-- ==== Proof.RunK.lean ====
import proofs.«407225_j55808805044518_3_alg».proof.Proof.HostRunK
import Idealize.ShloMosaic.Lib.Pipeline.Kit

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

local notation "𝕄" => MT nD τ sig Unit (Elt F) ℕ (UR sig nD τ) ℕ

local notation "owesNothing" c => (iprop(∃ W, owes ((c : Dev nD) : Thread nD τ) (0 : CellTallies nD τ sig Unit) W) : sProp 𝕄)

theorem launch_element (adm : (p : Fin 1) → (pcfgs (F := F) p).Adm) :
    (ownU (initOf (Pipeline.cells (Pipeline.pin (pcfgs (F := F)) adm) (cellOf_inj adm)) (Pipeline.launchToks (Pipeline.pin (pcfgs (F := F)) adm) (cellOf_inj adm))) : sProp 𝕄)
      ⊢ |={Set.univ}=> iprop(BI.own ((emb₁ : Emb (UR sig nD τ) 𝕄) (initOf (Pipeline.cells (Pipeline.pin (pcfgs (F := F)) adm) (cellOf_inj adm)) (Pipeline.launchToks (Pipeline.pin (pcfgs (F := F)) adm) (cellOf_inj adm))))
          ∗ bigSep Finset.univ fun _ : Dev nD => (BI.emp : sProp 𝕄)) := by
  rw [BI.bigSep_emp_const, ownU_emb₁]
  refine BI.Entails.trans BI.sep_emp_intro ?_
  exact fupd_intro (PROP := sProp 𝕄)

theorem launch_rest (ρ : Dev nD → PrngReg) :
    (iprop((bigSep Finset.univ fun c : Dev nD => iprop(unscopedSems0 c ∗ owes (c : Thread nD τ) ((0 : Dev nD → CellTallies nD τ sig Unit) c) ∅
          ∗ Pipeline.launchCred (0 : Dev nD → CellTallies nD τ sig Unit) c ∗ prngReg c (ρ c) ∗ (BI.emp : sProp 𝕄)))
        ∗ levAts (fun _ : GSem nD τ sig => (∅ : Finset Unit)) (fun _ _ => (0 : ℕ))) : sProp 𝕄)
      ⊢ |={Set.univ}=> bigSep Finset.univ fun c : Dev nD => owesNothing c := by
  refine Pipeline.initEach _ _ fun c => ?_
  iintro ⟨⟨-, HO, -⟩, -⟩
  imodintro
  iexists ∅
  iexact HO

theorem run_main_of (m : (ℓ : Loc nD τ sig) → Buf (Elt F) ℓ) (ρ : Dev nD → PrngReg)
    (adm : (p : Fin 1) → (pcfgs (F := F) p).Adm)
    (pdats : (p : Fin 1) → (c : Dev nD) → Dat τ (Elt F) Unit ℕ (UR sig nD τ) ℕ (Pipeline.pin (pcfgs (F := F)) adm p) c)
    (out : Out (F := F))
    (R0 : RegionSeg (pcfgs (F := F)) adm pdats () defs₀ Variants.none (fun _ : GSem nD τ sig => (∅ : Finset Unit)) (fun _ _ => (0 : ℕ)) 0)
    (hpre0 : ∀ c : Dev nD, iprop(StableHlo.held (c : Thread nD τ) (Pipeline.ucRefs τ sig) (V7 m c) ∗ owesNothing c) ⊢ R0.pre c)
    (hpost0 : ∀ c : Dev nD, R0.post c ⊢ iprop(StableHlo.held (c : Thread nD τ) (Pipeline.ucRefs τ sig) (V8 m out c) ∗ owesNothing c)) :
    θ_run defs (onTc (τ := τ) (main (F := F))) ⟨m, fun _ => 0, ρ⟩ (fun r => ∀ c : Dev nD, ∀ b : Ref sig .tc,
      b.isScoped = false → r.2.mem ((c.tc : Thread nD τ).loc b) = V21 m out c (Proc.devRef .tc b)) :=
  run_cond m out (emb₁ : Emb (UR sig nD τ) 𝕄) () Variants.none (fun _ => ∅) (fun _ _ => 0) (fun _ _ => rfl) ρ adm pdats
    (O₀ := 0) (G := fun _ => BI.emp)
    (u₀ := initOf (Pipeline.cells (Pipeline.pin (pcfgs (F := F)) adm) (cellOf_inj adm)) (Pipeline.launchToks (Pipeline.pin (pcfgs (F := F)) adm) (cellOf_inj adm)))
    (launch_element adm) (E := fun _ c => owesNothing c) (launch_rest ρ) (fun c => BI.Entails.refl _) R0 hpre0 hpost0

end Cert.Kernel.Hand

end
-- ==== Proof.BodyK.lean ====
import proofs.«407225_j55808805044518_3_alg».proof.Proof.Gen.Kernel.Skeleton
import Idealize.ShloMosaic.Lib.Tactic
import Idealize.ShloMosaic.Lib.Pipeline.Kit
import Idealize.ShloMosaic.Lib.Pipeline.Frame
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

abbrev tbA : Memref sig .tc .smem S20 .i32 := Memref.whole main_c
abbrev tbB : Memref sig .tc .smem S20 .i32 := Memref.whole main_c_0

abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (q : PosShare TreeShare) (f : TbBuf (F := F) c M) : sProp 𝕄 :=
  M.view.loc (c : Thread nD τ) ↦{q} f

def tblWord (x : Vec F S20 .i32) (i : grid0.Coords) : Elt F .i32 :=
  x ((Rect.unit (s := S20) (k0_off1 i) S1.size (Gen.k0_off1_inb i)).emb (Shape.Idx.first (Gen.numel1_S1.symm ▸ Nat.one_pos)))

def bodyVal (xa xb : Vec F S20 .i32) (i : grid0.Coords) (x3 : Vec F S1024x512 .bf16) (x4 : Vec F S2048x512 .bf16)
    (x5 : Vec F S1024x1 .i32) (x6 : Vec F S1x2048 .i32) (x7 : Vec F S1024x1 .i32) (x8 : Vec F S1x2048 .i32) : FVec F S1x8x128 .f32 :=
  k0_pay1 (k0_pay2 (tblWord xa i) (tblWord xb i) x5 x6 x7 x8 x3 x4)

theorem zeros2 : (![0, 0] : Fin 2 → ℕ) = fun _ => 0 := by funext a; fin_cases a <;> rfl
theorem zeros3 : (![0, 0, 0] : Fin 3 → ℕ) = fun _ => 0 := by funext a; fin_cases a <;> rfl

theorem readAt_whole2 {S : Shape} {e : EltTy} (M : Memref sig .tc .vmem S e) (hM : M.IsWhole) (X : S.Idx → Elt F e)
    {off : Fin S.rank → ℕ} (hz : off = fun _ => 0) (inb : ∀ a, off a + S.size a ≤ S.size a) :
    View.readAt (Elt F) M.view (Rect.unit off S.size inb).toLoadRect (hM.unread X) = X :=
  (show View.readAt (Elt F) M.view (Rect.unit off S.size inb).toLoadRect (hM.unread X)
      = View.ld (M.view.read (Elt F) (hM.unread X)) (Rect.unit off S.size inb) from rfl).trans
    (by rw [hM.read_unread]; exact View.ld_unit_zero hz inb X)

theorem read_store_unit_zero {S : Shape} {e : EltTy} {sp : Space} (v : View sig .tc sp S e) (f : v.ty.Contents (Elt F))
    {off : Fin S.rank → ℕ} (hz : off = fun _ => 0) (inb : ∀ a, off a + S.size a ≤ S.size a) (w : S.Idx → Elt F e) :
    v.read (Elt F) (v.writes (Elt F) f [⟨Rect.unit off S.size inb, w⟩]) = w := by
  subst hz; exact View.read_writes_whole v f w

theorem readAt_tblWordA (c : Dev nD) (x : TbBuf (F := F) c tbA) (i : grid0.Coords) (h1) (h2) :
    View.readAt (Elt F) tbA.view (Rect.unit (s := S20) (k0_off1 i) S1.size h1).toLoadRect x (Shape.Idx.first h2) = tblWord x i := rfl

theorem readAt_tblWordB (c : Dev nD) (x : TbBuf (F := F) c tbB) (i : grid0.Coords) (h1) (h2) :
    View.readAt (Elt F) tbB.view (Rect.unit (s := S20) (k0_off1 i) S1.size h1).toLoadRect x (Shape.Idx.first h2) = tblWord x i := rfl

theorem kernelRun (c : Dev nD) (i : grid0.Coords)
    (arg3 : Memref sig .tc .vmem S1024x512 .bf16) (harg3 : arg3.IsWhole) (arg4 : Memref sig .tc .vmem S2048x512 .bf16) (harg4 : arg4.IsWhole)
    (arg5 : Memref sig .tc .vmem S1024x1 .i32) (harg5 : arg5.IsWhole) (arg6 : Memref sig .tc .vmem S1x2048 .i32) (harg6 : arg6.IsWhole)
    (arg7 : Memref sig .tc .vmem S1024x1 .i32) (harg7 : arg7.IsWhole) (arg8 : Memref sig .tc .vmem S1x2048 .i32) (harg8 : arg8.IsWhole)
    (arg9 : Memref sig .tc .vmem S1x8x128 .f32) (harg9 : arg9.IsWhole)
    (qa qb : PosShare TreeShare)
    (xa : TbBuf (F := F) c tbA) (xb : TbBuf (F := F) c tbB)
    (x3 : Vec F S1024x512 .bf16) (x4 : Vec F S2048x512 .bf16) (x5 : Vec F S1024x1 .i32) (x6 : Vec F S1x2048 .i32)
    (x7 : Vec F S1024x1 .i32) (x8 : Vec F S1x2048 .i32)
    (E : Set ℕ) (K : PUnit → sProp 𝕄) :
    iprop(tbPt c tbA qa xa ∗ tbPt c tbB qb xb
        ∗ owns (c : Thread nD τ) arg3 fullShare x3 ∗ owns (c : Thread nD τ) arg4 fullShare x4
        ∗ owns (c : Thread nD τ) arg5 fullShare x5 ∗ owns (c : Thread nD τ) arg6 fullShare x6
        ∗ owns (c : Thread nD τ) arg7 fullShare x7 ∗ owns (c : Thread nD τ) arg8 fullShare x8
        ∗ (∃ d, owns (c : Thread nD τ) arg9 fullShare d)
        ∗ (iprop(tbPt c tbA qa xa ∗ tbPt c tbB qb xb
            ∗ owns (c : Thread nD τ) arg3 fullShare x3 ∗ owns (c : Thread nD τ) arg4 fullShare x4
            ∗ owns (c : Thread nD τ) arg5 fullShare x5 ∗ owns (c : Thread nD τ) arg6 fullShare x6
            ∗ owns (c : Thread nD τ) arg7 fullShare x7 ∗ owns (c : Thread nD τ) arg8 fullShare x8
            ∗ owns (c : Thread nD τ) arg9 fullShare (bodyVal xa xb i x3 x4 x5 x6 x7 x8)) -∗ K ⟨⟩))
      ⊢ wp frame (wpE (defs₀ (F := F)) Variants.none c none) E
          (cc0__pos_kernel i tbA (Memref.isWhole_whole _) tbB (Memref.isWhole_whole _) arg3 harg3 arg4 harg4 arg5 harg5 arg6 harg6 arg7 harg7 arg8 harg8 arg9 harg9) K := by
  simp only [cc0__pos_kernel_eq_skeleton]; unfold cc0__pos_kernel_skel
  simp only [k0_part1_eq_skeleton]; unfold k0_part1_skel
  unfold owns
  iintro ⟨HA, HB, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  sl_exec
  sl_step
  iapply Hk
  isplitl [HA]; · iexact HA
  isplitl [HB]; · iexact HB
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  iexists _; isplitr
  swap; · iexact H9
  ipureintro
  sl_unfold_run_names
  refine (read_store_unit_zero (S := S1x8x128) arg9.view f9 zeros3 _ _).trans ?_
  rw [readAt_whole2 (S := S1024x1) arg5 harg5 x5 zeros2, readAt_whole2 (S := S1x2048) arg6 harg6 x6 zeros2,
    readAt_whole2 (S := S1024x1) arg7 harg7 x7 zeros2, readAt_whole2 (S := S1x2048) arg8 harg8 x8 zeros2,
    readAt_whole2 (S := S1024x512) arg3 harg3 x3 zeros2, readAt_whole2 (S := S2048x512) arg4 harg4 x4 zeros2,
    readAt_tblWordA c xa i, readAt_tblWordB c xb i]
  unfold bodyVal
  rfl

end Cert.Kernel.Hand

end
-- ==== Proof.TileK.lean ====
import proofs.«407225_j55808805044518_3_alg».proof.Proof.ValsK
import proofs.«407225_j55808805044518_3_alg».proof.Proof.Gen.Kernel.Skeleton
import Idealize.ShloMosaic.Lib.ValueIdx

noncomputable section

namespace Cert.Kernel.Hand

open Idealize.ShloMosaic Idealize.ShloMosaic.TcCoe Idealize.SL.Sem Idealize.ShloMosaic.ValueIdx
open Cert.Kernel Cert.Kernel.Gen

variable {F : FTy → Type} [FloatOps F]
variable (m : (ℓ : Loc nD τ sig) → Buf (Elt F) ℓ)

def rowIx (k : ℕ) : Fin 8192 := ⟨k % 8192, Nat.mod_lt _ (by norm_num)⟩

abbrev arrE (c : Dev nD) : Vec F S8192x512 .bf16 := V7 m c main_v7

abbrev arrLabRow (c : Dev nD) : Vec F S8192x1 .i32 := V7 m c main_v11
abbrev arrLabCol (c : Dev nD) : Vec F S1x8192 .i32 := V7 m c main_v13
abbrev arrGidRow (c : Dev nD) : Vec F S8192x1 .i32 := V7 m c main_v14
abbrev arrGidCol (c : Dev nD) : Vec F S1x8192 .i32 := V7 m c main_v15

def blkERow (c : Dev nD) (t : Fin 20) : Vec F S1024x512 .bf16 :=
  fun y => arrE m c (ix2 (rowIx ((lit0 t).toNat * 1024 + (y 0).val)) (y 1 : Fin 512))

def blkECol (c : Dev nD) (t : Fin 20) : Vec F S2048x512 .bf16 :=
  fun y => arrE m c (ix2 (rowIx ((lit1 t).toNat * 2048 + (y 0).val)) (y 1 : Fin 512))

def blkLabRow (c : Dev nD) (t : Fin 20) : Vec F S1024x1 .i32 :=
  fun y => arrLabRow m c (ix2 (rowIx ((lit0 t).toNat * 1024 + (y 0).val)) (0 : Fin 1))
def blkLabCol (c : Dev nD) (t : Fin 20) : Vec F S1x2048 .i32 :=
  fun y => arrLabCol m c (ix2 (0 : Fin 1) (rowIx ((lit1 t).toNat * 2048 + (y 1).val)))
def blkGidRow (c : Dev nD) (t : Fin 20) : Vec F S1024x1 .i32 :=
  fun y => arrGidRow m c (ix2 (rowIx ((lit0 t).toNat * 1024 + (y 0).val)) (0 : Fin 1))
def blkGidCol (c : Dev nD) (t : Fin 20) : Vec F S1x2048 .i32 :=
  fun y => arrGidCol m c (ix2 (0 : Fin 1) (rowIx ((lit1 t).toNat * 2048 + (y 1).val)))

def tileVal (c : Dev nD) (t : Fin 20) : FVec F S1x8x128 .f32 :=
  k0_pay1 (k0_pay2 (lit0 t) (lit1 t) (blkLabRow m c t) (blkLabCol m c t) (blkGidRow m c t) (blkGidCol m c t)
    (blkERow m c t) (blkECol m c t))

def tilesOut : Out (F := F) := fun c idx =>
  tileVal m c (idx 0 : Fin 20) (ix3 (0 : Fin 1) (idx 1 : Fin 8) (idx 2 : Fin 128))

end Cert.Kernel.Hand

end
-- ==== Proof.BlocksK.lean ====
import proofs.«407225_j55808805044518_3_alg».proof.Proof.TileK
import proofs.«407225_j55808805044518_3_alg».proof.Proof.Gen.Kernel.Launch

noncomputable section

namespace Cert.Kernel.Hand

open Idealize.ShloMosaic Idealize.ShloMosaic.TcCoe Idealize.SL.Sem Idealize.ShloMosaic.ValueIdx
open Cert.Kernel Cert.Kernel.Gen

variable {F : FTy → Type} [FloatOps F]
variable (m : (ℓ : Loc nD τ sig) → Buf (Elt F) ℓ)

theorem lit0_lt : ∀ t : Fin 20, (lit0 t).toNat < 8 := by decide

theorem lit1_lt : ∀ t : Fin 20, (lit1 t).toNat < 4 := by decide

theorem coords_val (a : (pcfg0 (F := F)).Adm) (t : Fin (pcfg0.at a).N) :
    (((pcfg0.at a).grid.coords t) 0).val = t.val := by
  have hN : (pcfg0.at a).N = 20 := N_0
  have ht := t.isLt
  have hs : (pcfg0.at a).grid.stride 0 = 1 := rfl
  show t.val / (pcfg0.at a).grid.stride 0 % 20 = t.val
  rw [hs]; omega

theorem tabword0 (a : (pcfg0 (F := F)).Adm) (h0 : ∀ j, a.1 0 j = lit0 (S20.rowMajor j))
    (t : Fin (pcfg0.at a).N) (t' : Fin 20) (ht : t'.val = t.val) :
    a.1 0 ((Rect.unit (s := S20) (k0_off1 ((pcfg0.at a).grid.coords t)) S1.size (Gen.k0_off1_inb _)).emb
      (Shape.Idx.first (Gen.numel1_S1.symm ▸ Nat.one_pos))) = lit0 t' := by
  refine (h0 _).trans (congrArg lit0 (Fin.ext ?_))
  rw [Shape.rowMajor_val_one]
  show k0_off1 ((pcfg0.at a).grid.coords t) 0 + 1 * 0 = t'.val
  have hk : k0_off1 ((pcfg0.at a).grid.coords t) 0 = (((pcfg0.at a).grid.coords t) 0).val :=
    congrFun (Gen.k0_off1_eq _) 0
  have hc := coords_val a t
  omega

theorem tabword1 (a : (pcfg0 (F := F)).Adm) (h1 : ∀ j, a.1 1 j = lit1 (S20.rowMajor j))
    (t : Fin (pcfg0.at a).N) (t' : Fin 20) (ht : t'.val = t.val) :
    a.1 1 ((Rect.unit (s := S20) (k0_off1 ((pcfg0.at a).grid.coords t)) S1.size (Gen.k0_off1_inb _)).emb
      (Shape.Idx.first (Gen.numel1_S1.symm ▸ Nat.one_pos))) = lit1 t' := by
  refine (h1 _).trans (congrArg lit1 (Fin.ext ?_))
  rw [Shape.rowMajor_val_one]
  show k0_off1 ((pcfg0.at a).grid.coords t) 0 + 1 * 0 = t'.val
  have hk : k0_off1 ((pcfg0.at a).grid.coords t) 0 = (((pcfg0.at a).grid.coords t) 0).val :=
    congrFun (Gen.k0_off1_eq _) 0
  have hc := coords_val a t
  omega

theorem blk0_read (a : (pcfg0 (F := F)).Adm) (h0 : ∀ j, a.1 0 j = lit0 (S20.rowMajor j))
    (c : Dev nD) (t : Fin (pcfg0.at a).N) (t' : Fin 20) (ht : t'.val = t.val) :
    (((pcfg0.at a).win 0).blk t).view.read (Elt F) (V7 m c (Pipeline.arrRef spec0 0)) = blkERow m c t' := by
  refine funext fun (y : S1024x512.Idx) => ?_
  show arrE m c ((((pcfg0.at a).win 0).blk t).view.emb y)
    = arrE m c (ix2 (rowIx ((lit0 t').toNat * 1024 + (y 0).val)) (y 1 : Fin 512))
  refine congrArg (arrE m c) ?_
  have hw := tabword0 a h0 t t' ht
  have hl := lit0_lt t'
  funext d; apply Fin.ext
  match d with
  | ⟨0, _⟩ =>
    show ((pcfg0.at a).win 0).index t (0 : Fin 2) * 1024 + 1 * (y 0).val
      = ((lit0 t').toNat * 1024 + (y 0).val) % 8192
    have hi : ((pcfg0.at a).win 0).index t (0 : Fin 2) = (lit0 t').toNat := congrArg BitVec.toNat hw
    have hy : (y 0).val < 1024 := (y 0).isLt
    rw [hi]; omega
  | ⟨1, _⟩ =>
    show ((pcfg0.at a).win 0).index t (1 : Fin 2) * 512 + 1 * (y 1).val = (y 1).val
    have hi : ((pcfg0.at a).win 0).index t (1 : Fin 2) = 0 := rfl
    rw [hi]; omega

theorem blk1_read (a : (pcfg0 (F := F)).Adm) (h1 : ∀ j, a.1 1 j = lit1 (S20.rowMajor j))
    (c : Dev nD) (t : Fin (pcfg0.at a).N) (t' : Fin 20) (ht : t'.val = t.val) :
    (((pcfg0.at a).win 1).blk t).view.read (Elt F) (V7 m c (Pipeline.arrRef spec0 1)) = blkECol m c t' := by
  refine funext fun (y : S2048x512.Idx) => ?_
  show arrE m c ((((pcfg0.at a).win 1).blk t).view.emb y)
    = arrE m c (ix2 (rowIx ((lit1 t').toNat * 2048 + (y 0).val)) (y 1 : Fin 512))
  refine congrArg (arrE m c) ?_
  have hw := tabword1 a h1 t t' ht
  have hl := lit1_lt t'
  funext d; apply Fin.ext
  match d with
  | ⟨0, _⟩ =>
    show ((pcfg0.at a).win 1).index t (0 : Fin 2) * 2048 + 1 * (y 0).val
      = ((lit1 t').toNat * 2048 + (y 0).val) % 8192
    have hi : ((pcfg0.at a).win 1).index t (0 : Fin 2) = (lit1 t').toNat := congrArg BitVec.toNat hw
    have hy : (y 0).val < 2048 := (y 0).isLt
    rw [hi]; omega
  | ⟨1, _⟩ =>
    show ((pcfg0.at a).win 1).index t (1 : Fin 2) * 512 + 1 * (y 1).val = (y 1).val
    have hi : ((pcfg0.at a).win 1).index t (1 : Fin 2) = 0 := rfl
    rw [hi]; omega

theorem blk2_read (a : (pcfg0 (F := F)).Adm) (h0 : ∀ j, a.1 0 j = lit0 (S20.rowMajor j))
    (c : Dev nD) (t : Fin (pcfg0.at a).N) (t' : Fin 20) (ht : t'.val = t.val) :
    (((pcfg0.at a).win 2).blk t).view.read (Elt F) (V7 m c (Pipeline.arrRef spec0 2)) = blkLabRow m c t' := by
  refine funext fun (y : S1024x1.Idx) => ?_
  show arrLabRow m c ((((pcfg0.at a).win 2).blk t).view.emb y)
    = arrLabRow m c (ix2 (rowIx ((lit0 t').toNat * 1024 + (y 0).val)) (0 : Fin 1))
  refine congrArg (arrLabRow m c) ?_
  have hw := tabword0 a h0 t t' ht
  have hl := lit0_lt t'
  funext d; apply Fin.ext
  match d with
  | ⟨0, _⟩ =>
    show ((pcfg0.at a).win 2).index t (0 : Fin 2) * 1024 + 1 * (y 0).val
      = ((lit0 t').toNat * 1024 + (y 0).val) % 8192
    have hi : ((pcfg0.at a).win 2).index t (0 : Fin 2) = (lit0 t').toNat := congrArg BitVec.toNat hw
    have hy : (y 0).val < 1024 := (y 0).isLt
    rw [hi]; omega
  | ⟨1, _⟩ =>
    show ((pcfg0.at a).win 2).index t (1 : Fin 2) * 1 + 1 * (y 1).val = ((0 : Fin 1) : ℕ)
    have hi : ((pcfg0.at a).win 2).index t (1 : Fin 2) = 0 := rfl
    have hy : (y 1).val < 1 := (y 1).isLt
    have hz : ((0 : Fin 1) : ℕ) = 0 := rfl
    rw [hi, hz]; omega

theorem blk3_read (a : (pcfg0 (F := F)).Adm) (h1 : ∀ j, a.1 1 j = lit1 (S20.rowMajor j))
    (c : Dev nD) (t : Fin (pcfg0.at a).N) (t' : Fin 20) (ht : t'.val = t.val) :
    (((pcfg0.at a).win 3).blk t).view.read (Elt F) (V7 m c (Pipeline.arrRef spec0 3)) = blkLabCol m c t' := by
  refine funext fun (y : S1x2048.Idx) => ?_
  show arrLabCol m c ((((pcfg0.at a).win 3).blk t).view.emb y)
    = arrLabCol m c (ix2 (0 : Fin 1) (rowIx ((lit1 t').toNat * 2048 + (y 1).val)))
  refine congrArg (arrLabCol m c) ?_
  have hw := tabword1 a h1 t t' ht
  have hl := lit1_lt t'
  funext d; apply Fin.ext
  match d with
  | ⟨0, _⟩ =>
    show ((pcfg0.at a).win 3).index t (0 : Fin 2) * 1 + 1 * (y 0).val = ((0 : Fin 1) : ℕ)
    have hi : ((pcfg0.at a).win 3).index t (0 : Fin 2) = 0 := rfl
    have hy : (y 0).val < 1 := (y 0).isLt
    have hz : ((0 : Fin 1) : ℕ) = 0 := rfl
    rw [hi, hz]; omega
  | ⟨1, _⟩ =>
    show ((pcfg0.at a).win 3).index t (1 : Fin 2) * 2048 + 1 * (y 1).val
      = ((lit1 t').toNat * 2048 + (y 1).val) % 8192
    have hi : ((pcfg0.at a).win 3).index t (1 : Fin 2) = (lit1 t').toNat := congrArg BitVec.toNat hw
    have hy : (y 1).val < 2048 := (y 1).isLt
    rw [hi]; omega

theorem blk4_read (a : (pcfg0 (F := F)).Adm) (h0 : ∀ j, a.1 0 j = lit0 (S20.rowMajor j))
    (c : Dev nD) (t : Fin (pcfg0.at a).N) (t' : Fin 20) (ht : t'.val = t.val) :
    (((pcfg0.at a).win 4).blk t).view.read (Elt F) (V7 m c (Pipeline.arrRef spec0 4)) = blkGidRow m c t' := by
  refine funext fun (y : S1024x1.Idx) => ?_
  show arrGidRow m c ((((pcfg0.at a).win 4).blk t).view.emb y)
    = arrGidRow m c (ix2 (rowIx ((lit0 t').toNat * 1024 + (y 0).val)) (0 : Fin 1))
  refine congrArg (arrGidRow m c) ?_
  have hw := tabword0 a h0 t t' ht
  have hl := lit0_lt t'
  funext d; apply Fin.ext
  match d with
  | ⟨0, _⟩ =>
    show ((pcfg0.at a).win 4).index t (0 : Fin 2) * 1024 + 1 * (y 0).val
      = ((lit0 t').toNat * 1024 + (y 0).val) % 8192
    have hi : ((pcfg0.at a).win 4).index t (0 : Fin 2) = (lit0 t').toNat := congrArg BitVec.toNat hw
    have hy : (y 0).val < 1024 := (y 0).isLt
    rw [hi]; omega
  | ⟨1, _⟩ =>
    show ((pcfg0.at a).win 4).index t (1 : Fin 2) * 1 + 1 * (y 1).val = ((0 : Fin 1) : ℕ)
    have hi : ((pcfg0.at a).win 4).index t (1 : Fin 2) = 0 := rfl
    have hy : (y 1).val < 1 := (y 1).isLt
    have hz : ((0 : Fin 1) : ℕ) = 0 := rfl
    rw [hi, hz]; omega

theorem blk5_read (a : (pcfg0 (F := F)).Adm) (h1 : ∀ j, a.1 1 j = lit1 (S20.rowMajor j))
    (c : Dev nD) (t : Fin (pcfg0.at a).N) (t' : Fin 20) (ht : t'.val = t.val) :
    (((pcfg0.at a).win 5).blk t).view.read (Elt F) (V7 m c (Pipeline.arrRef spec0 5)) = blkGidCol m c t' := by
  refine funext fun (y : S1x2048.Idx) => ?_
  show arrGidCol m c ((((pcfg0.at a).win 5).blk t).view.emb y)
    = arrGidCol m c (ix2 (0 : Fin 1) (rowIx ((lit1 t').toNat * 2048 + (y 1).val)))
  refine congrArg (arrGidCol m c) ?_
  have hw := tabword1 a h1 t t' ht
  have hl := lit1_lt t'
  funext d; apply Fin.ext
  match d with
  | ⟨0, _⟩ =>
    show ((pcfg0.at a).win 5).index t (0 : Fin 2) * 1 + 1 * (y 0).val = ((0 : Fin 1) : ℕ)
    have hi : ((pcfg0.at a).win 5).index t (0 : Fin 2) = 0 := rfl
    have hy : (y 0).val < 1 := (y 0).isLt
    have hz : ((0 : Fin 1) : ℕ) = 0 := rfl
    rw [hi, hz]; omega
  | ⟨1, _⟩ =>
    show ((pcfg0.at a).win 5).index t (1 : Fin 2) * 2048 + 1 * (y 1).val
      = ((lit1 t').toNat * 2048 + (y 1).val) % 8192
    have hi : ((pcfg0.at a).win 5).index t (1 : Fin 2) = (lit1 t').toNat := congrArg BitVec.toNat hw
    have hy : (y 1).val < 2048 := (y 1).isLt
    rw [hi]; omega

end Cert.Kernel.Hand

end
-- ==== Proof.DatsK.lean ====
import proofs.«407225_j55808805044518_3_alg».proof.Proof.BodyK
import proofs.«407225_j55808805044518_3_alg».proof.Proof.TileK
import proofs.«407225_j55808805044518_3_alg».proof.Proof.BlocksK
import proofs.«407225_j55808805044518_3_alg».proof.Proof.Gen.Kernel.Launch
import Idealize.ShloMosaic.Lib.Pipeline.Frame
import Idealize.ShloMosaic.Lib.Pipeline.FrameBody
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

def tbl : pre0.Contents (Elt F) := fun k => match k with
  | ⟨0, _⟩ => fun j => lit0 (S20.rowMajor j)
  | ⟨1, _⟩ => fun j => lit1 (S20.rowMajor j)

theorem rowMajor_off1 (i : grid0.Coords) :
    (S20.rowMajor ((Rect.unit (s := S20) (k0_off1 i) S1.size (Gen.k0_off1_inb i)).emb (Shape.Idx.first (Gen.numel1_S1.symm ▸ Nat.one_pos)))).val
      = (i 0).val := by
  rw [Shape.rowMajor_val_one, Rect.emb_apply]
  show k0_off1 i 0 + 1 * 0 = (i 0).val
  rw [congrFun (Gen.k0_off1_eq i) 0]
  show (i 0).val + 1 * 0 = (i 0).val
  omega

theorem coords0_val : ∀ t : Fin grid0.N, (grid0.coords t 0).val = t.val := by decide

theorem tblWord_tbl0 (t : Fin grid0.N) : tblWord (tbl (F := F) 0) (grid0.coords t) = lit0 t :=
  congrArg lit0 (Fin.ext ((rowMajor_off1 (grid0.coords t)).trans (coords0_val t)))
theorem tblWord_tbl1 (t : Fin grid0.N) : tblWord (tbl (F := F) 1) (grid0.coords t) = lit1 t :=
  congrArg lit1 (Fin.ext ((rowMajor_off1 (grid0.coords t)).trans (coords0_val t)))

theorem ok0_of (pf : pre0.Contents (Elt F))
    (hA : ∀ i : grid0.Coords, (tblWord (pf 0) i).toNat < 8) (hB : ∀ i : grid0.Coords, (tblWord (pf 1) i).toNat < 4) :
    ok0 pf := by
  have h2 : (2 : ℕ) ≤ S8192x512.rank := le_refl _
  refine ⟨fun i => ⟨fun a => ?_, .inr (.inl (.inr ⟨h2, rfl, .inl ⟨?_, ?_⟩⟩))⟩,
    fun i => ⟨fun a => ?_, .inr (.inl (.inr ⟨h2, rfl, .inl ⟨?_, ?_⟩⟩))⟩,
    fun i => ⟨fun a => ?_, .inl rfl⟩, fun i => ⟨fun a => ?_, .inl rfl⟩,
    fun i => ⟨fun a => ?_, .inl rfl⟩, fun i => ⟨fun a => ?_, .inl rfl⟩⟩
  · have := hA i
    match a with
    | ⟨0, _⟩ => show ((tblWord (pf 0) i).toNat + 1) * 1024 ≤ 8192; omega
    | ⟨1, _⟩ => show ((0#32).toNat + 1) * 512 ≤ 512; decide
  · show 2 ∣ (tblWord (pf 0) i).toNat * 1024; exact Dvd.dvd.mul_left (by decide) _
  · show 2 ∣ 1024; decide
  · have := hB i
    match a with
    | ⟨0, _⟩ => show ((tblWord (pf 1) i).toNat + 1) * 2048 ≤ 8192; omega
    | ⟨1, _⟩ => show ((0#32).toNat + 1) * 512 ≤ 512; decide
  · show 2 ∣ (tblWord (pf 1) i).toNat * 2048; exact Dvd.dvd.mul_left (by decide) _
  · show 2 ∣ 2048; decide
  · have := hA i
    match a with
    | ⟨0, _⟩ => show ((tblWord (pf 0) i).toNat + 1) * 1024 ≤ 8192; omega
    | ⟨1, _⟩ => show ((0#32).toNat + 1) * 1 ≤ 1; decide
  · have := hB i
    match a with
    | ⟨0, _⟩ => show ((0#32).toNat + 1) * 1 ≤ 1; decide
    | ⟨1, _⟩ => show ((tblWord (pf 1) i).toNat + 1) * 2048 ≤ 8192; omega
  · have := hA i
    match a with
    | ⟨0, _⟩ => show ((tblWord (pf 0) i).toNat + 1) * 1024 ≤ 8192; omega
    | ⟨1, _⟩ => show ((0#32).toNat + 1) * 1 ≤ 1; decide
  · have := hB i
    match a with
    | ⟨0, _⟩ => show ((0#32).toNat + 1) * 1 ≤ 1; decide
    | ⟨1, _⟩ => show ((tblWord (pf 1) i).toNat + 1) * 2048 ≤ 8192; omega

theorem coords_surj (i : grid0.Coords) : ∃ t : Fin grid0.N, grid0.coords t = i :=
  ⟨⟨(i 0).val, (i 0).isLt⟩, funext fun a => by
    match a with
    | ⟨0, _⟩ => exact Fin.ext (coords0_val _)⟩

theorem ok_tbl : ok0 (F := F) tbl :=
  ok0_of tbl
    (fun i => by obtain ⟨t, rfl⟩ := coords_surj i; rw [tblWord_tbl0]; exact lit0_lt t)
    (fun i => by obtain ⟨t, rfl⟩ := coords_surj i; rw [tblWord_tbl1]; exact lit1_lt t)

abbrev adm : (p : Fin 1) → (pcfgs (F := F) p).Adm := fun _ => ⟨tbl, ok_tbl⟩

abbrev cfgT : Pipeline.Cfg sig Λ₀ := Pipeline.pin (pcfgs (F := F)) adm 0

def iblk (c : Dev nD) (w : Fin (cfgT (F := F)).W) (t : Fin (cfgT (F := F)).N) :
    (((cfgT (F := F)).win w).xblock ((cfgT (F := F)).grid.coords t)).Idx → Elt F ((cfgT (F := F)).win w).elt :=
  (((cfgT (F := F)).win w).blk t).view.read (Elt F) (V7 m c (Pipeline.arrRef spec0 w))

def dats (_ : Fin 1) (c : Dev nD) : Dat τ (Elt F) Unit ℕ (UR sig nD τ) ℕ (cfgT (F := F)) c where
  A w := V7 m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => tileVal m c t
  Φ _ := iprop(Pipeline.scopedRest (Ix := Unit) (Name := ℕ) (U := UR sig nD τ) (Lvl := ℕ) (Val := Elt F) spec0 c
    ∗ Pipeline.prefHeld (Ix := Unit) (Name := ℕ) (U := UR sig nD τ) (Lvl := ℕ) pre0 c (fun _ => fullShare) tbl)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin (cfgT (F := F)).W) : (dats m 0 c).A w = V7 m c (Pipeline.arrRef spec0 w) := by
  dsimp only [dats]

theorem after0_0 (c : Dev nD) (t : Fin (cfgT (F := F)).N) : (dats m 0 c).after 0 t = iblk m c 0 t := by dsimp only [dats]; try rfl
theorem after0_1 (c : Dev nD) (t : Fin (cfgT (F := F)).N) : (dats m 0 c).after 1 t = iblk m c 1 t := by dsimp only [dats]; try rfl
theorem after0_2 (c : Dev nD) (t : Fin (cfgT (F := F)).N) : (dats m 0 c).after 2 t = iblk m c 2 t := by dsimp only [dats]; try rfl
theorem after0_3 (c : Dev nD) (t : Fin (cfgT (F := F)).N) : (dats m 0 c).after 3 t = iblk m c 3 t := by dsimp only [dats]; try rfl
theorem after0_4 (c : Dev nD) (t : Fin (cfgT (F := F)).N) : (dats m 0 c).after 4 t = iblk m c 4 t := by dsimp only [dats]; try rfl
theorem after0_5 (c : Dev nD) (t : Fin (cfgT (F := F)).N) : (dats m 0 c).after 5 t = iblk m c 5 t := by dsimp only [dats]; try rfl
theorem after0_6 (c : Dev nD) (t : Fin (cfgT (F := F)).N) : (dats m 0 c).after 6 t = tileVal m c t := by dsimp only [dats]; try rfl

theorem before0_0 (c : Dev nD) (t : Fin (cfgT (F := F)).N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin (cfgT (F := F)).N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin (cfgT (F := F)).N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin (cfgT (F := F)).N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin (cfgT (F := F)).N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin (cfgT (F := F)).N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)

theorem prefHeld_tbl_eq (c : Dev nD) (q : PosShare TreeShare) (v : pre0.Contents (Elt F)) :
    (Pipeline.prefHeld (Ix := Unit) (Name := ℕ) (U := UR sig nD τ) (Lvl := ℕ) pre0 c (fun _ => q) v : sProp 𝕄)
      = iprop(tbPt c tbA q (v 0) ∗ tbPt c tbB q (v 1)) := by
  unfold Pipeline.prefHeld
  rw [show (Finset.univ : Finset (Fin 2)) = insert (0 : Fin 2) {(1 : Fin 2)} from by decide,
    bigSep_insert (by decide), bigSep_singleton]
  rfl

abbrev ms0 (t : Fin (cfgT (F := F)).N) : Memref sig .tc .vmem S1024x512 .bf16 := spec0_0.stage ((cfgT (F := F)).slots t 0)
abbrev hs0 (t : Fin (cfgT (F := F)).N) : (ms0 (F := F) t).IsWhole := hstage0_0 (((cfgT (F := F)).slots t 0).cast nbuf0_0)
abbrev ms1 (t : Fin (cfgT (F := F)).N) : Memref sig .tc .vmem S2048x512 .bf16 := spec0_1.stage ((cfgT (F := F)).slots t 1)
abbrev hs1 (t : Fin (cfgT (F := F)).N) : (ms1 (F := F) t).IsWhole := hstage0_1 (((cfgT (F := F)).slots t 1).cast nbuf0_1)
abbrev ms2 (t : Fin (cfgT (F := F)).N) : Memref sig .tc .vmem S1024x1 .i32 := spec0_2.stage ((cfgT (F := F)).slots t 2)
abbrev hs2 (t : Fin (cfgT (F := F)).N) : (ms2 (F := F) t).IsWhole := hstage0_2 (((cfgT (F := F)).slots t 2).cast nbuf0_2)
abbrev ms3 (t : Fin (cfgT (F := F)).N) : Memref sig .tc .vmem S1x2048 .i32 := spec0_3.stage ((cfgT (F := F)).slots t 3)
abbrev hs3 (t : Fin (cfgT (F := F)).N) : (ms3 (F := F) t).IsWhole := hstage0_3 (((cfgT (F := F)).slots t 3).cast nbuf0_3)
abbrev ms4 (t : Fin (cfgT (F := F)).N) : Memref sig .tc .vmem S1024x1 .i32 := spec0_4.stage ((cfgT (F := F)).slots t 4)
abbrev hs4 (t : Fin (cfgT (F := F)).N) : (ms4 (F := F) t).IsWhole := hstage0_4 (((cfgT (F := F)).slots t 4).cast nbuf0_4)
abbrev ms5 (t : Fin (cfgT (F := F)).N) : Memref sig .tc .vmem S1x2048 .i32 := spec0_5.stage ((cfgT (F := F)).slots t 5)
abbrev hs5 (t : Fin (cfgT (F := F)).N) : (ms5 (F := F) t).IsWhole := hstage0_5 (((cfgT (F := F)).slots t 5).cast nbuf0_5)
abbrev ms6 (t : Fin (cfgT (F := F)).N) : Memref sig .tc .vmem S1x8x128 .f32 := spec0_6.stage ((cfgT (F := F)).slots t 6)
abbrev hs6 (t : Fin (cfgT (F := F)).N) : (ms6 (F := F) t).IsWhole := hstage0_6 (((cfgT (F := F)).slots t 6).cast nbuf0_6)

abbrev bodyAt (t : Fin (cfgT (F := F)).N) : Prog (TpuEff nD τ sig (Elt F) Λ₀ .tc) PUnit :=
  cc0__pos_kernel (grid0.coords t) (Memref.whole main_c) (Memref.isWhole_whole _) (Memref.whole main_c_0) (Memref.isWhole_whole _)
    (ms0 t) (hs0 t) (ms1 t) (hs1 t) (ms2 t) (hs2 t) (ms3 t) (hs3 t) (ms4 t) (hs4 t) (ms5 t) (hs5 t) (ms6 t) (hs6 t)

theorem bodyVal_eq_tileVal (c : Dev nD) (t : Fin (cfgT (F := F)).N) :
    bodyVal (tbl (F := F) 0) (tbl (F := F) 1) (grid0.coords t) (iblk m c 0 t) (iblk m c 1 t) (iblk m c 2 t) (iblk m c 3 t) (iblk m c 4 t) (iblk m c 5 t)
      = tileVal m c t := by
  have e0 : iblk m c 0 t = blkERow m c t := blk0_read m (adm 0) (fun _ => rfl) c t t rfl
  have e1 : iblk m c 1 t = blkECol m c t := blk1_read m (adm 0) (fun _ => rfl) c t t rfl
  have e2 : iblk m c 2 t = blkLabRow m c t := blk2_read m (adm 0) (fun _ => rfl) c t t rfl
  have e3 : iblk m c 3 t = blkLabCol m c t := blk3_read m (adm 0) (fun _ => rfl) c t t rfl
  have e4 : iblk m c 4 t = blkGidRow m c t := blk4_read m (adm 0) (fun _ => rfl) c t t rfl
  have e5 : iblk m c 5 t = blkGidCol m c t := blk5_read m (adm 0) (fun _ => rfl) c t t rfl
  unfold bodyVal tileVal
  rw [tblWord_tbl0, tblWord_tbl1, e0, e1, e2, e3, e4, e5]

def bodyPre (c : Dev nD) (t : Fin (cfgT (F := F)).N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin (cfgT (F := F)).N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

theorem sound_body (c : Dev nD) (t : Fin (cfgT (F := F)).N) :
    bodyPre m c t ⊢ wp frame (wpE (defs₀ (F := F)) Variants.none c none) Set.univ (bodyAt t) (fun _ => bodyPost m c t) := by
  unfold bodyPre bodyPost bodyAt
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = iprop(Pipeline.scopedRest (Ix := Unit) (Name := ℕ) (U := UR sig nD τ) (Lvl := ℕ) (Val := Elt F) spec0 c
    ∗ Pipeline.prefHeld (Ix := Unit) (Name := ℕ) (U := UR sig nD τ) (Lvl := ℕ) pre0 c (fun _ => fullShare) tbl) from rfl, prefHeld_tbl_eq]
  rw [← bodyVal_eq_tileVal m c t]
  iintro ⟨⟨HR, HTA, HTB⟩, Ho, ⟨%d0, H0⟩, ⟨%d1, H1⟩, ⟨%d2, H2⟩, ⟨%d3, H3⟩, ⟨%d4, H4⟩, ⟨%d5, H5⟩, ⟨%d6, H6⟩⟩
  iapply (kernelRun c (grid0.coords t) (ms0 t) (hs0 t) (ms1 t) (hs1 t) (ms2 t) (hs2 t) (ms3 t) (hs3 t) (ms4 t) (hs4 t) (ms5 t) (hs5 t) (ms6 t) (hs6 t)
    fullShare fullShare (tbl 0) (tbl 1) (iblk m c 0 t) (iblk m c 1 t) (iblk m c 2 t) (iblk m c 3 t) (iblk m c 4 t) (iblk m c 5 t) Set.univ _)
  isplitl [HTA]; · iexact HTA
  isplitl [HTB]; · iexact HTB
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨HTA, HTB, H0, H1, H2, H3, H4, H5, H6⟩
  isplitl [HR HTA HTB]
  · isplitl [HR]; · iexact HR
    isplitl [HTA]; · iexact HTA
    iexact HTB
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

def regionOut : Out (F := F) := fun c => (dats m 0 c).arrAt 6 (cfgT (F := F)).N

end Cert.Kernel.Hand

end
-- ==== Proof.DealK.lean ====
import proofs.«407225_j55808805044518_3_alg».proof.Proof.Gen.Kernel.Launch
import Idealize.ShloMosaic.Lib.Pipeline.Regions
import Idealize.ShloMosaic.Lib.Pipeline.Frame
import Idealize.ShloMosaic.Lib.Pipeline.Kit

set_option maxRecDepth 2536

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Idealize.SL.BI.Laws

variable {F : FTy → Type} [FloatOps F]

local notation "𝕄" => MT nD τ sig Unit (Elt F) ℕ (UR sig nD τ) ℕ

theorem preRef_ne_result : ∀ k : Fin pre0.K, pre0.ref k ≠ main_v16 := by decide

theorem prefHeld_update (c : Dev nD) (W : Valuation τ sig (Elt F)) (o : Buf (Elt F) ((c.tc : Thread nD τ).loc main_v16))
    (q : Fin pre0.K → PosShare TreeShare) :
    (Pipeline.prefHeld (Ix := Unit) (Name := ℕ) (U := UR sig nD τ) (Lvl := ℕ) pre0 c q
        (fun k => Function.update W (Proc.devRef .tc main_v16) o (pre0.ref k)) : sProp 𝕄)
      = Pipeline.prefHeld pre0 c q (fun k => W (pre0.ref k)) := by
  unfold Pipeline.prefHeld
  exact bigSep_congr fun k _ => by
    beta_reduce
    rw [Function.update_of_ne (StableHlo.devRef_ne_of_ne (preRef_ne_result k))]

theorem unscopedRestP_update (c : Dev nD) (W : Valuation τ sig (Elt F)) (o : Buf (Elt F) ((c.tc : Thread nD τ).loc main_v16)) :
    (Pipeline.unscopedRestP (Ix := Unit) (Name := ℕ) (U := UR sig nD τ) (Lvl := ℕ) pre0 spec0 c
        (fun b => Function.update W (Proc.devRef .tc main_v16) o b) : sProp 𝕄)
      = Pipeline.unscopedRestP pre0 spec0 c (fun b => W b) := by
  classical
  unfold Pipeline.unscopedRestP
  refine bigSep_congr fun b hb => ?_
  have hb' : b ∉ Finset.univ.image (Pipeline.arrRef spec0) := (Finset.mem_sdiff.mp (Finset.mem_sdiff.mp hb).1).2
  have hne : b ≠ main_v16 := fun e => hb' (e ▸ Finset.mem_image.mpr ⟨6, Finset.mem_univ _, rfl⟩)
  beta_reduce
  rw [Function.update_of_ne (StableHlo.devRef_ne_of_ne hne)]

theorem held_split3 (c : Dev nD) (W : Valuation τ sig (Elt F)) :
    (StableHlo.held (c.tc : Thread nD τ) (Pipeline.ucRefs τ sig) W : sProp 𝕄)
      = iprop(Pipeline.arrBufs spec0 c (fun b => W b)
          ∗ Pipeline.prefHeld pre0 c (fun _ => fullShare) (fun k => W (pre0.ref k))
          ∗ Pipeline.unscopedRestP pre0 spec0 c (fun b => W b)) := by
  classical
  have hA : Finset.univ.image (Pipeline.arrRef spec0) ⊆ Finset.univ.filter fun b : Ref sig .tc => ¬ b.isScoped := fun b hb => by
    obtain ⟨w, -, rfl⟩ := Finset.mem_image.mp hb
    exact Finset.mem_filter.mpr ⟨Finset.mem_univ _, by simp [Gen.winFacts₀0.arr_unscoped w]⟩
  have h1 : (unscopedBufs (Ix := Unit) (Name := ℕ) (U := UR sig nD τ) (Lvl := ℕ) c (fun b => W b) : sProp 𝕄)
      = iprop(Pipeline.arrBufs spec0 c (fun b => W b) ∗ Pipeline.unscopedRest spec0 c (fun b => W b)) := by
    unfold unscopedBufs Pipeline.unscopedRest Pipeline.arrBufs
    rw [bigSep_sdiff_split hA]
    rfl
  rw [← Pipeline.unscopedBufs_held, h1, Pipeline.unscopedRest_split Gen.preFacts0]

theorem image_arrRef : Finset.univ.image (Pipeline.arrRef spec0) = [main_v7, main_v11, main_v13, main_v14, main_v15, main_v16].toFinset := by
  decide

theorem arrays_deal (a : (pcfg0 (F := F)).Adm) (c : Dev nD)
    (dat : Pipeline.Dat τ (Elt F) Unit ℕ (UR sig nD τ) ℕ (pcfg0.at a) c)
    (hq0 : dat.share 0 = fullShare.left) (hq1 : dat.share 1 = fullShare.right) (hq2 : dat.share 2 = fullShare)
    (hq3 : dat.share 3 = fullShare) (hq4 : dat.share 4 = fullShare) (hq5 : dat.share 5 = fullShare)
    (hq6 : dat.share 6 = fullShare) (V : (b : Ref sig .tc) → Buf (Elt F) ((c.tc : Thread nD τ).loc b)) :
    (Pipeline.arrBufs (Ix := Unit) (Name := ℕ) (U := UR sig nD τ) (Lvl := ℕ) spec0 c V : sProp 𝕄)
      ⊣⊢ dat.arrays (fun w => V (Pipeline.arrRef spec0 w)) := by
  classical
  have harr : ∀ w, ((pcfg0.at a).spec w).arr.IsWhole := fun w => Gen.arr_whole0 w
  have h0 : dat.arrays (fun w => V (Pipeline.arrRef spec0 w))
      = bigSep Finset.univ fun w : Fin 7 =>
          (((c.tc : Thread nD τ).loc (Pipeline.arrRef spec0 w)) ↦{dat.share w} V (Pipeline.arrRef spec0 w) : sProp 𝕄) := by
    unfold Pipeline.Dat.arrays
    exact bigSep_congr fun w _ => by rw [(harr w).set_eq_univ]
  rw [h0, Gen.bigSep_W0, hq0, hq1, hq2, hq3, hq4, hq5, hq6]
  unfold Pipeline.arrBufs
  rw [bigSep_eq_bigSepL_of_eq [main_v7, main_v11, main_v13, main_v14, main_v15, main_v16] image_arrRef (by decide)]
  exact (sep_congr_left (pointsTo_share (PosShare.mem_left_op_right fullShare))).trans sep_assoc

end Cert.Kernel.Hand
-- ==== Proof.ArrLastK.lean ====
import proofs.«407225_j55808805044518_3_alg».proof.Proof.DatsK
import proofs.«407225_j55808805044518_3_alg».proof.Proof.WritesK

noncomputable section

namespace Cert.Kernel.Hand

open Cert.Kernel Cert.Kernel.Gen
open Idealize.ShloMosaic Idealize.ShloMosaic.TcCoe Idealize.SL.Sem
open Idealize.ShloMosaic.Pipeline (Dat Cfg)

variable {F : FTy → Type} [FloatOps F]
variable (m : (ℓ : Loc nD τ sig) → Buf (Elt F) ℓ)

theorem arrRef_ne : ∀ w : Fin 7, w ≠ 6 → Pipeline.arrRef spec0 w ≠ main_v16 := by decide

theorem arrAt_last_in (c : Dev nD) (w : Fin (cfgT (F := F)).W) (hin : ((cfgT (F := F)).win w).isOut = false)
    (hne : Pipeline.arrRef spec0 w ≠ main_v16) :
    (dats m 0 c).arrAt w (cfgT (F := F)).N = V8 m (regionOut m) c (Pipeline.arrRef spec0 w) :=
  ((dats m 0 c).arrAt_in w hin _).trans ((A_eq m c w).trans (V8_of m (regionOut m) c (Pipeline.arrRef spec0 w) hne).symm)

theorem arrAt_last (c : Dev nD) :
    (fun w => (dats m 0 c).arrAt w (cfgT (F := F)).N) = fun w => V8 m (regionOut m) c (Pipeline.arrRef spec0 w) := by
  funext w
  match w with
  | ⟨0, _⟩ => exact arrAt_last_in m c 0 rfl (arrRef_ne 0 (by decide))
  | ⟨1, _⟩ => exact arrAt_last_in m c 1 rfl (arrRef_ne 1 (by decide))
  | ⟨2, _⟩ => exact arrAt_last_in m c 2 rfl (arrRef_ne 2 (by decide))
  | ⟨3, _⟩ => exact arrAt_last_in m c 3 rfl (arrRef_ne 3 (by decide))
  | ⟨4, _⟩ => exact arrAt_last_in m c 4 rfl (arrRef_ne 4 (by decide))
  | ⟨5, _⟩ => exact arrAt_last_in m c 5 rfl (arrRef_ne 5 (by decide))
  | ⟨6, _⟩ => exact (Function.update_self (Proc.devRef .tc main_v16) (regionOut m c) (V7 m c)).symm

end Cert.Kernel.Hand

end
-- ==== Proof.TablesK.lean ====
import proofs.«407225_j55808805044518_3_alg».proof.Proof.WritesK

noncomputable section

namespace Cert.Kernel.Hand

open Idealize.ShloMosaic Idealize.ShloMosaic.TcCoe Idealize.SL.Sem
open Cert.Kernel Cert.Kernel.Gen

variable {F : FTy → Type} [FloatOps F]

theorem hostOps0_main_c (V : Valuation τ sig (Elt F)) :
    (StableHlo.after hostOps0 V (Proc.devRef .tc main_c) : main_c.ty.Contents (Elt F)) = fun j => lit0 (S20.rowMajor j) := by
  open StableHlo in after_results
  rfl

theorem hostOps0_main_c_0 (V : Valuation τ sig (Elt F)) :
    (StableHlo.after hostOps0 V (Proc.devRef .tc main_c_0) : main_c_0.ty.Contents (Elt F)) = fun j => lit1 (S20.rowMajor j) := by
  open StableHlo in after_results
  rfl

variable (m : (ℓ : Loc nD τ sig) → Buf (Elt F) ℓ)

theorem V7_main_c (c : Dev nD) : (V7 m c main_c : main_c.ty.Contents (Elt F)) = fun j => lit0 (S20.rowMajor j) :=
  (V7_of m c main_c (by decide)).trans <| (V6_of m c main_c (by decide)).trans <| (V5_of m c main_c (by decide)).trans <|
    (V4_of m c main_c (by decide)).trans <| (V3_of m c main_c (by decide)).trans <| (V2_of m c main_c (by decide)).trans <|
    hostOps0_main_c (V0 m c)

theorem V7_main_c_0 (c : Dev nD) : (V7 m c main_c_0 : main_c_0.ty.Contents (Elt F)) = fun j => lit1 (S20.rowMajor j) :=
  (V7_of m c main_c_0 (by decide)).trans <| (V6_of m c main_c_0 (by decide)).trans <| (V5_of m c main_c_0 (by decide)).trans <|
    (V4_of m c main_c_0 (by decide)).trans <| (V3_of m c main_c_0 (by decide)).trans <| (V2_of m c main_c_0 (by decide)).trans <|
    hostOps0_main_c_0 (V0 m c)

theorem V7_pre0 (c : Dev nD) (tbl : pre0.Contents (Elt F))
    (h0 : tbl 0 = fun j => lit0 (S20.rowMajor j)) (h1 : tbl 1 = fun j => lit1 (S20.rowMajor j)) :
    ∀ k : Fin pre0.K, (V7 m c (Proc.devRef .tc (pre0.ref k)) : (pre0.ref k).ty.Contents (Elt F)) = tbl k
  | 0 => (V7_main_c m c).trans h0.symm
  | 1 => (V7_main_c_0 m c).trans h1.symm

end Cert.Kernel.Hand

end
-- ==== Proof.RegionK.lean ====
import proofs.«407225_j55808805044518_3_alg».proof.Proof.DatsK
import proofs.«407225_j55808805044518_3_alg».proof.Proof.DealK
import proofs.«407225_j55808805044518_3_alg».proof.Proof.ArrLastK
import proofs.«407225_j55808805044518_3_alg».proof.Proof.TablesK
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem V7_tbl (c : Dev nD) : (fun k => V7 m c (pre0.ref k)) = tbl (F := F) :=
  funext fun k => V7_pre0 m c tbl rfl rfl k

abbrev Rst (c : Dev nD) : sProp 𝕄 := iprop(∃ W, owes (c : Thread nD τ) (0 : CellTallies nD τ sig Unit) W)

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl
theorem share5 (c : Dev nD) : (dats m 0 c).share 5 = fullShare := rfl
theorem share6 (c : Dev nD) : (dats m 0 c).share 6 = fullShare := rfl

theorem arrAt_zero (c : Dev nD) : (fun w => (dats m 0 c).arrAt w 0) = fun w => V7 m c (Pipeline.arrRef spec0 w) :=
  funext fun w => A_eq m c w

set_option backward.isDefEq.respectTransparency.types false in

def R0 : Pipeline.RegionSeg (pcfgs (F := F)) adm (dats m) () defs₀ Variants.none (fun _ : GSem nD τ sig => (∅ : Finset Unit)) (fun _ _ => (0 : ℕ)) 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ (fun _ : GSem nD τ sig => (∅ : Finset Unit)) (fun _ _ => (0 : ℕ)) 0 fun _ _ => rfl
  pre c := iprop(StableHlo.held (c : Thread nD τ) (Pipeline.ucRefs τ sig) (V7 m c) ∗ Rst c)
  post c := iprop(StableHlo.held (c : Thread nD τ) (Pipeline.ucRefs τ sig) (V8 m (regionOut m) c) ∗ Rst c)
  X c := iprop(emp)
  Y c := Pipeline.prefHeld (Ix := Unit) (Name := ℕ) (U := UR sig nD τ) (Lvl := ℕ) pre0 c (fun _ => fullShare) tbl
  Z c := Pipeline.unscopedRestP (Ix := Unit) (Name := ℕ) (U := UR sig nD τ) (Lvl := ℕ) pre0 spec0 c (fun b => V7 m c b)
  hentry c := by
    rw [held_split3 c (V7 m c), V7_tbl m c]
    iintro ⟨⟨⟨Harr, Hpf, Hrest⟩, HO⟩, -, -⟩
    imodintro
    isplitl [Harr]
    · rw [arrAt_zero m c]
      iapply ((arrays_deal (adm 0) c (dats m 0 c) (share0 m c) (share1 m c) (share2 m c) (share3 m c) (share4 m c) (share5 m c) (share6 m c) (fun b => V7 m c b)).1)
      iexact Harr
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = iprop(Pipeline.scopedRest (Ix := Unit) (Name := ℕ) (U := UR sig nD τ) (Lvl := ℕ) (Val := Elt F) spec0 c
      ∗ Pipeline.prefHeld (Ix := Unit) (Name := ℕ) (U := UR sig nD τ) (Lvl := ℕ) pre0 c (fun _ => fullShare) tbl) from rfl]
    iintro ⟨-, Hpf, Hr⟩
    isplitl [Hr]; · iexact Hr
    iexact Hpf
  hout c := by
    rw [show (dats m 0 c).Φ (Fin.last _) = iprop(Pipeline.scopedRest (Ix := Unit) (Name := ℕ) (U := UR sig nD τ) (Lvl := ℕ) (Val := Elt F) spec0 c
      ∗ Pipeline.prefHeld (Ix := Unit) (Name := ℕ) (U := UR sig nD τ) (Lvl := ℕ) pre0 c (fun _ => fullShare) tbl) from rfl,
      Pipeline.ownSems0_none nD τ sig (Elt F) Unit ℕ (UR sig nD τ) ℕ c]
    iintro ⟨Hr, Hpf⟩
    isplitl [Hpf]; · iexact Hpf
    isplitr; · iempintro
    iexact Hr
  hexit c := by
    rw [held_split3 c (V8 m (regionOut m) c), prefHeld_update c (V7 m c) (regionOut m c), unscopedRestP_update c (V7 m c) (regionOut m c),
      V7_tbl m c, arrAt_last m c]
    iintro ⟨Ha, HO, Hpf, Hrest⟩
    imodintro
    isplitr [HO]
    · isplitl [Ha]
      · iapply ((arrays_deal (adm 0) c (dats m 0 c) (share0 m c) (share1 m c) (share2 m c) (share3 m c) (share4 m c) (share5 m c) (share6 m c)
          (fun b => V8 m (regionOut m) c b)).2)
        iexact Ha
      isplitl [Hpf]; · iexact Hpf
      iexact Hrest
    · unfold Pipeline.Dat.owesAt Pipeline.owesWithin
      icases HO with ⟨%W, -, HO⟩; iexists W; iexact HO

end Cert.Kernel.Hand

end
-- ==== Proof.RunMainK.lean ====
import proofs.«407225_j55808805044518_3_alg».proof.Proof.RunK
import proofs.«407225_j55808805044518_3_alg».proof.Proof.RegionK

noncomputable section

namespace Cert.Kernel.Hand

open Idealize.ShloMosaic Idealize.ShloMosaic.TcCoe
open Idealize.SL Idealize.SL.BI Idealize.SL.Sem
open Cert.Kernel Cert.Kernel.Gen

variable {F : FTy → Type} [FloatOps F]

theorem run_main_out (m : (ℓ : Loc nD τ sig) → Buf (Elt F) ℓ) (ρ : Dev nD → PrngReg) :
    θ_run defs (onTc (τ := τ) (main (F := F))) ⟨m, fun _ => 0, ρ⟩ (fun r => ∀ c : Dev nD, ∀ b : Ref sig .tc,
      b.isScoped = false → r.2.mem ((c.tc : Thread nD τ).loc b) = V21 m (regionOut m) c (Proc.devRef .tc b)) :=
  run_main_of m ρ adm (dats m) (regionOut m) (R0 m) (fun _ => BI.Entails.refl _) (fun _ => BI.Entails.refl _)

end Cert.Kernel.Hand

end
-- ==== Proof.ValsKI.lean ====
import proofs.«407225_j55808805044518_3_alg».proof.Proof.Gen.KernelIdeal.Launch
import Idealize.ShloMosaic.Lib.StableHlo.Run

noncomputable section

namespace Cert.KernelIdeal.Hand

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

abbrev Out : Type := (c : Dev nD) → Buf (Elt F) ((c : Thread nD τ).loc main_v16)

variable (out : Out (F := F))

abbrev V0 (c : Dev nD) : Valuation τ sig (Elt F) := fun b => m (c, b)

abbrev V1 (c : Dev nD) : Valuation τ sig (Elt F) := StableHlo.after hostOps0 (V0 m c)

abbrev V2 (c : Dev nD) : Valuation τ sig (Elt F) := StableHlo.after hostOps0_1 (V1 m c)

abbrev V3 (c : Dev nD) : Valuation τ sig (Elt F) := StableHlo.after hostOps0_2 (V2 m c)

abbrev V4 (c : Dev nD) : Valuation τ sig (Elt F) := StableHlo.after hostOps0_3 (V3 m c)

abbrev V5 (c : Dev nD) : Valuation τ sig (Elt F) := StableHlo.after hostOps0_4 (V4 m c)

abbrev V6 (c : Dev nD) : Valuation τ sig (Elt F) := StableHlo.after hostOps0_5 (V5 m c)

abbrev V7 (c : Dev nD) : Valuation τ sig (Elt F) := StableHlo.after hostOps0_6 (V6 m c)

abbrev V8 (c : Dev nD) : Valuation τ sig (Elt F) := Function.update (V7 m c) (Proc.devRef .tc main_v16) (out c)

abbrev V9 (c : Dev nD) : Valuation τ sig (Elt F) := StableHlo.after hostOps1 (V8 m out c)

abbrev V10 (c : Dev nD) : Valuation τ sig (Elt F) := StableHlo.after hostOps1_1 (V9 m out c)

abbrev V11 (c : Dev nD) : Valuation τ sig (Elt F) := StableHlo.after hostOps1_2 (V10 m out c)

abbrev V12 (c : Dev nD) : Valuation τ sig (Elt F) := StableHlo.after hostOps1_3 (V11 m out c)

abbrev V13 (c : Dev nD) : Valuation τ sig (Elt F) := StableHlo.after hostOps1_4 (V12 m out c)

abbrev V14 (c : Dev nD) : Valuation τ sig (Elt F) := StableHlo.after hostOps1_5 (V13 m out c)

abbrev V15 (c : Dev nD) : Valuation τ sig (Elt F) := StableHlo.after hostOps1_6 (V14 m out c)

abbrev V16 (c : Dev nD) : Valuation τ sig (Elt F) := StableHlo.after hostOps1_7 (V15 m out c)

abbrev V17 (c : Dev nD) : Valuation τ sig (Elt F) := StableHlo.after hostOps1_8 (V16 m out c)

abbrev V18 (c : Dev nD) : Valuation τ sig (Elt F) := StableHlo.after hostOps1_9 (V17 m out c)

abbrev V19 (c : Dev nD) : Valuation τ sig (Elt F) := StableHlo.after hostOps1_10 (V18 m out c)

abbrev V20 (c : Dev nD) : Valuation τ sig (Elt F) := StableHlo.after hostOps1_11 (V19 m out c)

abbrev V21 (c : Dev nD) : Valuation τ sig (Elt F) := StableHlo.after hostOps1_12 (V20 m out c)

end Cert.KernelIdeal.Hand

end
-- ==== Proof.WritesKI.lean ====
import proofs.«407225_j55808805044518_3_alg».proof.Proof.ValsKI
import proofs.«407225_j55808805044518_3_alg».proof.Proof.RefStage

/-! What the host stretches of the main function write, and what each item leaves unchanged. -/

noncomputable section

namespace Cert.KernelIdeal.Hand

open Idealize.ShloMosaic Idealize.ShloMosaic.TcCoe Idealize.SL.Sem
open Cert.KernelIdeal Cert.KernelIdeal.Gen Cert.RefStage

variable {F : FTy → Type} [FloatOps F]

abbrev hostOps0_W : List (Ref sig .tc) := [ main_c, main_c_0 ]
theorem hostOps0_at : WritesAt (hostOps0 : List (HloOp τ sig (Elt F))) hostOps0_W := by repeat' first | exact .nil | refine .cons ⟨rfl, rfl⟩ ?_
abbrev hostOps0_1_W : List (Ref sig .tc) := [ main_call0_v0, main_call0_cst, main_call0_v1, main_call0_v2, main_v0 ]
theorem hostOps0_1_at : WritesAt (hostOps0_1 : List (HloOp τ sig (Elt F))) hostOps0_1_W := by repeat' first | exact .nil | refine .cons ⟨rfl, rfl⟩ ?_
abbrev hostOps0_2_W : List (Ref sig .tc) := [ main_cst, main_v1, main_v2, main_cst_1, main_v3, main_v4, main_v5, main_v6, main_v7, main_c_2, main_v8, main_v9, main_c_3 ]
theorem hostOps0_2_at : WritesAt (hostOps0_2 : List (HloOp τ sig (Elt F))) hostOps0_2_W := by repeat' first | exact .nil | refine .cons ⟨rfl, rfl⟩ ?_
abbrev hostOps0_3_W : List (Ref sig .tc) := [ main_call1_v0, main_v10 ]
theorem hostOps0_3_at : WritesAt (hostOps0_3 : List (HloOp τ sig (Elt F))) hostOps0_3_W := by repeat' first | exact .nil | refine .cons ⟨rfl, rfl⟩ ?_
abbrev hostOps0_4_W : List (Ref sig .tc) := [ main_v11, main_c_4 ]
theorem hostOps0_4_at : WritesAt (hostOps0_4 : List (HloOp τ sig (Elt F))) hostOps0_4_W := by repeat' first | exact .nil | refine .cons ⟨rfl, rfl⟩ ?_
abbrev hostOps0_5_W : List (Ref sig .tc) := [ main_call2_v0, main_v12 ]
theorem hostOps0_5_at : WritesAt (hostOps0_5 : List (HloOp τ sig (Elt F))) hostOps0_5_W := by repeat' first | exact .nil | refine .cons ⟨rfl, rfl⟩ ?_
abbrev hostOps0_6_W : List (Ref sig .tc) := [ main_v13, main_v14, main_v15 ]
theorem hostOps0_6_at : WritesAt (hostOps0_6 : List (HloOp τ sig (Elt F))) hostOps0_6_W := by repeat' first | exact .nil | refine .cons ⟨rfl, rfl⟩ ?_
abbrev hostOps1_W : List (Ref sig .tc) := [ main_v17, main_v18, main_cst_5, main_v19, main_c_6, main_v20, main_v21, main_v22, main_c_7 ]
theorem hostOps1_at : WritesAt (hostOps1 : List (HloOp τ sig (Elt F))) hostOps1_W := by repeat' first | exact .nil | refine .cons ⟨rfl, rfl⟩ ?_
abbrev hostOps1_1_W : List (Ref sig .tc) := [ main_call3_v0, main_call3_v1, main_v23 ]
theorem hostOps1_1_at : WritesAt (hostOps1_1 : List (HloOp τ sig (Elt F))) hostOps1_1_W := by repeat' first | exact .nil | refine .cons ⟨rfl, rfl⟩ ?_
abbrev hostOps1_2_W : List (Ref sig .tc) := [ main_c_8, main_v24, main_c_9, main_v25, main_v26, main_c_10, main_v27, main_v28, main_v29, main_v30, main_c_11, main_v31, main_v32, main_v33, main_v34, main_c_12, main_v35, main_c_13, main_v36, main_v37, main_v38, main_c_14 ]
theorem hostOps1_2_at : WritesAt (hostOps1_2 : List (HloOp τ sig (Elt F))) hostOps1_2_W := by repeat' first | exact .nil | refine .cons ⟨rfl, rfl⟩ ?_
abbrev hostOps1_3_W : List (Ref sig .tc) := [ main_call4_v0, main_call4_v1, main_call4_v2, main_call4_v3, main_call4_v4, main_call4_v5, main_call4_v6, main_call4_v7, main_call4_v8, main_call4_c, main_call4_v9, main_call4_v10, main_call4_v11, main_call4_c_0, main_call4_v12, main_call4_v13, main_v39 ]
theorem hostOps1_3_at : WritesAt (hostOps1_3 : List (HloOp τ sig (Elt F))) hostOps1_3_W := by repeat' first | exact .nil | refine .cons ⟨rfl, rfl⟩ ?_
abbrev hostOps1_4_W : List (Ref sig .tc) := [ main_c_15, main_v40, main_v41, main_v42, main_c_16 ]
theorem hostOps1_4_at : WritesAt (hostOps1_4 : List (HloOp τ sig (Elt F))) hostOps1_4_W := by repeat' first | exact .nil | refine .cons ⟨rfl, rfl⟩ ?_
abbrev hostOps1_5_W : List (Ref sig .tc) := [ main_call5_v0, main_call5_v1, main_call5_v2, main_call5_v3, main_call5_v4, main_call5_v5, main_call5_v6, main_call5_v7, main_call5_v8, main_call5_c, main_call5_v9, main_call5_v10, main_call5_v11, main_call5_c_0, main_call5_v12, main_call5_v13, main_v43 ]
theorem hostOps1_5_at : WritesAt (hostOps1_5 : List (HloOp τ sig (Elt F))) hostOps1_5_W := by repeat' first | exact .nil | refine .cons ⟨rfl, rfl⟩ ?_
abbrev hostOps1_6_W : List (Ref sig .tc) := [ main_c_17, main_v44, main_v45, main_c_18, main_v46, main_c_19, main_v47, main_v48, main_cst_20, main_v49, main_v50, main_cst_21 ]
theorem hostOps1_6_at : WritesAt (hostOps1_6 : List (HloOp τ sig (Elt F))) hostOps1_6_W := by repeat' first | exact .nil | refine .cons ⟨rfl, rfl⟩ ?_
abbrev hostOps1_7_W : List (Ref sig .tc) := [ main_call6_v0, main_v51 ]
theorem hostOps1_7_at : WritesAt (hostOps1_7 : List (HloOp τ sig (Elt F))) hostOps1_7_W := by repeat' first | exact .nil | refine .cons ⟨rfl, rfl⟩ ?_
abbrev hostOps1_8_W : List (Ref sig .tc) := [ main_c_22, main_v52, main_v53, main_c_23, main_v54, main_v55, main_v56, main_v57, main_v58, main_c_24, main_v59, main_v60, main_c_25, main_v61, main_v62, main_v63, main_v64, main_v65, main_c_26, main_v66, main_v67, main_c_27, main_v68, main_v69, main_v70, main_v71, main_v72, main_v73, main_v74, main_c_28, main_v75, main_v76, main_c_29, main_v77, main_v78, main_v79, main_v80, main_v81, main_v82, main_v83, main_c_30, main_v84, main_v85, main_c_31, main_v86, main_v87, main_v88, main_v89, main_v90, main_c_32, main_v91, main_v92, main_c_33, main_v93, main_v94, main_v95, main_v96, main_v97, main_v98, main_c_34, main_v99, main_v100, main_c_35, main_v101, main_v102, main_v103, main_v104, main_v105, main_c_36, main_v106, main_v107, main_c_37, main_v108, main_v109, main_v110, main_v111, main_v112, main_v113, main_v114, main_c_38, main_v115, main_v116, main_c_39, main_v117, main_v118, main_v119, main_v120, main_v121, main_c_40, main_v122, main_v123, main_c_41, main_v124, main_v125, main_c_42, main_v126, main_v127, main_v128, main_v129, main_v130, main_c_43, main_v131, main_v132, main_v133, main_v134, main_v135, main_cst_44, main_v136, main_cst_45, main_v137, main_v138, main_cst_46, main_v139, main_v140, main_v141, main_c_47, main_v142, main_cst_48 ]
theorem hostOps1_8_at : WritesAt (hostOps1_8 : List (HloOp τ sig (Elt F))) hostOps1_8_W := by repeat' first | exact .nil | refine .cons ⟨rfl, rfl⟩ ?_
abbrev hostOps1_9_W : List (Ref sig .tc) := [ main_call7_v0, main_call7_v1, main_v143 ]
theorem hostOps1_9_at : WritesAt (hostOps1_9 : List (HloOp τ sig (Elt F))) hostOps1_9_W := by repeat' first | exact .nil | refine .cons ⟨rfl, rfl⟩ ?_
abbrev hostOps1_10_W : List (Ref sig .tc) := [ main_cst_49, main_v144, main_c_50, main_v145, main_c_51, main_v146, main_v147, main_v148, main_cst_52 ]
theorem hostOps1_10_at : WritesAt (hostOps1_10 : List (HloOp τ sig (Elt F))) hostOps1_10_W := by repeat' first | exact .nil | refine .cons ⟨rfl, rfl⟩ ?_
abbrev hostOps1_11_W : List (Ref sig .tc) := [ main_call8_v0, main_v149 ]
theorem hostOps1_11_at : WritesAt (hostOps1_11 : List (HloOp τ sig (Elt F))) hostOps1_11_W := by repeat' first | exact .nil | refine .cons ⟨rfl, rfl⟩ ?_
abbrev hostOps1_12_W : List (Ref sig .tc) := [ main_v150 ]
theorem hostOps1_12_at : WritesAt (hostOps1_12 : List (HloOp τ sig (Elt F))) hostOps1_12_W := by repeat' first | exact .nil | refine .cons ⟨rfl, rfl⟩ ?_

variable (m : (ℓ : Loc nD τ sig) → Buf (Elt F) ℓ) (out : Out (F := F))

theorem V1_of (c : Dev nD) (r : Ref sig .tc) (h : r ∉ hostOps0_W) : V1 m c r = V0 m c r := hostOps0_at.carry _ h
theorem V2_of (c : Dev nD) (r : Ref sig .tc) (h : r ∉ hostOps0_1_W) : V2 m c r = V1 m c r := hostOps0_1_at.carry _ h
theorem V3_of (c : Dev nD) (r : Ref sig .tc) (h : r ∉ hostOps0_2_W) : V3 m c r = V2 m c r := hostOps0_2_at.carry _ h
theorem V4_of (c : Dev nD) (r : Ref sig .tc) (h : r ∉ hostOps0_3_W) : V4 m c r = V3 m c r := hostOps0_3_at.carry _ h
theorem V5_of (c : Dev nD) (r : Ref sig .tc) (h : r ∉ hostOps0_4_W) : V5 m c r = V4 m c r := hostOps0_4_at.carry _ h
theorem V6_of (c : Dev nD) (r : Ref sig .tc) (h : r ∉ hostOps0_5_W) : V6 m c r = V5 m c r := hostOps0_5_at.carry _ h
theorem V7_of (c : Dev nD) (r : Ref sig .tc) (h : r ∉ hostOps0_6_W) : V7 m c r = V6 m c r := hostOps0_6_at.carry _ h
theorem V8_of (c : Dev nD) (r : Ref sig .tc) (h : r ≠ main_v16) : V8 m out c r = V7 m c r := by
  simp only [V8, Function.update_of_ne (StableHlo.devRef_ne_of_ne h : (Proc.devRef .tc r : DevRef τ sig) ≠ Proc.devRef .tc main_v16)]
theorem V9_of (c : Dev nD) (r : Ref sig .tc) (h : r ∉ hostOps1_W) : V9 m out c r = V8 m out c r := hostOps1_at.carry _ h
theorem V10_of (c : Dev nD) (r : Ref sig .tc) (h : r ∉ hostOps1_1_W) : V10 m out c r = V9 m out c r := hostOps1_1_at.carry _ h
theorem V11_of (c : Dev nD) (r : Ref sig .tc) (h : r ∉ hostOps1_2_W) : V11 m out c r = V10 m out c r := hostOps1_2_at.carry _ h
theorem V12_of (c : Dev nD) (r : Ref sig .tc) (h : r ∉ hostOps1_3_W) : V12 m out c r = V11 m out c r := hostOps1_3_at.carry _ h
theorem V13_of (c : Dev nD) (r : Ref sig .tc) (h : r ∉ hostOps1_4_W) : V13 m out c r = V12 m out c r := hostOps1_4_at.carry _ h
theorem V14_of (c : Dev nD) (r : Ref sig .tc) (h : r ∉ hostOps1_5_W) : V14 m out c r = V13 m out c r := hostOps1_5_at.carry _ h
theorem V15_of (c : Dev nD) (r : Ref sig .tc) (h : r ∉ hostOps1_6_W) : V15 m out c r = V14 m out c r := hostOps1_6_at.carry _ h
theorem V16_of (c : Dev nD) (r : Ref sig .tc) (h : r ∉ hostOps1_7_W) : V16 m out c r = V15 m out c r := hostOps1_7_at.carry _ h
theorem V17_of (c : Dev nD) (r : Ref sig .tc) (h : r ∉ hostOps1_8_W) : V17 m out c r = V16 m out c r := hostOps1_8_at.carry _ h
theorem V18_of (c : Dev nD) (r : Ref sig .tc) (h : r ∉ hostOps1_9_W) : V18 m out c r = V17 m out c r := hostOps1_9_at.carry _ h
theorem V19_of (c : Dev nD) (r : Ref sig .tc) (h : r ∉ hostOps1_10_W) : V19 m out c r = V18 m out c r := hostOps1_10_at.carry _ h
theorem V20_of (c : Dev nD) (r : Ref sig .tc) (h : r ∉ hostOps1_11_W) : V20 m out c r = V19 m out c r := hostOps1_11_at.carry _ h
theorem V21_of (c : Dev nD) (r : Ref sig .tc) (h : r ∉ hostOps1_12_W) : V21 m out c r = V20 m out c r := hostOps1_12_at.carry _ h

/-- The references item `i` of the main function writes (the kernel region writes its output array). -/
noncomputable def itemW : ℕ → List (Ref sig .tc)
  | 0 => hostOps0_W
  | 1 => hostOps0_1_W
  | 2 => hostOps0_2_W
  | 3 => hostOps0_3_W
  | 4 => hostOps0_4_W
  | 5 => hostOps0_5_W
  | 6 => hostOps0_6_W
  | 7 => [main_v16]
  | 8 => hostOps1_W
  | 9 => hostOps1_1_W
  | 10 => hostOps1_2_W
  | 11 => hostOps1_3_W
  | 12 => hostOps1_4_W
  | 13 => hostOps1_5_W
  | 14 => hostOps1_6_W
  | 15 => hostOps1_7_W
  | 16 => hostOps1_8_W
  | 17 => hostOps1_9_W
  | 18 => hostOps1_10_W
  | 19 => hostOps1_11_W
  | 20 => hostOps1_12_W
  | _ => []

/-- A reference no item writes holds at the end what it held at launch. -/
theorem V21_keep (c : Dev nD) (r : Ref sig .tc) (h : ∀ i, i < 21 → r ∉ itemW i) : V21 m out c r = m ((c : Thread nD τ).loc r) :=
  (V21_of m out c r (h 20 (by decide))).trans <|
  (V20_of m out c r (h 19 (by decide))).trans <|
  (V19_of m out c r (h 18 (by decide))).trans <|
  (V18_of m out c r (h 17 (by decide))).trans <|
  (V17_of m out c r (h 16 (by decide))).trans <|
  (V16_of m out c r (h 15 (by decide))).trans <|
  (V15_of m out c r (h 14 (by decide))).trans <|
  (V14_of m out c r (h 13 (by decide))).trans <|
  (V13_of m out c r (h 12 (by decide))).trans <|
  (V12_of m out c r (h 11 (by decide))).trans <|
  (V11_of m out c r (h 10 (by decide))).trans <|
  (V10_of m out c r (h 9 (by decide))).trans <|
  (V9_of m out c r (h 8 (by decide))).trans <|
  (V8_of m out c r fun e => h 7 (by decide) (List.mem_singleton.2 e)).trans <|
  (V7_of m c r (h 6 (by decide))).trans <|
  (V6_of m c r (h 5 (by decide))).trans <|
  (V5_of m c r (h 4 (by decide))).trans <|
  (V4_of m c r (h 3 (by decide))).trans <|
  (V3_of m c r (h 2 (by decide))).trans <|
  (V2_of m c r (h 1 (by decide))).trans <|
  (V1_of m c r (h 0 (by decide))).trans rfl

end Cert.KernelIdeal.Hand

end
-- ==== Proof.HostRunKI.lean ====
import proofs.«407225_j55808805044518_3_alg».proof.Proof.WritesKI
import Idealize.ShloMosaic.Lib.Pipeline.Frame
import Idealize.ShloMosaic.Lib.Pipeline.Regions

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

section Segs

variable {Ix : Type} [DecidableEq Ix] {U : Type} [URA U] {Lvl : Type} [Preorder Lvl]
variable (𝒱₀ : Variants) (L : GSem nD τ sig → Finset Ix) (lv : GSem nD τ sig → Ix → Lvl)

def hostSeg (ops : List (HloOp τ sig (Elt F)))
    (hsub : ops.Forall fun op => op.bufs ⊆ StableHlo.tcRefs τ sig) (hfresh : ∀ op ∈ ops, op.fresh = ∅)
    (V : Dev nD → Valuation τ sig (Elt F)) (R : Dev nD → sProp (MT nD τ sig Ix (Elt F) ℕ U Lvl)) :
    HostSeg (Ix := Ix) (Name := ℕ) (U := U) (Lvl := Lvl) (pcfgs (F := F)) defs₀ 𝒱₀ L lv :=
  HostSeg.ofOps _ _ _ _ _ (Pipeline.ucRefs τ sig) ops
    (fun op h => Pipeline.sub_ucRefs op ((List.forall_iff_forall_mem.mp hsub) op h))
    hfresh V R

end Segs

section

variable {Ix : Type} [DecidableEq Ix] {U : Type} [URA U] {Lvl : Type} [Preorder Lvl]
variable (m : (ℓ : Loc nD τ sig) → Buf (Elt F) ℓ) (out : Out (F := F))

abbrev segs (𝒱₀ : Variants) (L : GSem nD τ sig → Finset Ix) (lv : GSem nD τ sig → Ix → Lvl)
    (E : Fin 2 → Dev nD → sProp (MT nD τ sig Ix (Elt F) ℕ U Lvl)) (ι : Ix)
    (adm : (p : Fin 1) → (pcfgs (F := F) p).Adm)
    (pdats : (p : Fin 1) → (c : Dev nD) → Dat τ (Elt F) Ix ℕ U Lvl (Pipeline.pin (pcfgs (F := F)) adm p) c)
    (R0 : RegionSeg (pcfgs (F := F)) adm pdats ι defs₀ 𝒱₀ L lv 0) :
    List (Seg (pcfgs (F := F)) adm pdats ι defs₀ 𝒱₀ L lv) :=
  [ .host (hostSeg 𝒱₀ L lv hostOps0 hostOps0_sub hostOps0_at.fresh (V0 m) (E 0)),
    .host (hostSeg 𝒱₀ L lv hostOps0_1 hostOps0_1_sub hostOps0_1_at.fresh (V1 m) (E 0)),
    .host (hostSeg 𝒱₀ L lv hostOps0_2 hostOps0_2_sub hostOps0_2_at.fresh (V2 m) (E 0)),
    .host (hostSeg 𝒱₀ L lv hostOps0_3 hostOps0_3_sub hostOps0_3_at.fresh (V3 m) (E 0)),
    .host (hostSeg 𝒱₀ L lv hostOps0_4 hostOps0_4_sub hostOps0_4_at.fresh (V4 m) (E 0)),
    .host (hostSeg 𝒱₀ L lv hostOps0_5 hostOps0_5_sub hostOps0_5_at.fresh (V5 m) (E 0)),
    .host (hostSeg 𝒱₀ L lv hostOps0_6 hostOps0_6_sub hostOps0_6_at.fresh (V6 m) (E 0)),
    .region R0,
    .host (hostSeg 𝒱₀ L lv hostOps1 hostOps1_sub hostOps1_at.fresh (V8 m out) (E 1)),
    .host (hostSeg 𝒱₀ L lv hostOps1_1 hostOps1_1_sub hostOps1_1_at.fresh (V9 m out) (E 1)),
    .host (hostSeg 𝒱₀ L lv hostOps1_2 hostOps1_2_sub hostOps1_2_at.fresh (V10 m out) (E 1)),
    .host (hostSeg 𝒱₀ L lv hostOps1_3 hostOps1_3_sub hostOps1_3_at.fresh (V11 m out) (E 1)),
    .host (hostSeg 𝒱₀ L lv hostOps1_4 hostOps1_4_sub hostOps1_4_at.fresh (V12 m out) (E 1)),
    .host (hostSeg 𝒱₀ L lv hostOps1_5 hostOps1_5_sub hostOps1_5_at.fresh (V13 m out) (E 1)),
    .host (hostSeg 𝒱₀ L lv hostOps1_6 hostOps1_6_sub hostOps1_6_at.fresh (V14 m out) (E 1)),
    .host (hostSeg 𝒱₀ L lv hostOps1_7 hostOps1_7_sub hostOps1_7_at.fresh (V15 m out) (E 1)),
    .host (hostSeg 𝒱₀ L lv hostOps1_8 hostOps1_8_sub hostOps1_8_at.fresh (V16 m out) (E 1)),
    .host (hostSeg 𝒱₀ L lv hostOps1_9 hostOps1_9_sub hostOps1_9_at.fresh (V17 m out) (E 1)),
    .host (hostSeg 𝒱₀ L lv hostOps1_10 hostOps1_10_sub hostOps1_10_at.fresh (V18 m out) (E 1)),
    .host (hostSeg 𝒱₀ L lv hostOps1_11 hostOps1_11_sub hostOps1_11_at.fresh (V19 m out) (E 1)),
    .host (hostSeg 𝒱₀ L lv hostOps1_12 hostOps1_12_sub hostOps1_12_at.fresh (V20 m out) (E 1)) ]

end

theorem segs_progs {Ix : Type} [DecidableEq Ix] {U : Type} [URA U] {Lvl : Type} [Preorder Lvl]
    (m : (ℓ : Loc nD τ sig) → Buf (Elt F) ℓ) (out : Out (F := F))
    (𝒱₀ : Variants) (L : GSem nD τ sig → Finset Ix) (lv : GSem nD τ sig → Ix → Lvl)
    (E : Fin 2 → Dev nD → sProp (MT nD τ sig Ix (Elt F) ℕ U Lvl)) (ι : Ix)
    (adm : (p : Fin 1) → (pcfgs (F := F) p).Adm)
    (pdats : (p : Fin 1) → (c : Dev nD) → Dat τ (Elt F) Ix ℕ U Lvl (Pipeline.pin (pcfgs (F := F)) adm p) c)
    (R0 : RegionSeg (pcfgs (F := F)) adm pdats ι defs₀ 𝒱₀ L lv 0) :
    (segs m out 𝒱₀ L lv E ι adm pdats R0).map Seg.prog =
      [ StableHlo.seq hostOps0, StableHlo.seq hostOps0_1, StableHlo.seq hostOps0_2, StableHlo.seq hostOps0_3,
        StableHlo.seq hostOps0_4, StableHlo.seq hostOps0_5, StableHlo.seq hostOps0_6,
        Prog.lift (.customCall (Pipeline.entry 0) ()),
        StableHlo.seq hostOps1, StableHlo.seq hostOps1_1, StableHlo.seq hostOps1_2, StableHlo.seq hostOps1_3,
        StableHlo.seq hostOps1_4, StableHlo.seq hostOps1_5, StableHlo.seq hostOps1_6, StableHlo.seq hostOps1_7,
        StableHlo.seq hostOps1_8, StableHlo.seq hostOps1_9, StableHlo.seq hostOps1_10, StableHlo.seq hostOps1_11,
        StableHlo.seq hostOps1_12 ] := rfl

section Ends

variable {Ix : Type} [DecidableEq Ix] {U : Type} [URA U] {Lvl : Type} [Preorder Lvl]

theorem entails_of_eq {M : Type} [URA M] {P Q : sProp M} (h : P = Q) : P ⊢ Q := h ▸ BI.Entails.refl P

theorem mem_ucRefs {b : Ref sig .tc} (hb : b.isScoped = false) : Proc.devRef (τ := τ) .tc b ∈ Pipeline.ucRefs τ sig :=
  Finset.mem_filter.mpr ⟨StableHlo.devRef_mem_tcRefs b, fun h => Bool.false_ne_true (hb.symm.trans h)⟩

theorem launch_deal (m : (ℓ : Loc nD τ sig) → Buf (Elt F) ℓ) (X : Dev nD → sProp (MT nD τ sig Ix (Elt F) ℕ U Lvl)) :
    (bigSep Finset.univ fun c : Dev nD => iprop(unscopedBufs c (fun b => m ((c.tc : Thread nD τ).loc b)) ∗ X c))
      ⊢ iprop((bigSep Finset.univ fun c : Dev nD => StableHlo.held (c : Thread nD τ) (Pipeline.ucRefs τ sig) (V0 m c))
          ∗ bigSep Finset.univ X) := by
  rw [← bigSep_sep']
  exact bigSep_mono fun c _ => BI.sep_mono
    (entails_of_eq (Pipeline.unscopedBufs_held (Ix := Ix) (Name := ℕ) (U := U) (Lvl := Lvl) c (V0 m c))) (BI.Entails.refl _)

theorem held_read (c : Dev nD) (V : Valuation τ sig (Elt F)) (s' : Phys nD τ sig (Elt F)) :
    (iprop(StableHlo.held (c : Thread nD τ) (Pipeline.ucRefs τ sig) V ∗ SI s') : sProp (MT nD τ sig Ix (Elt F) ℕ U Lvl))
      ⊢ iprop(⌜∀ b : Ref sig .tc, b.isScoped = false → s'.mem.mem ((c.tc : Thread nD τ).loc b) = V (Proc.devRef .tc b)⌝ ∗ SI s') :=
  (pointsTo_read_all (Pipeline.ucRefs τ sig) (fun b => ((c : Thread nD τ).1, b)) V s').trans <|
    BI.sep_mono (BI.pure_mono fun h b hb => h (Proc.devRef .tc b) (mem_ucRefs hb)) (BI.Entails.refl _)

end Ends

set_option backward.isDefEq.respectTransparency.types false in
set_option maxRecDepth 4096 in

theorem run_cond {Ix : Type} [DecidableEq Ix] {U : Type} [URA U] {Lvl : Type} [Preorder Lvl]
    (m : (ℓ : Loc nD τ sig) → Buf (Elt F) ℓ) (out : Out (F := F))
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg)
    (adm : (p : Fin 1) → (pcfgs (F := F) p).Adm)
    (pdats : (p : Fin 1) → (c : Dev nD) → Dat τ (Elt F) Ix ℕ U Lvl (Pipeline.pin (pcfgs (F := F)) adm p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells (Pipeline.pin (pcfgs (F := F)) adm) (cellOf_inj adm)) (Pipeline.launchToks (Pipeline.pin (pcfgs (F := F)) adm) (cellOf_inj adm)))) ∗ bigSep Finset.univ G))
    (E : Fin 2 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE1 : ∀ c : Dev nD, E 1 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V7 m c) ∗ E 0 c) ⊢ R0.pre c)
    (hpost0 : ∀ c : Dev nD, R0.post c ⊢ iprop(StableHlo.held (c : Thread nD τ) (Pipeline.ucRefs τ sig) (V8 m out c) ∗ E 1 c)) :
    θ_run defs (onTc (τ := τ) (main (F := F))) ⟨m, fun _ => 0, ρ⟩ (fun r => ∀ c : Dev nD, ∀ b : Ref sig .tc,
      b.isScoped = false → r.2.mem ((c.tc : Thread nD τ).loc b) = V21 m out c (Proc.devRef .tc b)) := by
  refine Pipeline.θ_run_regions_kit_dev (pcfgs (F := F)) adm pdats ι (cellOf_inj adm) EP defs₀ 𝒱₀ L lv m ρ main
    (fun _ => segs m out 𝒱₀ L lv E ι adm pdats R0) (fun c Q => ?_) (fun c => ?_) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V21 m out c))
    (hch := fun c => ?_) (hinit := ?_)
    (QY := fun c s => ∀ b : Ref sig .tc, b.isScoped = false → s.mem ((c.tc : Thread nD τ).loc b) = V21 m out c (Proc.devRef .tc b))
    (hfin := fun c s' => ?_) (hQ := fun _ h => h)
  ·

    rewrite [main_chain c, Seg.run_eq_chain, segs_progs]
    exact BI.Entails.refl _
  ·
    simp only [segs, Seg.pipes_host, Seg.pipes_region, Seg.pipes_nil]; decide
  ·

    have hrfl : ∀ P : sProp (MT nD τ sig Ix (Elt F) ℕ U Lvl), P ⊢ P := fun _ => .rfl
    exact ⟨hrfl _, hrfl _, hrfl _, hrfl _, hrfl _, hrfl _, hrfl _, hpre0 c, hpost0 c,
      hrfl _, hrfl _, hrfl _, hrfl _, hrfl _, hrfl _, hrfl _, hrfl _, hrfl _, hrfl _, hrfl _, hrfl _, sep_mono .rfl (hE1 c)⟩
  ·
    exact (BI.sep_mono (launch_deal m _) (BI.Entails.refl _)).trans <| BI.sep_assoc.trans <|
      (BI.sep_mono (BI.Entails.refl _) hE0).trans <| fupd_frame_left.trans <| fupd_mono <| entails_of_eq (bigSep_sep' _ _ _).symm
  ·
    exact (held_read c (V21 m out c) s').trans fupd_intro

end Cert.KernelIdeal.Hand

end
-- ==== Proof.RunKI.lean ====
import proofs.«407225_j55808805044518_3_alg».proof.Proof.HostRunKI
import Idealize.ShloMosaic.Lib.Pipeline.Kit

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

local notation "𝕄" => MT nD τ sig Unit (Elt F) ℕ (UR sig nD τ) ℕ

local notation "owesNothing" c => (iprop(∃ W, owes ((c : Dev nD) : Thread nD τ) (0 : CellTallies nD τ sig Unit) W) : sProp 𝕄)

theorem launch_element (adm : (p : Fin 1) → (pcfgs (F := F) p).Adm) :
    (ownU (initOf (Pipeline.cells (Pipeline.pin (pcfgs (F := F)) adm) (cellOf_inj adm)) (Pipeline.launchToks (Pipeline.pin (pcfgs (F := F)) adm) (cellOf_inj adm))) : sProp 𝕄)
      ⊢ |={Set.univ}=> iprop(BI.own ((emb₁ : Emb (UR sig nD τ) 𝕄) (initOf (Pipeline.cells (Pipeline.pin (pcfgs (F := F)) adm) (cellOf_inj adm)) (Pipeline.launchToks (Pipeline.pin (pcfgs (F := F)) adm) (cellOf_inj adm))))
          ∗ bigSep Finset.univ fun _ : Dev nD => (BI.emp : sProp 𝕄)) := by
  rw [BI.bigSep_emp_const, ownU_emb₁]
  refine BI.Entails.trans BI.sep_emp_intro ?_
  exact fupd_intro (PROP := sProp 𝕄)

theorem launch_rest (ρ : Dev nD → PrngReg) :
    (iprop((bigSep Finset.univ fun c : Dev nD => iprop(unscopedSems0 c ∗ owes (c : Thread nD τ) ((0 : Dev nD → CellTallies nD τ sig Unit) c) ∅
          ∗ Pipeline.launchCred (0 : Dev nD → CellTallies nD τ sig Unit) c ∗ prngReg c (ρ c) ∗ (BI.emp : sProp 𝕄)))
        ∗ levAts (fun _ : GSem nD τ sig => (∅ : Finset Unit)) (fun _ _ => (0 : ℕ))) : sProp 𝕄)
      ⊢ |={Set.univ}=> bigSep Finset.univ fun c : Dev nD => owesNothing c := by
  refine Pipeline.initEach _ _ fun c => ?_
  iintro ⟨⟨-, HO, -⟩, -⟩
  imodintro
  iexists ∅
  iexact HO

theorem run_main_of (m : (ℓ : Loc nD τ sig) → Buf (Elt F) ℓ) (ρ : Dev nD → PrngReg)
    (adm : (p : Fin 1) → (pcfgs (F := F) p).Adm)
    (pdats : (p : Fin 1) → (c : Dev nD) → Dat τ (Elt F) Unit ℕ (UR sig nD τ) ℕ (Pipeline.pin (pcfgs (F := F)) adm p) c)
    (out : Out (F := F))
    (R0 : RegionSeg (pcfgs (F := F)) adm pdats () defs₀ Variants.none (fun _ : GSem nD τ sig => (∅ : Finset Unit)) (fun _ _ => (0 : ℕ)) 0)
    (hpre0 : ∀ c : Dev nD, iprop(StableHlo.held (c : Thread nD τ) (Pipeline.ucRefs τ sig) (V7 m c) ∗ owesNothing c) ⊢ R0.pre c)
    (hpost0 : ∀ c : Dev nD, R0.post c ⊢ iprop(StableHlo.held (c : Thread nD τ) (Pipeline.ucRefs τ sig) (V8 m out c) ∗ owesNothing c)) :
    θ_run defs (onTc (τ := τ) (main (F := F))) ⟨m, fun _ => 0, ρ⟩ (fun r => ∀ c : Dev nD, ∀ b : Ref sig .tc,
      b.isScoped = false → r.2.mem ((c.tc : Thread nD τ).loc b) = V21 m out c (Proc.devRef .tc b)) :=
  run_cond m out (emb₁ : Emb (UR sig nD τ) 𝕄) () Variants.none (fun _ => ∅) (fun _ _ => 0) (fun _ _ => rfl) ρ adm pdats
    (O₀ := 0) (G := fun _ => BI.emp)
    (u₀ := initOf (Pipeline.cells (Pipeline.pin (pcfgs (F := F)) adm) (cellOf_inj adm)) (Pipeline.launchToks (Pipeline.pin (pcfgs (F := F)) adm) (cellOf_inj adm)))
    (launch_element adm) (E := fun _ c => owesNothing c) (launch_rest ρ) (fun c => BI.Entails.refl _) R0 hpre0 hpost0

end Cert.KernelIdeal.Hand

end
-- ==== Proof.BodyKI.lean ====
import proofs.«407225_j55808805044518_3_alg».proof.Proof.Gen.KernelIdeal.Skeleton
import Idealize.ShloMosaic.Lib.Tactic
import Idealize.ShloMosaic.Lib.Pipeline.Kit
import Idealize.ShloMosaic.Lib.Pipeline.Frame
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

abbrev tbA : Memref sig .tc .smem S20 .i32 := Memref.whole main_c
abbrev tbB : Memref sig .tc .smem S20 .i32 := Memref.whole main_c_0

abbrev TbBuf (c : Dev nD) {S : Shape} {e : EltTy} (M : Memref sig .tc .smem S e) : Type := Buf (Elt F) (M.view.loc (c : Thread nD τ))
abbrev tbPt (c : Dev nD) {S : Shape} {e : EltTy} (M : Memref sig .tc .smem S e) (q : PosShare TreeShare) (f : TbBuf (F := F) c M) : sProp 𝕄 :=
  M.view.loc (c : Thread nD τ) ↦{q} f

def tblWord (x : Vec F S20 .i32) (i : grid0.Coords) : Elt F .i32 :=
  x ((Rect.unit (s := S20) (k0_off1 i) S1.size (Gen.k0_off1_inb i)).emb (Shape.Idx.first (Gen.numel1_S1.symm ▸ Nat.one_pos)))

def bodyVal (xa xb : Vec F S20 .i32) (i : grid0.Coords) (x3 : Vec F S1024x512 .bf16) (x4 : Vec F S2048x512 .bf16)
    (x5 : Vec F S1024x1 .i32) (x6 : Vec F S1x2048 .i32) (x7 : Vec F S1024x1 .i32) (x8 : Vec F S1x2048 .i32) : FVec F S1x8x128 .f32 :=
  k0_pay1 (k0_pay2 (tblWord xa i) (tblWord xb i) x5 x6 x7 x8 x3 x4)

theorem zeros2 : (![0, 0] : Fin 2 → ℕ) = fun _ => 0 := by funext a; fin_cases a <;> rfl
theorem zeros3 : (![0, 0, 0] : Fin 3 → ℕ) = fun _ => 0 := by funext a; fin_cases a <;> rfl

theorem readAt_whole2 {S : Shape} {e : EltTy} (M : Memref sig .tc .vmem S e) (hM : M.IsWhole) (X : S.Idx → Elt F e)
    {off : Fin S.rank → ℕ} (hz : off = fun _ => 0) (inb : ∀ a, off a + S.size a ≤ S.size a) :
    View.readAt (Elt F) M.view (Rect.unit off S.size inb).toLoadRect (hM.unread X) = X :=
  (show View.readAt (Elt F) M.view (Rect.unit off S.size inb).toLoadRect (hM.unread X)
      = View.ld (M.view.read (Elt F) (hM.unread X)) (Rect.unit off S.size inb) from rfl).trans
    (by rw [hM.read_unread]; exact View.ld_unit_zero hz inb X)

theorem read_store_unit_zero {S : Shape} {e : EltTy} {sp : Space} (v : View sig .tc sp S e) (f : v.ty.Contents (Elt F))
    {off : Fin S.rank → ℕ} (hz : off = fun _ => 0) (inb : ∀ a, off a + S.size a ≤ S.size a) (w : S.Idx → Elt F e) :
    v.read (Elt F) (v.writes (Elt F) f [⟨Rect.unit off S.size inb, w⟩]) = w := by
  subst hz; exact View.read_writes_whole v f w

theorem readAt_tblWordA (c : Dev nD) (x : TbBuf (F := F) c tbA) (i : grid0.Coords) (h1) (h2) :
    View.readAt (Elt F) tbA.view (Rect.unit (s := S20) (k0_off1 i) S1.size h1).toLoadRect x (Shape.Idx.first h2) = tblWord x i := rfl

theorem readAt_tblWordB (c : Dev nD) (x : TbBuf (F := F) c tbB) (i : grid0.Coords) (h1) (h2) :
    View.readAt (Elt F) tbB.view (Rect.unit (s := S20) (k0_off1 i) S1.size h1).toLoadRect x (Shape.Idx.first h2) = tblWord x i := rfl

theorem kernelRun (c : Dev nD) (i : grid0.Coords)
    (arg3 : Memref sig .tc .vmem S1024x512 .bf16) (harg3 : arg3.IsWhole) (arg4 : Memref sig .tc .vmem S2048x512 .bf16) (harg4 : arg4.IsWhole)
    (arg5 : Memref sig .tc .vmem S1024x1 .i32) (harg5 : arg5.IsWhole) (arg6 : Memref sig .tc .vmem S1x2048 .i32) (harg6 : arg6.IsWhole)
    (arg7 : Memref sig .tc .vmem S1024x1 .i32) (harg7 : arg7.IsWhole) (arg8 : Memref sig .tc .vmem S1x2048 .i32) (harg8 : arg8.IsWhole)
    (arg9 : Memref sig .tc .vmem S1x8x128 .f32) (harg9 : arg9.IsWhole)
    (qa qb : PosShare TreeShare)
    (xa : TbBuf (F := F) c tbA) (xb : TbBuf (F := F) c tbB)
    (x3 : Vec F S1024x512 .bf16) (x4 : Vec F S2048x512 .bf16) (x5 : Vec F S1024x1 .i32) (x6 : Vec F S1x2048 .i32)
    (x7 : Vec F S1024x1 .i32) (x8 : Vec F S1x2048 .i32)
    (E : Set ℕ) (K : PUnit → sProp 𝕄) :
    iprop(tbPt c tbA qa xa ∗ tbPt c tbB qb xb
        ∗ owns (c : Thread nD τ) arg3 fullShare x3 ∗ owns (c : Thread nD τ) arg4 fullShare x4
        ∗ owns (c : Thread nD τ) arg5 fullShare x5 ∗ owns (c : Thread nD τ) arg6 fullShare x6
        ∗ owns (c : Thread nD τ) arg7 fullShare x7 ∗ owns (c : Thread nD τ) arg8 fullShare x8
        ∗ (∃ d, owns (c : Thread nD τ) arg9 fullShare d)
        ∗ (iprop(tbPt c tbA qa xa ∗ tbPt c tbB qb xb
            ∗ owns (c : Thread nD τ) arg3 fullShare x3 ∗ owns (c : Thread nD τ) arg4 fullShare x4
            ∗ owns (c : Thread nD τ) arg5 fullShare x5 ∗ owns (c : Thread nD τ) arg6 fullShare x6
            ∗ owns (c : Thread nD τ) arg7 fullShare x7 ∗ owns (c : Thread nD τ) arg8 fullShare x8
            ∗ owns (c : Thread nD τ) arg9 fullShare (bodyVal xa xb i x3 x4 x5 x6 x7 x8)) -∗ K ⟨⟩))
      ⊢ wp frame (wpE (defs₀ (F := F)) Variants.none c none) E
          (cc0__pos_kernel i tbA (Memref.isWhole_whole _) tbB (Memref.isWhole_whole _) arg3 harg3 arg4 harg4 arg5 harg5 arg6 harg6 arg7 harg7 arg8 harg8 arg9 harg9) K := by
  simp only [cc0__pos_kernel_eq_skeleton]; unfold cc0__pos_kernel_skel
  simp only [k0_part1_eq_skeleton]; unfold k0_part1_skel
  unfold owns
  iintro ⟨HA, HB, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  obtain rfl := harg3.eq_unread hf3
  obtain rfl := harg4.eq_unread hf4
  obtain rfl := harg5.eq_unread hf5
  obtain rfl := harg6.eq_unread hf6
  obtain rfl := harg7.eq_unread hf7
  obtain rfl := harg8.eq_unread hf8
  sl_exec
  sl_step
  iapply Hk
  isplitl [HA]; · iexact HA
  isplitl [HB]; · iexact HB
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  iexists _; isplitr
  swap; · iexact H9
  ipureintro
  sl_unfold_run_names
  refine (read_store_unit_zero (S := S1x8x128) arg9.view f9 zeros3 _ _).trans ?_
  rw [readAt_whole2 (S := S1024x1) arg5 harg5 x5 zeros2, readAt_whole2 (S := S1x2048) arg6 harg6 x6 zeros2,
    readAt_whole2 (S := S1024x1) arg7 harg7 x7 zeros2, readAt_whole2 (S := S1x2048) arg8 harg8 x8 zeros2,
    readAt_whole2 (S := S1024x512) arg3 harg3 x3 zeros2, readAt_whole2 (S := S2048x512) arg4 harg4 x4 zeros2,
    readAt_tblWordA c xa i, readAt_tblWordB c xb i]
  unfold bodyVal
  rfl

end Cert.KernelIdeal.Hand

end
-- ==== Proof.TileKI.lean ====
import proofs.«407225_j55808805044518_3_alg».proof.Proof.ValsKI
import proofs.«407225_j55808805044518_3_alg».proof.Proof.Gen.KernelIdeal.Skeleton
import Idealize.ShloMosaic.Lib.ValueIdx

noncomputable section

namespace Cert.KernelIdeal.Hand

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

def rowIx (k : ℕ) : Fin 8192 := ⟨k % 8192, Nat.mod_lt _ (by norm_num)⟩

abbrev arrE (c : Dev nD) : Vec F S8192x512 .bf16 := V7 m c main_v7

abbrev arrLabRow (c : Dev nD) : Vec F S8192x1 .i32 := V7 m c main_v11
abbrev arrLabCol (c : Dev nD) : Vec F S1x8192 .i32 := V7 m c main_v13
abbrev arrGidRow (c : Dev nD) : Vec F S8192x1 .i32 := V7 m c main_v14
abbrev arrGidCol (c : Dev nD) : Vec F S1x8192 .i32 := V7 m c main_v15

def blkERow (c : Dev nD) (t : Fin 20) : Vec F S1024x512 .bf16 :=
  fun y => arrE m c (ix2 (rowIx ((lit0 t).toNat * 1024 + (y 0).val)) (y 1 : Fin 512))

def blkECol (c : Dev nD) (t : Fin 20) : Vec F S2048x512 .bf16 :=
  fun y => arrE m c (ix2 (rowIx ((lit1 t).toNat * 2048 + (y 0).val)) (y 1 : Fin 512))

def blkLabRow (c : Dev nD) (t : Fin 20) : Vec F S1024x1 .i32 :=
  fun y => arrLabRow m c (ix2 (rowIx ((lit0 t).toNat * 1024 + (y 0).val)) (0 : Fin 1))
def blkLabCol (c : Dev nD) (t : Fin 20) : Vec F S1x2048 .i32 :=
  fun y => arrLabCol m c (ix2 (0 : Fin 1) (rowIx ((lit1 t).toNat * 2048 + (y 1).val)))
def blkGidRow (c : Dev nD) (t : Fin 20) : Vec F S1024x1 .i32 :=
  fun y => arrGidRow m c (ix2 (rowIx ((lit0 t).toNat * 1024 + (y 0).val)) (0 : Fin 1))
def blkGidCol (c : Dev nD) (t : Fin 20) : Vec F S1x2048 .i32 :=
  fun y => arrGidCol m c (ix2 (0 : Fin 1) (rowIx ((lit1 t).toNat * 2048 + (y 1).val)))

def tileVal (c : Dev nD) (t : Fin 20) : FVec F S1x8x128 .f32 :=
  k0_pay1 (k0_pay2 (lit0 t) (lit1 t) (blkLabRow m c t) (blkLabCol m c t) (blkGidRow m c t) (blkGidCol m c t)
    (blkERow m c t) (blkECol m c t))

def tilesOut : Out (F := F) := fun c idx =>
  tileVal m c (idx 0 : Fin 20) (ix3 (0 : Fin 1) (idx 1 : Fin 8) (idx 2 : Fin 128))

end Cert.KernelIdeal.Hand

end
-- ==== Proof.BlocksKI.lean ====
import proofs.«407225_j55808805044518_3_alg».proof.Proof.TileKI
import proofs.«407225_j55808805044518_3_alg».proof.Proof.Gen.KernelIdeal.Launch

noncomputable section

namespace Cert.KernelIdeal.Hand

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

theorem lit0_lt : ∀ t : Fin 20, (lit0 t).toNat < 8 := by decide

theorem lit1_lt : ∀ t : Fin 20, (lit1 t).toNat < 4 := by decide

theorem coords_val (a : (pcfg0 (F := F)).Adm) (t : Fin (pcfg0.at a).N) :
    (((pcfg0.at a).grid.coords t) 0).val = t.val := by
  have hN : (pcfg0.at a).N = 20 := N_0
  have ht := t.isLt
  have hs : (pcfg0.at a).grid.stride 0 = 1 := rfl
  show t.val / (pcfg0.at a).grid.stride 0 % 20 = t.val
  rw [hs]; omega

theorem tabword0 (a : (pcfg0 (F := F)).Adm) (h0 : ∀ j, a.1 0 j = lit0 (S20.rowMajor j))
    (t : Fin (pcfg0.at a).N) (t' : Fin 20) (ht : t'.val = t.val) :
    a.1 0 ((Rect.unit (s := S20) (k0_off1 ((pcfg0.at a).grid.coords t)) S1.size (Gen.k0_off1_inb _)).emb
      (Shape.Idx.first (Gen.numel1_S1.symm ▸ Nat.one_pos))) = lit0 t' := by
  refine (h0 _).trans (congrArg lit0 (Fin.ext ?_))
  rw [Shape.rowMajor_val_one]
  show k0_off1 ((pcfg0.at a).grid.coords t) 0 + 1 * 0 = t'.val
  have hk : k0_off1 ((pcfg0.at a).grid.coords t) 0 = (((pcfg0.at a).grid.coords t) 0).val :=
    congrFun (Gen.k0_off1_eq _) 0
  have hc := coords_val a t
  omega

theorem tabword1 (a : (pcfg0 (F := F)).Adm) (h1 : ∀ j, a.1 1 j = lit1 (S20.rowMajor j))
    (t : Fin (pcfg0.at a).N) (t' : Fin 20) (ht : t'.val = t.val) :
    a.1 1 ((Rect.unit (s := S20) (k0_off1 ((pcfg0.at a).grid.coords t)) S1.size (Gen.k0_off1_inb _)).emb
      (Shape.Idx.first (Gen.numel1_S1.symm ▸ Nat.one_pos))) = lit1 t' := by
  refine (h1 _).trans (congrArg lit1 (Fin.ext ?_))
  rw [Shape.rowMajor_val_one]
  show k0_off1 ((pcfg0.at a).grid.coords t) 0 + 1 * 0 = t'.val
  have hk : k0_off1 ((pcfg0.at a).grid.coords t) 0 = (((pcfg0.at a).grid.coords t) 0).val :=
    congrFun (Gen.k0_off1_eq _) 0
  have hc := coords_val a t
  omega

theorem blk0_read (a : (pcfg0 (F := F)).Adm) (h0 : ∀ j, a.1 0 j = lit0 (S20.rowMajor j))
    (c : Dev nD) (t : Fin (pcfg0.at a).N) (t' : Fin 20) (ht : t'.val = t.val) :
    (((pcfg0.at a).win 0).blk t).view.read (Elt F) (V7 m c (Pipeline.arrRef spec0 0)) = blkERow m c t' := by
  refine funext fun (y : S1024x512.Idx) => ?_
  show arrE m c ((((pcfg0.at a).win 0).blk t).view.emb y)
    = arrE m c (ix2 (rowIx ((lit0 t').toNat * 1024 + (y 0).val)) (y 1 : Fin 512))
  refine congrArg (arrE m c) ?_
  have hw := tabword0 a h0 t t' ht
  have hl := lit0_lt t'
  funext d; apply Fin.ext
  match d with
  | ⟨0, _⟩ =>
    show ((pcfg0.at a).win 0).index t (0 : Fin 2) * 1024 + 1 * (y 0).val
      = ((lit0 t').toNat * 1024 + (y 0).val) % 8192
    have hi : ((pcfg0.at a).win 0).index t (0 : Fin 2) = (lit0 t').toNat := congrArg BitVec.toNat hw
    have hy : (y 0).val < 1024 := (y 0).isLt
    rw [hi]; omega
  | ⟨1, _⟩ =>
    show ((pcfg0.at a).win 0).index t (1 : Fin 2) * 512 + 1 * (y 1).val = (y 1).val
    have hi : ((pcfg0.at a).win 0).index t (1 : Fin 2) = 0 := rfl
    rw [hi]; omega

theorem blk1_read (a : (pcfg0 (F := F)).Adm) (h1 : ∀ j, a.1 1 j = lit1 (S20.rowMajor j))
    (c : Dev nD) (t : Fin (pcfg0.at a).N) (t' : Fin 20) (ht : t'.val = t.val) :
    (((pcfg0.at a).win 1).blk t).view.read (Elt F) (V7 m c (Pipeline.arrRef spec0 1)) = blkECol m c t' := by
  refine funext fun (y : S2048x512.Idx) => ?_
  show arrE m c ((((pcfg0.at a).win 1).blk t).view.emb y)
    = arrE m c (ix2 (rowIx ((lit1 t').toNat * 2048 + (y 0).val)) (y 1 : Fin 512))
  refine congrArg (arrE m c) ?_
  have hw := tabword1 a h1 t t' ht
  have hl := lit1_lt t'
  funext d; apply Fin.ext
  match d with
  | ⟨0, _⟩ =>
    show ((pcfg0.at a).win 1).index t (0 : Fin 2) * 2048 + 1 * (y 0).val
      = ((lit1 t').toNat * 2048 + (y 0).val) % 8192
    have hi : ((pcfg0.at a).win 1).index t (0 : Fin 2) = (lit1 t').toNat := congrArg BitVec.toNat hw
    have hy : (y 0).val < 2048 := (y 0).isLt
    rw [hi]; omega
  | ⟨1, _⟩ =>
    show ((pcfg0.at a).win 1).index t (1 : Fin 2) * 512 + 1 * (y 1).val = (y 1).val
    have hi : ((pcfg0.at a).win 1).index t (1 : Fin 2) = 0 := rfl
    rw [hi]; omega

theorem blk2_read (a : (pcfg0 (F := F)).Adm) (h0 : ∀ j, a.1 0 j = lit0 (S20.rowMajor j))
    (c : Dev nD) (t : Fin (pcfg0.at a).N) (t' : Fin 20) (ht : t'.val = t.val) :
    (((pcfg0.at a).win 2).blk t).view.read (Elt F) (V7 m c (Pipeline.arrRef spec0 2)) = blkLabRow m c t' := by
  refine funext fun (y : S1024x1.Idx) => ?_
  show arrLabRow m c ((((pcfg0.at a).win 2).blk t).view.emb y)
    = arrLabRow m c (ix2 (rowIx ((lit0 t').toNat * 1024 + (y 0).val)) (0 : Fin 1))
  refine congrArg (arrLabRow m c) ?_
  have hw := tabword0 a h0 t t' ht
  have hl := lit0_lt t'
  funext d; apply Fin.ext
  match d with
  | ⟨0, _⟩ =>
    show ((pcfg0.at a).win 2).index t (0 : Fin 2) * 1024 + 1 * (y 0).val
      = ((lit0 t').toNat * 1024 + (y 0).val) % 8192
    have hi : ((pcfg0.at a).win 2).index t (0 : Fin 2) = (lit0 t').toNat := congrArg BitVec.toNat hw
    have hy : (y 0).val < 1024 := (y 0).isLt
    rw [hi]; omega
  | ⟨1, _⟩ =>
    show ((pcfg0.at a).win 2).index t (1 : Fin 2) * 1 + 1 * (y 1).val = ((0 : Fin 1) : ℕ)
    have hi : ((pcfg0.at a).win 2).index t (1 : Fin 2) = 0 := rfl
    have hy : (y 1).val < 1 := (y 1).isLt
    have hz : ((0 : Fin 1) : ℕ) = 0 := rfl
    rw [hi, hz]; omega

theorem blk3_read (a : (pcfg0 (F := F)).Adm) (h1 : ∀ j, a.1 1 j = lit1 (S20.rowMajor j))
    (c : Dev nD) (t : Fin (pcfg0.at a).N) (t' : Fin 20) (ht : t'.val = t.val) :
    (((pcfg0.at a).win 3).blk t).view.read (Elt F) (V7 m c (Pipeline.arrRef spec0 3)) = blkLabCol m c t' := by
  refine funext fun (y : S1x2048.Idx) => ?_
  show arrLabCol m c ((((pcfg0.at a).win 3).blk t).view.emb y)
    = arrLabCol m c (ix2 (0 : Fin 1) (rowIx ((lit1 t').toNat * 2048 + (y 1).val)))
  refine congrArg (arrLabCol m c) ?_
  have hw := tabword1 a h1 t t' ht
  have hl := lit1_lt t'
  funext d; apply Fin.ext
  match d with
  | ⟨0, _⟩ =>
    show ((pcfg0.at a).win 3).index t (0 : Fin 2) * 1 + 1 * (y 0).val = ((0 : Fin 1) : ℕ)
    have hi : ((pcfg0.at a).win 3).index t (0 : Fin 2) = 0 := rfl
    have hy : (y 0).val < 1 := (y 0).isLt
    have hz : ((0 : Fin 1) : ℕ) = 0 := rfl
    rw [hi, hz]; omega
  | ⟨1, _⟩ =>
    show ((pcfg0.at a).win 3).index t (1 : Fin 2) * 2048 + 1 * (y 1).val
      = ((lit1 t').toNat * 2048 + (y 1).val) % 8192
    have hi : ((pcfg0.at a).win 3).index t (1 : Fin 2) = (lit1 t').toNat := congrArg BitVec.toNat hw
    have hy : (y 1).val < 2048 := (y 1).isLt
    rw [hi]; omega

theorem blk4_read (a : (pcfg0 (F := F)).Adm) (h0 : ∀ j, a.1 0 j = lit0 (S20.rowMajor j))
    (c : Dev nD) (t : Fin (pcfg0.at a).N) (t' : Fin 20) (ht : t'.val = t.val) :
    (((pcfg0.at a).win 4).blk t).view.read (Elt F) (V7 m c (Pipeline.arrRef spec0 4)) = blkGidRow m c t' := by
  refine funext fun (y : S1024x1.Idx) => ?_
  show arrGidRow m c ((((pcfg0.at a).win 4).blk t).view.emb y)
    = arrGidRow m c (ix2 (rowIx ((lit0 t').toNat * 1024 + (y 0).val)) (0 : Fin 1))
  refine congrArg (arrGidRow m c) ?_
  have hw := tabword0 a h0 t t' ht
  have hl := lit0_lt t'
  funext d; apply Fin.ext
  match d with
  | ⟨0, _⟩ =>
    show ((pcfg0.at a).win 4).index t (0 : Fin 2) * 1024 + 1 * (y 0).val
      = ((lit0 t').toNat * 1024 + (y 0).val) % 8192
    have hi : ((pcfg0.at a).win 4).index t (0 : Fin 2) = (lit0 t').toNat := congrArg BitVec.toNat hw
    have hy : (y 0).val < 1024 := (y 0).isLt
    rw [hi]; omega
  | ⟨1, _⟩ =>
    show ((pcfg0.at a).win 4).index t (1 : Fin 2) * 1 + 1 * (y 1).val = ((0 : Fin 1) : ℕ)
    have hi : ((pcfg0.at a).win 4).index t (1 : Fin 2) = 0 := rfl
    have hy : (y 1).val < 1 := (y 1).isLt
    have hz : ((0 : Fin 1) : ℕ) = 0 := rfl
    rw [hi, hz]; omega

theorem blk5_read (a : (pcfg0 (F := F)).Adm) (h1 : ∀ j, a.1 1 j = lit1 (S20.rowMajor j))
    (c : Dev nD) (t : Fin (pcfg0.at a).N) (t' : Fin 20) (ht : t'.val = t.val) :
    (((pcfg0.at a).win 5).blk t).view.read (Elt F) (V7 m c (Pipeline.arrRef spec0 5)) = blkGidCol m c t' := by
  refine funext fun (y : S1x2048.Idx) => ?_
  show arrGidCol m c ((((pcfg0.at a).win 5).blk t).view.emb y)
    = arrGidCol m c (ix2 (0 : Fin 1) (rowIx ((lit1 t').toNat * 2048 + (y 1).val)))
  refine congrArg (arrGidCol m c) ?_
  have hw := tabword1 a h1 t t' ht
  have hl := lit1_lt t'
  funext d; apply Fin.ext
  match d with
  | ⟨0, _⟩ =>
    show ((pcfg0.at a).win 5).index t (0 : Fin 2) * 1 + 1 * (y 0).val = ((0 : Fin 1) : ℕ)
    have hi : ((pcfg0.at a).win 5).index t (0 : Fin 2) = 0 := rfl
    have hy : (y 0).val < 1 := (y 0).isLt
    have hz : ((0 : Fin 1) : ℕ) = 0 := rfl
    rw [hi, hz]; omega
  | ⟨1, _⟩ =>
    show ((pcfg0.at a).win 5).index t (1 : Fin 2) * 2048 + 1 * (y 1).val
      = ((lit1 t').toNat * 2048 + (y 1).val) % 8192
    have hi : ((pcfg0.at a).win 5).index t (1 : Fin 2) = (lit1 t').toNat := congrArg BitVec.toNat hw
    have hy : (y 1).val < 2048 := (y 1).isLt
    rw [hi]; omega

end Cert.KernelIdeal.Hand

end
-- ==== Proof.DatsKI.lean ====
import proofs.«407225_j55808805044518_3_alg».proof.Proof.BodyKI
import proofs.«407225_j55808805044518_3_alg».proof.Proof.TileKI
import proofs.«407225_j55808805044518_3_alg».proof.Proof.BlocksKI
import proofs.«407225_j55808805044518_3_alg».proof.Proof.Gen.KernelIdeal.Launch
import Idealize.ShloMosaic.Lib.Pipeline.Frame
import Idealize.ShloMosaic.Lib.Pipeline.FrameBody
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

def tbl : pre0.Contents (Elt F) := fun k => match k with
  | ⟨0, _⟩ => fun j => lit0 (S20.rowMajor j)
  | ⟨1, _⟩ => fun j => lit1 (S20.rowMajor j)

theorem rowMajor_off1 (i : grid0.Coords) :
    (S20.rowMajor ((Rect.unit (s := S20) (k0_off1 i) S1.size (Gen.k0_off1_inb i)).emb (Shape.Idx.first (Gen.numel1_S1.symm ▸ Nat.one_pos)))).val
      = (i 0).val := by
  rw [Shape.rowMajor_val_one, Rect.emb_apply]
  show k0_off1 i 0 + 1 * 0 = (i 0).val
  rw [congrFun (Gen.k0_off1_eq i) 0]
  show (i 0).val + 1 * 0 = (i 0).val
  omega

theorem coords0_val : ∀ t : Fin grid0.N, (grid0.coords t 0).val = t.val := by decide

theorem tblWord_tbl0 (t : Fin grid0.N) : tblWord (tbl (F := F) 0) (grid0.coords t) = lit0 t :=
  congrArg lit0 (Fin.ext ((rowMajor_off1 (grid0.coords t)).trans (coords0_val t)))
theorem tblWord_tbl1 (t : Fin grid0.N) : tblWord (tbl (F := F) 1) (grid0.coords t) = lit1 t :=
  congrArg lit1 (Fin.ext ((rowMajor_off1 (grid0.coords t)).trans (coords0_val t)))

theorem ok0_of (pf : pre0.Contents (Elt F))
    (hA : ∀ i : grid0.Coords, (tblWord (pf 0) i).toNat < 8) (hB : ∀ i : grid0.Coords, (tblWord (pf 1) i).toNat < 4) :
    ok0 pf := by
  have h2 : (2 : ℕ) ≤ S8192x512.rank := le_refl _
  refine ⟨fun i => ⟨fun a => ?_, .inr (.inl (.inr ⟨h2, rfl, .inl ⟨?_, ?_⟩⟩))⟩,
    fun i => ⟨fun a => ?_, .inr (.inl (.inr ⟨h2, rfl, .inl ⟨?_, ?_⟩⟩))⟩,
    fun i => ⟨fun a => ?_, .inl rfl⟩, fun i => ⟨fun a => ?_, .inl rfl⟩,
    fun i => ⟨fun a => ?_, .inl rfl⟩, fun i => ⟨fun a => ?_, .inl rfl⟩⟩
  · have := hA i
    match a with
    | ⟨0, _⟩ => show ((tblWord (pf 0) i).toNat + 1) * 1024 ≤ 8192; omega
    | ⟨1, _⟩ => show ((0#32).toNat + 1) * 512 ≤ 512; decide
  · show 2 ∣ (tblWord (pf 0) i).toNat * 1024; exact Dvd.dvd.mul_left (by decide) _
  · show 2 ∣ 1024; decide
  · have := hB i
    match a with
    | ⟨0, _⟩ => show ((tblWord (pf 1) i).toNat + 1) * 2048 ≤ 8192; omega
    | ⟨1, _⟩ => show ((0#32).toNat + 1) * 512 ≤ 512; decide
  · show 2 ∣ (tblWord (pf 1) i).toNat * 2048; exact Dvd.dvd.mul_left (by decide) _
  · show 2 ∣ 2048; decide
  · have := hA i
    match a with
    | ⟨0, _⟩ => show ((tblWord (pf 0) i).toNat + 1) * 1024 ≤ 8192; omega
    | ⟨1, _⟩ => show ((0#32).toNat + 1) * 1 ≤ 1; decide
  · have := hB i
    match a with
    | ⟨0, _⟩ => show ((0#32).toNat + 1) * 1 ≤ 1; decide
    | ⟨1, _⟩ => show ((tblWord (pf 1) i).toNat + 1) * 2048 ≤ 8192; omega
  · have := hA i
    match a with
    | ⟨0, _⟩ => show ((tblWord (pf 0) i).toNat + 1) * 1024 ≤ 8192; omega
    | ⟨1, _⟩ => show ((0#32).toNat + 1) * 1 ≤ 1; decide
  · have := hB i
    match a with
    | ⟨0, _⟩ => show ((0#32).toNat + 1) * 1 ≤ 1; decide
    | ⟨1, _⟩ => show ((tblWord (pf 1) i).toNat + 1) * 2048 ≤ 8192; omega

theorem coords_surj (i : grid0.Coords) : ∃ t : Fin grid0.N, grid0.coords t = i :=
  ⟨⟨(i 0).val, (i 0).isLt⟩, funext fun a => by
    match a with
    | ⟨0, _⟩ => exact Fin.ext (coords0_val _)⟩

theorem ok_tbl : ok0 (F := F) tbl :=
  ok0_of tbl
    (fun i => by obtain ⟨t, rfl⟩ := coords_surj i; rw [tblWord_tbl0]; exact lit0_lt t)
    (fun i => by obtain ⟨t, rfl⟩ := coords_surj i; rw [tblWord_tbl1]; exact lit1_lt t)

abbrev adm : (p : Fin 1) → (pcfgs (F := F) p).Adm := fun _ => ⟨tbl, ok_tbl⟩

abbrev cfgT : Pipeline.Cfg sig Λ₀ := Pipeline.pin (pcfgs (F := F)) adm 0

def iblk (c : Dev nD) (w : Fin (cfgT (F := F)).W) (t : Fin (cfgT (F := F)).N) :
    (((cfgT (F := F)).win w).xblock ((cfgT (F := F)).grid.coords t)).Idx → Elt F ((cfgT (F := F)).win w).elt :=
  (((cfgT (F := F)).win w).blk t).view.read (Elt F) (V7 m c (Pipeline.arrRef spec0 w))

def dats (_ : Fin 1) (c : Dev nD) : Dat τ (Elt F) Unit ℕ (UR sig nD τ) ℕ (cfgT (F := F)) c where
  A w := V7 m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => tileVal m c t
  Φ _ := iprop(Pipeline.scopedRest (Ix := Unit) (Name := ℕ) (U := UR sig nD τ) (Lvl := ℕ) (Val := Elt F) spec0 c
    ∗ Pipeline.prefHeld (Ix := Unit) (Name := ℕ) (U := UR sig nD τ) (Lvl := ℕ) pre0 c (fun _ => fullShare) tbl)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin (cfgT (F := F)).W) : (dats m 0 c).A w = V7 m c (Pipeline.arrRef spec0 w) := by
  dsimp only [dats]

theorem after0_0 (c : Dev nD) (t : Fin (cfgT (F := F)).N) : (dats m 0 c).after 0 t = iblk m c 0 t := by dsimp only [dats]; try rfl
theorem after0_1 (c : Dev nD) (t : Fin (cfgT (F := F)).N) : (dats m 0 c).after 1 t = iblk m c 1 t := by dsimp only [dats]; try rfl
theorem after0_2 (c : Dev nD) (t : Fin (cfgT (F := F)).N) : (dats m 0 c).after 2 t = iblk m c 2 t := by dsimp only [dats]; try rfl
theorem after0_3 (c : Dev nD) (t : Fin (cfgT (F := F)).N) : (dats m 0 c).after 3 t = iblk m c 3 t := by dsimp only [dats]; try rfl
theorem after0_4 (c : Dev nD) (t : Fin (cfgT (F := F)).N) : (dats m 0 c).after 4 t = iblk m c 4 t := by dsimp only [dats]; try rfl
theorem after0_5 (c : Dev nD) (t : Fin (cfgT (F := F)).N) : (dats m 0 c).after 5 t = iblk m c 5 t := by dsimp only [dats]; try rfl
theorem after0_6 (c : Dev nD) (t : Fin (cfgT (F := F)).N) : (dats m 0 c).after 6 t = tileVal m c t := by dsimp only [dats]; try rfl

theorem before0_0 (c : Dev nD) (t : Fin (cfgT (F := F)).N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin (cfgT (F := F)).N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin (cfgT (F := F)).N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin (cfgT (F := F)).N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin (cfgT (F := F)).N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin (cfgT (F := F)).N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)

theorem prefHeld_tbl_eq (c : Dev nD) (q : PosShare TreeShare) (v : pre0.Contents (Elt F)) :
    (Pipeline.prefHeld (Ix := Unit) (Name := ℕ) (U := UR sig nD τ) (Lvl := ℕ) pre0 c (fun _ => q) v : sProp 𝕄)
      = iprop(tbPt c tbA q (v 0) ∗ tbPt c tbB q (v 1)) := by
  unfold Pipeline.prefHeld
  rw [show (Finset.univ : Finset (Fin 2)) = insert (0 : Fin 2) {(1 : Fin 2)} from by decide,
    bigSep_insert (by decide), bigSep_singleton]
  rfl

abbrev ms0 (t : Fin (cfgT (F := F)).N) : Memref sig .tc .vmem S1024x512 .bf16 := spec0_0.stage ((cfgT (F := F)).slots t 0)
abbrev hs0 (t : Fin (cfgT (F := F)).N) : (ms0 (F := F) t).IsWhole := hstage0_0 (((cfgT (F := F)).slots t 0).cast nbuf0_0)
abbrev ms1 (t : Fin (cfgT (F := F)).N) : Memref sig .tc .vmem S2048x512 .bf16 := spec0_1.stage ((cfgT (F := F)).slots t 1)
abbrev hs1 (t : Fin (cfgT (F := F)).N) : (ms1 (F := F) t).IsWhole := hstage0_1 (((cfgT (F := F)).slots t 1).cast nbuf0_1)
abbrev ms2 (t : Fin (cfgT (F := F)).N) : Memref sig .tc .vmem S1024x1 .i32 := spec0_2.stage ((cfgT (F := F)).slots t 2)
abbrev hs2 (t : Fin (cfgT (F := F)).N) : (ms2 (F := F) t).IsWhole := hstage0_2 (((cfgT (F := F)).slots t 2).cast nbuf0_2)
abbrev ms3 (t : Fin (cfgT (F := F)).N) : Memref sig .tc .vmem S1x2048 .i32 := spec0_3.stage ((cfgT (F := F)).slots t 3)
abbrev hs3 (t : Fin (cfgT (F := F)).N) : (ms3 (F := F) t).IsWhole := hstage0_3 (((cfgT (F := F)).slots t 3).cast nbuf0_3)
abbrev ms4 (t : Fin (cfgT (F := F)).N) : Memref sig .tc .vmem S1024x1 .i32 := spec0_4.stage ((cfgT (F := F)).slots t 4)
abbrev hs4 (t : Fin (cfgT (F := F)).N) : (ms4 (F := F) t).IsWhole := hstage0_4 (((cfgT (F := F)).slots t 4).cast nbuf0_4)
abbrev ms5 (t : Fin (cfgT (F := F)).N) : Memref sig .tc .vmem S1x2048 .i32 := spec0_5.stage ((cfgT (F := F)).slots t 5)
abbrev hs5 (t : Fin (cfgT (F := F)).N) : (ms5 (F := F) t).IsWhole := hstage0_5 (((cfgT (F := F)).slots t 5).cast nbuf0_5)
abbrev ms6 (t : Fin (cfgT (F := F)).N) : Memref sig .tc .vmem S1x8x128 .f32 := spec0_6.stage ((cfgT (F := F)).slots t 6)
abbrev hs6 (t : Fin (cfgT (F := F)).N) : (ms6 (F := F) t).IsWhole := hstage0_6 (((cfgT (F := F)).slots t 6).cast nbuf0_6)

abbrev bodyAt (t : Fin (cfgT (F := F)).N) : Prog (TpuEff nD τ sig (Elt F) Λ₀ .tc) PUnit :=
  cc0__pos_kernel (grid0.coords t) (Memref.whole main_c) (Memref.isWhole_whole _) (Memref.whole main_c_0) (Memref.isWhole_whole _)
    (ms0 t) (hs0 t) (ms1 t) (hs1 t) (ms2 t) (hs2 t) (ms3 t) (hs3 t) (ms4 t) (hs4 t) (ms5 t) (hs5 t) (ms6 t) (hs6 t)

theorem bodyVal_eq_tileVal (c : Dev nD) (t : Fin (cfgT (F := F)).N) :
    bodyVal (tbl (F := F) 0) (tbl (F := F) 1) (grid0.coords t) (iblk m c 0 t) (iblk m c 1 t) (iblk m c 2 t) (iblk m c 3 t) (iblk m c 4 t) (iblk m c 5 t)
      = tileVal m c t := by
  have e0 : iblk m c 0 t = blkERow m c t := blk0_read m (adm 0) (fun _ => rfl) c t t rfl
  have e1 : iblk m c 1 t = blkECol m c t := blk1_read m (adm 0) (fun _ => rfl) c t t rfl
  have e2 : iblk m c 2 t = blkLabRow m c t := blk2_read m (adm 0) (fun _ => rfl) c t t rfl
  have e3 : iblk m c 3 t = blkLabCol m c t := blk3_read m (adm 0) (fun _ => rfl) c t t rfl
  have e4 : iblk m c 4 t = blkGidRow m c t := blk4_read m (adm 0) (fun _ => rfl) c t t rfl
  have e5 : iblk m c 5 t = blkGidCol m c t := blk5_read m (adm 0) (fun _ => rfl) c t t rfl
  unfold bodyVal tileVal
  rw [tblWord_tbl0, tblWord_tbl1, e0, e1, e2, e3, e4, e5]

def bodyPre (c : Dev nD) (t : Fin (cfgT (F := F)).N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin (cfgT (F := F)).N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t))

theorem sound_body (c : Dev nD) (t : Fin (cfgT (F := F)).N) :
    bodyPre m c t ⊢ wp frame (wpE (defs₀ (F := F)) Variants.none c none) Set.univ (bodyAt t) (fun _ => bodyPost m c t) := by
  unfold bodyPre bodyPost bodyAt
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  rw [show (dats m 0 c).Φ t.castSucc = iprop(Pipeline.scopedRest (Ix := Unit) (Name := ℕ) (U := UR sig nD τ) (Lvl := ℕ) (Val := Elt F) spec0 c
    ∗ Pipeline.prefHeld (Ix := Unit) (Name := ℕ) (U := UR sig nD τ) (Lvl := ℕ) pre0 c (fun _ => fullShare) tbl) from rfl, prefHeld_tbl_eq]
  rw [← bodyVal_eq_tileVal m c t]
  iintro ⟨⟨HR, HTA, HTB⟩, Ho, ⟨%d0, H0⟩, ⟨%d1, H1⟩, ⟨%d2, H2⟩, ⟨%d3, H3⟩, ⟨%d4, H4⟩, ⟨%d5, H5⟩, ⟨%d6, H6⟩⟩
  iapply (kernelRun c (grid0.coords t) (ms0 t) (hs0 t) (ms1 t) (hs1 t) (ms2 t) (hs2 t) (ms3 t) (hs3 t) (ms4 t) (hs4 t) (ms5 t) (hs5 t) (ms6 t) (hs6 t)
    fullShare fullShare (tbl 0) (tbl 1) (iblk m c 0 t) (iblk m c 1 t) (iblk m c 2 t) (iblk m c 3 t) (iblk m c 4 t) (iblk m c 5 t) Set.univ _)
  isplitl [HTA]; · iexact HTA
  isplitl [HTB]; · iexact HTB
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨HTA, HTB, H0, H1, H2, H3, H4, H5, H6⟩
  isplitl [HR HTA HTB]
  · isplitl [HR]; · iexact HR
    isplitl [HTA]; · iexact HTA
    iexact HTB
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

def regionOut : Out (F := F) := fun c => (dats m 0 c).arrAt 6 (cfgT (F := F)).N

end Cert.KernelIdeal.Hand

end
-- ==== Proof.DealKI.lean ====
import proofs.«407225_j55808805044518_3_alg».proof.Proof.Gen.KernelIdeal.Launch
import Idealize.ShloMosaic.Lib.Pipeline.Regions
import Idealize.ShloMosaic.Lib.Pipeline.Frame
import Idealize.ShloMosaic.Lib.Pipeline.Kit

set_option maxRecDepth 2536

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.SL.BI.Laws

variable {F : FTy → Type} [FloatOps F]

local notation "𝕄" => MT nD τ sig Unit (Elt F) ℕ (UR sig nD τ) ℕ

theorem preRef_ne_result : ∀ k : Fin pre0.K, pre0.ref k ≠ main_v16 := by decide

theorem prefHeld_update (c : Dev nD) (W : Valuation τ sig (Elt F)) (o : Buf (Elt F) ((c.tc : Thread nD τ).loc main_v16))
    (q : Fin pre0.K → PosShare TreeShare) :
    (Pipeline.prefHeld (Ix := Unit) (Name := ℕ) (U := UR sig nD τ) (Lvl := ℕ) pre0 c q
        (fun k => Function.update W (Proc.devRef .tc main_v16) o (pre0.ref k)) : sProp 𝕄)
      = Pipeline.prefHeld pre0 c q (fun k => W (pre0.ref k)) := by
  unfold Pipeline.prefHeld
  exact bigSep_congr fun k _ => by
    beta_reduce
    rw [Function.update_of_ne (StableHlo.devRef_ne_of_ne (preRef_ne_result k))]

theorem unscopedRestP_update (c : Dev nD) (W : Valuation τ sig (Elt F)) (o : Buf (Elt F) ((c.tc : Thread nD τ).loc main_v16)) :
    (Pipeline.unscopedRestP (Ix := Unit) (Name := ℕ) (U := UR sig nD τ) (Lvl := ℕ) pre0 spec0 c
        (fun b => Function.update W (Proc.devRef .tc main_v16) o b) : sProp 𝕄)
      = Pipeline.unscopedRestP pre0 spec0 c (fun b => W b) := by
  classical
  unfold Pipeline.unscopedRestP
  refine bigSep_congr fun b hb => ?_
  have hb' : b ∉ Finset.univ.image (Pipeline.arrRef spec0) := (Finset.mem_sdiff.mp (Finset.mem_sdiff.mp hb).1).2
  have hne : b ≠ main_v16 := fun e => hb' (e ▸ Finset.mem_image.mpr ⟨6, Finset.mem_univ _, rfl⟩)
  beta_reduce
  rw [Function.update_of_ne (StableHlo.devRef_ne_of_ne hne)]

theorem held_split3 (c : Dev nD) (W : Valuation τ sig (Elt F)) :
    (StableHlo.held (c.tc : Thread nD τ) (Pipeline.ucRefs τ sig) W : sProp 𝕄)
      = iprop(Pipeline.arrBufs spec0 c (fun b => W b)
          ∗ Pipeline.prefHeld pre0 c (fun _ => fullShare) (fun k => W (pre0.ref k))
          ∗ Pipeline.unscopedRestP pre0 spec0 c (fun b => W b)) := by
  classical
  have hA : Finset.univ.image (Pipeline.arrRef spec0) ⊆ Finset.univ.filter fun b : Ref sig .tc => ¬ b.isScoped := fun b hb => by
    obtain ⟨w, -, rfl⟩ := Finset.mem_image.mp hb
    exact Finset.mem_filter.mpr ⟨Finset.mem_univ _, by simp [Gen.winFacts₀0.arr_unscoped w]⟩
  have h1 : (unscopedBufs (Ix := Unit) (Name := ℕ) (U := UR sig nD τ) (Lvl := ℕ) c (fun b => W b) : sProp 𝕄)
      = iprop(Pipeline.arrBufs spec0 c (fun b => W b) ∗ Pipeline.unscopedRest spec0 c (fun b => W b)) := by
    unfold unscopedBufs Pipeline.unscopedRest Pipeline.arrBufs
    rw [bigSep_sdiff_split hA]
    rfl
  rw [← Pipeline.unscopedBufs_held, h1, Pipeline.unscopedRest_split Gen.preFacts0]

theorem image_arrRef : Finset.univ.image (Pipeline.arrRef spec0) = [main_v7, main_v11, main_v13, main_v14, main_v15, main_v16].toFinset := by
  decide

theorem arrays_deal (a : (pcfg0 (F := F)).Adm) (c : Dev nD)
    (dat : Pipeline.Dat τ (Elt F) Unit ℕ (UR sig nD τ) ℕ (pcfg0.at a) c)
    (hq0 : dat.share 0 = fullShare.left) (hq1 : dat.share 1 = fullShare.right) (hq2 : dat.share 2 = fullShare)
    (hq3 : dat.share 3 = fullShare) (hq4 : dat.share 4 = fullShare) (hq5 : dat.share 5 = fullShare)
    (hq6 : dat.share 6 = fullShare) (V : (b : Ref sig .tc) → Buf (Elt F) ((c.tc : Thread nD τ).loc b)) :
    (Pipeline.arrBufs (Ix := Unit) (Name := ℕ) (U := UR sig nD τ) (Lvl := ℕ) spec0 c V : sProp 𝕄)
      ⊣⊢ dat.arrays (fun w => V (Pipeline.arrRef spec0 w)) := by
  classical
  have harr : ∀ w, ((pcfg0.at a).spec w).arr.IsWhole := fun w => Gen.arr_whole0 w
  have h0 : dat.arrays (fun w => V (Pipeline.arrRef spec0 w))
      = bigSep Finset.univ fun w : Fin 7 =>
          (((c.tc : Thread nD τ).loc (Pipeline.arrRef spec0 w)) ↦{dat.share w} V (Pipeline.arrRef spec0 w) : sProp 𝕄) := by
    unfold Pipeline.Dat.arrays
    exact bigSep_congr fun w _ => by rw [(harr w).set_eq_univ]
  rw [h0, Gen.bigSep_W0, hq0, hq1, hq2, hq3, hq4, hq5, hq6]
  unfold Pipeline.arrBufs
  rw [bigSep_eq_bigSepL_of_eq [main_v7, main_v11, main_v13, main_v14, main_v15, main_v16] image_arrRef (by decide)]
  exact (sep_congr_left (pointsTo_share (PosShare.mem_left_op_right fullShare))).trans sep_assoc

end Cert.KernelIdeal.Hand
-- ==== Proof.ArrLastKI.lean ====
import proofs.«407225_j55808805044518_3_alg».proof.Proof.DatsKI
import proofs.«407225_j55808805044518_3_alg».proof.Proof.WritesKI

noncomputable section

namespace Cert.KernelIdeal.Hand

open Cert.KernelIdeal Cert.KernelIdeal.Gen
open Idealize.ShloMosaic Idealize.ShloMosaic.TcCoe Idealize.SL.Sem
open Idealize.ShloMosaic.Pipeline (Dat Cfg)

variable {F : FTy → Type} [FloatOps F]
variable (m : (ℓ : Loc nD τ sig) → Buf (Elt F) ℓ)

theorem arrRef_ne : ∀ w : Fin 7, w ≠ 6 → Pipeline.arrRef spec0 w ≠ main_v16 := by decide

theorem arrAt_last_in (c : Dev nD) (w : Fin (cfgT (F := F)).W) (hin : ((cfgT (F := F)).win w).isOut = false)
    (hne : Pipeline.arrRef spec0 w ≠ main_v16) :
    (dats m 0 c).arrAt w (cfgT (F := F)).N = V8 m (regionOut m) c (Pipeline.arrRef spec0 w) :=
  ((dats m 0 c).arrAt_in w hin _).trans ((A_eq m c w).trans (V8_of m (regionOut m) c (Pipeline.arrRef spec0 w) hne).symm)

theorem arrAt_last (c : Dev nD) :
    (fun w => (dats m 0 c).arrAt w (cfgT (F := F)).N) = fun w => V8 m (regionOut m) c (Pipeline.arrRef spec0 w) := by
  funext w
  match w with
  | ⟨0, _⟩ => exact arrAt_last_in m c 0 rfl (arrRef_ne 0 (by decide))
  | ⟨1, _⟩ => exact arrAt_last_in m c 1 rfl (arrRef_ne 1 (by decide))
  | ⟨2, _⟩ => exact arrAt_last_in m c 2 rfl (arrRef_ne 2 (by decide))
  | ⟨3, _⟩ => exact arrAt_last_in m c 3 rfl (arrRef_ne 3 (by decide))
  | ⟨4, _⟩ => exact arrAt_last_in m c 4 rfl (arrRef_ne 4 (by decide))
  | ⟨5, _⟩ => exact arrAt_last_in m c 5 rfl (arrRef_ne 5 (by decide))
  | ⟨6, _⟩ => exact (Function.update_self (Proc.devRef .tc main_v16) (regionOut m c) (V7 m c)).symm

end Cert.KernelIdeal.Hand

end
-- ==== Proof.TablesKI.lean ====
import proofs.«407225_j55808805044518_3_alg».proof.Proof.WritesKI

noncomputable section

namespace Cert.KernelIdeal.Hand

open Idealize.ShloMosaic Idealize.ShloMosaic.TcCoe Idealize.SL.Sem
open Cert.KernelIdeal Cert.KernelIdeal.Gen

variable {F : FTy → Type} [FloatOps F]

theorem hostOps0_main_c (V : Valuation τ sig (Elt F)) :
    (StableHlo.after hostOps0 V (Proc.devRef .tc main_c) : main_c.ty.Contents (Elt F)) = fun j => lit0 (S20.rowMajor j) := by
  open StableHlo in after_results
  rfl

theorem hostOps0_main_c_0 (V : Valuation τ sig (Elt F)) :
    (StableHlo.after hostOps0 V (Proc.devRef .tc main_c_0) : main_c_0.ty.Contents (Elt F)) = fun j => lit1 (S20.rowMajor j) := by
  open StableHlo in after_results
  rfl

variable (m : (ℓ : Loc nD τ sig) → Buf (Elt F) ℓ)

theorem V7_main_c (c : Dev nD) : (V7 m c main_c : main_c.ty.Contents (Elt F)) = fun j => lit0 (S20.rowMajor j) :=
  (V7_of m c main_c (by decide)).trans <| (V6_of m c main_c (by decide)).trans <| (V5_of m c main_c (by decide)).trans <|
    (V4_of m c main_c (by decide)).trans <| (V3_of m c main_c (by decide)).trans <| (V2_of m c main_c (by decide)).trans <|
    hostOps0_main_c (V0 m c)

theorem V7_main_c_0 (c : Dev nD) : (V7 m c main_c_0 : main_c_0.ty.Contents (Elt F)) = fun j => lit1 (S20.rowMajor j) :=
  (V7_of m c main_c_0 (by decide)).trans <| (V6_of m c main_c_0 (by decide)).trans <| (V5_of m c main_c_0 (by decide)).trans <|
    (V4_of m c main_c_0 (by decide)).trans <| (V3_of m c main_c_0 (by decide)).trans <| (V2_of m c main_c_0 (by decide)).trans <|
    hostOps0_main_c_0 (V0 m c)

theorem V7_pre0 (c : Dev nD) (tbl : pre0.Contents (Elt F))
    (h0 : tbl 0 = fun j => lit0 (S20.rowMajor j)) (h1 : tbl 1 = fun j => lit1 (S20.rowMajor j)) :
    ∀ k : Fin pre0.K, (V7 m c (Proc.devRef .tc (pre0.ref k)) : (pre0.ref k).ty.Contents (Elt F)) = tbl k
  | 0 => (V7_main_c m c).trans h0.symm
  | 1 => (V7_main_c_0 m c).trans h1.symm

end Cert.KernelIdeal.Hand

end
-- ==== Proof.RegionKI.lean ====
import proofs.«407225_j55808805044518_3_alg».proof.Proof.DatsKI
import proofs.«407225_j55808805044518_3_alg».proof.Proof.DealKI
import proofs.«407225_j55808805044518_3_alg».proof.Proof.ArrLastKI
import proofs.«407225_j55808805044518_3_alg».proof.Proof.TablesKI
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem V7_tbl (c : Dev nD) : (fun k => V7 m c (pre0.ref k)) = tbl (F := F) :=
  funext fun k => V7_pre0 m c tbl rfl rfl k

abbrev Rst (c : Dev nD) : sProp 𝕄 := iprop(∃ W, owes (c : Thread nD τ) (0 : CellTallies nD τ sig Unit) W)

theorem share0 (c : Dev nD) : (dats m 0 c).share 0 = fullShare.left := rfl
theorem share1 (c : Dev nD) : (dats m 0 c).share 1 = fullShare.right := rfl
theorem share2 (c : Dev nD) : (dats m 0 c).share 2 = fullShare := rfl
theorem share3 (c : Dev nD) : (dats m 0 c).share 3 = fullShare := rfl
theorem share4 (c : Dev nD) : (dats m 0 c).share 4 = fullShare := rfl
theorem share5 (c : Dev nD) : (dats m 0 c).share 5 = fullShare := rfl
theorem share6 (c : Dev nD) : (dats m 0 c).share 6 = fullShare := rfl

theorem arrAt_zero (c : Dev nD) : (fun w => (dats m 0 c).arrAt w 0) = fun w => V7 m c (Pipeline.arrRef spec0 w) :=
  funext fun w => A_eq m c w

set_option backward.isDefEq.respectTransparency.types false in

def R0 : Pipeline.RegionSeg (pcfgs (F := F)) adm (dats m) () defs₀ Variants.none (fun _ : GSem nD τ sig => (∅ : Finset Unit)) (fun _ _ => (0 : ℕ)) 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ (fun _ : GSem nD τ sig => (∅ : Finset Unit)) (fun _ _ => (0 : ℕ)) 0 fun _ _ => rfl
  pre c := iprop(StableHlo.held (c : Thread nD τ) (Pipeline.ucRefs τ sig) (V7 m c) ∗ Rst c)
  post c := iprop(StableHlo.held (c : Thread nD τ) (Pipeline.ucRefs τ sig) (V8 m (regionOut m) c) ∗ Rst c)
  X c := iprop(emp)
  Y c := Pipeline.prefHeld (Ix := Unit) (Name := ℕ) (U := UR sig nD τ) (Lvl := ℕ) pre0 c (fun _ => fullShare) tbl
  Z c := Pipeline.unscopedRestP (Ix := Unit) (Name := ℕ) (U := UR sig nD τ) (Lvl := ℕ) pre0 spec0 c (fun b => V7 m c b)
  hentry c := by
    rw [held_split3 c (V7 m c), V7_tbl m c]
    iintro ⟨⟨⟨Harr, Hpf, Hrest⟩, HO⟩, -, -⟩
    imodintro
    isplitl [Harr]
    · rw [arrAt_zero m c]
      iapply ((arrays_deal (adm 0) c (dats m 0 c) (share0 m c) (share1 m c) (share2 m c) (share3 m c) (share4 m c) (share5 m c) (share6 m c) (fun b => V7 m c b)).1)
      iexact Harr
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (dats m 0 c).Φ 0 = iprop(Pipeline.scopedRest (Ix := Unit) (Name := ℕ) (U := UR sig nD τ) (Lvl := ℕ) (Val := Elt F) spec0 c
      ∗ Pipeline.prefHeld (Ix := Unit) (Name := ℕ) (U := UR sig nD τ) (Lvl := ℕ) pre0 c (fun _ => fullShare) tbl) from rfl]
    iintro ⟨-, Hpf, Hr⟩
    isplitl [Hr]; · iexact Hr
    iexact Hpf
  hout c := by
    rw [show (dats m 0 c).Φ (Fin.last _) = iprop(Pipeline.scopedRest (Ix := Unit) (Name := ℕ) (U := UR sig nD τ) (Lvl := ℕ) (Val := Elt F) spec0 c
      ∗ Pipeline.prefHeld (Ix := Unit) (Name := ℕ) (U := UR sig nD τ) (Lvl := ℕ) pre0 c (fun _ => fullShare) tbl) from rfl,
      Pipeline.ownSems0_none nD τ sig (Elt F) Unit ℕ (UR sig nD τ) ℕ c]
    iintro ⟨Hr, Hpf⟩
    isplitl [Hpf]; · iexact Hpf
    isplitr; · iempintro
    iexact Hr
  hexit c := by
    rw [held_split3 c (V8 m (regionOut m) c), prefHeld_update c (V7 m c) (regionOut m c), unscopedRestP_update c (V7 m c) (regionOut m c),
      V7_tbl m c, arrAt_last m c]
    iintro ⟨Ha, HO, Hpf, Hrest⟩
    imodintro
    isplitr [HO]
    · isplitl [Ha]
      · iapply ((arrays_deal (adm 0) c (dats m 0 c) (share0 m c) (share1 m c) (share2 m c) (share3 m c) (share4 m c) (share5 m c) (share6 m c)
          (fun b => V8 m (regionOut m) c b)).2)
        iexact Ha
      isplitl [Hpf]; · iexact Hpf
      iexact Hrest
    · unfold Pipeline.Dat.owesAt Pipeline.owesWithin
      icases HO with ⟨%W, -, HO⟩; iexists W; iexact HO

end Cert.KernelIdeal.Hand

end
-- ==== Proof.RunMainKI.lean ====
import proofs.«407225_j55808805044518_3_alg».proof.Proof.RunKI
import proofs.«407225_j55808805044518_3_alg».proof.Proof.RegionKI

noncomputable section

namespace Cert.KernelIdeal.Hand

open Idealize.ShloMosaic Idealize.ShloMosaic.TcCoe
open Idealize.SL Idealize.SL.BI Idealize.SL.Sem
open Cert.KernelIdeal Cert.KernelIdeal.Gen

variable {F : FTy → Type} [FloatOps F]

theorem run_main_out (m : (ℓ : Loc nD τ sig) → Buf (Elt F) ℓ) (ρ : Dev nD → PrngReg) :
    θ_run defs (onTc (τ := τ) (main (F := F))) ⟨m, fun _ => 0, ρ⟩ (fun r => ∀ c : Dev nD, ∀ b : Ref sig .tc,
      b.isScoped = false → r.2.mem ((c.tc : Thread nD τ).loc b) = V21 m (regionOut m) c (Proc.devRef .tc b)) :=
  run_main_of m ρ adm (dats m) (regionOut m) (R0 m) (fun _ => BI.Entails.refl _) (fun _ => BI.Entails.refl _)

end Cert.KernelIdeal.Hand

end
-- ==== Proof.RegionOutKI.lean ====
import proofs.«407225_j55808805044518_3_alg».proof.Proof.DatsKI
import Idealize.ShloMosaic.Lib.Pipeline.Value

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Rounds
open Idealize.ShloMosaic.Pipeline (Dat Cfg Window)

variable {F : FTy → Type} [FloatOps F]

section OutWindow

variable (a : (pcfg0 (F := F)).Adm)

theorem out_index (t : Fin (pcfg0.at a).N) (d : Fin 3) :
    ((pcfg0.at a).win 6).index t d = (![t.val, 0, 0] : Fin 3 → ℕ) d := by
  have hc := coords_val a t
  have ht : t.val < 20 := t.isLt
  match d with
  | ⟨0, _⟩ =>
    show (BitVec.ofNat 32 (((pcfg0.at a).grid.coords t) 0).val).toNat = t.val
    rw [hc, BitVec.toNat_ofNat]
    omega
  | ⟨1, _⟩ => rfl
  | ⟨2, _⟩ => rfl

theorem out_flush (t : Fin (pcfg0.at a).N) : ((pcfg0.at a).win 6).flush t = true := by
  unfold Window.flush
  have ho : ((pcfg0.at a).win 6).isOut = true := rfl
  rw [ho, Bool.true_and, Bool.or_eq_true, decide_eq_true_eq, decide_eq_true_eq]
  have hN : (pcfg0.at a).grid.N = 20 := N_0
  have ht : t.val < 20 := t.isLt
  by_cases h : t.val + 1 < (pcfg0.at a).grid.N
  · refine Or.inr ⟨h, fun e => ?_⟩
    have e0 := congrFun e (0 : Fin 3)
    rw [out_index a _ (0 : Fin 3), out_index a t (0 : Fin 3)] at e0
    have : t.val + 1 = t.val := e0
    omega
  · exact Or.inl (by omega)

theorem out_mem_blk (t : Fin (pcfg0.at a).N) (i : S20x8x128.Idx) :
    i ∈ (((pcfg0.at a).win 6).blk t).view.set
      ↔ ∀ d : Fin 3, ((pcfg0.at a).win 6).index t d * S1x8x128.size d ≤ (i d).val
          ∧ (i d).val < ((pcfg0.at a).win 6).index t d * S1x8x128.size d + S1x8x128.size d := by
  have hset : (((pcfg0.at a).win 6).blk t).view.set = (((pcfg0.at a).win 6).rect t).set :=
    View.set_slice_whole main_v16 _
  exact (Iff.of_eq (congrArg (fun s => i ∈ s) hset)).trans Rect.mem_set_unit

end OutWindow

section OutArray

variable {c : Dev nD} (a : (pcfg0 (F := F)).Adm)
variable (dat : Dat τ (Elt F) Unit ℕ (UR sig nD τ) ℕ (pcfg0.at a) c)

theorem arrAt_out (tv : Fin 20 → FVec F S1x8x128 .f32) (hafter : ∀ t, dat.after 6 t = tv t) :
    dat.arrAt 6 (pcfg0.at a).N
      = fun idx : S20x8x128.Idx => tv (idx 0 : Fin 20) (ix3 (0 : Fin 1) (idx 1 : Fin 8) (idx 2 : Fin 128)) := by
  refine dat.arrAt_eq_of_cover 6 _ (fun t _ => funext fun (y : S1x8x128.Idx) => ?_)
    (fun (i : S20x8x128.Idx) => ?_)
  ·
    show dat.after 6 t y
      = (fun idx : S20x8x128.Idx => tv (idx 0 : Fin 20) (ix3 (0 : Fin 1) (idx 1 : Fin 8) (idx 2 : Fin 128)))
          ((((pcfg0.at a).win 6).blk t).view.emb y)
    rw [hafter]
    have hy0 : (y 0).val < 1 := (y 0).isLt
    have he0 : (((((pcfg0.at a).win 6).blk t).view.emb y) (0 : Fin 3) : Fin 20) = (t : Fin 20) := Fin.ext (by
      show ((pcfg0.at a).win 6).index t (0 : Fin 3) * 1 + 1 * (y 0).val = t.val
      rw [out_index a t (0 : Fin 3)]
      show t.val * 1 + 1 * (y 0).val = t.val
      omega)
    have he : ix3 (0 : Fin 1) (((((pcfg0.at a).win 6).blk t).view.emb y) (1 : Fin 3) : Fin 8)
        (((((pcfg0.at a).win 6).blk t).view.emb y) (2 : Fin 3) : Fin 128) = y := by
      funext d; apply Fin.ext
      match d with
      | ⟨0, _⟩ => show (0 : ℕ) = (y 0).val; omega
      | ⟨1, _⟩ =>
        show ((pcfg0.at a).win 6).index t (1 : Fin 3) * 8 + 1 * (y 1).val = (y 1).val
        rw [out_index a t (1 : Fin 3)]
        show 0 * 8 + 1 * (y 1).val = (y 1).val
        omega
      | ⟨2, _⟩ =>
        show ((pcfg0.at a).win 6).index t (2 : Fin 3) * 128 + 1 * (y 2).val = (y 2).val
        rw [out_index a t (2 : Fin 3)]
        show 0 * 128 + 1 * (y 2).val = (y 2).val
        omega
    exact (congrArg (tv t) he.symm).trans
      (congrArg (fun s : Fin 20 => tv s (ix3 (0 : Fin 1)
        (((((pcfg0.at a).win 6).blk t).view.emb y) (1 : Fin 3) : Fin 8)
        (((((pcfg0.at a).win 6).blk t).view.emb y) (2 : Fin 3) : Fin 128))) he0.symm)
  ·
    have hi0 : (i 0).val < 20 := (i 0).isLt
    have hi1 : (i 1).val < 8 := (i 1).isLt
    have hi2 : (i 2).val < 128 := (i 2).isLt
    have hN : (pcfg0.at a).N = 20 := N_0
    refine ⟨(⟨(i 0).val, hN.symm ▸ hi0⟩ : Fin (pcfg0.at a).N), out_flush a _, ?_⟩
    refine (out_mem_blk a _ i).mpr fun d => ?_
    rw [out_index a _ d]
    match d with
    | ⟨0, _⟩ => show (i 0).val * 1 ≤ (i 0).val ∧ (i 0).val < (i 0).val * 1 + 1; omega
    | ⟨1, _⟩ => show 0 * 8 ≤ (i 1).val ∧ (i 1).val < 0 * 8 + 8; omega
    | ⟨2, _⟩ => show 0 * 128 ≤ (i 2).val ∧ (i 2).val < 0 * 128 + 128; omega

end OutArray

section Region

variable (m : (ℓ : Loc nD τ sig) → Buf (Elt F) ℓ)

theorem regionOut_eq (c : Dev nD) : regionOut m c = tilesOut m c := by
  unfold regionOut
  exact arrAt_out (adm 0) (dats m 0 c) (fun t => tileVal m c t) (fun t => after0_6 m c t)

end Region

end Cert.KernelIdeal.Hand

end
-- ==== Proof.RunMainTKI.lean ====
import proofs.«407225_j55808805044518_3_alg».proof.Proof.RunMainKI
import proofs.«407225_j55808805044518_3_alg».proof.Proof.RegionOutKI

noncomputable section

namespace Cert.KernelIdeal.Hand

open Idealize.ShloMosaic Idealize.ShloMosaic.TcCoe
open Idealize.SL Idealize.SL.BI Idealize.SL.Sem
open Cert.KernelIdeal Cert.KernelIdeal.Gen

variable {F : FTy → Type} [FloatOps F]

theorem run_main (m : (ℓ : Loc nD τ sig) → Buf (Elt F) ℓ) (ρ : Dev nD → PrngReg) :
    θ_run defs (onTc (τ := τ) (main (F := F))) ⟨m, fun _ => 0, ρ⟩ (fun r => ∀ c : Dev nD, ∀ b : Ref sig .tc,
      b.isScoped = false → r.2.mem ((c.tc : Thread nD τ).loc b) = V21 m (tilesOut m) c (Proc.devRef .tc b)) := by
  have h := run_main_out m ρ
  rwa [show regionOut m = tilesOut m from funext (regionOut_eq m)] at h

end Cert.KernelIdeal.Hand

end
-- ==== Proof.Spec.lean ====
import Idealize.ShloMosaic.PureOps.Ideal

noncomputable section

namespace Cert.Spec

open Idealize.ShloMosaic

def eps : EReal := Ideal.ofBits .f32 0x2B8CBCCC#32
def one : EReal := Ideal.ofBits .f32 0x3F800000#32
def zero : EReal := Ideal.ofBits .f32 0x00000000#32

variable (E : Fin 8192 → Fin 512 → EReal) (lab gid cat : Fin 8192 → BitVec 32) (i1 i2 : Fin 5000 → BitVec 32)

def nrm (i : Fin 8192) : EReal := max (Ideal.sqrt (∑ d, E i d * E i d)) eps

def e (i : Fin 8192) (d : Fin 512) : EReal := Ideal.div (E i d) (nrm E i)

def sim (i j : Fin 8192) : EReal := ∑ d, e E i d * e E j d

def cons (i : Fin 8192) : Prop := (cat i).slt 3#32 = true

instance (i : Fin 8192) : Decidable (cons cat i) := by unfold cons; infer_instance

def validPos (i j : Fin 8192) : Prop := i < j ∧ lab i = lab j ∧ gid i ≠ gid j ∧ cons cat i ∧ cons cat j

instance (i j : Fin 8192) : Decidable (validPos lab gid cat i j) := by unfold validPos; infer_instance

def posSum : EReal := ∑ i, ∑ j, if validPos lab gid cat i j then one - sim E i j else zero

def posCnt : ℕ := ((Finset.univ : Finset (Fin 8192 × Fin 8192)).filter fun p => validPos lab gid cat p.1 p.2).card

def avg (cnt : ℕ) (s : EReal) : EReal := if 0 < cnt then Ideal.div s (((max cnt 1 : ℕ) : ℝ) : EReal) else zero

def rowOf (w : BitVec 32) : Fin 8192 :=
  ⟨min ((if w.slt 0#32 then w + 8192#32 else w).toInt.toNat) 8191, by omega⟩

def negValid (s : Fin 5000) : Prop :=
  gid (rowOf (i1 s)) ≠ gid (rowOf (i2 s)) ∧ lab (rowOf (i1 s)) ≠ lab (rowOf (i2 s))
    ∧ (cons cat (rowOf (i1 s)) ∨ cons cat (rowOf (i2 s)))

instance (s : Fin 5000) : Decidable (negValid lab gid cat i1 i2 s) := by unfold negValid; infer_instance

def negSum : EReal :=
  ∑ s, if negValid lab gid cat i1 i2 s then max (sim E (rowOf (i1 s)) (rowOf (i2 s)) - zero) zero else zero

def negCnt : ℕ := ((Finset.univ : Finset (Fin 5000)).filter fun s => negValid lab gid cat i1 i2 s).card

def loss : EReal := avg (posCnt lab gid cat) (posSum E lab gid cat) + avg (negCnt lab gid cat i1 i2) (negSum E lab gid cat i1 i2)

end Cert.Spec

end
-- ==== Proof.Args.lean ====
import proofs.«407225_j55808805044518_3_alg».proof.Proof.Spec
import Idealize.ShloMosaic.Lib.ValueIdx

noncomputable section

namespace Cert.Args

open Idealize.ShloMosaic Idealize.ShloMosaic.ValueIdx

def mat (A : (⟨2, ![8192, 512]⟩ : Shape).Idx → EReal) : Fin 8192 → Fin 512 → EReal := fun i d => A (ix2 i d)

def vec (v : (⟨1, ![8192]⟩ : Shape).Idx → BitVec 32) : Fin 8192 → BitVec 32 := fun i => v (ix1 i)

def vecS (v : (⟨1, ![5000]⟩ : Shape).Idx → BitVec 32) : Fin 5000 → BitVec 32 := fun i => v (ix1 i)

def lossOf (A : (⟨2, ![8192, 512]⟩ : Shape).Idx → EReal) (lab gid cat : (⟨1, ![8192]⟩ : Shape).Idx → BitVec 32)
    (i1 i2 : (⟨1, ![5000]⟩ : Shape).Idx → BitVec 32) : EReal :=
  Cert.Spec.loss (mat A) (vec lab) (vec gid) (vec cat) (vecS i1) (vecS i2)

def InRange (lab gid : (⟨1, ![8192]⟩ : Shape).Idx → BitVec 32) : Prop :=
  (∀ i : Fin 8192, 0 ≤ (lab (ix1 i)).toInt ∧ (lab (ix1 i)).toInt < 512) ∧ (∀ i : Fin 8192, 0 ≤ (gid (ix1 i)).toInt ∧ (gid (ix1 i)).toInt < 16)

end Cert.Args

end
-- ==== Proof.PosSumKIa.lean ====
import proofs.«407225_j55808805044518_3_alg».proof.Proof.WritesKI
import proofs.«407225_j55808805044518_3_alg».proof.Proof.TileKI
import proofs.«407225_j55808805044518_3_alg».proof.Proof.Args
import Idealize.ShloMosaic.Lib.ValueIdx
import Idealize.ShloMosaic.Lib.IdealHost
import Idealize.ShloMosaic.Lib.Pipeline.Value
import Idealize.ShloMosaic.PureOps.Ideal.Laws

noncomputable section

namespace Cert.KernelIdeal.Hand

open Idealize.ShloMosaic Idealize.ShloMosaic.TcCoe Idealize.SL.Sem Idealize.ShloMosaic.ValueIdx
open Cert.KernelIdeal Cert.KernelIdeal.Gen
open scoped BigOperators

theorem eps_pos : (0 : EReal) < Cert.Spec.eps := by
  unfold Cert.Spec.eps
  simp [Ideal.ofBits, Ideal.ieee, -EReal.coe_mul]

theorem max_eps_ne_zero (x : EReal) : max x Cert.Spec.eps ≠ 0 :=
  (lt_of_lt_of_le eps_pos (le_max_right x _)).ne'

theorem mul_recip_clip (x y : EReal) : x * Ideal.div 1 (max y Cert.Spec.eps) = Ideal.div x (max y Cert.Spec.eps) :=
  Ideal.mul_one_div (max_eps_ne_zero y)

section Stretches
variable (W : Valuation τ sig (Elt Ideal))

theorem norm_read :
    (StableHlo.after hostOps0_1 W (Proc.devRef .tc main_v0) : FVec Ideal S8192x1 .f32)
      = Host.sqrt (broadcastInDim S8192x1 ![0] bcast_S8192_S8192x1_0
          (Host.reduceAdd (mulf (W main_arg0 : FVec Ideal S8192x512 .f32) (W main_arg0)) (constant (F := Ideal) S_ .f32 0x00000000#32)
            reducesTo_S8192x512_S8192_d1 h_S_)) := by
  after_results; rfl

theorem scale_read :
    (StableHlo.after hostOps0_2 W (Proc.devRef .tc main_v7) : FVec Ideal S8192x512 .bf16)
      = truncf .bf16 (mulf (W main_arg0 : FVec Ideal S8192x512 .f32)
          (broadcastInDim S8192x512 ![0, 1] bcast_S8192x1_S8192x512_0_1
            (Host.divf (broadcastInDim S8192x1 ![] bcast_S_S8192x1 (constant (F := Ideal) S_ .f32 0x3F800000#32))
              (maximumf (W main_v0 : FVec Ideal S8192x1 .f32)
                (broadcastInDim S8192x1 ![] bcast_S_S8192x1 (constant (F := Ideal) S_ .f32 0x2B8CBCCC#32)))))) bitsLt_bf16_f32 := by
  after_results

end Stretches

theorem norm_apply (A : FVec Ideal S8192x512 .f32) (i : Fin 8192) :
    Host.sqrt (broadcastInDim S8192x1 ![0] bcast_S8192_S8192x1_0
        (Host.reduceAdd (mulf A A) (constant (F := Ideal) S_ .f32 0x00000000#32) reducesTo_S8192x512_S8192_d1 h_S_)) (ix2 i (0 : Fin 1))
      = Ideal.sqrt (∑ d : Fin 512, A (ix2 i d) * A (ix2 i d)) := by
  show Ideal.sqrt _ = _
  congr 1
  rw [broadcastInDim_apply _ _ _ _ (ix1 i) (fun a => by
    match a with
    | ⟨0, _⟩ => rfl)]
  rw [hostReduceAdd_apply]
  have hR : S8192x512.Reduces [1] S8192 := by decide
  rw [Ideal.hostReduceAdd_single _ hR]
  show Ideal.ofBits .f32 0x00000000#32 + _ = _
  rw [Ideal.ofBits_zero_f32, zero_add]
  refine Finset.sum_congr rfl fun d _ => ?_
  have e : hR.lift (ix1 i) d = ix2 i d := by
    funext a
    match a with
    | ⟨0, _⟩ => exact Fin.ext rfl
    | ⟨1, _⟩ => exact Fin.ext rfl
  rw [e]; rfl

theorem scale_apply (A : FVec Ideal S8192x512 .f32) (N : FVec Ideal S8192x1 .f32) (i : Fin 8192) (d : Fin 512) :
    (truncf .bf16 (mulf A
          (broadcastInDim S8192x512 ![0, 1] bcast_S8192x1_S8192x512_0_1
            (Host.divf (broadcastInDim S8192x1 ![] bcast_S_S8192x1 (constant (F := Ideal) S_ .f32 0x3F800000#32))
              (maximumf N
                (broadcastInDim S8192x1 ![] bcast_S_S8192x1 (constant (F := Ideal) S_ .f32 0x2B8CBCCC#32)))))) bitsLt_bf16_f32
        : FVec Ideal S8192x512 .bf16) (ix2 i d)
      = Ideal.div (A (ix2 i d)) (max (N (ix2 i (0 : Fin 1))) Cert.Spec.eps) := by
  rw [truncf_apply, mulf_apply]
  rw [broadcastInDim_apply _ _ _ _ (ix2 i (0 : Fin 1)) (fun a => by
    match a with
    | ⟨0, _⟩ => rfl
    | ⟨1, _⟩ => rfl)]
  rw [hostDivf_apply, maximumf_apply, broadcastInDim_scalar_apply, broadcastInDim_scalar_apply, constant_apply, constant_apply,
    Ideal.ofBits_one_f32]
  exact mul_recip_clip _ _

section Carry
variable (m : (ℓ : Loc nD τ sig) → Buf (Elt Ideal) ℓ) (c : Dev nD)

theorem V1_arg0 : V1 m c main_arg0 = m ((c.tc : Thread nD τ).loc main_arg0) :=
  V1_of m c main_arg0 (by decide)
theorem V2_arg0 : V2 m c main_arg0 = m ((c.tc : Thread nD τ).loc main_arg0) :=
  (V2_of m c main_arg0 (by decide)).trans (V1_arg0 m c)

theorem arrE_apply (i : Fin 8192) (d : Fin 512) :
    arrE m c (ix2 i d) = Cert.Spec.e (Cert.Args.mat (m ((c.tc : Thread nD τ).loc main_arg0))) i d := by
  have h7 : arrE m c = V3 m c main_v7 :=
    (V7_of m c main_v7 (by decide)).trans ((V6_of m c main_v7 (by decide)).trans
      ((V5_of m c main_v7 (by decide)).trans (V4_of m c main_v7 (by decide))))
  have h0 : (V2 m c main_v0 : FVec Ideal S8192x1 .f32) = _ := norm_read (V1 m c)
  rw [h7]
  show (StableHlo.after hostOps0_2 (V2 m c) (Proc.devRef .tc main_v7) : FVec Ideal S8192x512 .bf16) (ix2 i d) = _
  rw [scale_read, scale_apply, h0, norm_apply, V2_arg0, V1_arg0]
  rfl

end Carry

end Cert.KernelIdeal.Hand

end
-- ==== Proof.PosSumKIb.lean ====
import proofs.«407225_j55808805044518_3_alg».proof.Proof.WritesKI
import proofs.«407225_j55808805044518_3_alg».proof.Proof.TileKI
import proofs.«407225_j55808805044518_3_alg».proof.Proof.Args
import Idealize.ShloMosaic.Lib.ValueIdx
import Idealize.ShloMosaic.Lib.ValueLayout
import Idealize.ShloMosaic.Lib.IdealHost
import Idealize.ShloMosaic.Lib.Pipeline.Value

noncomputable section

namespace Cert.KernelIdeal.Hand

open Idealize.ShloMosaic Idealize.ShloMosaic.TcCoe Idealize.SL.Sem Idealize.ShloMosaic.ValueIdx
open Cert.KernelIdeal Cert.KernelIdeal.Gen
open scoped BigOperators

theorem cmpi_ap' {s : Shape} {w : ℕ} (p : CmpIPredicate) (x y : IVec s w) (i : s.Idx) : cmpi p x y i = IntOp.cmpi p (x i) (y i) := rfl

section Stretches
variable (W : Valuation τ sig (Elt Ideal))

theorem cons_read :
    (StableHlo.after hostOps0_2 W (Proc.devRef .tc main_v9) : IVec S8192 1)
      = cmpi .slt (W main_arg3 : IVec S8192 32) (broadcastInDim S8192 ![] bcast_S_S8192 (constantI S_ 32 3#32)) := by
  after_results <;> rfl
theorem c512_read :
    (StableHlo.after hostOps0_2 W (Proc.devRef .tc main_c_3) : IVec S_ 32) = constantI S_ 32 512#32 := by
  after_results <;> rfl

theorem lab512_read :
    (StableHlo.after hostOps0_3 W (Proc.devRef .tc main_v10) : IVec S8192 32)
      = select (W main_v9 : IVec S8192 1) (W main_arg1 : IVec S8192 32) (broadcastInDim S8192 ![] bcast_S_S8192 (W main_c_3 : IVec S_ 32)) := by
  after_results <;> rfl
theorem labRow_read :
    (StableHlo.after hostOps0_4 W (Proc.devRef .tc main_v11) : IVec S8192x1 32)
      = shapeCast S8192x1 (W main_v10 : IVec S8192 32) shapeCasts_S8192_S8192x1 := by
  after_results <;> rfl
theorem c513_read :
    (StableHlo.after hostOps0_4 W (Proc.devRef .tc main_c_4) : IVec S_ 32) = constantI S_ 32 513#32 := by
  after_results <;> rfl
theorem lab513_read :
    (StableHlo.after hostOps0_5 W (Proc.devRef .tc main_v12) : IVec S8192 32)
      = select (W main_v9 : IVec S8192 1) (W main_arg1 : IVec S8192 32) (broadcastInDim S8192 ![] bcast_S_S8192 (W main_c_4 : IVec S_ 32)) := by
  after_results <;> rfl
theorem labCol_read :
    (StableHlo.after hostOps0_6 W (Proc.devRef .tc main_v13) : IVec S1x8192 32)
      = shapeCast S1x8192 (W main_v12 : IVec S8192 32) shapeCasts_S8192_S1x8192 := by
  after_results <;> rfl
theorem gidRow_read :
    (StableHlo.after hostOps0_6 W (Proc.devRef .tc main_v14) : IVec S8192x1 32)
      = shapeCast S8192x1 (W main_arg2 : IVec S8192 32) shapeCasts_S8192_S8192x1 := by
  after_results <;> rfl
theorem gidCol_read :
    (StableHlo.after hostOps0_6 W (Proc.devRef .tc main_v15) : IVec S1x8192 32)
      = shapeCast S1x8192 (W main_arg2 : IVec S8192 32) shapeCasts_S8192_S1x8192 := by
  after_results <;> rfl

end Stretches

theorem col_ap {α : Type} (x : S8192.Idx → α) (i : Fin 8192) :
    shapeCast S8192x1 x shapeCasts_S8192_S8192x1 (ix2 i (0 : Fin 1)) = x (ix1 i) :=
  shapeCast_apply _ _ _ _ (by
    rw [Shape.rowMajor_val_one, Shape.rowMajor_val_two]
    show i.val = i.val * 1 + 0
    omega)

theorem row_ap {α : Type} (x : S8192.Idx → α) (j : Fin 8192) :
    shapeCast S1x8192 x shapeCasts_S8192_S1x8192 (ix2 (0 : Fin 1) j) = x (ix1 j) :=
  shapeCast_apply _ _ _ _ (by
    rw [Shape.rowMajor_val_one, Shape.rowMajor_val_two]
    show j.val = 0 * 8192 + j.val
    omega)

section Carry
variable (m : (ℓ : Loc nD τ sig) → Buf (Elt Ideal) ℓ) (c : Dev nD)

theorem pre_arg (r : Ref sig .tc) (h0 : r ∉ hostOps0_W) (h1 : r ∉ hostOps0_1_W) (h2 : r ∉ hostOps0_2_W) (h3 : r ∉ hostOps0_3_W)
    (h4 : r ∉ hostOps0_4_W) (h5 : r ∉ hostOps0_5_W) :
    V2 m c r = V0 m c r ∧ V3 m c r = V0 m c r ∧ V4 m c r = V0 m c r ∧ V5 m c r = V0 m c r ∧ V6 m c r = V0 m c r := by
  have e1 := V1_of m c r h0
  have e2 := (V2_of m c r h1).trans e1
  have e3 := (V3_of m c r h2).trans e2
  have e4 := (V4_of m c r h3).trans e3
  have e5 := (V5_of m c r h4).trans e4
  have e6 := (V6_of m c r h5).trans e5
  exact ⟨e2, e3, e4, e5, e6⟩

theorem V3_cons (i : Fin 8192) :
    (V3 m c main_v9 : IVec S8192 1) (ix1 i)
      = IntOp.cmpi .slt (Cert.Args.vec (m ((c.tc : Thread nD τ).loc main_arg3)) i) 3#32 := by
  show (StableHlo.after hostOps0_2 (V2 m c) (Proc.devRef .tc main_v9) : IVec S8192 1) (ix1 i) = _
  rw [cons_read, cmpi_ap', broadcastInDim_scalar_apply, constantI_apply,
    (pre_arg m c main_arg3 (by decide) (by decide) (by decide) (by decide) (by decide) (by decide)).1]
  rfl

theorem labRow_apply (i : Fin 8192) :
    arrLabRow m c (ix2 i (0 : Fin 1))
      = Scalar.select (IntOp.cmpi .slt (Cert.Args.vec (m ((c.tc : Thread nD τ).loc main_arg3)) i) 3#32)
          (Cert.Args.vec (m ((c.tc : Thread nD τ).loc main_arg1)) i) 512#32 := by
  have h7 : arrLabRow m c = V5 m c main_v11 := (V7_of m c main_v11 (by decide)).trans (V6_of m c main_v11 (by decide))
  rw [h7]
  show (StableHlo.after hostOps0_4 (V4 m c) (Proc.devRef .tc main_v11) : IVec S8192x1 32) (ix2 i (0 : Fin 1)) = _
  rw [labRow_read, col_ap]
  show (StableHlo.after hostOps0_3 (V3 m c) (Proc.devRef .tc main_v10) : IVec S8192 32) (ix1 i) = _
  rw [lab512_read, select_apply, broadcastInDim_scalar_apply, V3_cons]
  have hc : (V3 m c main_c_3 : IVec S_ 32) = constantI S_ 32 512#32 := c512_read (V2 m c)
  rw [hc, constantI_apply, (pre_arg m c main_arg1 (by decide) (by decide) (by decide) (by decide) (by decide) (by decide)).2.1]
  rfl

theorem labCol_apply (j : Fin 8192) :
    arrLabCol m c (ix2 (0 : Fin 1) j)
      = Scalar.select (IntOp.cmpi .slt (Cert.Args.vec (m ((c.tc : Thread nD τ).loc main_arg3)) j) 3#32)
          (Cert.Args.vec (m ((c.tc : Thread nD τ).loc main_arg1)) j) 513#32 := by
  show (StableHlo.after hostOps0_6 (V6 m c) (Proc.devRef .tc main_v13) : IVec S1x8192 32) (ix2 (0 : Fin 1) j) = _
  rw [labCol_read, row_ap]
  show (StableHlo.after hostOps0_5 (V5 m c) (Proc.devRef .tc main_v12) : IVec S8192 32) (ix1 j) = _
  rw [lab513_read, select_apply, broadcastInDim_scalar_apply]
  have h9 : (V5 m c main_v9 : IVec S8192 1) = V3 m c main_v9 := (V5_of m c main_v9 (by decide)).trans (V4_of m c main_v9 (by decide))
  have hc : (V5 m c main_c_4 : IVec S_ 32) = constantI S_ 32 513#32 := c513_read (V4 m c)
  rw [h9, V3_cons, hc, constantI_apply,
    (pre_arg m c main_arg1 (by decide) (by decide) (by decide) (by decide) (by decide) (by decide)).2.2.2.1]
  rfl

theorem gidRow_apply (i : Fin 8192) :
    arrGidRow m c (ix2 i (0 : Fin 1)) = Cert.Args.vec (m ((c.tc : Thread nD τ).loc main_arg2)) i := by
  show (StableHlo.after hostOps0_6 (V6 m c) (Proc.devRef .tc main_v14) : IVec S8192x1 32) (ix2 i (0 : Fin 1)) = _
  rw [gidRow_read, col_ap, (pre_arg m c main_arg2 (by decide) (by decide) (by decide) (by decide) (by decide) (by decide)).2.2.2.2]
  rfl

theorem gidCol_apply (j : Fin 8192) :
    arrGidCol m c (ix2 (0 : Fin 1) j) = Cert.Args.vec (m ((c.tc : Thread nD τ).loc main_arg2)) j := by
  show (StableHlo.after hostOps0_6 (V6 m c) (Proc.devRef .tc main_v15) : IVec S1x8192 32) (ix2 (0 : Fin 1) j) = _
  rw [gidCol_read, row_ap, (pre_arg m c main_arg2 (by decide) (by decide) (by decide) (by decide) (by decide) (by decide)).2.2.2.2]
  rfl

end Carry

end Cert.KernelIdeal.Hand

end
-- ==== Proof.PosSumKIc.lean ====
import proofs.«407225_j55808805044518_3_alg».proof.Proof.Gen.KernelIdeal.Skeleton
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

noncomputable section

namespace Cert.KernelIdeal.Hand

open Idealize.ShloMosaic Idealize.ShloMosaic.TcCoe Idealize.SL.Sem Idealize.ShloMosaic.ValueIdx
open Cert.KernelIdeal Cert.KernelIdeal.Gen
open scoped BigOperators

section Words
variable {s : Shape} {w : ℕ}
theorem andi_ap (x y : IVec s w) (i : s.Idx) : andi x y i = IntOp.andi (x i) (y i) := rfl
theorem cmpi_ap (p : CmpIPredicate) (x y : IVec s w) (i : s.Idx) : cmpi p x y i = IntOp.cmpi p (x i) (y i) := rfl
theorem addi_ap (x y : IVec s w) (i : s.Idx) : addi x y i = IntOp.addi (x i) (y i) := rfl
end Words

theorem bcast_col_ap {α : Type} (x : S1024x1.Idx → α) (r : Fin 1024) (col : Fin 2048) :
    broadcastTo S1024x2048 x broadcasts_S1024x1_S1024x2048 (ix2 r col) = x (ix2 r (0 : Fin 1)) :=
  broadcastTo_apply _ _ _ _ (fun a => by
    match a with
    | ⟨0, _⟩ => rfl
    | ⟨1, _⟩ => rfl)

theorem bcast_row_ap {α : Type} (x : S1x2048.Idx → α) (r : Fin 1024) (col : Fin 2048) :
    broadcastTo S1024x2048 x broadcasts_S1x2048_S1024x2048 (ix2 r col) = x (ix2 (0 : Fin 1) col) :=
  broadcastTo_apply _ _ _ _ (fun a => by
    match a with
    | ⟨0, _⟩ => rfl
    | ⟨1, _⟩ => rfl)

theorem cast_id_ap {α : Type} {S : Shape} (x : S.Idx → α) (h : S.ShapeCasts S) (j : S.Idx) : shapeCast S x h j = x j :=
  shapeCast_apply _ _ _ j rfl

theorem dot_apply (x : FVec Ideal S1024x512 .bf16) (y : FVec Ideal S2048x512 .bf16) (r : Fin 1024) (col : Fin 2048) :
    matmul dot_S1024x512_S2048x512_S1024x2048_1_1_0_0_n_n none x y (constant S1024x2048 .f32 0x00000000#32) (ix2 r col)
      = ∑ d : Fin 512, x (ix2 r d) * y (ix2 col d) := by
  simp only [matmul]
  rw [Ideal.matmul_constant_zero_apply]
  rw [← Equiv.sum_comp (contrEquiv1 dot_S1024x512_S2048x512_S1024x2048_1_1_0_0_n_n 512 rfl rfl).symm]
  refine Finset.sum_congr rfl fun d _ => ?_
  have hl : dot_S1024x512_S2048x512_S1024x2048_1_1_0_0_n_n.lhsIdx (ix2 r col)
      ((contrEquiv1 dot_S1024x512_S2048x512_S1024x2048_1_1_0_0_n_n 512 rfl rfl).symm d) = ix2 r d := by
    funext a
    match a with
    | ⟨0, _⟩ => exact Fin.ext rfl
    | ⟨1, _⟩ =>
      refine Fin.ext ?_
      show (dot_S1024x512_S2048x512_S1024x2048_1_1_0_0_n_n.lhsIdx (ix2 r col)
        ((contrEquiv1 dot_S1024x512_S2048x512_S1024x2048_1_1_0_0_n_n 512 rfl rfl).symm d) (1 : Fin 2)).val = d.val
      exact (DotDims.lhsIdx_val_of_single dot_S1024x512_S2048x512_S1024x2048_1_1_0_0_n_n (cl := (1 : Fin 2)) rfl _ _).trans
        (contrEquiv1_symm_val dot_S1024x512_S2048x512_S1024x2048_1_1_0_0_n_n 512 rfl rfl d)
  have hrr : dot_S1024x512_S2048x512_S1024x2048_1_1_0_0_n_n.rhsIdx (ix2 r col)
      ((contrEquiv1 dot_S1024x512_S2048x512_S1024x2048_1_1_0_0_n_n 512 rfl rfl).symm d) = ix2 col d := by
    funext a
    match a with
    | ⟨0, _⟩ => exact Fin.ext rfl
    | ⟨1, _⟩ =>
      refine Fin.ext ?_
      show (dot_S1024x512_S2048x512_S1024x2048_1_1_0_0_n_n.rhsIdx (ix2 r col)
        ((contrEquiv1 dot_S1024x512_S2048x512_S1024x2048_1_1_0_0_n_n 512 rfl rfl).symm d) (1 : Fin 2)).val = d.val
      exact (DotDims.rhsIdx_val_of_single dot_S1024x512_S2048x512_S1024x2048_1_1_0_0_n_n (cr := (1 : Fin 2)) rfl _ _).trans
        (contrEquiv1_symm_val dot_S1024x512_S2048x512_S1024x2048_1_1_0_0_n_n 512 rfl rfl d)
  rw [hl, hrr]

def maskBit (v1 v3 : BitVec 32) (v12 : IVec S1024x1 32) (v14 : IVec S1x2048 32) (v16 : IVec S1024x1 32) (v18 : IVec S1x2048 32)
    (r : Fin 1024) (col : Fin 2048) : BitVec 1 :=
  IntOp.andi (IntOp.andi
      (IntOp.cmpi .slt (IntOp.addi (Scalar.muli v1 1024#32) (BitVec.ofNat 32 r.val)) (IntOp.addi (Scalar.muli v3 2048#32) (BitVec.ofNat 32 col.val)))
      (IntOp.cmpi .eq (v12 (ix2 r (0 : Fin 1))) (v14 (ix2 (0 : Fin 1) col))))
    (IntOp.cmpi .ne (v16 (ix2 r (0 : Fin 1))) (v18 (ix2 (0 : Fin 1) col)))

theorem pay2_apply (v1 v3 : BitVec 32) (v12 : IVec S1024x1 32) (v14 : IVec S1x2048 32) (v16 : IVec S1024x1 32) (v18 : IVec S1x2048 32)
    (v31 : FVec Ideal S1024x512 .bf16) (v33 : FVec Ideal S2048x512 .bf16) (r : Fin 1024) :
    k0_pay2 (F := Ideal) v1 v3 v12 v14 v16 v18 v31 v33 (ix1 r)
      = ∑ col : Fin 2048, Scalar.select (maskBit v1 v3 v12 v14 v16 v18 r col)
          ((1 : EReal) - ∑ d : Fin 512, v31 (ix2 r d) * v33 (ix2 col d)) 0 := by
  unfold k0_pay2
  refine (Ideal.multiReduction_add_single _ _ reduces_S1024x2048_S1024 _ _ _).trans ?_
  refine Finset.sum_congr rfl fun (col : Fin 2048) _ => ?_
  have e : reduces_S1024x2048_S1024.lift (ix1 r) col = ix2 r col := by
    funext a
    match a with
    | ⟨0, _⟩ => exact Fin.ext rfl
    | ⟨1, _⟩ => exact Fin.ext rfl
  rw [e, select_apply]
  congr 1
  · simp only [andi_ap, cmpi_ap, addi_ap, bcast_col_ap, bcast_row_ap, cast_id_ap, broadcast_apply]
    rw [iota_single_apply, iota_single_apply]
    rfl
  · rw [subf_apply, broadcast_apply, dot_apply]
    simp only [cast_id_ap]
    congr 1
    exact Ideal.ofBits_one_f32
  · rw [broadcast_apply]
    exact Ideal.ofBits_zero_f32

theorem pay1_apply (v40 : FVec Ideal S1024 .f32) (a : Fin 8) (b : Fin 128) :
    k0_pay1 v40 (ix3 (0 : Fin 1) a b) = ∑ r : Fin 1024, v40 (ix1 r) := by
  unfold k0_pay1
  rw [shapeCast_apply _ _ _ (ix2 a b) (by
    rw [Shape.rowMajor_val_two, Shape.rowMajor_val_three]
    show a.val * 128 + b.val = ((0 : ℕ) * 8 + a.val) * 128 + b.val
    omega)]
  rw [broadcastTo_apply _ _ _ (ix2 (0 : Fin 1) (0 : Fin 1)) (fun x => by
    match x with
    | ⟨0, _⟩ => rfl
    | ⟨1, _⟩ => rfl)]
  rw [shapeCast_apply _ _ _ (ix2 (0 : Fin 1) (0 : Fin 1)) rfl]
  rw [shapeCast_apply _ _ _ (ix1 (0 : Fin 1)) (by rw [Shape.rowMajor_val_one, Shape.rowMajor_val_two]; rfl)]
  refine (Ideal.multiReduction_add_single _ _ reduces_S1024x1_S1 _ _ _).trans ?_
  refine Finset.sum_congr rfl fun r _ => ?_
  refine shapeCast_apply _ _ _ (ix1 r) ?_
  rw [Shape.rowMajor_val_one, Shape.rowMajor_val_two]
  show r.val = r.val * 1 + 0
  omega

end Cert.KernelIdeal.Hand

end
-- ==== Proof.MaskWords.lean ====
import Idealize.ShloMosaic.PureOps.Vector
import Idealize.ShloMosaic.Lib.WordArith

namespace Cert.MaskWords

open Idealize.ShloMosaic

theorem cmpi_eq_iff {w : ℕ} (x y : BitVec w) : IntOp.cmpi .eq x y = 1#1 ↔ x = y := by
  show BitVec.ofBool (x == y) = 1#1 ↔ _
  rw [WordArith.ofBool_eq_one_iff, beq_iff_eq]

theorem cmpi_ne_iff {w : ℕ} (x y : BitVec w) : IntOp.cmpi .ne x y = 1#1 ↔ x ≠ y := by
  show BitVec.ofBool (x != y) = 1#1 ↔ _
  rw [WordArith.ofBool_eq_one_iff, bne_iff_ne]

theorem cmpi_slt_iff {w : ℕ} (x y : BitVec w) : IntOp.cmpi .slt x y = 1#1 ↔ x.slt y = true := by
  show BitVec.ofBool (x.slt y) = 1#1 ↔ _
  rw [WordArith.ofBool_eq_one_iff]

theorem andi_eq_one_iff (a b : BitVec 1) : IntOp.andi a b = 1#1 ↔ a = 1#1 ∧ b = 1#1 := by
  revert a b; decide

theorem andi3_eq_one_iff (a b c : BitVec 1) : IntOp.andi (IntOp.andi a b) c = 1#1 ↔ a = 1#1 ∧ b = 1#1 ∧ c = 1#1 := by
  rw [andi_eq_one_iff, andi_eq_one_iff, and_assoc]

theorem select_ofBool {α : Type} (b : Bool) (x y : α) : Scalar.select (BitVec.ofBool b) x y = if b = true then x else y := by
  cases b <;> rfl

theorem toNat_lt_of_toInt (x : BitVec 32) (n : ℕ) (h : 0 ≤ x.toInt ∧ x.toInt < n) : x.toNat < n := by
  have hc := BitVec.toInt_eq_toNat_cond x
  have hl := x.isLt
  obtain ⟨h0, h1⟩ := h
  split at hc <;> omega

theorem ne_512 (l : BitVec 32) (h : l.toNat < 512) : l ≠ 512#32 := by
  intro e; rw [e] at h; exact absurd h (by decide)

theorem ne_513 (l : BitVec 32) (h : l.toNat < 512) : l ≠ 513#32 := by
  intro e; rw [e] at h; exact absurd h (by decide)

theorem effLab_eq_iff_of_toNat (li lj ci cj : BitVec 32) (hi : li.toNat < 512) (hj : lj.toNat < 512) :
    Scalar.select (IntOp.cmpi .slt ci 3#32) li 512#32 = Scalar.select (IntOp.cmpi .slt cj 3#32) lj 513#32
      ↔ (ci.slt 3#32 = true ∧ cj.slt 3#32 = true ∧ li = lj) := by
  show Scalar.select (BitVec.ofBool (ci.slt 3#32)) li 512#32 = Scalar.select (BitVec.ofBool (cj.slt 3#32)) lj 513#32 ↔ _
  rw [select_ofBool, select_ofBool]
  by_cases h1 : ci.slt 3#32 = true <;> by_cases h2 : cj.slt 3#32 = true
  · rw [if_pos h1, if_pos h2]
    exact ⟨fun e => ⟨h1, h2, e⟩, fun e => e.2.2⟩
  · rw [if_pos h1, if_neg h2]
    exact ⟨fun e => absurd e (ne_513 li hi), fun e => absurd e.2.1 h2⟩
  · rw [if_neg h1, if_pos h2]
    exact ⟨fun e => absurd e.symm (ne_512 lj hj), fun e => absurd e.1 h1⟩
  · rw [if_neg h1, if_neg h2]
    exact ⟨fun e => absurd e (by decide), fun e => absurd e.1 h1⟩

theorem effLab_eq_iff (li lj ci cj : BitVec 32) (hi : 0 ≤ li.toInt ∧ li.toInt < 512) (hj : 0 ≤ lj.toInt ∧ lj.toInt < 512) :
    IntOp.cmpi .eq (Scalar.select (IntOp.cmpi .slt ci 3#32) li 512#32) (Scalar.select (IntOp.cmpi .slt cj 3#32) lj 513#32) = 1#1
      ↔ (ci.slt 3#32 = true ∧ cj.slt 3#32 = true ∧ li = lj) := by
  rw [cmpi_eq_iff]
  exact effLab_eq_iff_of_toNat li lj ci cj (toNat_lt_of_toInt li 512 hi) (toNat_lt_of_toInt lj 512 hj)

theorem blockpos_eq (b e p : ℕ) :
    IntOp.addi (Scalar.muli (BitVec.ofNat 32 b) (BitVec.ofNat 32 e)) (BitVec.ofNat 32 p) = BitVec.ofNat 32 (b * e + p) := by
  show BitVec.ofNat 32 b * BitVec.ofNat 32 e + BitVec.ofNat 32 p = _
  rw [← BitVec.ofNat_mul, ← BitVec.ofNat_add]

theorem slt_ofNat_iff (a b : ℕ) (ha : a < 2 ^ 31) (hb : b < 2 ^ 31) :
    (BitVec.ofNat 32 a).slt (BitVec.ofNat 32 b) = true ↔ a < b := by
  rw [BitVec.slt_iff_toInt_lt, WordArith.toInt_ofNat_small a ha, WordArith.toInt_ofNat_small b hb]
  exact Int.ofNat_lt

theorem rowcol_slt_iff (bi bj r col : ℕ) (hbi : bi < 8) (hbj : bj < 4) (hr : r < 1024) (hc : col < 2048) :
    IntOp.cmpi .slt (IntOp.addi (Scalar.muli (BitVec.ofNat 32 bi) 1024#32) (BitVec.ofNat 32 r))
        (IntOp.addi (Scalar.muli (BitVec.ofNat 32 bj) 2048#32) (BitVec.ofNat 32 col)) = 1#1
      ↔ bi * 1024 + r < bj * 2048 + col := by
  rw [cmpi_slt_iff]
  have e1 := blockpos_eq bi 1024 r
  have e2 := blockpos_eq bj 2048 col
  rw [show (BitVec.ofNat 32 1024 : BitVec 32) = 1024#32 from rfl] at e1
  rw [show (BitVec.ofNat 32 2048 : BitVec 32) = 2048#32 from rfl] at e2
  rw [e1, e2]
  exact slt_ofNat_iff _ _ (by omega) (by omega)

theorem mask_iff (bi bj r col : ℕ) (hbi : bi < 8) (hbj : bj < 4) (hr : r < 1024) (hc : col < 2048)
    (li lj ci cj gi gj : BitVec 32) (hi : 0 ≤ li.toInt ∧ li.toInt < 512) (hj : 0 ≤ lj.toInt ∧ lj.toInt < 512) :
    IntOp.andi (IntOp.andi
        (IntOp.cmpi .slt (IntOp.addi (Scalar.muli (BitVec.ofNat 32 bi) 1024#32) (BitVec.ofNat 32 r))
          (IntOp.addi (Scalar.muli (BitVec.ofNat 32 bj) 2048#32) (BitVec.ofNat 32 col)))
        (IntOp.cmpi .eq (Scalar.select (IntOp.cmpi .slt ci 3#32) li 512#32) (Scalar.select (IntOp.cmpi .slt cj 3#32) lj 513#32)))
      (IntOp.cmpi .ne gi gj) = 1#1
      ↔ (bi * 1024 + r < bj * 2048 + col ∧ li = lj ∧ gi ≠ gj ∧ ci.slt 3#32 = true ∧ cj.slt 3#32 = true) := by
  rw [andi3_eq_one_iff, rowcol_slt_iff bi bj r col hbi hbj hr hc, effLab_eq_iff li lj ci cj hi hj, cmpi_ne_iff]
  constructor
  · rintro ⟨h1, ⟨h2, h3, h4⟩, h5⟩; exact ⟨h1, h4, h5, h2, h3⟩
  · rintro ⟨h1, h4, h5, h2, h3⟩; exact ⟨h1, ⟨h2, h3, h4⟩, h5⟩

end Cert.MaskWords
-- ==== Proof.TileSum.lean ====
import Mathlib.Data.Fintype.BigOperators
import Mathlib.Logic.Equiv.Fin.Basic
import Mathlib.Data.Fin.VecNotation

namespace Cert.TileSum

open Finset

def bi : Fin 20 → ℕ := ![0, 1, 0, 1, 2, 3, 0, 1, 2, 3, 4, 5, 0, 1, 2, 3, 4, 5, 6, 7]

def bj : Fin 20 → ℕ := ![0, 0, 1, 1, 1, 1, 2, 2, 2, 2, 2, 2, 3, 3, 3, 3, 3, 3, 3, 3]

theorem bi_lt (t : Fin 20) : bi t < 8 := by revert t; decide

theorem bj_lt (t : Fin 20) : bj t < 4 := by revert t; decide

theorem idx_lt {m n : ℕ} (a : Fin m) (r : Fin n) : a.val * n + r.val < m * n :=
  calc a.val * n + r.val < a.val * n + n := Nat.add_lt_add_left r.isLt _
    _ = (a.val + 1) * n := (Nat.succ_mul _ _).symm
    _ ≤ m * n := Nat.mul_le_mul_right n a.isLt

variable {M : Type*} [AddCommMonoid M]

theorem sum_blocks {m n N : ℕ} (h : m * n = N) (g : Fin N → M) :
    ∑ i : Fin N, g i = ∑ a : Fin m, ∑ r : Fin n, g ⟨a.val * n + r.val, (idx_lt a r).trans_eq h⟩ := by
  subst h
  have e := Fintype.sum_equiv (finProdFinEquiv (m := m) (n := n))
    (fun p => g ⟨p.1.val * n + p.2.val, idx_lt p.1 p.2⟩) g
    (fun p => congrArg g (Fin.ext (by simp [Nat.mul_comm, Nat.add_comm])))
  exact e.symm.trans (Fintype.sum_prod_type _)

def tileVal (f : Fin 8192 → Fin 8192 → M) (p : Fin 8 × Fin 4) : M :=
  ∑ r : Fin 1024, ∑ c : Fin 2048,
    f ⟨p.1.val * 1024 + r.val, idx_lt p.1 r⟩ ⟨p.2.val * 2048 + c.val, idx_lt p.2 c⟩

theorem total_eq (f : Fin 8192 → Fin 8192 → M) :
    ∑ i : Fin 8192, ∑ j : Fin 8192, f i j = ∑ p : Fin 8 × Fin 4, tileVal f p :=
  calc ∑ i : Fin 8192, ∑ j : Fin 8192, f i j
      = ∑ a : Fin 8, ∑ r : Fin 1024, ∑ j : Fin 8192, f ⟨a.val * 1024 + r.val, idx_lt a r⟩ j :=
        sum_blocks (m := 8) (n := 1024) rfl _
    _ = ∑ a : Fin 8, ∑ r : Fin 1024, ∑ b : Fin 4, ∑ c : Fin 2048,
          f ⟨a.val * 1024 + r.val, idx_lt a r⟩ ⟨b.val * 2048 + c.val, idx_lt b c⟩ :=
        Finset.sum_congr rfl fun a _ => Finset.sum_congr rfl fun r _ =>
          sum_blocks (m := 4) (n := 2048) rfl _
    _ = ∑ a : Fin 8, ∑ b : Fin 4, ∑ r : Fin 1024, ∑ c : Fin 2048,
          f ⟨a.val * 1024 + r.val, idx_lt a r⟩ ⟨b.val * 2048 + c.val, idx_lt b c⟩ :=
        Finset.sum_congr rfl fun a _ => Finset.sum_comm
    _ = ∑ p : Fin 8 × Fin 4, tileVal f p := (Fintype.sum_prod_type (tileVal f)).symm

theorem tileVal_eq_zero (f : Fin 8192 → Fin 8192 → M) (hf : ∀ i j, ¬ i < j → f i j = 0)
    (p : Fin 8 × Fin 4) (h : ¬ p.1.val < 2 * (p.2.val + 1)) : tileVal f p = 0 := by
  refine Finset.sum_eq_zero fun r _ => Finset.sum_eq_zero fun c _ => hf _ _ ?_
  have hc := c.isLt
  simp only [Fin.mk_lt_mk]
  omega

def tile (t : Fin 20) : Fin 8 × Fin 4 := (⟨bi t, bi_lt t⟩, ⟨bj t, bj_lt t⟩)

theorem tile_injective : Function.Injective tile := by decide

theorem image_tile :
    Finset.univ.image tile
      = Finset.univ.filter (fun p : Fin 8 × Fin 4 => p.1.val < 2 * (p.2.val + 1)) := by
  decide

theorem tile_sum (f : Fin 8192 → Fin 8192 → M) (hf : ∀ i j, ¬ i < j → f i j = 0) :
    (∑ t : Fin 20, ∑ r : Fin 1024, ∑ c : Fin 2048,
        f ⟨bi t * 1024 + r.val, by have := bi_lt t; omega⟩
          ⟨bj t * 2048 + c.val, by have := bj_lt t; omega⟩)
      = ∑ i : Fin 8192, ∑ j : Fin 8192, f i j := by
  have hL : (∑ t : Fin 20, ∑ r : Fin 1024, ∑ c : Fin 2048,
        f ⟨bi t * 1024 + r.val, by have := bi_lt t; omega⟩
          ⟨bj t * 2048 + c.val, by have := bj_lt t; omega⟩)
      = ∑ t : Fin 20, tileVal f (tile t) := rfl
  rw [hL, total_eq, ← Finset.sum_image (f := tileVal f) (tile_injective.injOn), image_tile,
    Finset.sum_filter]
  refine Finset.sum_congr rfl fun p _ => ?_
  split_ifs with h
  · rfl
  · exact (tileVal_eq_zero f hf p h).symm

end Cert.TileSum
-- ==== Proof.PosSumKI.lean ====
import proofs.«407225_j55808805044518_3_alg».proof.Proof.PosSumKIa
import proofs.«407225_j55808805044518_3_alg».proof.Proof.PosSumKIb
import proofs.«407225_j55808805044518_3_alg».proof.Proof.PosSumKIc
import proofs.«407225_j55808805044518_3_alg».proof.Proof.MaskWords
import proofs.«407225_j55808805044518_3_alg».proof.Proof.TileSum
import Idealize.ShloMosaic.Lib.ValueIdxRank1

noncomputable section

namespace Cert.KernelIdeal.Hand

open Idealize.ShloMosaic Idealize.ShloMosaic.TcCoe Idealize.SL.Sem Idealize.ShloMosaic.ValueIdx
open Cert.KernelIdeal Cert.KernelIdeal.Gen
open scoped BigOperators

open Cert.TileSum (bi bj bi_lt bj_lt)

def posTerm (E : Fin 8192 → Fin 512 → EReal) (lab gid cat : Fin 8192 → BitVec 32) (i j : Fin 8192) : EReal :=
  if Cert.Spec.validPos lab gid cat i j then Cert.Spec.one - Cert.Spec.sim E i j else Cert.Spec.zero

theorem posSum_eq (E : Fin 8192 → Fin 512 → EReal) (lab gid cat : Fin 8192 → BitVec 32) :
    Cert.Spec.posSum E lab gid cat = ∑ i, ∑ j, posTerm E lab gid cat i j := rfl

theorem posTerm_of_not_lt (E : Fin 8192 → Fin 512 → EReal) (lab gid cat : Fin 8192 → BitVec 32) (i j : Fin 8192) (h : ¬ i < j) :
    posTerm E lab gid cat i j = 0 := by
  unfold posTerm
  rw [if_neg (fun hv => h hv.1)]
  exact Ideal.ofBits_zero_f32

theorem lit0_eq (t : Fin 20) : lit0 t = BitVec.ofNat 32 (bi t) := by revert t; decide
theorem lit1_eq (t : Fin 20) : lit1 t = BitVec.ofNat 32 (bj t) := by revert t; decide
theorem lit0_toNat (t : Fin 20) : (lit0 t).toNat = bi t := by revert t; decide
theorem lit1_toNat (t : Fin 20) : (lit1 t).toNat = bj t := by revert t; decide

theorem rowIx_row (t : Fin 20) (r : Fin 1024) :
    rowIx ((lit0 t).toNat * 1024 + r.val) = ⟨bi t * 1024 + r.val, by have := bi_lt t; omega⟩ := by
  rw [lit0_toNat]
  refine Fin.ext ?_
  show (bi t * 1024 + r.val) % 8192 = bi t * 1024 + r.val
  have := bi_lt t
  omega
theorem rowIx_col (t : Fin 20) (col : Fin 2048) :
    rowIx ((lit1 t).toNat * 2048 + col.val) = ⟨bj t * 2048 + col.val, by have := bj_lt t; omega⟩ := by
  rw [lit1_toNat]
  refine Fin.ext ?_
  show (bj t * 2048 + col.val) % 8192 = bj t * 2048 + col.val
  have := bj_lt t
  omega

section Tile
variable (m : (ℓ : Loc nD τ sig) → Buf (Elt Ideal) ℓ) (c : Dev nD)

abbrev aE : Fin 8192 → Fin 512 → EReal := Cert.Args.mat (m ((c.tc : Thread nD τ).loc main_arg0))
abbrev aLab : Fin 8192 → BitVec 32 := Cert.Args.vec (m ((c.tc : Thread nD τ).loc main_arg1))
abbrev aGid : Fin 8192 → BitVec 32 := Cert.Args.vec (m ((c.tc : Thread nD τ).loc main_arg2))
abbrev aCat : Fin 8192 → BitVec 32 := Cert.Args.vec (m ((c.tc : Thread nD τ).loc main_arg3))

variable (hr : Cert.Args.InRange (m ((c.tc : Thread nD τ).loc main_arg1)) (m ((c.tc : Thread nD τ).loc main_arg2)))
include hr

theorem tile_term (t : Fin 20) (r : Fin 1024) (col : Fin 2048) :
    Scalar.select (maskBit (lit0 t) (lit1 t) (blkLabRow m c t) (blkLabCol m c t) (blkGidRow m c t) (blkGidCol m c t) r col)
        ((1 : EReal) - ∑ d : Fin 512, blkERow m c t (ix2 r d) * blkECol m c t (ix2 col d)) 0
      = posTerm (aE m c) (aLab m c) (aGid m c) (aCat m c)
          ⟨bi t * 1024 + r.val, by have := bi_lt t; omega⟩ ⟨bj t * 2048 + col.val, by have := bj_lt t; omega⟩ := by
  have hE : ∀ d : Fin 512, blkERow m c t (ix2 r d) * blkECol m c t (ix2 col d)
      = Cert.Spec.e (aE m c) ⟨bi t * 1024 + r.val, by have := bi_lt t; omega⟩ d
        * Cert.Spec.e (aE m c) ⟨bj t * 2048 + col.val, by have := bj_lt t; omega⟩ d := by
    intro d
    show arrE m c (ix2 (rowIx ((lit0 t).toNat * 1024 + r.val)) d) * arrE m c (ix2 (rowIx ((lit1 t).toNat * 2048 + col.val)) d) = _
    rw [rowIx_row, rowIx_col, arrE_apply, arrE_apply]
  have hM : maskBit (lit0 t) (lit1 t) (blkLabRow m c t) (blkLabCol m c t) (blkGidRow m c t) (blkGidCol m c t) r col = 1#1
      ↔ Cert.Spec.validPos (aLab m c) (aGid m c) (aCat m c)
          ⟨bi t * 1024 + r.val, by have := bi_lt t; omega⟩ ⟨bj t * 2048 + col.val, by have := bj_lt t; omega⟩ := by
    unfold maskBit
    show IntOp.andi (IntOp.andi (IntOp.cmpi .slt _ _)
        (IntOp.cmpi .eq (arrLabRow m c (ix2 (rowIx ((lit0 t).toNat * 1024 + r.val)) (0 : Fin 1)))
          (arrLabCol m c (ix2 (0 : Fin 1) (rowIx ((lit1 t).toNat * 2048 + col.val))))))
        (IntOp.cmpi .ne (arrGidRow m c (ix2 (rowIx ((lit0 t).toNat * 1024 + r.val)) (0 : Fin 1)))
          (arrGidCol m c (ix2 (0 : Fin 1) (rowIx ((lit1 t).toNat * 2048 + col.val))))) = 1#1 ↔ _
    rw [rowIx_row, rowIx_col, labRow_apply, labCol_apply, gidRow_apply, gidCol_apply, lit0_eq, lit1_eq]
    exact Cert.MaskWords.mask_iff (bi t) (bj t) r.val col.val (bi_lt t) (bj_lt t) r.isLt col.isLt _ _ _ _ _ _ (hr.1 _) (hr.1 _)
  have hM' : maskBit (lit0 t) (lit1 t) (blkLabRow m c t) (blkLabCol m c t) (blkGidRow m c t) (blkGidCol m c t) r col = (1 : BitVec 1)
      ↔ Cert.Spec.validPos (aLab m c) (aGid m c) (aCat m c)
          ⟨bi t * 1024 + r.val, by have := bi_lt t; omega⟩ ⟨bj t * 2048 + col.val, by have := bj_lt t; omega⟩ := hM
  unfold posTerm Scalar.select
  by_cases hv : Cert.Spec.validPos (aLab m c) (aGid m c) (aCat m c)
      ⟨bi t * 1024 + r.val, by have := bi_lt t; omega⟩ ⟨bj t * 2048 + col.val, by have := bj_lt t; omega⟩
  · rw [if_pos (hM'.mpr hv), if_pos hv]
    unfold Cert.Spec.sim Cert.Spec.one
    rw [Ideal.ofBits_one_f32]
    exact congrArg _ (Finset.sum_congr rfl fun d _ => hE d)
  · rw [if_neg (fun h => hv (hM'.mp h)), if_neg hv]
    exact Ideal.ofBits_zero_f32.symm

theorem tileVal_apply (t : Fin 20) (a : Fin 8) (b : Fin 128) :
    tileVal m c t (ix3 (0 : Fin 1) a b)
      = ∑ r : Fin 1024, ∑ col : Fin 2048, posTerm (aE m c) (aLab m c) (aGid m c) (aCat m c)
          ⟨bi t * 1024 + r.val, by have := bi_lt t; omega⟩ ⟨bj t * 2048 + col.val, by have := bj_lt t; omega⟩ := by
  unfold tileVal
  rw [pay1_apply]
  refine Finset.sum_congr rfl fun r _ => ?_
  rw [pay2_apply]
  exact Finset.sum_congr rfl fun col _ => tile_term m c hr t r col

end Tile

theorem reduce_read (W : Valuation τ sig (Elt Ideal)) :
    (StableHlo.after hostOps1 W (Proc.devRef .tc main_v19) : FVec Ideal S_ .f32)
      = Host.reduceAdd (shapeCast S20 (extractStridedSlice S20x1x1 ![0, 0, 0] (W main_v16 : FVec Ideal S20x8x128 .f32) slices_S20x8x128_S20x1x1_0_0_0)
          shapeCasts_S20x1x1_S20) (constant (F := Ideal) S_ .f32 0x00000000#32) reducesTo_S20_S_d0 h_S_ := by
  after_results <;> rfl

theorem reduce_apply (O : FVec Ideal S20x8x128 .f32) (j : S_.Idx) :
    Host.reduceAdd (shapeCast S20 (extractStridedSlice S20x1x1 ![0, 0, 0] O slices_S20x8x128_S20x1x1_0_0_0)
        shapeCasts_S20x1x1_S20) (constant (F := Ideal) S_ .f32 0x00000000#32) reducesTo_S20_S_d0 h_S_ j
      = ∑ t : Fin 20, O (ix3 t (0 : Fin 8) (0 : Fin 128)) := by
  rw [hostReduceAdd_apply, Ideal.hostReduceAdd_total _ (fun b => b.elim0)]
  show Ideal.ofBits .f32 0x00000000#32 + _ = _
  rw [Ideal.ofBits_zero_f32, zero_add, ← Equiv.sum_comp (idxEquiv1 (n := 20)).symm]
  refine Finset.sum_congr rfl fun (t : Fin 20) _ => ?_
  show shapeCast S20 _ shapeCasts_S20x1x1_S20 (ix1 t) = _
  rw [shapeCast_apply _ _ _ (ix3 t (0 : Fin 1) (0 : Fin 1)) (by
    rw [Shape.rowMajor_val_one, Shape.rowMajor_val_three]
    show (t.val * 1 + 0) * 1 + 0 = t.val
    omega)]
  exact extractStridedSlice_apply _ _ _ _ (ix3 t (0 : Fin 8) (0 : Fin 128)) (fun a => by
    match a with
    | ⟨0, _⟩ => exact (Nat.zero_add _).symm
    | ⟨1, _⟩ => rfl
    | ⟨2, _⟩ => rfl)

theorem pos_sum_value (m : (ℓ : Loc nD τ sig) → Buf (Elt Ideal) ℓ) (c : Dev nD)
    (hr : Cert.Args.InRange (m ((c.tc : Thread nD τ).loc main_arg1)) (m ((c.tc : Thread nD τ).loc main_arg2))) :
    V21 (F := Ideal) m (tilesOut m) c main_v19
      = fun _ => Cert.Spec.posSum (Cert.Args.mat (m ((c.tc : Thread nD τ).loc main_arg0)))
          (Cert.Args.vec (m ((c.tc : Thread nD τ).loc main_arg1)))
          (Cert.Args.vec (m ((c.tc : Thread nD τ).loc main_arg2)))
          (Cert.Args.vec (m ((c.tc : Thread nD τ).loc main_arg3))) := by
  have h9 : V21 (F := Ideal) m (tilesOut m) c main_v19 = V9 m (tilesOut m) c main_v19 :=
    (V21_of m _ c main_v19 (by decide)).trans ((V20_of m _ c main_v19 (by decide)).trans ((V19_of m _ c main_v19 (by decide)).trans
    ((V18_of m _ c main_v19 (by decide)).trans ((V17_of m _ c main_v19 (by decide)).trans ((V16_of m _ c main_v19 (by decide)).trans
    ((V15_of m _ c main_v19 (by decide)).trans ((V14_of m _ c main_v19 (by decide)).trans ((V13_of m _ c main_v19 (by decide)).trans
    ((V12_of m _ c main_v19 (by decide)).trans ((V11_of m _ c main_v19 (by decide)).trans (V10_of m _ c main_v19 (by decide))))))))))))
  rw [h9]
  funext j
  show (StableHlo.after hostOps1 (V8 m (tilesOut m) c) (Proc.devRef .tc main_v19) : FVec Ideal S_ .f32) j = _
  rw [reduce_read, reduce_apply]
  have h16 : (V8 m (tilesOut m) c main_v16 : FVec Ideal S20x8x128 .f32) = tilesOut m c := Function.update_self _ _ _
  rw [h16]
  show (∑ t : Fin 20, tilesOut m c (ix3 t (0 : Fin 8) (0 : Fin 128)) : EReal) = _
  rw [posSum_eq, ← Cert.TileSum.tile_sum (M := EReal) _ (posTerm_of_not_lt _ _ _ _)]
  refine Finset.sum_congr rfl fun t _ => ?_
  exact tileVal_apply m c hr t 0 0

end Cert.KernelIdeal.Hand

end
-- ==== Proof.PosCntKIChain.lean ====
import proofs.«407225_j55808805044518_3_alg».proof.Proof.ValsKI
import Idealize.ShloMosaic.Lib.StableHlo.Run
import Idealize.ShloMosaic.Lib.ValueIdx

noncomputable section

namespace Cert.KernelIdeal.Hand

open Idealize.ShloMosaic Idealize.ShloMosaic.TcCoe Idealize.SL.Sem Idealize.ShloMosaic.ValueIdx
open Cert.KernelIdeal Cert.KernelIdeal.Gen

def consV (cat : IVec S8192 32) : IVec S8192 1 :=
  cmpi .slt cat (broadcastInDim S8192 ![] bcast_S_S8192 (constantI S_ 32 3#32))

def keyV (lab gid : IVec S8192 32) : IVec S8192 32 :=
  addi (muli lab (broadcastInDim S8192 ![] bcast_S_S8192 (constantI S_ 32 16#32))) gid

def keyW (cons : IVec S8192 1) (key : IVec S8192 32) (c : IVec S_ 32) : IVec S8192 32 :=
  select cons key (broadcastInDim S8192 ![] bcast_S_S8192 (id c))

def wrapV (k : IVec S8192 32) : IVec S8192 32 :=
  select (cmpi .slt k (broadcastInDim S8192 ![] bcast_S_S8192 (constantI S_ 32 0#32)))
    (addi k (broadcastInDim S8192 ![] bcast_S_S8192 (constantI S_ 32 8193#32))) k

def histFlatV (k : IVec S8192 32) : IVec S8193 32 :=
  Host.scatter scatter_S8193_S8192x1_S8192_n_0_0_1 IntOp.addi
    (broadcastInDim S8193 ![] bcast_S_S8193 (constantI S_ 32 0#32))
    (broadcastInDim S8192x1 ![0] bcast_S8192_S8192x1_0 (wrapV k))
    (broadcastInDim S8192 ![] bcast_S_S8192 (constantI S_ 32 1#32))

def histV (k : IVec S8192 32) : IVec S512x16 32 := fun i =>
  shapeCast S512x16 (extractStridedSlice S8192 ![0] (histFlatV k) slices_S8193_S8192_0) shapeCasts_S8192_S512x16 i

def rowSumV (H : IVec S512x16 32) : IVec S512 32 :=
  Host.reduce IntOp.addi H (constantI S_ 32 0#32) reducesTo_S512x16_S512_d1 h_S_

def mulPredV {s : Shape} (bc : S_.BroadcastsInDim s (![] : Fin 0 → Fin s.rank)) (v : IVec s 32) : IVec s 32 :=
  muli v (subi v (broadcastInDim s ![] bc (constantI S_ 32 1#32)))

def floorDivV {s : Shape} (bc : S_.BroadcastsInDim s (![] : Fin 0 → Fin s.rank)) (x : IVec s 32) (c : IVec S_ 32) :
    IVec s 32 :=
  select
    (andi (cmpi .ne (signi x) (broadcastInDim s ![] bc (signi (id c))))
      (cmpi .ne (Host.remsi x (broadcastInDim s ![] bc (id c))) (broadcastInDim s ![] bc (constantI S_ 32 0#32))))
    (subi (Host.divsi x (broadcastInDim s ![] bc (id c))) (broadcastInDim s ![] bc (constantI S_ 32 1#32)))
    (Host.divsi x (broadcastInDim s ![] bc (id c)))

def finV (tot : IVec S512 32) (same : IVec S512x16 32) : IVec S_ 32 :=
  Host.reduce IntOp.addi (subi tot (rowSumV same)) (constantI S_ 32 0#32) reducesTo_S512_S_d0 h_S_

def posCntV (cat lab gid : IVec S8192 32) : IVec S_ 32 :=
  finV
    (floorDivV bcast_S_S512
      (mulPredV bcast_S_S512 (rowSumV (histV (keyW (consV cat) (keyV lab gid) (constantI S_ 32 8192#32)))))
      (constantI S_ 32 2#32))
    (floorDivV bcast_S_S512x16
      (mulPredV bcast_S_S512x16 (histV (keyW (consV cat) (keyV lab gid) (constantI S_ 32 8192#32))))
      (constantI S_ 32 2#32))

variable {F : FTy → Type} [FloatOps F]
variable (W : Valuation τ sig (Elt F))

theorem st_v9 : (StableHlo.after hostOps0_2 W (Proc.devRef .tc main_v9) : IVec S8192 1)
    = consV (W (Proc.devRef .tc main_arg3)) := by
  after_results
  rfl

theorem st_v22 : (StableHlo.after hostOps1 W (Proc.devRef .tc main_v22) : IVec S8192 32)
    = keyV (W (Proc.devRef .tc main_arg1)) (W (Proc.devRef .tc main_arg2)) := by
  after_results
  rfl

theorem st_c7 : (StableHlo.after hostOps1 W (Proc.devRef .tc main_c_7) : IVec S_ 32) = constantI S_ 32 8192#32 := by
  after_results

theorem st_v23 : (StableHlo.after hostOps1_1 W (Proc.devRef .tc main_v23) : IVec S8192 32)
    = keyW (W (Proc.devRef .tc main_v9)) (W (Proc.devRef .tc main_v22)) (W (Proc.devRef .tc main_c_7)) := by
  after_results
  simp only [StableHlo.TRef.ofBuf, StableHlo.TRef.toBuf, cast_eq]
  rfl

theorem st_v34 : (StableHlo.after hostOps1_2 W (Proc.devRef .tc main_v34) : IVec S512x16 32)
    = histV (W (Proc.devRef .tc main_v23)) := by
  after_results
  rfl

set_option maxHeartbeats 400000 in
theorem st_v38 : (StableHlo.after hostOps1_2 W (Proc.devRef .tc main_v38) : IVec S512 32)
    = mulPredV bcast_S_S512 (rowSumV (histV (W (Proc.devRef .tc main_v23)))) := by
  after_results_simp
  rfl

theorem st_c14 : (StableHlo.after hostOps1_2 W (Proc.devRef .tc main_c_14) : IVec S_ 32) = constantI S_ 32 2#32 := by
  after_results

set_option maxHeartbeats 400000 in
theorem st_v39 : (StableHlo.after hostOps1_3 W (Proc.devRef .tc main_v39) : IVec S512 32)
    = floorDivV bcast_S_S512 (W (Proc.devRef .tc main_v38)) (W (Proc.devRef .tc main_c_14)) := by
  after_results_simp
  simp only [StableHlo.TRef.ofBuf, StableHlo.TRef.toBuf, cast_eq]
  rfl

theorem st_v42 : (StableHlo.after hostOps1_4 W (Proc.devRef .tc main_v42) : IVec S512x16 32)
    = mulPredV bcast_S_S512x16 (W (Proc.devRef .tc main_v34)) := by
  after_results
  rfl

theorem st_c16 : (StableHlo.after hostOps1_4 W (Proc.devRef .tc main_c_16) : IVec S_ 32) = constantI S_ 32 2#32 := by
  after_results

set_option maxHeartbeats 400000 in
theorem st_v43 : (StableHlo.after hostOps1_5 W (Proc.devRef .tc main_v43) : IVec S512x16 32)
    = floorDivV bcast_S_S512x16 (W (Proc.devRef .tc main_v42)) (W (Proc.devRef .tc main_c_16)) := by
  after_results_simp
  simp only [StableHlo.TRef.ofBuf, StableHlo.TRef.toBuf, cast_eq]
  rfl

theorem st_v46 : (StableHlo.after hostOps1_6 W (Proc.devRef .tc main_v46) : IVec S_ 32)
    = finV (W (Proc.devRef .tc main_v39)) (W (Proc.devRef .tc main_v43)) := by
  after_results
  rfl

end Cert.KernelIdeal.Hand

end
-- ==== Proof.LibRows.lean ====
import Idealize.ShloMosaic.PureOps.Ideal
import Idealize.ShloMosaic.Lib.ValueIdx

noncomputable section

open scoped BigOperators

namespace Cert.LibRows

open Idealize.ShloMosaic Idealize.ShloMosaic.ValueIdx

section RowGather
variable {α : Type}

abbrev rowGatherDims (n e c : Nat)
    (wf : GatherDims.WF ⟨2, ![n, c]⟩ ⟨2, ![e, 1]⟩ ⟨2, ![e, c]⟩ [1] [0] [] [0] [] 1 ![1, c]) :
    GatherDims ⟨2, ![n, c]⟩ ⟨2, ![e, 1]⟩ ⟨2, ![e, c]⟩ where
  offsetDims := [1]
  collapsedSliceDims := [0]
  operandBatchingDims := []
  startIndicesBatchingDims := []
  startIndexMap := [0]
  indexVectorDim := 1
  sliceSizes := ![1, c]
  wf := wf

theorem rowGather_apply {n e c w : Nat} (hn : 0 < n)
    (wf : GatherDims.WF ⟨2, ![n, c]⟩ ⟨2, ![e, 1]⟩ ⟨2, ![e, c]⟩ [1] [0] [] [0] [] 1 ![1, c])
    (x : (⟨2, ![n, c]⟩ : Shape).Idx → α) (idx : IVec ⟨2, ![e, 1]⟩ w) (p : Fin e) (q : Fin c) :
    Host.gather (rowGatherDims n e c wf) x idx (ix2 p q)
      = x (ix2 ⟨min (idx (ix2 p (0 : Fin 1))).toInt.toNat (n - 1), by omega⟩ q) := by
  unfold Host.gather
  congr 1
  funext a
  refine Fin.ext ?_
  match a with
  | ⟨0, _⟩ =>

    show (rowGatherDims n e c wf).start (ix2 p q) idx 0 + (rowGatherDims n e c wf).batchCoord (ix2 p q) 0
        + (rowGatherDims n e c wf).offCoord (ix2 p q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims n e c wf).startIndexMap from List.mem_singleton.mpr rfl)]
    have hsi : (rowGatherDims n e c wf).siIdx (ix2 p q) ⟨List.idxOf (0 : Fin 2) (rowGatherDims n e c wf).startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  | ⟨1, _⟩ =>

    show (rowGatherDims n e c wf).start (ix2 p q) idx 1 + (rowGatherDims n e c wf).batchCoord (ix2 p q) 1
        + (rowGatherDims n e c wf).offCoord (ix2 p q) 1 = _
    rw [GatherDims.batchCoord_eq_zero _ _ _ List.not_mem_nil]
    have hst : (rowGatherDims n e c wf).start (ix2 p q) idx 1 = 0 := by
      unfold GatherDims.start
      rw [dif_neg (show (1 : Fin 2) ∉ ([0] : List (Fin 2)) by decide)]
    rw [hst]
    simp only [Nat.add_zero, Nat.zero_add]
    rfl

end RowGather

section RowScatter

theorem mem_kept {s : Shape} (axes : List (Fin s.rank)) (a : Fin s.rank) : a ∈ s.kept axes ↔ a ∉ axes := by
  simp [Shape.kept, List.mem_filter, List.mem_finRange]

end RowScatter

section VecScatter

def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

abbrev rowScatterDims1 (n e : Nat)
    (wf : ScatterDims.WF ⟨1, ![n]⟩ ⟨2, ![e, 1]⟩ ⟨1, ![e]⟩ [] [0] [0] 1) :
    ScatterDims ⟨1, ![n]⟩ ⟨2, ![e, 1]⟩ ⟨1, ![e]⟩ where
  updateWindowDims := []
  insertedWindowDims := [0]
  scatterDimsToOperandDims := [0]
  indexVectorDim := 1
  wf := wf

variable {n e w : Nat} (wf : ScatterDims.WF ⟨1, ![n]⟩ ⟨2, ![e, 1]⟩ ⟨1, ![e]⟩ [] [0] [0] 1)

theorem rowScatter1_start (idx : IVec ⟨2, ![e, 1]⟩ w) (p : Fin e) :
    (rowScatterDims1 n e wf).start (ix1 p) idx 0 = (idx (ix2 p (0 : Fin 1))).toInt := by
  unfold ScatterDims.start
  rw [dif_pos (show (0 : Fin 1) ∈ ([0] : List (Fin 1)) from List.mem_singleton.mpr rfl)]
  have hsi : (rowScatterDims1 n e wf).siIdx (ix1 p) ⟨List.idxOf (0 : Fin 1) (rowScatterDims1 n e wf).scatterDimsToOperandDims,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]

theorem rowScatter1_window (p : Fin e) : (rowScatterDims1 n e wf).window (ix1 p) 0 = 0 := by
  unfold ScatterDims.window
  rw [dif_neg (fun h => (mem_kept (s := ⟨1, ![n]⟩) [0] 0).mp h (List.mem_singleton.mpr rfl))]

theorem rowScatter1_resultIdx (idx : IVec ⟨2, ![e, 1]⟩ w) (p : Fin e) (r : Fin n) :
    (rowScatterDims1 n e wf).resultIdx? (ix1 p) idx = some (ix1 r)
      ↔ (idx (ix2 p (0 : Fin 1))).toInt = (r.val : Int) := by
  have h0 := rowScatter1_start wf idx p
  have w0 := rowScatter1_window wf p
  unfold ScatterDims.resultIdx?
  constructor
  · intro h
    split at h
    · rename_i hb
      have hf := Option.some.inj h
      have e0 := congrArg (fun f => (f 0).val) hf
      have b0 := (hb 0).1
      simp only [h0, w0] at e0 b0
      change ((idx (ix2 p (0 : Fin 1))).toInt + ((0 : Nat) : Int)).toNat = r.val at e0
      omega
    · exact absurd h (by simp)
  · intro hr
    have hb : ∀ a, 0 ≤ (rowScatterDims1 n e wf).start (ix1 p) idx a + ((rowScatterDims1 n e wf).window (ix1 p) a : Int)
        ∧ (rowScatterDims1 n e wf).start (ix1 p) idx a + ((rowScatterDims1 n e wf).window (ix1 p) a : Int)
          < ((⟨1, ![n]⟩ : Shape).size a : Int) := by
      intro a
      match a with
      | ⟨0, _⟩ =>
        show 0 ≤ (rowScatterDims1 n e wf).start (ix1 p) idx 0 + ((rowScatterDims1 n e wf).window (ix1 p) 0 : Int)
          ∧ (rowScatterDims1 n e wf).start (ix1 p) idx 0 + ((rowScatterDims1 n e wf).window (ix1 p) 0 : Int) < (n : Int)
        rw [h0, w0, hr]
        have := r.isLt
        omega
    rw [dif_pos hb]
    congr 1
    funext a
    refine Fin.ext ?_
    match a with
    | ⟨0, _⟩ =>
      show ((rowScatterDims1 n e wf).start (ix1 p) idx 0 + ((rowScatterDims1 n e wf).window (ix1 p) 0 : Int)).toNat = r.val
      rw [h0, w0, hr]; omega

end VecScatter

end Cert.LibRows

end
-- ==== Proof.Histogram.lean ====
import Idealize.ShloMosaic.PureOps.ShapeOps
import proofs.«407225_j55808805044518_3_alg».proof.Proof.LibRows

noncomputable section

open scoped BigOperators

namespace Cert.Histogram

open Idealize.ShloMosaic Idealize.ShloMosaic.ValueIdx

section Fold
variable {s si u : Shape} {w : Nat} (d : ScatterDims s si u) (idx : IVec si w)

def step (r : s.Idx → BitVec 32) (k : Fin u.numel) : s.Idx → BitVec 32 :=
  match d.resultIdx? (u.rowMajor.symm k) idx with
  | some i => fun i' => if i' = i then IntOp.addi (r i) 1#32 else r i'
  | none => r

theorem scatter_eq_foldl (x : s.Idx → BitVec 32) :
    Host.scatter d IntOp.addi x idx (fun _ => 1#32) = (List.finRange u.numel).foldl (step d idx) x := rfl

theorem step_apply (r : s.Idx → BitVec 32) (k : Fin u.numel) (i : s.Idx) :
    step d idx r k i = r i + (if d.resultIdx? (u.rowMajor.symm k) idx = some i then 1#32 else 0#32) := by
  unfold step
  cases h : d.resultIdx? (u.rowMajor.symm k) idx with
  | none => simp
  | some i₀ =>
    by_cases hi : i = i₀
    · subst hi; simp [IntOp.addi]
    · have hi' : ¬ i₀ = i := fun e => hi e.symm
      simp [hi, hi']

theorem fold_apply (i : s.Idx) (l : List (Fin u.numel)) (x : s.Idx → BitVec 32) :
    l.foldl (step d idx) x i
      = x i + BitVec.ofNat 32 (l.countP fun k => decide (d.resultIdx? (u.rowMajor.symm k) idx = some i)) := by
  induction l generalizing x with
  | nil => simp
  | cons k l ih =>
    rw [List.foldl_cons, ih, step_apply, List.countP_cons]
    by_cases hk : d.resultIdx? (u.rowMajor.symm k) idx = some i
    · simp only [hk, if_true, decide_true]
      rw [BitVec.ofNat_add, BitVec.add_assoc, BitVec.add_comm (BitVec.ofNat 32 1)]
    · simp [hk]

theorem countP_finRange (P : u.Idx → Prop) [DecidablePred P] :
    (List.finRange u.numel).countP (fun k => decide (P (u.rowMajor.symm k)))
      = (Finset.univ.filter fun j : u.Idx => P j).card := by
  have h1 : (List.finRange u.numel).countP (fun k => decide (P (u.rowMajor.symm k)))
      = (Finset.univ.filter fun k : Fin u.numel => P (u.rowMajor.symm k)).card := by
    rw [List.countP_eq_length_filter]; rfl
  rw [h1, Finset.card_filter, Finset.card_filter]
  exact Equiv.sum_comp u.rowMajor.symm fun j => if P j then 1 else 0

end Fold

theorem scatter_ones_apply {n e w : Nat} (wf : ScatterDims.WF ⟨1, ![n]⟩ ⟨2, ![e, 1]⟩ ⟨1, ![e]⟩ [] [0] [0] 1)
    (idx : IVec ⟨2, ![e, 1]⟩ w) (r : Fin n) :
    Host.scatter (LibRows.rowScatterDims1 n e wf) IntOp.addi (fun _ => (0#32 : BitVec 32)) idx (fun _ => 1#32) (ix1 r)
      = BitVec.ofNat 32 (Finset.univ.filter fun p : Fin e => (idx (ix2 p (0 : Fin 1))).toInt = (r.val : Int)).card := by
  rw [scatter_eq_foldl, fold_apply, BitVec.zero_add,
    countP_finRange (fun j => (LibRows.rowScatterDims1 n e wf).resultIdx? j idx = some (ix1 r)),
    Finset.card_filter, LibRows.sum_idx1, Finset.card_filter]
  simp only [LibRows.rowScatter1_resultIdx]

end Cert.Histogram

end
-- ==== Proof.HistogramKI.lean ====
import proofs.«407225_j55808805044518_3_alg».proof.KernelIdeal
import proofs.«407225_j55808805044518_3_alg».proof.Proof.Histogram

noncomputable section

namespace Cert.Histogram

open Idealize.ShloMosaic Idealize.ShloMosaic.ValueIdx
open Cert.KernelIdeal

variable [Facts₀]

theorem scatterKI_ones_apply (idx : IVec S8192x1 32) (r : Fin 8193) :
    Host.scatter scatter_S8193_S8192x1_S8192_n_0_0_1 IntOp.addi (fun _ => (0#32 : BitVec 32)) idx (fun _ => 1#32) (ix1 r)
      = BitVec.ofNat 32 (Finset.univ.filter fun p : Fin 8192 => (idx (ix2 p (0 : Fin 1))).toInt = (r.val : Int)).card :=
  scatter_ones_apply Facts₀.scatter_S8193_S8192x1_S8192_n_0_0_1_wf idx r

end Cert.Histogram

end
-- ==== Proof.HistWords.lean ====
import Idealize.ShloMosaic.PureOps.Vector
import Idealize.ShloMosaic.Lib.WordArith

namespace Cert.HistWords

open Idealize.ShloMosaic

theorem toNat_lt_of_toInt (x : BitVec 32) (n : ℕ) (h0 : 0 ≤ x.toInt) (h1 : x.toInt < n) : x.toNat < n := by
  have hc := BitVec.toInt_eq_toNat_cond x
  have hl := x.isLt
  split at hc <;> omega

theorem toInt_of_toNat_lt (x : BitVec 32) (h : x.toNat < 2 ^ 31) : x.toInt = (x.toNat : ℤ) := by
  have hc := BitVec.toInt_eq_toNat_cond x
  split at hc <;> omega

theorem toNat_ofNat (c : ℕ) (h : c < 2 ^ 32) : (BitVec.ofNat 32 c).toNat = c := by
  rw [BitVec.toNat_ofNat]; exact Nat.mod_eq_of_lt h

def key (l g : BitVec 32) : BitVec 32 := IntOp.addi (IntOp.muli l 16#32) g

theorem key_eq (l g : BitVec 32) : key l g = BitVec.ofNat 32 (l.toNat * 16 + g.toNat) := by
  apply BitVec.eq_of_toNat_eq
  show (l * 16#32 + g).toNat = _
  have h16 : (16#32 : BitVec 32).toNat = 16 := rfl
  rw [BitVec.toNat_add, BitVec.toNat_mul, h16, BitVec.toNat_ofNat]
  omega

theorem key_toNat (l g : BitVec 32) (hl : l.toNat < 512) (hg : g.toNat < 16) :
    (key l g).toNat = l.toNat * 16 + g.toNat := by
  rw [key_eq, toNat_ofNat _ (by omega)]

def key' (cat l g : BitVec 32) : BitVec 32 := Scalar.select (IntOp.cmpi .slt cat 3#32) (key l g) 8192#32

theorem select_ofBool_true {α : Type} (b : Bool) (x y : α) (h : b = true) : Scalar.select (BitVec.ofBool b) x y = x := by
  subst h; rfl

theorem select_ofBool_false {α : Type} (b : Bool) (x y : α) (h : b = false) :
    Scalar.select (BitVec.ofBool b) x y = y := by
  subst h; rfl

theorem key'_of_slt (cat l g : BitVec 32) (h : cat.slt 3#32 = true) : key' cat l g = key l g :=
  select_ofBool_true _ _ _ h

theorem key'_of_not_slt (cat l g : BitVec 32) (h : cat.slt 3#32 = false) : key' cat l g = 8192#32 :=
  select_ofBool_false _ _ _ h

theorem key'_eq_ite (cat l g : BitVec 32) : key' cat l g = if cat.slt 3#32 = true then key l g else 8192#32 := by
  by_cases h : cat.slt 3#32 = true
  · rw [if_pos h, key'_of_slt _ _ _ h]
  · rw [if_neg h, key'_of_not_slt _ _ _ (Bool.eq_false_iff.2 h)]

theorem key'_toNat (cat l g : BitVec 32) (hl : l.toNat < 512) (hg : g.toNat < 16) :
    (key' cat l g).toNat = if cat.slt 3#32 = true then l.toNat * 16 + g.toNat else 8192 := by
  rw [key'_eq_ite]
  split
  · exact key_toNat l g hl hg
  · rfl

theorem key'_toNat_le (cat l g : BitVec 32) (hl : l.toNat < 512) (hg : g.toNat < 16) : (key' cat l g).toNat ≤ 8192 := by
  rw [key'_toNat cat l g hl hg]
  split <;> omega

def wrap (k : BitVec 32) : BitVec 32 := Scalar.select (IntOp.cmpi .slt k 0#32) (IntOp.addi k 8193#32) k

theorem not_slt_zero (k : BitVec 32) (h : k.toNat < 2 ^ 31) : k.slt 0#32 = false := by
  rw [BitVec.slt_eq_decide, toInt_of_toNat_lt k h]
  have : (0#32 : BitVec 32).toInt = 0 := by decide
  rw [this]
  exact decide_eq_false (by omega)

theorem wrap_of_toNat_lt (k : BitVec 32) (h : k.toNat < 2 ^ 31) : wrap k = k :=
  select_ofBool_false _ _ _ (not_slt_zero k h)

theorem wrap_key' (cat l g : BitVec 32) (hl : l.toNat < 512) (hg : g.toNat < 16) :
    wrap (key' cat l g) = key' cat l g := by
  have hle := key'_toNat_le cat l g hl hg
  exact wrap_of_toNat_lt _ (by omega)

def slot (cat l g : BitVec 32) : BitVec 32 := wrap (key' cat l g)

theorem slot_eq (cat l g : BitVec 32) (hl : l.toNat < 512) (hg : g.toNat < 16) : slot cat l g = key' cat l g :=
  wrap_key' cat l g hl hg

theorem slot_toNat (cat l g : BitVec 32) (hl : l.toNat < 512) (hg : g.toNat < 16) :
    (slot cat l g).toNat = if cat.slt 3#32 = true then l.toNat * 16 + g.toNat else 8192 := by
  rw [slot_eq cat l g hl hg, key'_toNat cat l g hl hg]

theorem slot_toNat_le (cat l g : BitVec 32) (hl : l.toNat < 512) (hg : g.toNat < 16) : (slot cat l g).toNat ≤ 8192 := by
  rw [slot_eq cat l g hl hg]; exact key'_toNat_le cat l g hl hg

theorem slot_chain_apply {s : Shape} (cat l g c3 c16 c8192 c0 c8193 : IVec s 32) (i : s.Idx) :
    select (cmpi .slt (select (cmpi .slt cat c3) (addi (muli l c16) g) c8192) c0)
        (addi (select (cmpi .slt cat c3) (addi (muli l c16) g) c8192) c8193)
        (select (cmpi .slt cat c3) (addi (muli l c16) g) c8192) i
      = Scalar.select
          (IntOp.cmpi .slt (Scalar.select (IntOp.cmpi .slt (cat i) (c3 i)) (IntOp.addi (IntOp.muli (l i) (c16 i)) (g i)) (c8192 i)) (c0 i))
          (IntOp.addi (Scalar.select (IntOp.cmpi .slt (cat i) (c3 i)) (IntOp.addi (IntOp.muli (l i) (c16 i)) (g i)) (c8192 i)) (c8193 i))
          (Scalar.select (IntOp.cmpi .slt (cat i) (c3 i)) (IntOp.addi (IntOp.muli (l i) (c16 i)) (g i)) (c8192 i)) := rfl

theorem slot_vec {s : Shape} (cat l g c3 c16 c8192 c0 c8193 : IVec s 32) (i : s.Idx)
    (h3 : c3 i = 3#32) (h16 : c16 i = 16#32) (h8192 : c8192 i = 8192#32) (h0 : c0 i = 0#32)
    (h8193 : c8193 i = 8193#32) :
    select (cmpi .slt (select (cmpi .slt cat c3) (addi (muli l c16) g) c8192) c0)
        (addi (select (cmpi .slt cat c3) (addi (muli l c16) g) c8192) c8193)
        (select (cmpi .slt cat c3) (addi (muli l c16) g) c8192) i
      = slot (cat i) (l i) (g i) := by
  rw [slot_chain_apply, h3, h16, h8192, h0, h8193]
  rfl

theorem pair_eq_iff (x y : ℕ) (hy : y < 16) (a : Fin 512) (b : Fin 16) :
    x * 16 + y = a.val * 16 + b.val ↔ x = a.val ∧ y = b.val := by
  have hb := b.isLt
  constructor
  · intro h; omega
  · rintro ⟨h1, h2⟩; rw [h1, h2]

theorem pair_ne_8192 (a : Fin 512) (b : Fin 16) : a.val * 16 + b.val ≠ 8192 := by
  have ha := a.isLt
  have hb := b.isLt
  omega

theorem pair_lt_8192 (a : Fin 512) (b : Fin 16) : a.val * 16 + b.val < 8192 := by
  have ha := a.isLt
  have hb := b.isLt
  omega

theorem slot_toNat_eq_iff (cat l g : BitVec 32) (hl : l.toNat < 512) (hg : g.toNat < 16) (a : Fin 512) (b : Fin 16) :
    (slot cat l g).toNat = a.val * 16 + b.val ↔ (cat.slt 3#32 = true ∧ l.toNat = a.val ∧ g.toNat = b.val) := by
  rw [slot_toNat cat l g hl hg]
  by_cases h : cat.slt 3#32 = true
  · rw [if_pos h, pair_eq_iff _ _ hg]
    exact ⟨fun h' => ⟨h, h'⟩, fun h' => h'.2⟩
  · rw [if_neg h]
    constructor
    · intro h'; exact absurd h'.symm (pair_ne_8192 a b)
    · intro h'; exact absurd h'.1 h

def labF (l : BitVec 32) (h : l.toNat < 512) : Fin 512 := ⟨l.toNat, h⟩

def gidF (g : BitVec 32) (h : g.toNat < 16) : Fin 16 := ⟨g.toNat, h⟩

@[simp] theorem labF_val (l : BitVec 32) (h : l.toNat < 512) : (labF l h).val = l.toNat := rfl
@[simp] theorem gidF_val (g : BitVec 32) (h : g.toNat < 16) : (gidF g h).val = g.toNat := rfl

theorem labF_eq_iff (l l' : BitVec 32) (h : l.toNat < 512) (h' : l'.toNat < 512) : l = l' ↔ labF l h = labF l' h' := by
  constructor
  · intro e; subst e; rfl
  · intro e; exact BitVec.eq_of_toNat_eq (Fin.mk.inj e)

theorem gidF_eq_iff (g g' : BitVec 32) (h : g.toNat < 16) (h' : g'.toNat < 16) : g = g' ↔ gidF g h = gidF g' h' := by
  constructor
  · intro e; subst e; rfl
  · intro e; exact BitVec.eq_of_toNat_eq (Fin.mk.inj e)

theorem slot_toNat_eq_iff_fin (cat l g : BitVec 32) (hl : l.toNat < 512) (hg : g.toNat < 16) (a : Fin 512) (b : Fin 16) :
    (slot cat l g).toNat = a.val * 16 + b.val ↔ (cat.slt 3#32 = true ∧ labF l hl = a ∧ gidF g hg = b) := by
  rw [slot_toNat_eq_iff cat l g hl hg a b, Fin.ext_iff, Fin.ext_iff]
  rfl

end Cert.HistWords
-- ==== Proof.PairCount.lean ====
import Mathlib.Algebra.BigOperators.Group.Finset.Basic
import Mathlib.Data.Finset.Prod
import Mathlib.Data.Fintype.Card
import Mathlib.Data.Fintype.Prod
import Mathlib.Order.Fin.Basic

namespace Cert.PairCount

open Finset

section General

variable {α : Type*} [LinearOrder α]

def ltPairs (S : Finset α) : Finset (α × α) := (S ×ˢ S).filter fun q => q.1 < q.2

theorem mem_ltPairs {S : Finset α} {q : α × α} :
    q ∈ ltPairs S ↔ q.1 ∈ S ∧ q.2 ∈ S ∧ q.1 < q.2 := by
  simp [ltPairs, and_assoc]

theorem two_mul_card_ltPairs (S : Finset α) : 2 * (ltPairs S).card = S.card * (S.card - 1) := by
  have hsplit := Finset.card_filter_add_card_filter_not (s := S.offDiag)
    (fun q : α × α => q.1 < q.2)
  have h1 : S.offDiag.filter (fun q : α × α => q.1 < q.2) = ltPairs S := by
    ext q
    simp only [mem_filter, mem_offDiag, mem_ltPairs]
    constructor
    · rintro ⟨⟨a, b, _⟩, c⟩; exact ⟨a, b, c⟩
    · rintro ⟨a, b, c⟩; exact ⟨⟨a, b, ne_of_lt c⟩, c⟩
  have h2 : (S.offDiag.filter (fun q : α × α => ¬ q.1 < q.2)).card = (ltPairs S).card := by
    apply Finset.card_nbij' Prod.swap Prod.swap
    · intro q hq
      simp only [coe_filter, mem_offDiag, Set.mem_setOf_eq] at hq
      simp only [mem_coe, mem_ltPairs, Prod.fst_swap, Prod.snd_swap]
      exact ⟨hq.1.2.1, hq.1.1, lt_of_le_of_ne (not_lt.mp hq.2) (Ne.symm hq.1.2.2)⟩
    · intro q hq
      simp only [mem_coe, mem_ltPairs] at hq
      simp only [coe_filter, mem_offDiag, Set.mem_setOf_eq, Prod.fst_swap, Prod.snd_swap]
      exact ⟨⟨hq.2.1, hq.1, ne_of_gt hq.2.2⟩, not_lt.mpr (le_of_lt hq.2.2)⟩
    · intro q _; exact Prod.swap_swap q
    · intro q _; exact Prod.swap_swap q
  rw [h1, h2, offDiag_card] at hsplit
  rw [Nat.mul_sub_one]
  omega

theorem card_ltPairs (S : Finset α) : (ltPairs S).card = S.card * (S.card - 1) / 2 := by
  have h := two_mul_card_ltPairs S
  omega

end General

section Split

variable {α β : Type*} [LinearOrder α] [Fintype β] [DecidableEq β]

theorem card_ltPairs_split (S : Finset α) (g : α → β) :
    (ltPairs S).card
      = ((ltPairs S).filter fun q => g q.1 ≠ g q.2).card
        + ∑ b : β, (ltPairs (S.filter fun i => g i = b)).card := by
  have hsplit := Finset.card_filter_add_card_filter_not (s := ltPairs S)
    (fun q : α × α => g q.1 = g q.2)
  have hfib : ((ltPairs S).filter fun q : α × α => g q.1 = g q.2).card
      = ∑ b : β, (ltPairs (S.filter fun i => g i = b)).card := by
    rw [Finset.card_eq_sum_card_fiberwise (f := fun q : α × α => g q.1) (t := Finset.univ)
      (fun _ _ => Finset.mem_coe.mpr (Finset.mem_univ _))]
    refine Finset.sum_congr rfl fun b _ => ?_
    refine congrArg Finset.card ?_
    ext q
    simp only [mem_filter, mem_ltPairs]
    constructor
    · rintro ⟨⟨⟨h1, h2, h3⟩, h4⟩, h5⟩
      exact ⟨⟨h1, h5⟩, ⟨h2, h4 ▸ h5⟩, h3⟩
    · rintro ⟨⟨h1, h5⟩, ⟨h2, h6⟩, h3⟩
      exact ⟨⟨⟨h1, h2, h3⟩, h5.trans h6.symm⟩, h5⟩
  rw [← hsplit, hfib]
  exact Nat.add_comm _ _

end Split

section Rows

variable {n : ℕ} (p : Fin n → Prop) [DecidablePred p] (l : Fin n → Fin 512) (g : Fin n → Fin 16)

def h (a : Fin 512) (b : Fin 16) : ℕ :=
  (Finset.univ.filter fun i : Fin n => p i ∧ l i = a ∧ g i = b).card

def T (a : Fin 512) : ℕ := ∑ b : Fin 16, h p l g a b

def rows (a : Fin 512) : Finset (Fin n) := Finset.univ.filter fun i : Fin n => p i ∧ l i = a

theorem mem_rows {a : Fin 512} {i : Fin n} : i ∈ rows p l a ↔ p i ∧ l i = a := by
  simp [rows]

theorem h_eq (a : Fin 512) (b : Fin 16) :
    h p l g a b = ((rows p l a).filter fun i => g i = b).card := by
  unfold h
  refine congrArg Finset.card ?_
  ext i
  simp [rows, and_assoc]

theorem T_eq (a : Fin 512) : T p l g a = (rows p l a).card := by
  unfold T
  rw [Finset.card_eq_sum_card_fiberwise (f := g) (s := rows p l a) (t := Finset.univ)
    (fun _ _ => Finset.mem_coe.mpr (Finset.mem_univ _))]
  exact Finset.sum_congr rfl fun b _ => h_eq p l g a b

theorem h_le (a : Fin 512) (b : Fin 16) : h p l g a b ≤ n := card_finset_fin_le _

theorem T_le (a : Fin 512) : T p l g a ≤ n := by
  rw [T_eq]
  exact card_finset_fin_le _

theorem label_split (a : Fin 512) :
    T p l g a * (T p l g a - 1) / 2
      = ((ltPairs (rows p l a)).filter fun q => g q.1 ≠ g q.2).card
        + ∑ b : Fin 16, h p l g a b * (h p l g a b - 1) / 2 := by
  rw [T_eq, ← card_ltPairs, card_ltPairs_split (rows p l a) g]
  refine Nat.add_left_cancel_iff.mpr (Finset.sum_congr rfl fun b _ => ?_)
  rw [card_ltPairs, h_eq]

theorem same_group_le (a : Fin 512) :
    ∑ b : Fin 16, h p l g a b * (h p l g a b - 1) / 2 ≤ T p l g a * (T p l g a - 1) / 2 := by
  rw [label_split]
  exact Nat.le_add_left _ _

theorem pair_count :
    ((Finset.univ : Finset (Fin n × Fin n)).filter fun q =>
        q.1 < q.2 ∧ l q.1 = l q.2 ∧ g q.1 ≠ g q.2 ∧ p q.1 ∧ p q.2).card
      = ∑ a : Fin 512, (T p l g a * (T p l g a - 1) / 2
          - ∑ b : Fin 16, h p l g a b * (h p l g a b - 1) / 2) := by
  rw [Finset.card_eq_sum_card_fiberwise (f := fun q : Fin n × Fin n => l q.1) (t := Finset.univ)
    (fun _ _ => Finset.mem_coe.mpr (Finset.mem_univ _))]
  refine Finset.sum_congr rfl fun a _ => ?_
  rw [label_split p l g a, Nat.add_sub_cancel]
  refine congrArg Finset.card ?_
  ext q
  simp only [mem_filter, mem_univ, true_and, mem_ltPairs, mem_rows]
  constructor
  · rintro ⟨⟨h1, h2, h3, h4, h5⟩, h6⟩
    exact ⟨⟨⟨h4, h6⟩, ⟨h5, h2 ▸ h6⟩, h1⟩, h3⟩
  · rintro ⟨⟨⟨h4, h6⟩, ⟨h5, h7⟩, h1⟩, h3⟩
    exact ⟨⟨h1, h6.trans h7.symm, h3, h4, h5⟩, h6⟩

theorem pair_count_of (P : Fin n × Fin n → Prop) [DecidablePred P]
    (hP : ∀ q, P q ↔ (q.1 < q.2 ∧ l q.1 = l q.2 ∧ g q.1 ≠ g q.2 ∧ p q.1 ∧ p q.2)) :
    ((Finset.univ : Finset (Fin n × Fin n)).filter P).card
      = ∑ a : Fin 512, (T p l g a * (T p l g a - 1) / 2
          - ∑ b : Fin 16, h p l g a b * (h p l g a b - 1) / 2) := by
  rw [← pair_count]
  exact congrArg Finset.card (Finset.filter_congr fun q _ => hP q)

end Rows

end Cert.PairCount
-- ==== Proof.WordCount.lean ====
import Idealize.ShloMosaic.PureOps.Vector
import Idealize.ShloMosaic.PureOps.Reduce
import Idealize.ShloMosaic.Lib.WordArith
import Idealize.ShloMosaic.Lib.WordSum

namespace Cert.WordCount

open Idealize.ShloMosaic

def sgnW (x : BitVec 32) : BitVec 32 := if x = 0 then 0 else if x.msb then -1 else 1

def floorDivW (x y : BitVec 32) : BitVec 32 :=
  Scalar.select
    (IntOp.andi (IntOp.cmpi .ne (sgnW x) (sgnW y)) (IntOp.cmpi .ne (IntOp.remsi .host x y) 0#32))
    (IntOp.subi (IntOp.divsi .host x y) 1#32) (IntOp.divsi .host x y)

theorem sgnW_two : sgnW 2#32 = 1#32 := by decide

theorem sgnW_of_pos (x : BitVec 32) (h0 : x ≠ 0) (hx : x.toNat < 2 ^ 31) : sgnW x = 1#32 := by
  have hm : x.msb = false := by
    rw [BitVec.msb_eq_decide]; simp; omega
  unfold sgnW
  rw [if_neg h0, hm]; rfl

theorem not_corner_two (x : BitVec 32) : ¬ IntOp.SDivCorner x 2#32 := by
  unfold IntOp.SDivCorner
  intro h
  rcases h with h | ⟨_, h⟩
  · exact absurd h (by decide)
  · exact absurd h (by decide)

theorem divsi_two (x : BitVec 32) (hx : x.toNat < 2 ^ 31) :
    IntOp.divsi .host x 2#32 = BitVec.ofNat 32 (x.toNat / 2) := by
  have hm : x.msb = false := by
    rw [BitVec.msb_eq_decide]; simp; omega
  unfold IntOp.divsi
  rw [if_neg (not_corner_two x), BitVec.sdiv_eq, hm]
  have h2 : (2#32 : BitVec 32).msb = false := by decide
  rw [h2]
  apply BitVec.eq_of_toNat_eq
  show (x / 2#32).toNat = _
  rw [BitVec.toNat_udiv, BitVec.toNat_ofNat, BitVec.toNat_ofNat]
  have : x.toNat / 2 < 2 ^ 32 := by omega
  rw [Nat.mod_eq_of_lt this]

theorem remsi_zero_two : IntOp.remsi .host 0#32 2#32 = 0#32 := by
  unfold IntOp.remsi
  rw [if_neg (not_corner_two _)]; decide

theorem floorDivW_two (x : BitVec 32) (hx : x.toNat < 2 ^ 31) :
    floorDivW x 2#32 = BitVec.ofNat 32 (x.toNat / 2) := by
  unfold floorDivW
  rw [sgnW_two, divsi_two x hx]
  by_cases h0 : x = 0#32
  · subst h0
    rw [remsi_zero_two]
    decide
  · rw [sgnW_of_pos x h0 hx]
    have : IntOp.cmpi .ne (1#32 : BitVec 32) 1#32 = 0#1 := by decide
    rw [this]
    have h : ∀ c : BitVec 1, IntOp.andi 0#1 c = 0#1 := by decide
    rw [h]
    rfl

theorem ofNat_sub_one (k : ℕ) (hk : 1 ≤ k) : BitVec.ofNat 32 k - 1#32 = BitVec.ofNat 32 (k - 1) := by
  have e : BitVec.ofNat 32 k = BitVec.ofNat 32 (k - 1) + 1#32 := by
    rw [show (1#32 : BitVec 32) = BitVec.ofNat 32 1 from rfl, ← BitVec.ofNat_add]
    congr 1; omega
  rw [e, BitVec.add_sub_cancel]

theorem muli_subi_one (k : ℕ) :
    IntOp.muli (BitVec.ofNat 32 k) (IntOp.subi (BitVec.ofNat 32 k) 1#32) = BitVec.ofNat 32 (k * (k - 1)) := by
  show BitVec.ofNat 32 k * (BitVec.ofNat 32 k - 1#32) = _
  rcases Nat.eq_zero_or_pos k with h | h
  · subst h; decide
  · rw [ofNat_sub_one k h, BitVec.ofNat_mul]

theorem pairs_lt (k : ℕ) (hk : k ≤ 8192) : k * (k - 1) < 2 ^ 31 := by
  have h1 : k * (k - 1) ≤ 8192 * 8192 := Nat.mul_le_mul hk (by omega)
  omega

theorem floorDiv_vec_two {s : Shape} (x y y' sy z o : IVec s 32) (i : s.Idx)
    (hx : (x i).toNat < 2 ^ 31) (hy : y i = 2#32) (hy' : y' i = 2#32) (hsy : sy i = sgnW 2#32) (hz : z i = 0#32)
    (ho : o i = 1#32) :
    select (andi (cmpi .ne (signi x) sy) (cmpi .ne (Host.remsi x y') z)) (subi (Host.divsi x y) o) (Host.divsi x y) i
      = BitVec.ofNat 32 ((x i).toNat / 2) := by
  show Scalar.select
      (IntOp.andi (IntOp.cmpi .ne (sgnW (x i)) (sy i)) (IntOp.cmpi .ne (IntOp.remsi .host (x i) (y' i)) (z i)))
      (IntOp.subi (IntOp.divsi .host (x i) (y i)) (o i)) (IntOp.divsi .host (x i) (y i)) = _
  rw [hy, hy', hsy, hz, ho]
  exact floorDivW_two (x i) hx

theorem pairs_vec {s : Shape} (v one y y' sy z o : IVec s 32) (i : s.Idx) (n : ℕ) (hn : n ≤ 8192)
    (hv : v i = BitVec.ofNat 32 n) (hone : one i = 1#32) (hy : y i = 2#32) (hy' : y' i = 2#32)
    (hsy : sy i = sgnW 2#32) (hz : z i = 0#32) (ho : o i = 1#32) :
    select (andi (cmpi .ne (signi (muli v (subi v one))) sy) (cmpi .ne (Host.remsi (muli v (subi v one)) y') z))
        (subi (Host.divsi (muli v (subi v one)) y) o) (Host.divsi (muli v (subi v one)) y) i
      = BitVec.ofNat 32 (n * (n - 1) / 2) := by
  have hlt := pairs_lt n hn
  have e : muli v (subi v one) i = BitVec.ofNat 32 (n * (n - 1)) := by
    show IntOp.muli (v i) (IntOp.subi (v i) (one i)) = _
    rw [hv, hone, muli_subi_one]
  have hval : (muli v (subi v one) i).toNat = n * (n - 1) := by
    rw [e, BitVec.toNat_ofNat]; exact Nat.mod_eq_of_lt (by omega)
  rw [floorDiv_vec_two _ y y' sy z o i (by rw [hval]; exact hlt) hy hy' hsy hz ho, hval]

theorem fold_addi_ofNat {ι : Type*} (S : Finset ι) (f : ι → ℕ) (c : ℕ) :
    S.fold IntOp.addi (BitVec.ofNat 32 c) (fun k => BitVec.ofNat 32 (f k)) = BitVec.ofNat 32 (c + ∑ k ∈ S, f k) := by
  induction S using Finset.cons_induction with
  | empty => simp
  | cons a S ha ih =>
    rw [Finset.fold_cons, ih, Finset.sum_cons]
    show BitVec.ofNat 32 (f a) + BitVec.ofNat 32 (c + ∑ k ∈ S, f k) = _
    rw [← BitVec.ofNat_add]
    congr 1; omega

theorem fold_addi_ofNat_zero {ι : Type*} (S : Finset ι) (f : ι → ℕ) :
    S.fold IntOp.addi (0#32) (fun k => BitVec.ofNat 32 (f k)) = BitVec.ofNat 32 (∑ k ∈ S, f k) := by
  have h := fold_addi_ofNat S f 0
  rw [Nat.zero_add] at h
  exact h

theorem fold_addi_of_eq_ofNat {ι : Type*} (S : Finset ι) (x : ι → BitVec 32) (f : ι → ℕ)
    (hx : ∀ k ∈ S, x k = BitVec.ofNat 32 (f k)) :
    S.fold IntOp.addi (0#32) x = BitVec.ofNat 32 (∑ k ∈ S, f k) := by
  rw [← fold_addi_ofNat_zero]
  exact Finset.fold_congr hx

theorem hostReduce_addi_ofNat {s t u : Shape} {axes : List (Fin s.rank)} (x : IVec s 32) (init : IVec u 32)
    (h : s.ReducesTo axes t) (hu : 0 < u.numel) (f : s.Idx → ℕ) (hx : ∀ i, x i = BitVec.ofNat 32 (f i))
    (hinit : init (Shape.Idx.first hu) = 0#32) (j : t.Idx) :
    Host.reduce IntOp.addi x init h hu j
      = BitVec.ofNat 32 (∑ i ∈ Finset.univ.filter (fun i => h.drop i = j), f i) := by
  rw [Host.reduce_eq_fold, hinit]
  exact fold_addi_of_eq_ofNat _ x f (fun i _ => hx i)

theorem ofNat_sub_ofNat (a b : ℕ) (h : b ≤ a) :
    BitVec.ofNat 32 a - BitVec.ofNat 32 b = BitVec.ofNat 32 (a - b) := by
  have e : BitVec.ofNat 32 a = BitVec.ofNat 32 (a - b) + BitVec.ofNat 32 b := by
    rw [← BitVec.ofNat_add]; congr 1; omega
  rw [e, BitVec.add_sub_cancel]

theorem subi_ofNat (a b : ℕ) (h : b ≤ a) :
    IntOp.subi (BitVec.ofNat 32 a) (BitVec.ofNat 32 b) = BitVec.ofNat 32 (a - b) := ofNat_sub_ofNat a b h

theorem toNat_ofNat (c : ℕ) (h : c < 2 ^ 32) : (BitVec.ofNat 32 c).toNat = c := by
  rw [BitVec.toNat_ofNat]; exact Nat.mod_eq_of_lt h

theorem toInt_ofNat (c : ℕ) (h : c < 2 ^ 31) : (BitVec.ofNat 32 c).toInt = (c : ℤ) :=
  WordArith.toInt_ofNat_small c h

theorem zero_slt_ofNat (c : ℕ) (h : c < 2 ^ 31) : (0#32 : BitVec 32).slt (BitVec.ofNat 32 c) = decide (0 < c) := by
  rw [BitVec.slt_eq_decide, toInt_ofNat c h]
  simp

theorem cmpi_sgt_zero (c : ℕ) (h : c < 2 ^ 31) :
    IntOp.cmpi .sgt (BitVec.ofNat 32 c) 0#32 = BitVec.ofBool (decide (0 < c)) := by
  show BitVec.ofBool ((0#32 : BitVec 32).slt (BitVec.ofNat 32 c)) = _
  rw [zero_slt_ofNat c h]

theorem cmpi_sgt_zero_eq_one_iff (c : ℕ) (h : c < 2 ^ 31) :
    IntOp.cmpi .sgt (BitVec.ofNat 32 c) 0#32 = 1#1 ↔ 0 < c := by
  rw [cmpi_sgt_zero c h, WordArith.ofBool_eq_one_iff, decide_eq_true_eq]

theorem maxsi_one (c : ℕ) (h : c < 2 ^ 31) :
    IntOp.maxsi (BitVec.ofNat 32 c) 1#32 = BitVec.ofNat 32 (max c 1) := by
  unfold IntOp.maxsi
  have hs : (1#32 : BitVec 32).slt (BitVec.ofNat 32 c) = decide (1 < c) := by
    rw [BitVec.slt_eq_decide, toInt_ofNat c h]
    have : (1#32 : BitVec 32).toInt = 1 := by decide
    rw [this]
    exact decide_eq_decide.2 (by omega)
  rw [hs]
  by_cases h1 : 1 < c
  · rw [decide_eq_true h1, if_pos rfl, max_eq_left (by omega)]
  · rw [decide_eq_false h1]
    have hc : max c 1 = 1 := max_eq_right (by omega)
    rw [hc]; rfl

end Cert.WordCount
-- ==== Proof.PosCntKIMath.lean ====
import proofs.«407225_j55808805044518_3_alg».proof.Proof.HistogramKI
import proofs.«407225_j55808805044518_3_alg».proof.Proof.HistWords
import proofs.«407225_j55808805044518_3_alg».proof.Proof.PairCount
import proofs.«407225_j55808805044518_3_alg».proof.Proof.WordCount
import proofs.«407225_j55808805044518_3_alg».proof.Proof.Args
import Idealize.ShloMosaic.Lib.Pipeline.Value
import Idealize.ShloMosaic.Lib.IdealHost
import Idealize.ShloMosaic.PureOps.Reduce

noncomputable section

namespace Cert.KernelIdeal.Hand

open Idealize.ShloMosaic Idealize.ShloMosaic.ValueIdx
open Cert.KernelIdeal Cert.KernelIdeal.Facts₀

variable [Facts₀]

theorem bcol_apply (x : IVec S8192 32) (p : Fin 8192) :
    broadcastInDim S8192x1 ![0] bcast_S8192_S8192x1_0 x (ix2 p (0 : Fin 1)) = x (ix1 p) :=
  broadcastInDim_apply _ _ x _ _ (fun a => by
    match a with
    | ⟨0, _⟩ => rfl)

theorem reshape_apply (X : IVec S8193 32) (a : Fin 512) (b : Fin 16) :
    shapeCast S512x16 (extractStridedSlice S8192 ![0] X slices_S8193_S8192_0) shapeCasts_S8192_S512x16 (ix2 a b)
      = X (ix1 ⟨a.val * 16 + b.val, (HistWords.pair_lt_8192 a b).trans (by norm_num)⟩) := by
  have hlt : a.val * 16 + b.val < 8192 := HistWords.pair_lt_8192 a b
  rw [shapeCast_apply _ _ (ix2 a b) (ix1 ⟨a.val * 16 + b.val, hlt⟩) (by
    rw [Shape.rowMajor_val_one, Shape.rowMajor_val_two]; rfl)]
  exact extractStridedSlice_apply _ X _ _ _ (fun c => by
    match c with
    | ⟨0, _⟩ => exact (Nat.zero_add _).symm)

theorem rowSum_ofNat (H : IVec S512x16 32) (f : Fin 512 → Fin 16 → ℕ)
    (hH : ∀ a b, H (ix2 a b) = BitVec.ofNat 32 (f a b)) (a : Fin 512) :
    Host.reduce IntOp.addi H (constantI S_ 32 0#32) reducesTo_S512x16_S512_d1 h_S_ (ix1 a)
      = BitVec.ofNat 32 (∑ b, f a b) := by
  have hR : S512x16.Reduces [1] S512 := by decide
  rw [WordCount.hostReduce_addi_ofNat H _ reducesTo_S512x16_S512_d1 h_S_ (fun i => f (i 0) (i 1))
      (fun i => (congrArg H (eq_ix2 i)).trans (hH (i 0) (i 1))) rfl (ix1 a)]
  refine congrArg _ ?_
  rw [Shape.ReducesTo.drop_eq_drop reducesTo_S512x16_S512_d1 hR, hR.sum_filter_drop_single]
  rfl

theorem total_ofNat (x : IVec S512 32) (g : Fin 512 → ℕ) (hx : ∀ a, x (ix1 a) = BitVec.ofNat 32 (g a))
    (j : S_.Idx) :
    Host.reduce IntOp.addi x (constantI S_ 32 0#32) reducesTo_S512_S_d0 h_S_ j = BitVec.ofNat 32 (∑ a, g a) := by
  rw [WordCount.hostReduce_addi_ofNat x _ reducesTo_S512_S_d0 h_S_ (fun i => g (i 0))
      (fun i => (congrArg x (eq_ix1 i)).trans (hx (i 0))) rfl j]
  refine congrArg _ ?_
  rw [Finset.filter_true_of_mem (fun i _ => (eq_ix0 _).trans (eq_ix0 _).symm)]
  exact LibRows.sum_idx1 (n := 512) (fun i => g (i 0))

section Count

variable (cat lab gid : IVec S8192 32) (hr : Cert.Args.InRange lab gid)

include hr in
theorem lab_lt (i : Fin 8192) : (lab (ix1 i)).toNat < 512 :=
  HistWords.toNat_lt_of_toInt _ 512 (hr.1 i).1 (by have := (hr.1 i).2; omega)

include hr in
theorem gid_lt (i : Fin 8192) : (gid (ix1 i)).toNat < 16 :=
  HistWords.toNat_lt_of_toInt _ 16 (hr.2 i).1 (by have := (hr.2 i).2; omega)

def consP (i : Fin 8192) : Prop := (cat (ix1 i)).slt 3#32 = true

instance : DecidablePred (consP cat) := fun i => by unfold consP; infer_instance

def labFin (i : Fin 8192) : Fin 512 := HistWords.labF (lab (ix1 i)) (lab_lt lab gid hr i)

def gidFin (i : Fin 8192) : Fin 16 := HistWords.gidF (gid (ix1 i)) (gid_lt lab gid hr i)

theorem slot_count (a : Fin 512) (b : Fin 16) :
    (Finset.univ.filter fun p : Fin 8192 =>
        (HistWords.slot (cat (ix1 p)) (lab (ix1 p)) (gid (ix1 p))).toInt = ((a.val * 16 + b.val : ℕ) : Int)).card
      = PairCount.h (consP cat) (labFin lab gid hr) (gidFin lab gid hr) a b := by
  unfold PairCount.h
  refine congrArg Finset.card ?_
  ext p
  simp only [Finset.mem_filter, Finset.mem_univ, true_and]
  have hl := lab_lt lab gid hr p
  have hg := gid_lt lab gid hr p
  have hle := HistWords.slot_toNat_le (cat (ix1 p)) _ _ hl hg
  rw [HistWords.toInt_of_toNat_lt _ (by omega), Nat.cast_inj]
  exact HistWords.slot_toNat_eq_iff_fin (cat (ix1 p)) _ _ hl hg a b

theorem hist_apply (idx : IVec S8192 32)
    (hidx : ∀ p : Fin 8192, idx (ix1 p) = HistWords.slot (cat (ix1 p)) (lab (ix1 p)) (gid (ix1 p)))
    (a : Fin 512) (b : Fin 16) :
    shapeCast S512x16
        (extractStridedSlice S8192 ![0]
          (Host.scatter scatter_S8193_S8192x1_S8192_n_0_0_1 IntOp.addi
            (broadcastInDim S8193 ![] bcast_S_S8193 (constantI S_ 32 0#32))
            (broadcastInDim S8192x1 ![0] bcast_S8192_S8192x1_0 idx)
            (broadcastInDim S8192 ![] bcast_S_S8192 (constantI S_ 32 1#32)))
          slices_S8193_S8192_0)
        shapeCasts_S8192_S512x16 (ix2 a b)
      = BitVec.ofNat 32 (PairCount.h (consP cat) (labFin lab gid hr) (gidFin lab gid hr) a b) := by
  rw [reshape_apply]
  have e := Histogram.scatterKI_ones_apply (broadcastInDim S8192x1 ![0] bcast_S8192_S8192x1_0 idx)
    ⟨a.val * 16 + b.val, (HistWords.pair_lt_8192 a b).trans (by norm_num)⟩
  refine e.trans (congrArg _ ?_)
  rw [← slot_count cat lab gid hr a b]
  refine congrArg Finset.card (Finset.filter_congr (fun p _ => ?_))
  rw [bcol_apply, hidx]

theorem posCnt_eq :
    Cert.Spec.posCnt (Cert.Args.vec lab) (Cert.Args.vec gid) (Cert.Args.vec cat)
      = ∑ a : Fin 512,
          (PairCount.T (consP cat) (labFin lab gid hr) (gidFin lab gid hr) a
              * (PairCount.T (consP cat) (labFin lab gid hr) (gidFin lab gid hr) a - 1) / 2
            - ∑ b : Fin 16, PairCount.h (consP cat) (labFin lab gid hr) (gidFin lab gid hr) a b
                * (PairCount.h (consP cat) (labFin lab gid hr) (gidFin lab gid hr) a b - 1) / 2) := by
  have hl : ∀ i j, labFin lab gid hr i = labFin lab gid hr j ↔ lab (ix1 i) = lab (ix1 j) := fun i j =>
    (HistWords.labF_eq_iff _ _ _ _).symm
  have hg : ∀ i j, gidFin lab gid hr i = gidFin lab gid hr j ↔ gid (ix1 i) = gid (ix1 j) := fun i j =>
    (HistWords.gidF_eq_iff _ _ _ _).symm
  unfold Cert.Spec.posCnt
  exact PairCount.pair_count_of (consP cat) (labFin lab gid hr) (gidFin lab gid hr)
    (fun q => Cert.Spec.validPos (Cert.Args.vec lab) (Cert.Args.vec gid) (Cert.Args.vec cat) q.1 q.2) (fun q => by
      unfold Cert.Spec.validPos
      exact and_congr Iff.rfl (and_congr (hl _ _).symm (and_congr (not_congr (hg _ _).symm) Iff.rfl)))

end Count

end Cert.KernelIdeal.Hand

end
-- ==== Proof.PosCntKI.lean ====
import proofs.«407225_j55808805044518_3_alg».proof.Proof.WritesKI
import proofs.«407225_j55808805044518_3_alg».proof.Proof.TileKI
import proofs.«407225_j55808805044518_3_alg».proof.Proof.PosCntKIChain
import proofs.«407225_j55808805044518_3_alg».proof.Proof.PosCntKIMath

noncomputable section

namespace Cert.KernelIdeal.Hand

open Idealize.ShloMosaic Idealize.ShloMosaic.TcCoe Idealize.SL.Sem Idealize.ShloMosaic.ValueIdx
open Cert.KernelIdeal Cert.KernelIdeal.Gen

section Value

variable (cat lab gid : IVec S8192 32) (hr : Cert.Args.InRange lab gid)

theorem slotV_apply (j : S8192.Idx) :
    wrapV (keyW (consV cat) (keyV lab gid) (constantI S_ 32 8192#32)) j
      = HistWords.slot (cat j) (lab j) (gid j) := by
  unfold wrapV keyW consV keyV
  exact HistWords.slot_vec cat lab gid _ _ _ _ _ j rfl rfl rfl rfl rfl

theorem histV_apply (a : Fin 512) (b : Fin 16) :
    histV (keyW (consV cat) (keyV lab gid) (constantI S_ 32 8192#32)) (ix2 a b)
      = BitVec.ofNat 32 (PairCount.h (consP cat) (labFin lab gid hr) (gidFin lab gid hr) a b) := by
  unfold histV histFlatV
  exact hist_apply cat lab gid hr _ (fun p => slotV_apply cat lab gid (ix1 p)) a b

theorem rowSumV_hist (a : Fin 512) :
    rowSumV (histV (keyW (consV cat) (keyV lab gid) (constantI S_ 32 8192#32))) (ix1 a)
      = BitVec.ofNat 32 (PairCount.T (consP cat) (labFin lab gid hr) (gidFin lab gid hr) a) := by
  unfold rowSumV
  exact rowSum_ofNat _ (fun a b => PairCount.h (consP cat) (labFin lab gid hr) (gidFin lab gid hr) a b)
    (histV_apply cat lab gid hr) a

theorem pairs_apply {s : Shape} (bc : S_.BroadcastsInDim s (![] : Fin 0 → Fin s.rank)) (v : IVec s 32) (i : s.Idx)
    (n : ℕ) (hn : n ≤ 8192) (hv : v i = BitVec.ofNat 32 n) :
    floorDivV bc (mulPredV bc v) (constantI S_ 32 2#32) i = BitVec.ofNat 32 (n * (n - 1) / 2) := by
  unfold floorDivV mulPredV
  exact WordCount.pairs_vec v _ _ _ _ _ _ i n hn hv rfl rfl rfl rfl rfl rfl

include hr in

theorem posCntV_eq :
    posCntV cat lab gid
      = fun _ => BitVec.ofNat 32 (Cert.Spec.posCnt (Cert.Args.vec lab) (Cert.Args.vec gid) (Cert.Args.vec cat)) := by
  funext j
  rw [posCnt_eq cat lab gid hr]
  unfold posCntV finV
  refine total_ofNat _ (fun a =>
      PairCount.T (consP cat) (labFin lab gid hr) (gidFin lab gid hr) a
          * (PairCount.T (consP cat) (labFin lab gid hr) (gidFin lab gid hr) a - 1) / 2
        - ∑ b : Fin 16, PairCount.h (consP cat) (labFin lab gid hr) (gidFin lab gid hr) a b
            * (PairCount.h (consP cat) (labFin lab gid hr) (gidFin lab gid hr) a b - 1) / 2) (fun a => ?_) j
  have e1 := pairs_apply bcast_S_S512 _ (ix1 a) _ (PairCount.T_le (consP cat) (labFin lab gid hr) (gidFin lab gid hr) a)
    (rowSumV_hist cat lab gid hr a)
  have e2 : rowSumV (floorDivV bcast_S_S512x16
        (mulPredV bcast_S_S512x16 (histV (keyW (consV cat) (keyV lab gid) (constantI S_ 32 8192#32))))
        (constantI S_ 32 2#32)) (ix1 a)
      = BitVec.ofNat 32 (∑ b : Fin 16, PairCount.h (consP cat) (labFin lab gid hr) (gidFin lab gid hr) a b
            * (PairCount.h (consP cat) (labFin lab gid hr) (gidFin lab gid hr) a b - 1) / 2) := by
    unfold rowSumV
    exact rowSum_ofNat _ (fun a b => PairCount.h (consP cat) (labFin lab gid hr) (gidFin lab gid hr) a b
        * (PairCount.h (consP cat) (labFin lab gid hr) (gidFin lab gid hr) a b - 1) / 2)
      (fun a b => pairs_apply bcast_S_S512x16 _ (ix2 a b) _
        (PairCount.h_le (consP cat) (labFin lab gid hr) (gidFin lab gid hr) a b) (histV_apply cat lab gid hr a b)) a
  show IntOp.subi _ _ = _
  rw [e1, e2]
  exact WordCount.subi_ofNat _ _ (PairCount.same_group_le (consP cat) (labFin lab gid hr) (gidFin lab gid hr) a)

end Value

section Run

variable {F : FTy → Type} [FloatOps F]
variable (m : (ℓ : Loc nD τ sig) → Buf (Elt F) ℓ) (out : Out (F := F))

theorem V8_arg1 (c : Dev nD) : V8 m out c main_arg1 = m ((c : Thread nD τ).loc main_arg1) :=
  (V8_of m out c main_arg1 (by decide)).trans <| (V7_of m c main_arg1 (by decide)).trans <|
    (V6_of m c main_arg1 (by decide)).trans <| (V5_of m c main_arg1 (by decide)).trans <|
    (V4_of m c main_arg1 (by decide)).trans <| (V3_of m c main_arg1 (by decide)).trans <|
    (V2_of m c main_arg1 (by decide)).trans <| (V1_of m c main_arg1 (by decide)).trans <| rfl

theorem V8_arg2 (c : Dev nD) : V8 m out c main_arg2 = m ((c : Thread nD τ).loc main_arg2) :=
  (V8_of m out c main_arg2 (by decide)).trans <| (V7_of m c main_arg2 (by decide)).trans <|
    (V6_of m c main_arg2 (by decide)).trans <| (V5_of m c main_arg2 (by decide)).trans <|
    (V4_of m c main_arg2 (by decide)).trans <| (V3_of m c main_arg2 (by decide)).trans <|
    (V2_of m c main_arg2 (by decide)).trans <| (V1_of m c main_arg2 (by decide)).trans <| rfl

theorem V2_arg3 (c : Dev nD) : V2 m c main_arg3 = m ((c : Thread nD τ).loc main_arg3) :=
  (V2_of m c main_arg3 (by decide)).trans <| (V1_of m c main_arg3 (by decide)).trans <| rfl

theorem V9_v9 (c : Dev nD) :
    (V9 m out c main_v9 : IVec S8192 1) = consV (m ((c : Thread nD τ).loc main_arg3)) :=
  (V9_of m out c main_v9 (by decide)).trans <| (V8_of m out c main_v9 (by decide)).trans <|
    (V7_of m c main_v9 (by decide)).trans <| (V6_of m c main_v9 (by decide)).trans <|
    (V5_of m c main_v9 (by decide)).trans <| (V4_of m c main_v9 (by decide)).trans <|
    (st_v9 (V2 m c)).trans (congrArg consV (V2_arg3 m c))

theorem V10_v23 (c : Dev nD) :
    (V10 m out c main_v23 : IVec S8192 32)
      = keyW (consV (m ((c : Thread nD τ).loc main_arg3)))
          (keyV (m ((c : Thread nD τ).loc main_arg1)) (m ((c : Thread nD τ).loc main_arg2)))
          (constantI S_ 32 8192#32) := by
  have e22 : (V9 m out c main_v22 : IVec S8192 32)
      = keyV (m ((c : Thread nD τ).loc main_arg1)) (m ((c : Thread nD τ).loc main_arg2)) :=
    (st_v22 (V8 m out c)).trans (congrArg₂ keyV (V8_arg1 m out c) (V8_arg2 m out c))
  have e7 : (V9 m out c main_c_7 : IVec S_ 32) = constantI S_ 32 8192#32 := st_c7 (V8 m out c)
  refine (st_v23 (V9 m out c)).trans ?_
  rw [V9_v9 m out c, e22, e7]

theorem V21_v46_eq (c : Dev nD) :
    (V21 m out c main_v46 : IVec S_ 32)
      = posCntV (m ((c : Thread nD τ).loc main_arg3)) (m ((c : Thread nD τ).loc main_arg1))
          (m ((c : Thread nD τ).loc main_arg2)) := by
  have e34 : (V11 m out c main_v34 : IVec S512x16 32) = histV (V10 m out c main_v23) := st_v34 (V10 m out c)
  have e38 : (V11 m out c main_v38 : IVec S512 32)
      = mulPredV bcast_S_S512 (rowSumV (histV (V10 m out c main_v23))) := st_v38 (V10 m out c)
  have e14 : (V11 m out c main_c_14 : IVec S_ 32) = constantI S_ 32 2#32 := st_c14 (V10 m out c)
  have e39 : (V12 m out c main_v39 : IVec S512 32)
      = floorDivV bcast_S_S512 (mulPredV bcast_S_S512 (rowSumV (histV (V10 m out c main_v23))))
          (constantI S_ 32 2#32) := by
    refine (st_v39 (V11 m out c)).trans ?_
    rw [e38, e14]
  have e34' : (V12 m out c main_v34 : IVec S512x16 32) = histV (V10 m out c main_v23) :=
    (V12_of m out c main_v34 (by decide)).trans e34
  have e42 : (V13 m out c main_v42 : IVec S512x16 32)
      = mulPredV bcast_S_S512x16 (histV (V10 m out c main_v23)) := by
    refine (st_v42 (V12 m out c)).trans ?_
    rw [e34']
  have e16 : (V13 m out c main_c_16 : IVec S_ 32) = constantI S_ 32 2#32 := st_c16 (V12 m out c)
  have e43 : (V14 m out c main_v43 : IVec S512x16 32)
      = floorDivV bcast_S_S512x16 (mulPredV bcast_S_S512x16 (histV (V10 m out c main_v23)))
          (constantI S_ 32 2#32) := by
    refine (st_v43 (V13 m out c)).trans ?_
    rw [e42, e16]
  have e39' : (V14 m out c main_v39 : IVec S512 32)
      = floorDivV bcast_S_S512 (mulPredV bcast_S_S512 (rowSumV (histV (V10 m out c main_v23))))
          (constantI S_ 32 2#32) :=
    (V14_of m out c main_v39 (by decide)).trans <| (V13_of m out c main_v39 (by decide)).trans e39
  have e46 : (V15 m out c main_v46 : IVec S_ 32)
      = posCntV (m ((c : Thread nD τ).loc main_arg3)) (m ((c : Thread nD τ).loc main_arg1))
          (m ((c : Thread nD τ).loc main_arg2)) := by
    refine (st_v46 (V14 m out c)).trans ?_
    rw [e39', e43, V10_v23 m out c]
    rfl
  exact (V21_of m out c main_v46 (by decide)).trans <| (V20_of m out c main_v46 (by decide)).trans <|
    (V19_of m out c main_v46 (by decide)).trans <| (V18_of m out c main_v46 (by decide)).trans <|
    (V17_of m out c main_v46 (by decide)).trans <| (V16_of m out c main_v46 (by decide)).trans e46

end Run

theorem pos_cnt_value (m : (ℓ : Loc nD τ sig) → Buf (Elt Ideal) ℓ) (c : Dev nD)
    (hr : Cert.Args.InRange (m ((c : Thread nD τ).loc main_arg1)) (m ((c : Thread nD τ).loc main_arg2))) :
    V21 (F := Ideal) m (tilesOut m) c main_v46
      = fun _ => BitVec.ofNat 32 (Cert.Spec.posCnt (Cert.Args.vec (m ((c : Thread nD τ).loc main_arg1)))
          (Cert.Args.vec (m ((c : Thread nD τ).loc main_arg2))) (Cert.Args.vec (m ((c : Thread nD τ).loc main_arg3)))) :=
  (V21_v46_eq m (tilesOut m) c).trans
    (posCntV_eq (m ((c : Thread nD τ).loc main_arg3)) (m ((c : Thread nD τ).loc main_arg1))
      (m ((c : Thread nD τ).loc main_arg2)) hr)

end Cert.KernelIdeal.Hand

end
-- ==== Proof.NegKI1.lean ====
import proofs.«407225_j55808805044518_3_alg».proof.Proof.ValsKI
import proofs.«407225_j55808805044518_3_alg».proof.Proof.Spec
import proofs.«407225_j55808805044518_3_alg».proof.Proof.LibRows
import Idealize.ShloMosaic.Lib.Pipeline.Value
import Idealize.ShloMosaic.Lib.IdealHost
import Idealize.ShloMosaic.Lib.ValueIdx

noncomputable section

namespace Cert.KernelIdeal.Hand.Neg

open Idealize.ShloMosaic Idealize.ShloMosaic.ValueIdx
open Cert.KernelIdeal Cert.KernelIdeal.Gen

def wrapW (w : BitVec 32) : BitVec 32 := Scalar.select (IntOp.cmpi .slt w 0#32) (IntOp.addi w 8192#32) w

abbrev wrapVec (W : IVec S5000 32) : IVec S5000 32 :=
  select (cmpi .slt W (broadcastInDim S5000 ![] bcast_S_S5000 (constantI S_ 32 0#32)))
    (addi W (broadcastInDim S5000 ![] bcast_S_S5000 (constantI S_ 32 8192#32))) W

abbrev wrapCol (W : IVec S5000 32) : IVec S5000x1 32 :=
  broadcastInDim S5000x1 ![0] bcast_S5000_S5000x1_0 (wrapVec W)

theorem bcastCol_apply {α : Type} (x : S5000.Idx → α) (p : Fin 5000) (z : Fin 1) :
    broadcastInDim S5000x1 ![0] bcast_S5000_S5000x1_0 x (ix2 p z) = x (ix1 p) :=
  broadcastInDim_apply ![0] bcast_S5000_S5000x1_0 x (ix2 p z) (ix1 p) (fun a => by
    match a with
    | ⟨0, _⟩ => rfl)

theorem bcastRow_apply {α : Type} (x : S5000x1.Idx → α) (p : Fin 5000) (q : Fin 512) :
    broadcastInDim S5000x512 ![0, 1] bcast_S5000x1_S5000x512_0_1 x (ix2 p q) = x (ix2 p (0 : Fin 1)) :=
  broadcastInDim_apply ![0, 1] bcast_S5000x1_S5000x512_0_1 x (ix2 p q) (ix2 p (0 : Fin 1)) (fun a => by
    match a with
    | ⟨0, _⟩ => rfl
    | ⟨1, _⟩ => rfl)

theorem wrapCol_apply (W : IVec S5000 32) (p : Fin 5000) (z : Fin 1) : wrapCol W (ix2 p z) = wrapW (W (ix1 p)) := by
  show broadcastInDim S5000x1 ![0] bcast_S5000_S5000x1_0 (wrapVec W) (ix2 p z) = _
  rw [bcastCol_apply]
  rfl

theorem wrapW_eq (w : BitVec 32) : wrapW w = if w.slt 0#32 then w + 8192#32 else w := by
  unfold wrapW Scalar.select IntOp.cmpi IntOp.addi
  cases w.slt 0#32 <;> simp

theorem clamp_wrapW (w : BitVec 32) : min (wrapW w).toInt.toNat (8192 - 1) = (Cert.Spec.rowOf w).val := by
  show min (wrapW w).toInt.toNat 8191 = min ((if w.slt 0#32 then w + 8192#32 else w).toInt.toNat) 8191
  rw [wrapW_eq]

theorem gatherRow_apply {α : Type} (x : S8192x512.Idx → α) (idx : IVec S5000x1 32) (p : Fin 5000) (q : Fin 512) :
    Host.gather gather_S8192x512_S5000x1_S5000x512_1_0_n_n_0_1_1512 x idx (ix2 p q)
      = x (ix2 ⟨min (idx (ix2 p (0 : Fin 1))).toInt.toNat (8192 - 1), by omega⟩ q) :=
  Cert.LibRows.rowGather_apply (n := 8192) (e := 5000) (c := 512) (by decide)
    gather_S8192x512_S5000x1_S5000x512_1_0_n_n_0_1_1512_wf x idx p q

theorem gatherCol_apply {α : Type} (x : S8192x1.Idx → α) (idx : IVec S5000x1 32) (p : Fin 5000) (q : Fin 1) :
    Host.gather gather_S8192x1_S5000x1_S5000x1_1_0_n_n_0_1_11 x idx (ix2 p q)
      = x (ix2 ⟨min (idx (ix2 p (0 : Fin 1))).toInt.toNat (8192 - 1), by omega⟩ q) :=
  Cert.LibRows.rowGather_apply (n := 8192) (e := 5000) (c := 1) (by decide)
    gather_S8192x1_S5000x1_S5000x1_1_0_n_n_0_1_11_wf x idx p q

theorem gatherVec_apply {α : Type} (x : S8192.Idx → α) (idx : IVec S5000x1 32) (p : Fin 5000) :
    Host.gather gather_S8192_S5000x1_S5000_n_0_n_n_0_1_1 x idx (ix1 p)
      = x (ix1 ⟨min (idx (ix2 p (0 : Fin 1))).toInt.toNat (8192 - 1), by omega⟩) := by
  unfold Host.gather
  congr 1
  funext a
  refine Fin.ext ?_
  match a with
  | ⟨0, _⟩ =>

    show gather_S8192_S5000x1_S5000_n_0_n_n_0_1_1.start (ix1 p) idx 0
        + gather_S8192_S5000x1_S5000_n_0_n_n_0_1_1.batchCoord (ix1 p) 0
        + gather_S8192_S5000x1_S5000_n_0_n_n_0_1_1.offCoord (ix1 p) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ gather_S8192_S5000x1_S5000_n_0_n_n_0_1_1.startIndexMap from List.mem_singleton.mpr rfl)]
    have hsi : gather_S8192_S5000x1_S5000_n_0_n_n_0_1_1.siIdx (ix1 p)
        ⟨List.idxOf (0 : Fin 1) gather_S8192_S5000x1_S5000_n_0_n_n_0_1_1.startIndexMap,
          List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl

theorem clamp_wrapCol (W : IVec S5000 32) (p : Fin 5000) (h : min (wrapCol W (ix2 p (0 : Fin 1))).toInt.toNat (8192 - 1) < 8192) :
    (⟨min (wrapCol W (ix2 p (0 : Fin 1))).toInt.toNat (8192 - 1), h⟩ : Fin 8192) = Cert.Spec.rowOf (W (ix1 p)) :=
  Fin.ext ((congrArg (fun v : BitVec 32 => min v.toInt.toNat (8192 - 1)) (wrapCol_apply W p 0)).trans (clamp_wrapW _))

theorem gatherRow_wrap {α : Type} (x : S8192x512.Idx → α) (W : IVec S5000 32) (p : Fin 5000) (q : Fin 512) :
    Host.gather gather_S8192x512_S5000x1_S5000x512_1_0_n_n_0_1_1512 x (wrapCol W) (ix2 p q)
      = x (ix2 (Cert.Spec.rowOf (W (ix1 p))) q) := by
  rw [gatherRow_apply, clamp_wrapCol]

theorem gatherCol_wrap {α : Type} (x : S8192x1.Idx → α) (W : IVec S5000 32) (p : Fin 5000) (q : Fin 1) :
    Host.gather gather_S8192x1_S5000x1_S5000x1_1_0_n_n_0_1_11 x (wrapCol W) (ix2 p q)
      = x (ix2 (Cert.Spec.rowOf (W (ix1 p))) q) := by
  rw [gatherCol_apply, clamp_wrapCol]

theorem gatherVec_wrap {α : Type} (x : S8192.Idx → α) (W : IVec S5000 32) (p : Fin 5000) :
    Host.gather gather_S8192_S5000x1_S5000_n_0_n_n_0_1_1 x (wrapCol W) (ix1 p)
      = x (ix1 (Cert.Spec.rowOf (W (ix1 p)))) := by
  rw [gatherVec_apply, clamp_wrapCol]

end Cert.KernelIdeal.Hand.Neg

end
-- ==== Proof.NegKI2.lean ====
import proofs.«407225_j55808805044518_3_alg».proof.Proof.NegKI1
import proofs.«407225_j55808805044518_3_alg».proof.Proof.WritesKI

noncomputable section

namespace Cert.KernelIdeal.Hand.Neg

open Idealize.ShloMosaic Idealize.ShloMosaic.TcCoe Idealize.SL.Sem Idealize.ShloMosaic.ValueIdx
open Cert.KernelIdeal Cert.KernelIdeal.Gen

abbrev rowsV (A : FVec Ideal S8192x512 .f32) (N : FVec Ideal S8192x1 .f32) (W : IVec S5000 32) : FVec Ideal S5000x512 .f32 :=
  mulf (Host.gather gather_S8192x512_S5000x1_S5000x512_1_0_n_n_0_1_1512 A (wrapCol W))
    (broadcastInDim S5000x512 ![0, 1] bcast_S5000x1_S5000x512_0_1
      (Host.gather gather_S8192x1_S5000x1_S5000x1_1_0_n_n_0_1_11 N (wrapCol W)))

abbrev simsV (A : FVec Ideal S8192x512 .f32) (N : FVec Ideal S8192x1 .f32) (W1 W2 : IVec S5000 32) : FVec Ideal S5000 .f32 :=
  Host.reduceAdd (mulf (rowsV A N W1) (rowsV A N W2)) (constant (F := Ideal) S_ .f32 0x00000000#32) reducesTo_S5000x512_S5000_d1 h_S_

abbrev pensV (A : FVec Ideal S8192x512 .f32) (N : FVec Ideal S8192x1 .f32) (W1 W2 : IVec S5000 32) : FVec Ideal S5000 .f32 :=
  maximumf (subf (simsV A N W1 W2) (broadcastInDim S5000 ![] bcast_S_S5000 (constant (F := Ideal) S_ .f32 0x00000000#32)))
    (broadcastInDim S5000 ![] bcast_S_S5000 (constant (F := Ideal) S_ .f32 0x00000000#32))

abbrev takeV (X : IVec S8192 32) (W : IVec S5000 32) : IVec S5000 32 :=
  Host.gather gather_S8192_S5000x1_S5000_n_0_n_n_0_1_1 X (wrapCol W)

abbrev maskV (G L C : IVec S8192 32) (W1 W2 : IVec S5000 32) : IVec S5000 1 :=
  andi (andi (cmpi .ne (takeV G W1) (takeV G W2)) (cmpi .ne (takeV L W1) (takeV L W2)))
    (ori (cmpi .slt (takeV C W1) (broadcastInDim S5000 ![] bcast_S_S5000 (constantI S_ 32 3#32)))
      (cmpi .slt (takeV C W2) (broadcastInDim S5000 ![] bcast_S_S5000 (constantI S_ 32 3#32))))

abbrev cntV (M : IVec S5000 1) : IVec S_ 32 :=
  Host.reduce IntOp.addi (extui 32 M natLt_1_32) (constantI S_ 32 0#32) reducesTo_S5000_S_d0 h_S_

abbrev recipV (N0 : FVec Ideal S8192x1 .f32) : FVec Ideal S8192x1 .f32 :=
  Host.divf (broadcastInDim S8192x1 ![] bcast_S_S8192x1 (constant (F := Ideal) S_ .f32 0x3F800000#32))
    (maximumf N0 (broadcastInDim S8192x1 ![] bcast_S_S8192x1 (constant (F := Ideal) S_ .f32 0x2B8CBCCC#32)))

abbrev whereV (M : IVec S5000 1) (P : FVec Ideal S5000 .f32) (Z : FVec Ideal S_ .f32) : FVec Ideal S5000 .f32 :=
  select M P (broadcastInDim S5000 ![] bcast_S_S5000 Z)

abbrev quotV (X : FVec Ideal S5000 .f32) (K : IVec S_ 32) : FVec Ideal S_ .f32 :=
  Host.divf (Host.reduceAdd X (constant (F := Ideal) S_ .f32 0x00000000#32) reducesTo_S5000_S_d0 h_S_)
    (sitofp .f32 (maxsi K (constantI S_ 32 1#32)))

section Stretches
variable (W : Valuation τ sig (Elt Ideal))

theorem recip_read :
    (StableHlo.after hostOps0_2 W (Proc.devRef .tc main_v4) : FVec Ideal S8192x1 .f32) = recipV (W main_v0) := by
  after_results

theorem pens_read :
    (StableHlo.after hostOps1_8 W (Proc.devRef .tc main_v140) : FVec Ideal S5000 .f32)
      = pensV (W main_arg0) (W main_v4) (W main_arg4) (W main_arg5) := by
  after_results_simp

set_option maxHeartbeats 4000000 in
theorem mask_read :
    (StableHlo.after hostOps1_8 W (Proc.devRef .tc main_v134) : IVec S5000 1)
      = maskV (W main_arg2) (W main_arg1) (W main_arg3) (W main_arg4) (W main_arg5) := by
  after_results_simp

set_option maxHeartbeats 4000000 in
theorem cnt_read :
    (StableHlo.after hostOps1_8 W (Proc.devRef .tc main_v142) : IVec S_ 32)
      = cntV (maskV (W main_arg2) (W main_arg1) (W main_arg3) (W main_arg4) (W main_arg5)) := by
  after_results_simp

theorem zero48_read :
    (StableHlo.after hostOps1_8 W (Proc.devRef .tc main_cst_48) : FVec Ideal S_ .f32)
      = constant (F := Ideal) S_ .f32 0x00000000#32 := by
  after_results_simp

theorem where_read :
    (StableHlo.after hostOps1_9 W (Proc.devRef .tc main_v143) : FVec Ideal S5000 .f32)
      = whereV (W main_v134) (W main_v140) (W main_cst_48) := by
  after_results; rfl

theorem quot_read :
    (StableHlo.after hostOps1_10 W (Proc.devRef .tc main_v148) : FVec Ideal S_ .f32)
      = quotV (W main_v143) (W main_v142) := by
  after_results

theorem pos_read :
    (StableHlo.after hostOps1_10 W (Proc.devRef .tc main_v145) : IVec S_ 1)
      = cmpi .sgt (W main_v142) (constantI S_ 32 0#32) := by
  after_results

theorem zero52_read :
    (StableHlo.after hostOps1_10 W (Proc.devRef .tc main_cst_52) : FVec Ideal S_ .f32)
      = constant (F := Ideal) S_ .f32 0x00000000#32 := by
  after_results

theorem avg_read :
    (StableHlo.after hostOps1_11 W (Proc.devRef .tc main_v149) : FVec Ideal S_ .f32)
      = select (W main_v145) (W main_v148) (W main_cst_52) := by
  after_results; rfl

end Stretches

end Cert.KernelIdeal.Hand.Neg

end
-- ==== Proof.NegKI3.lean ====
import proofs.«407225_j55808805044518_3_alg».proof.Proof.NegKI2
import proofs.«407225_j55808805044518_3_alg».proof.Proof.PosSumKIa
import proofs.«407225_j55808805044518_3_alg».proof.Proof.WordCount
import proofs.«407225_j55808805044518_3_alg».proof.Proof.Args
import Idealize.ShloMosaic.Lib.IndicatorCount
import Idealize.ShloMosaic.Lib.WordArith
import Idealize.ShloMosaic.Lib.Affine
import Idealize.ShloMosaic.PureOps.Ideal.Laws

noncomputable section

namespace Cert.KernelIdeal.Hand.Neg

open Idealize.ShloMosaic Idealize.ShloMosaic.TcCoe Idealize.SL.Sem Idealize.ShloMosaic.ValueIdx
open Cert.KernelIdeal Cert.KernelIdeal.Gen

open scoped BigOperators

section Rows
variable (A : FVec Ideal S8192x512 .f32) (N N0 : FVec Ideal S8192x1 .f32) (W W1 W2 : IVec S5000 32)

theorem rowsV_apply (p : Fin 5000) (q : Fin 512) :
    rowsV A N W (ix2 p q)
      = A (ix2 (Cert.Spec.rowOf (W (ix1 p))) q) * N (ix2 (Cert.Spec.rowOf (W (ix1 p))) (0 : Fin 1)) := by
  show mulf _ _ (ix2 p q) = _
  rw [mulf_apply, gatherRow_wrap, bcastRow_apply, gatherCol_wrap]

theorem recipV_apply (i : Fin 8192) :
    recipV N0 (ix2 i (0 : Fin 1)) = Ideal.div 1 (max (N0 (ix2 i (0 : Fin 1))) Cert.Spec.eps) := by
  show Host.divf _ _ _ = _
  rw [hostDivf_apply, maximumf_apply, broadcastInDim_scalar_apply, broadcastInDim_scalar_apply, constant_apply, constant_apply,
    Ideal.ofBits_one_f32]
  rfl

theorem rows_e (hN0 : ∀ i : Fin 8192, N0 (ix2 i (0 : Fin 1)) = Ideal.sqrt (∑ d : Fin 512, A (ix2 i d) * A (ix2 i d)))
    (p : Fin 5000) (q : Fin 512) :
    rowsV A (recipV N0) W (ix2 p q) = Cert.Spec.e (Cert.Args.mat A) (Cert.Spec.rowOf (W (ix1 p))) q := by
  rw [rowsV_apply, recipV_apply, hN0, mul_recip_clip]
  rfl

theorem simsV_apply (p : Fin 5000) :
    simsV A N W1 W2 (ix1 p) = ∑ q : Fin 512, rowsV A N W1 (ix2 p q) * rowsV A N W2 (ix2 p q) := by
  show Host.reduceAdd _ _ _ _ _ = _
  rw [hostReduceAdd_apply]
  have hR : S5000x512.Reduces [1] S5000 := by decide
  rw [Ideal.hostReduceAdd_single _ hR]
  show Ideal.ofBits .f32 0x00000000#32 + _ = _
  rw [Ideal.ofBits_zero_f32, zero_add]
  refine Finset.sum_congr rfl fun q _ => ?_
  have e : hR.lift (ix1 p) q = ix2 p q := by
    funext a
    match a with
    | ⟨0, _⟩ => exact Fin.ext rfl
    | ⟨1, _⟩ => exact Fin.ext rfl
  rw [e]; rfl

theorem sims_sim (hN0 : ∀ i : Fin 8192, N0 (ix2 i (0 : Fin 1)) = Ideal.sqrt (∑ d : Fin 512, A (ix2 i d) * A (ix2 i d)))
    (p : Fin 5000) :
    simsV A (recipV N0) W1 W2 (ix1 p)
      = Cert.Spec.sim (Cert.Args.mat A) (Cert.Spec.rowOf (W1 (ix1 p))) (Cert.Spec.rowOf (W2 (ix1 p))) := by
  rw [simsV_apply]
  refine Finset.sum_congr rfl fun q _ => ?_
  rw [rows_e A N0 W1 hN0, rows_e A N0 W2 hN0]

theorem pensV_apply (p : Fin 5000) :
    pensV A N W1 W2 (ix1 p) = max (simsV A N W1 W2 (ix1 p) - Cert.Spec.zero) Cert.Spec.zero := by
  show maximumf _ _ _ = _
  rw [maximumf_apply, subf_apply, broadcastInDim_scalar_apply, constant_apply]
  rfl

end Rows

section Mask
variable (G L C : IVec S8192 32) (W W1 W2 : IVec S5000 32)

theorem takeV_apply (X : IVec S8192 32) (p : Fin 5000) : takeV X W (ix1 p) = X (ix1 (Cert.Spec.rowOf (W (ix1 p)))) :=
  gatherVec_wrap X W p

theorem cmpi_slt_iff (x y : BitVec 32) : IntOp.cmpi .slt x y = 1#1 ↔ x.slt y = true :=
  WordArith.ofBool_eq_one_iff _

theorem maskV_eq_one_iff (p : Fin 5000) :
    maskV G L C W1 W2 (ix1 p) = 1#1
      ↔ Cert.Spec.negValid (Cert.Args.vec L) (Cert.Args.vec G) (Cert.Args.vec C) (Cert.Args.vecS W1) (Cert.Args.vecS W2) p := by
  show IntOp.andi (IntOp.andi (IntOp.cmpi .ne (takeV G W1 (ix1 p)) (takeV G W2 (ix1 p)))
        (IntOp.cmpi .ne (takeV L W1 (ix1 p)) (takeV L W2 (ix1 p))))
      (IntOp.ori (IntOp.cmpi .slt (takeV C W1 (ix1 p)) (broadcastInDim S5000 ![] bcast_S_S5000 (constantI S_ 32 3#32) (ix1 p)))
        (IntOp.cmpi .slt (takeV C W2 (ix1 p)) (broadcastInDim S5000 ![] bcast_S_S5000 (constantI S_ 32 3#32) (ix1 p)))) = 1#1 ↔ _
  rw [IntOp.andi_eq_one, IntOp.andi_eq_one, IntOp.ori_eq_one, IntOp.cmpi_ne, IntOp.cmpi_ne, cmpi_slt_iff, cmpi_slt_iff,
    broadcastInDim_scalar_apply, takeV_apply, takeV_apply, takeV_apply, takeV_apply, takeV_apply, takeV_apply, and_assoc]
  rfl

instance : Subsingleton S_.Idx := ⟨fun a b => funext fun d => d.elim0⟩

theorem cntV_apply (M : IVec S5000 1) :
    cntV M ValueIdx.ix0 = BitVec.ofNat 32 ((Finset.univ.filter fun p : Fin 5000 => M (ix1 p) = 1#1).card) := by
  show Host.reduce IntOp.addi (extui 32 M natLt_1_32) (constantI S_ 32 0#32) reducesTo_S5000_S_d0 h_S_ ValueIdx.ix0 = _
  rw [Host.reduce_eq_fold, Finset.filter_true_of_mem (fun i _ => Subsingleton.elim _ _)]
  show Finset.univ.fold IntOp.addi (0#32) (fun k => (M k).setWidth 32) = _
  rw [IndicatorCount.fold_addi_setWidth_eq_card]
  congr 1
  rw [Finset.card_filter, Finset.card_filter, Cert.LibRows.sum_idx1]

theorem cnt_negCnt :
    cntV (maskV G L C W1 W2) ValueIdx.ix0
      = BitVec.ofNat 32 (Cert.Spec.negCnt (Cert.Args.vec L) (Cert.Args.vec G) (Cert.Args.vec C) (Cert.Args.vecS W1) (Cert.Args.vecS W2)) := by
  rw [cntV_apply]
  congr 2
  exact Finset.filter_congr fun p _ => maskV_eq_one_iff G L C W1 W2 p

end Mask

section Avg

theorem whereV_apply (M : IVec S5000 1) (P : FVec Ideal S5000 .f32) (Z : FVec Ideal S_ .f32) (p : Fin 5000) :
    whereV M P Z (ix1 p) = if M (ix1 p) = 1#1 then P (ix1 p) else Z ValueIdx.ix0 := by
  show Scalar.select (M (ix1 p)) (P (ix1 p)) (broadcastInDim S5000 ![] bcast_S_S5000 Z (ix1 p)) = _
  rw [broadcastInDim_scalar_apply]
  rfl

theorem sumV_apply (X : FVec Ideal S5000 .f32) :
    Host.reduceAdd X (constant (F := Ideal) S_ .f32 0x00000000#32) reducesTo_S5000_S_d0 h_S_ ValueIdx.ix0 = ∑ p : Fin 5000, X (ix1 p) := by
  rw [hostReduceAdd_apply, Ideal.hostReduceAdd_total _ (fun b => b.elim0)]
  show Ideal.ofBits .f32 0x00000000#32 + _ = _
  rw [Ideal.ofBits_zero_f32, zero_add, Cert.LibRows.sum_idx1]

theorem negCnt_lt (lab gid cat : Fin 8192 → BitVec 32) (i1 i2 : Fin 5000 → BitVec 32) :
    Cert.Spec.negCnt lab gid cat i1 i2 < 2 ^ 31 := by
  have h : Cert.Spec.negCnt lab gid cat i1 i2 ≤ 5000 := by
    unfold Cert.Spec.negCnt
    exact (Finset.card_filter_le _ _).trans (by simp)
  omega

theorem avg_apply (X : FVec Ideal S5000 .f32) (K : IVec S_ 32) (Z : FVec Ideal S_ .f32) (n : ℕ) (hn : n < 2 ^ 31)
    (hK : K ValueIdx.ix0 = BitVec.ofNat 32 n) (hZ : Z ValueIdx.ix0 = Cert.Spec.zero) :
    select (cmpi .sgt K (constantI S_ 32 0#32)) (quotV X K) Z ValueIdx.ix0 = Cert.Spec.avg n (∑ p : Fin 5000, X (ix1 p)) := by
  show Scalar.select (IntOp.cmpi .sgt (K ValueIdx.ix0) 0#32)
      (Ideal.div (Host.reduceAdd X (constant (F := Ideal) S_ .f32 0x00000000#32) reducesTo_S5000_S_d0 h_S_ ValueIdx.ix0)
        (((IntOp.maxsi (K ValueIdx.ix0) 1#32).toInt : ℝ) : EReal)) (Z ValueIdx.ix0) = _
  rw [sumV_apply, hK, hZ, Cert.WordCount.maxsi_one n hn, Cert.WordCount.toInt_ofNat (max n 1) (by omega)]
  unfold Cert.Spec.avg
  by_cases h0 : 0 < n
  · rw [(Cert.WordCount.cmpi_sgt_zero_eq_one_iff n hn).mpr h0, select_one, if_pos h0]
    simp
  · rw [if_neg h0]
    have : IntOp.cmpi .sgt (BitVec.ofNat 32 n) 0#32 = 0#1 :=
      eq_zero_of_ne_one (fun h => h0 ((Cert.WordCount.cmpi_sgt_zero_eq_one_iff n hn).mp h))
    rw [this, select_zero]

end Avg

end Cert.KernelIdeal.Hand.Neg

end
-- ==== Proof.NegKI.lean ====
import proofs.«407225_j55808805044518_3_alg».proof.Proof.NegKI3
import proofs.«407225_j55808805044518_3_alg».proof.Proof.TileKI

noncomputable section

namespace Cert.KernelIdeal.Hand

open Idealize.ShloMosaic Idealize.ShloMosaic.TcCoe Idealize.SL.Sem Idealize.ShloMosaic.ValueIdx
open Cert.KernelIdeal Cert.KernelIdeal.Gen
open scoped BigOperators

namespace Neg

variable {F : FTy → Type} [FloatOps F]
variable (m : (ℓ : Loc nD τ sig) → Buf (Elt F) ℓ) (out : Out (F := F)) (c : Dev nD)

theorem V16_of_V3 (r : Ref sig .tc) (h3 : r ∉ hostOps0_3_W) (h4 : r ∉ hostOps0_4_W) (h5 : r ∉ hostOps0_5_W)
    (h6 : r ∉ hostOps0_6_W) (h7 : r ≠ main_v16) (h8 : r ∉ hostOps1_W) (h9 : r ∉ hostOps1_1_W) (h10 : r ∉ hostOps1_2_W)
    (h11 : r ∉ hostOps1_3_W) (h12 : r ∉ hostOps1_4_W) (h13 : r ∉ hostOps1_5_W) (h14 : r ∉ hostOps1_6_W)
    (h15 : r ∉ hostOps1_7_W) : V16 m out c r = V3 m c r :=
  (V16_of m out c r h15).trans <| (V15_of m out c r h14).trans <| (V14_of m out c r h13).trans <|
    (V13_of m out c r h12).trans <| (V12_of m out c r h11).trans <| (V11_of m out c r h10).trans <|
    (V10_of m out c r h9).trans <| (V9_of m out c r h8).trans <| (V8_of m out c r h7).trans <|
    (V7_of m c r h6).trans <| (V6_of m c r h5).trans <| (V5_of m c r h4).trans <| V4_of m c r h3

theorem V3_of_V0 (r : Ref sig .tc) (h0 : r ∉ hostOps0_W) (h1 : r ∉ hostOps0_1_W) (h2 : r ∉ hostOps0_2_W) :
    V3 m c r = V0 m c r :=
  (V3_of m c r h2).trans <| (V2_of m c r h1).trans <| V1_of m c r h0

theorem V16_arg0 : V16 m out c main_arg0 = m ((c : Thread nD τ).loc main_arg0) :=
  (V16_of_V3 m out c main_arg0 (by decide) (by decide) (by decide) (by decide) (by decide) (by decide) (by decide) (by decide)
    (by decide) (by decide) (by decide) (by decide) (by decide)).trans
    ((V3_of_V0 m c main_arg0 (by decide) (by decide) (by decide)).trans rfl)
theorem V16_arg1 : V16 m out c main_arg1 = m ((c : Thread nD τ).loc main_arg1) :=
  (V16_of_V3 m out c main_arg1 (by decide) (by decide) (by decide) (by decide) (by decide) (by decide) (by decide) (by decide)
    (by decide) (by decide) (by decide) (by decide) (by decide)).trans
    ((V3_of_V0 m c main_arg1 (by decide) (by decide) (by decide)).trans rfl)
theorem V16_arg2 : V16 m out c main_arg2 = m ((c : Thread nD τ).loc main_arg2) :=
  (V16_of_V3 m out c main_arg2 (by decide) (by decide) (by decide) (by decide) (by decide) (by decide) (by decide) (by decide)
    (by decide) (by decide) (by decide) (by decide) (by decide)).trans
    ((V3_of_V0 m c main_arg2 (by decide) (by decide) (by decide)).trans rfl)
theorem V16_arg3 : V16 m out c main_arg3 = m ((c : Thread nD τ).loc main_arg3) :=
  (V16_of_V3 m out c main_arg3 (by decide) (by decide) (by decide) (by decide) (by decide) (by decide) (by decide) (by decide)
    (by decide) (by decide) (by decide) (by decide) (by decide)).trans
    ((V3_of_V0 m c main_arg3 (by decide) (by decide) (by decide)).trans rfl)
theorem V16_arg4 : V16 m out c main_arg4 = m ((c : Thread nD τ).loc main_arg4) :=
  (V16_of_V3 m out c main_arg4 (by decide) (by decide) (by decide) (by decide) (by decide) (by decide) (by decide) (by decide)
    (by decide) (by decide) (by decide) (by decide) (by decide)).trans
    ((V3_of_V0 m c main_arg4 (by decide) (by decide) (by decide)).trans rfl)
theorem V16_arg5 : V16 m out c main_arg5 = m ((c : Thread nD τ).loc main_arg5) :=
  (V16_of_V3 m out c main_arg5 (by decide) (by decide) (by decide) (by decide) (by decide) (by decide) (by decide) (by decide)
    (by decide) (by decide) (by decide) (by decide) (by decide)).trans
    ((V3_of_V0 m c main_arg5 (by decide) (by decide) (by decide)).trans rfl)

theorem V16_v4 : V16 m out c main_v4 = V3 m c main_v4 :=
  V16_of_V3 m out c main_v4 (by decide) (by decide) (by decide) (by decide) (by decide) (by decide) (by decide) (by decide)
    (by decide) (by decide) (by decide) (by decide) (by decide)

end Neg

section Final
variable (m : (ℓ : Loc nD τ sig) → Buf (Elt Ideal) ℓ) (c : Dev nD)

abbrev nA : FVec Ideal S8192x512 .f32 := m ((c : Thread nD τ).loc main_arg0)
abbrev nL : IVec S8192 32 := m ((c : Thread nD τ).loc main_arg1)
abbrev nG : IVec S8192 32 := m ((c : Thread nD τ).loc main_arg2)
abbrev nC : IVec S8192 32 := m ((c : Thread nD τ).loc main_arg3)
abbrev nW1 : IVec S5000 32 := m ((c : Thread nD τ).loc main_arg4)
abbrev nW2 : IVec S5000 32 := m ((c : Thread nD τ).loc main_arg5)
abbrev nN0 : FVec Ideal S8192x1 .f32 := V2 m c main_v0

theorem nN0_apply (i : Fin 8192) :
    nN0 m c (ix2 i (0 : Fin 1)) = Ideal.sqrt (∑ d : Fin 512, nA m c (ix2 i d) * nA m c (ix2 i d)) := by
  have h0 : (V2 m c main_v0 : FVec Ideal S8192x1 .f32) = _ := norm_read (V1 m c)
  show (V2 m c main_v0 : FVec Ideal S8192x1 .f32) (ix2 i (0 : Fin 1)) = _
  rw [h0, norm_apply, V1_arg0]

theorem V16_v4_eq : (V16 m (tilesOut m) c main_v4 : FVec Ideal S8192x1 .f32) = Neg.recipV (nN0 m c) := by
  rw [Neg.V16_v4]
  show (StableHlo.after hostOps0_2 (V2 m c) (Proc.devRef .tc main_v4) : FVec Ideal S8192x1 .f32) = _
  rw [Neg.recip_read]

theorem V17_v140 : (V17 m (tilesOut m) c main_v140 : FVec Ideal S5000 .f32)
    = Neg.pensV (nA m c) (Neg.recipV (nN0 m c)) (nW1 m c) (nW2 m c) := by
  show (StableHlo.after hostOps1_8 (V16 m (tilesOut m) c) (Proc.devRef .tc main_v140) : FVec Ideal S5000 .f32) = _
  rw [Neg.pens_read, Neg.V16_arg0, V16_v4_eq, Neg.V16_arg4, Neg.V16_arg5]

theorem V17_v134 : (V17 m (tilesOut m) c main_v134 : IVec S5000 1)
    = Neg.maskV (nG m c) (nL m c) (nC m c) (nW1 m c) (nW2 m c) := by
  show (StableHlo.after hostOps1_8 (V16 m (tilesOut m) c) (Proc.devRef .tc main_v134) : IVec S5000 1) = _
  rw [Neg.mask_read, Neg.V16_arg1, Neg.V16_arg2, Neg.V16_arg3, Neg.V16_arg4, Neg.V16_arg5]

theorem V17_v142 : (V17 m (tilesOut m) c main_v142 : IVec S_ 32)
    = Neg.cntV (Neg.maskV (nG m c) (nL m c) (nC m c) (nW1 m c) (nW2 m c)) := by
  show (StableHlo.after hostOps1_8 (V16 m (tilesOut m) c) (Proc.devRef .tc main_v142) : IVec S_ 32) = _
  rw [Neg.cnt_read, Neg.V16_arg1, Neg.V16_arg2, Neg.V16_arg3, Neg.V16_arg4, Neg.V16_arg5]

theorem V17_cst48 : (V17 m (tilesOut m) c main_cst_48 : FVec Ideal S_ .f32) = constant (F := Ideal) S_ .f32 0x00000000#32 := by
  show (StableHlo.after hostOps1_8 (V16 m (tilesOut m) c) (Proc.devRef .tc main_cst_48) : FVec Ideal S_ .f32) = _
  rw [Neg.zero48_read]

theorem V18_v143 : (V18 m (tilesOut m) c main_v143 : FVec Ideal S5000 .f32)
    = Neg.whereV (Neg.maskV (nG m c) (nL m c) (nC m c) (nW1 m c) (nW2 m c))
        (Neg.pensV (nA m c) (Neg.recipV (nN0 m c)) (nW1 m c) (nW2 m c)) (constant (F := Ideal) S_ .f32 0x00000000#32) := by
  show (StableHlo.after hostOps1_9 (V17 m (tilesOut m) c) (Proc.devRef .tc main_v143) : FVec Ideal S5000 .f32) = _
  rw [Neg.where_read, V17_v134, V17_v140, V17_cst48]

theorem V18_v142 : (V18 m (tilesOut m) c main_v142 : IVec S_ 32)
    = Neg.cntV (Neg.maskV (nG m c) (nL m c) (nC m c) (nW1 m c) (nW2 m c)) := by
  rw [V18_of m (tilesOut m) c main_v142 (by decide), V17_v142]

theorem neg_value :
    V21 (F := Ideal) m (tilesOut m) c main_v149
      = fun _ => Cert.Spec.avg
          (Cert.Spec.negCnt (Cert.Args.vec (m ((c : Thread nD τ).loc main_arg1))) (Cert.Args.vec (m ((c : Thread nD τ).loc main_arg2)))
            (Cert.Args.vec (m ((c : Thread nD τ).loc main_arg3))) (Cert.Args.vecS (m ((c : Thread nD τ).loc main_arg4)))
            (Cert.Args.vecS (m ((c : Thread nD τ).loc main_arg5))))
          (Cert.Spec.negSum (Cert.Args.mat (m ((c : Thread nD τ).loc main_arg0))) (Cert.Args.vec (m ((c : Thread nD τ).loc main_arg1)))
            (Cert.Args.vec (m ((c : Thread nD τ).loc main_arg2))) (Cert.Args.vec (m ((c : Thread nD τ).loc main_arg3)))
            (Cert.Args.vecS (m ((c : Thread nD τ).loc main_arg4))) (Cert.Args.vecS (m ((c : Thread nD τ).loc main_arg5)))) := by
  rw [V21_of m (tilesOut m) c main_v149 (by decide)]
  show (StableHlo.after hostOps1_11 (V19 m (tilesOut m) c) (Proc.devRef .tc main_v149) : FVec Ideal S_ .f32) = _
  rw [Neg.avg_read]
  have h145 : (V19 m (tilesOut m) c main_v145 : IVec S_ 1)
      = cmpi .sgt (Neg.cntV (Neg.maskV (nG m c) (nL m c) (nC m c) (nW1 m c) (nW2 m c))) (constantI S_ 32 0#32) := by
    show (StableHlo.after hostOps1_10 (V18 m (tilesOut m) c) (Proc.devRef .tc main_v145) : IVec S_ 1) = _
    rw [Neg.pos_read, V18_v142]
  have h148 : (V19 m (tilesOut m) c main_v148 : FVec Ideal S_ .f32)
      = Neg.quotV (Neg.whereV (Neg.maskV (nG m c) (nL m c) (nC m c) (nW1 m c) (nW2 m c))
          (Neg.pensV (nA m c) (Neg.recipV (nN0 m c)) (nW1 m c) (nW2 m c)) (constant (F := Ideal) S_ .f32 0x00000000#32))
        (Neg.cntV (Neg.maskV (nG m c) (nL m c) (nC m c) (nW1 m c) (nW2 m c))) := by
    show (StableHlo.after hostOps1_10 (V18 m (tilesOut m) c) (Proc.devRef .tc main_v148) : FVec Ideal S_ .f32) = _
    rw [Neg.quot_read, V18_v143, V18_v142]
  have h52 : (V19 m (tilesOut m) c main_cst_52 : FVec Ideal S_ .f32) = constant (F := Ideal) S_ .f32 0x00000000#32 := by
    show (StableHlo.after hostOps1_10 (V18 m (tilesOut m) c) (Proc.devRef .tc main_cst_52) : FVec Ideal S_ .f32) = _
    rw [Neg.zero52_read]
  rw [h145, h148, h52]
  funext j
  rw [eq_ix0 j]
  rw [Neg.avg_apply _ _ _ _ (Neg.negCnt_lt _ _ _ _ _) (Neg.cnt_negCnt (nG m c) (nL m c) (nC m c) (nW1 m c) (nW2 m c)) rfl]
  congr 1
  unfold Cert.Spec.negSum
  refine Finset.sum_congr rfl fun p _ => ?_
  rw [Neg.whereV_apply, Neg.pensV_apply, Neg.sims_sim (nA m c) (nN0 m c) (nW1 m c) (nW2 m c) (nN0_apply m c)]
  exact if_congr (Neg.maskV_eq_one_iff (nG m c) (nL m c) (nC m c) (nW1 m c) (nW2 m c) p) rfl rfl

end Final

end Cert.KernelIdeal.Hand

end
-- ==== Proof.FinalScalar.lean ====
import Idealize.ShloMosaic.PureOps.Ideal

noncomputable section

namespace Cert.FinalScalar

open Idealize.ShloMosaic

theorem toInt_ofNat32 (C : ℕ) (hC : C < 2 ^ 31) : (BitVec.ofNat 32 C).toInt = (C : ℤ) := by
  rw [BitVec.toInt_eq_toNat_cond, BitVec.toNat_ofNat, Nat.mod_eq_of_lt (by omega)]
  split <;> omega

theorem sgt_zero_ofNat32 (C : ℕ) (hC : C < 2 ^ 31) :
    IntOp.cmpi .sgt (BitVec.ofNat 32 C) 0#32 = BitVec.ofBool (decide (0 < C)) := by
  unfold IntOp.cmpi
  simp only [BitVec.slt, toInt_ofNat32 C hC, BitVec.toInt_zero]
  congr 1
  simp

theorem ofBits_one_f32 : Ideal.ofBits .f32 0x3F800000#32 = ((1 : ℝ) : EReal) := by

  have hs : (BitVec.extractLsb' (8 + 23) 1 0x3F800000#32 == 1#1) = false := by decide
  have he : (BitVec.extractLsb' 23 8 0x3F800000#32).toNat = 127 := by decide
  have hf : (BitVec.extractLsb' 0 23 0x3F800000#32).toNat = 0 := by decide
  unfold Ideal.ofBits Ideal.ieee
  simp only [hs, he, hf]
  norm_num

theorem max_coe_one (C : ℕ) : max (((C : ℝ) : EReal)) ((1 : ℝ) : EReal) = (((max C 1 : ℕ) : ℝ) : EReal) := by
  rw [Nat.cast_max, Nat.cast_one]
  exact (EReal.coe_strictMono.monotone.map_max).symm

theorem avg_scalar (C : ℕ) (hC : C < 2 ^ 31) (s : EReal) :
    Scalar.select (IntOp.cmpi .sgt (BitVec.ofNat 32 C) 0#32)
        (Ideal.div s (max ((((BitVec.ofNat 32 C).toInt : ℝ)) : EReal) (Ideal.ofBits .f32 0x3F800000#32)))
        (Ideal.ofBits .f32 0x00000000#32)
      = if 0 < C then Ideal.div s (((max C 1 : ℕ) : ℝ) : EReal) else Ideal.ofBits .f32 0x00000000#32 := by
  rw [sgt_zero_ofNat32 C hC, toInt_ofNat32 C hC, ofBits_one_f32, Int.cast_natCast, max_coe_one]
  unfold Scalar.select
  by_cases h : 0 < C
  · simp [h]
  · simp [h]

end Cert.FinalScalar

end
-- ==== Proof.FinalKI.lean ====
import proofs.«407225_j55808805044518_3_alg».proof.Proof.WritesKI
import proofs.«407225_j55808805044518_3_alg».proof.Proof.TileKI
import proofs.«407225_j55808805044518_3_alg».proof.Proof.Spec
import proofs.«407225_j55808805044518_3_alg».proof.Proof.FinalScalar

noncomputable section

namespace Cert.KernelIdeal.Hand

open Idealize.ShloMosaic Idealize.ShloMosaic.TcCoe Idealize.SL.Sem
open Cert.KernelIdeal Cert.KernelIdeal.Gen

section Stages

variable {F : FTy → Type} [FloatOps F]
variable (V : Valuation τ sig (Elt F))

theorem after1_12_v150 :
    StableHlo.after hostOps1_12 V (Proc.devRef .tc main_v150)
      = addf (V (Proc.devRef .tc main_v51)) (V (Proc.devRef .tc main_v149)) := by
  after_results

theorem after1_7_v51 :
    StableHlo.after hostOps1_7 V (Proc.devRef .tc main_v51)
      = select (V (Proc.devRef .tc main_v47)) (V (Proc.devRef .tc main_v50)) (V (Proc.devRef .tc main_cst_21)) := by
  after_results
  simp only [StableHlo.TRef.ofBuf, StableHlo.TRef.toBuf, cast_eq]
  rfl

theorem after1_6_v47 :
    StableHlo.after hostOps1_6 V (Proc.devRef .tc main_v47)
      = cmpi .sgt (StableHlo.after hostOps1_6 V (Proc.devRef .tc main_v46)) (constantI S_ 32 0#32) := by
  after_results_simp

theorem after1_6_v50 :
    StableHlo.after hostOps1_6 V (Proc.devRef .tc main_v50)
      = Host.divf (V (Proc.devRef .tc main_v19))
          (maximumf (sitofp .f32 (StableHlo.after hostOps1_6 V (Proc.devRef .tc main_v46)))
            (constant S_ .f32 0x3F800000#32)) := by
  after_results_simp

theorem after1_6_cst21 :
    StableHlo.after hostOps1_6 V (Proc.devRef .tc main_cst_21) = constant S_ .f32 0x00000000#32 := by
  after_results_simp

end Stages

section Chain

variable {F : FTy → Type} [FloatOps F]
variable (m : (ℓ : Loc nD τ sig) → Buf (Elt F) ℓ) (out : Out (F := F)) (c : Dev nD)

theorem V21_v46 : V21 m out c main_v46 = V15 m out c main_v46 :=
  (V21_of m out c main_v46 (by decide)).trans <| (V20_of m out c main_v46 (by decide)).trans <|
  (V19_of m out c main_v46 (by decide)).trans <| (V18_of m out c main_v46 (by decide)).trans <|
  (V17_of m out c main_v46 (by decide)).trans <| V16_of m out c main_v46 (by decide)

theorem V21_v19 : V21 m out c main_v19 = V14 m out c main_v19 :=
  (V21_of m out c main_v19 (by decide)).trans <| (V20_of m out c main_v19 (by decide)).trans <|
  (V19_of m out c main_v19 (by decide)).trans <| (V18_of m out c main_v19 (by decide)).trans <|
  (V17_of m out c main_v19 (by decide)).trans <| (V16_of m out c main_v19 (by decide)).trans <|
  V15_of m out c main_v19 (by decide)

theorem V20_v51 : V20 m out c main_v51 = V16 m out c main_v51 :=
  (V20_of m out c main_v51 (by decide)).trans <| (V19_of m out c main_v51 (by decide)).trans <|
  (V18_of m out c main_v51 (by decide)).trans <| V17_of m out c main_v51 (by decide)

theorem V21_v150 :
    V21 m out c main_v150
      = addf (select (cmpi .sgt (V21 m out c main_v46) (constantI S_ 32 0#32))
                (Host.divf (V21 m out c main_v19)
                  (maximumf (sitofp .f32 (V21 m out c main_v46)) (constant S_ .f32 0x3F800000#32)))
                (constant S_ .f32 0x00000000#32))
          (V21 m out c main_v149) := by
  have e150 : V21 m out c main_v150 = addf (V20 m out c main_v51) (V20 m out c main_v149) :=
    after1_12_v150 (V20 m out c)
  have e51 : V16 m out c main_v51
      = select (V15 m out c main_v47) (V15 m out c main_v50) (V15 m out c main_cst_21) :=
    after1_7_v51 (V15 m out c)
  have e47 : V15 m out c main_v47 = cmpi .sgt (V15 m out c main_v46) (constantI S_ 32 0#32) :=
    after1_6_v47 (V14 m out c)
  have e50 : V15 m out c main_v50
      = Host.divf (V14 m out c main_v19)
          (maximumf (sitofp .f32 (V15 m out c main_v46)) (constant S_ .f32 0x3F800000#32)) :=
    after1_6_v50 (V14 m out c)
  have e21 : V15 m out c main_cst_21 = constant S_ .f32 0x00000000#32 := after1_6_cst21 (V14 m out c)
  have c149 : V21 m out c main_v149 = V20 m out c main_v149 := V21_of m out c main_v149 (by decide)
  rw [e150, V20_v51, e51, e47, e50, e21, V21_v46, V21_v19, c149]

end Chain

theorem final_of_out (m : (ℓ : Loc nD τ sig) → Buf (Elt Ideal) ℓ) (out : Out (F := Ideal)) (c : Dev nD)
    (S Nv : EReal) (C : ℕ) (hC : C < 2 ^ 31)
    (hsum : V21 (F := Ideal) m out c main_v19 = fun _ => S)
    (hcnt : V21 (F := Ideal) m out c main_v46 = fun _ => BitVec.ofNat 32 C)
    (hneg : V21 (F := Ideal) m out c main_v149 = fun _ => Nv) :
    V21 (F := Ideal) m out c main_v150 = fun _ => Cert.Spec.avg C S + Nv := by
  rw [V21_v150, hsum, hcnt, hneg]
  funext i
  show Scalar.select (IntOp.cmpi .sgt (BitVec.ofNat 32 C) 0#32)
      (Ideal.div S (max ((((BitVec.ofNat 32 C).toInt : ℝ)) : EReal) (Ideal.ofBits .f32 0x3F800000#32)))
      (Ideal.ofBits .f32 0x00000000#32) + Nv = _
  rw [Cert.FinalScalar.avg_scalar C hC S]
  rfl

theorem final_of (m : (ℓ : Loc nD τ sig) → Buf (Elt Ideal) ℓ) (c : Dev nD) (S Nv : EReal) (C : ℕ) (hC : C < 2 ^ 31)
    (hsum : V21 (F := Ideal) m (tilesOut m) c main_v19 = fun _ => S)
    (hcnt : V21 (F := Ideal) m (tilesOut m) c main_v46 = fun _ => BitVec.ofNat 32 C)
    (hneg : V21 (F := Ideal) m (tilesOut m) c main_v149 = fun _ => Nv) :
    V21 (F := Ideal) m (tilesOut m) c main_v150 = fun _ => Cert.Spec.avg C S + Nv :=
  final_of_out m (tilesOut m) c S Nv C hC hsum hcnt hneg

end Cert.KernelIdeal.Hand

end
-- ==== Proof.KernelValueKI.lean ====
import proofs.«407225_j55808805044518_3_alg».proof.Proof.PosSumKI
import proofs.«407225_j55808805044518_3_alg».proof.Proof.PosCntKI
import proofs.«407225_j55808805044518_3_alg».proof.Proof.NegKI
import proofs.«407225_j55808805044518_3_alg».proof.Proof.FinalKI

noncomputable section

namespace Cert.KernelIdeal.Hand

open Idealize.ShloMosaic Idealize.ShloMosaic.TcCoe Idealize.SL.Sem
open Cert.KernelIdeal Cert.KernelIdeal.Gen

theorem posCnt_lt (lab gid cat : Fin 8192 → BitVec 32) : Cert.Spec.posCnt lab gid cat < 2 ^ 31 := by
  unfold Cert.Spec.posCnt
  refine lt_of_le_of_lt (Finset.card_filter_le _ _) ?_
  rw [Finset.card_univ, Fintype.card_prod, Fintype.card_fin]
  norm_num

theorem kernel_value (m : (ℓ : Loc nD τ sig) → Buf (Elt Ideal) ℓ) (c : Dev nD)
    (hr : Cert.Args.InRange (m ((c.tc : Thread nD τ).loc main_arg1)) (m ((c.tc : Thread nD τ).loc main_arg2))) :
    V21 (F := Ideal) m (tilesOut m) c main_v150
      = fun _ => Cert.Args.lossOf (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) :=
  final_of m c _ _ _ (posCnt_lt _ _ _) (pos_sum_value m c hr) (pos_cnt_value m c hr) (neg_value m c)

end Cert.KernelIdeal.Hand

end
-- ==== Proof.RefRead.lean ====
import proofs.«407225_j55808805044518_3_alg».proof.Proof.Gen.ReferenceIdeal
import Idealize.ShloMosaic.Lib.StableHlo.Run
import Idealize.ShloMosaic.Lib.Pipeline.Value
import Idealize.ShloMosaic.Lib.ValueIdx
import Idealize.ShloMosaic.PureOps.Ideal.Laws

/-! The reference's host operations as stages of the arguments, one definition an operation, and each stage read at an index. -/

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]

/-- The contents of a buffer of shape `s` and element type `e`. -/
abbrev Tn (F : FTy → Type) (s : Shape) (e : EltTy) : Type := (⟨s, e⟩ : BufTy).Contents (Elt F)

def val_main_call0_v0 (x0 : Tn F S8192x512 .f32) : Tn F S8192x512 .f32 :=
  mulf (x0) (x0)
theorem val_main_call0_v0_apply (x0 : Tn F S8192x512 .f32) (i : S8192x512.Idx) :
    val_main_call0_v0 (F := F) x0 i = FloatOps.mulf (x0 i) (x0 i) := rfl

def val_main_call0_cst : Tn F S_ .f32 :=
  constant S_ .f32 0x00000000#32
theorem val_main_call0_cst_apply (i : S_.Idx) :
    val_main_call0_cst (F := F) i = FloatOps.ofBits .f32 0x00000000#32 := rfl

def val_main_call0_v1 (x0 : Tn F S8192x512 .f32) : Tn F S8192 .f32 :=
  Host.reduceAdd (val_main_call0_v0 (F := F) x0) (val_main_call0_cst (F := F)) reducesTo_S8192x512_S8192_d1 h_S_
abbrev idx_main_call0_v1 (i : S8192.Idx) (k : Fin 512) : S8192x512.Idx := fun a => match a with
  | ⟨0, _⟩ => ⟨(i 0).val, (i 0).isLt⟩
  | ⟨1, _⟩ => ⟨k.val, k.isLt⟩
theorem val_main_call0_v1_apply (x0 : Tn Ideal S8192x512 .f32) (i : S8192.Idx) :
    val_main_call0_v1 (F := Ideal) x0 i = (val_main_call0_cst (F := Ideal)) (Shape.Idx.first h_S_) + ∑ k : Fin 512, (val_main_call0_v0 (F := Ideal) x0) (idx_main_call0_v1 i k) := by
  unfold val_main_call0_v1
  generalize val_main_call0_v0 (F := Ideal) x0 = y0
  simp only [Host.reduceAdd, Ideal.hostReduceAdd_def]
  rw [Ideal.hostReduceAdd_single reducesTo_S8192x512_S8192_d1 (by decide)]
  refine congrArg (_ + ·) (Finset.sum_congr rfl fun k _ => ?_)
  exact congrArg y0 (funext fun a => Fin.ext (by match a with | ⟨0, _⟩ => rfl | ⟨1, _⟩ => rfl))

def val_main_call0_v2 (x0 : Tn F S8192x512 .f32) : Tn F S8192x1 .f32 :=
  broadcastInDim S8192x1 ![0] bcast_S8192_S8192x1_0 (val_main_call0_v1 (F := F) x0)
abbrev idx_main_call0_v2 (i : S8192x1.Idx) : S8192.Idx := fun a => match a with
  | ⟨0, _⟩ => ⟨(i 0).val, (i 0).isLt⟩
theorem val_main_call0_v2_apply (x0 : Tn F S8192x512 .f32) (i : S8192x1.Idx) :
    val_main_call0_v2 (F := F) x0 i = val_main_call0_v1 (F := F) x0 (idx_main_call0_v2 i) := by
  unfold val_main_call0_v2
  generalize val_main_call0_v1 (F := F) x0 = y
  exact broadcastInDim_apply _ bcast_S8192_S8192x1_0 y i (idx_main_call0_v2 i) (fun a => match a with
    | ⟨0, _⟩ => by show (i 0).val = if (8192 : Nat) = 1 then 0 else (i 0).val; rw [if_neg (by decide)])

def val_main_v0 (x0 : Tn F S8192x512 .f32) : Tn F S8192x1 .f32 :=
  Host.sqrt (val_main_call0_v2 (F := F) x0)
theorem val_main_v0_apply (x0 : Tn F S8192x512 .f32) (i : S8192x1.Idx) :
    val_main_v0 (F := F) x0 i = FloatOps.hostUnary .sqrt (val_main_call0_v2 (F := F) x0 i) := rfl

def val_main_cst : Tn F S_ .f32 :=
  constant S_ .f32 0x2B8CBCCC#32
theorem val_main_cst_apply (i : S_.Idx) :
    val_main_cst (F := F) i = FloatOps.ofBits .f32 0x2B8CBCCC#32 := rfl

def val_main_v1 : Tn F S8192x1 .f32 :=
  broadcastInDim S8192x1 ![] bcast_S_S8192x1 (val_main_cst (F := F))
abbrev idx_main_v1 (i : S8192x1.Idx) : S_.Idx := fun a => a.elim0
theorem val_main_v1_apply (i : S8192x1.Idx) :
    val_main_v1 (F := F) i = val_main_cst (F := F) (idx_main_v1 i) := by
  unfold val_main_v1
  generalize val_main_cst (F := F) = y
  exact broadcastInDim_apply _ bcast_S_S8192x1 y i (idx_main_v1 i) (fun a => a.elim0)

def val_main_v2 (x0 : Tn F S8192x512 .f32) : Tn F S8192x1 .f32 :=
  maximumf (val_main_v0 (F := F) x0) (val_main_v1 (F := F))
theorem val_main_v2_apply (x0 : Tn F S8192x512 .f32) (i : S8192x1.Idx) :
    val_main_v2 (F := F) x0 i = FloatOps.maximumf (val_main_v0 (F := F) x0 i) (val_main_v1 (F := F) i) := rfl

def val_main_v3 (x0 : Tn F S8192x512 .f32) : Tn F S8192x512 .f32 :=
  broadcastInDim S8192x512 ![0, 1] bcast_S8192x1_S8192x512_0_1 (val_main_v2 (F := F) x0)
abbrev idx_main_v3 (i : S8192x512.Idx) : S8192x1.Idx := fun a => match a with
  | ⟨0, _⟩ => ⟨(i 0).val, (i 0).isLt⟩
  | ⟨1, _⟩ => ⟨0, Nat.one_pos⟩
theorem val_main_v3_apply (x0 : Tn F S8192x512 .f32) (i : S8192x512.Idx) :
    val_main_v3 (F := F) x0 i = val_main_v2 (F := F) x0 (idx_main_v3 i) := by
  unfold val_main_v3
  generalize val_main_v2 (F := F) x0 = y
  exact broadcastInDim_apply _ bcast_S8192x1_S8192x512_0_1 y i (idx_main_v3 i) (fun a => match a with
    | ⟨0, _⟩ => by show (i 0).val = if (8192 : Nat) = 1 then 0 else (i 0).val; rw [if_neg (by decide)]
    | ⟨1, _⟩ => by show 0 = if (1 : Nat) = 1 then 0 else (i 1).val; rw [if_pos rfl])

def val_main_v4 (x0 : Tn F S8192x512 .f32) : Tn F S8192x512 .f32 :=
  Host.divf (x0) (val_main_v3 (F := F) x0)
theorem val_main_v4_apply (x0 : Tn F S8192x512 .f32) (i : S8192x512.Idx) :
    val_main_v4 (F := F) x0 i = FloatOps.hostDivf (x0 i) (val_main_v3 (F := F) x0 i) := rfl

def val_main_c : Tn F S_ .i32 :=
  constantI S_ 32 3#32
theorem val_main_c_apply (i : S_.Idx) :
    val_main_c (F := F) i = 3#32 := rfl

def val_main_v5 : Tn F S8192 .i32 :=
  broadcastInDim S8192 ![] bcast_S_S8192 (val_main_c (F := F))
abbrev idx_main_v5 (i : S8192.Idx) : S_.Idx := fun a => a.elim0
theorem val_main_v5_apply (i : S8192.Idx) :
    val_main_v5 (F := F) i = val_main_c (F := F) (idx_main_v5 i) := by
  unfold val_main_v5
  generalize val_main_c (F := F) = y
  exact broadcastInDim_apply _ bcast_S_S8192 y i (idx_main_v5 i) (fun a => a.elim0)

def val_main_v6 (x3 : Tn F S8192 .i32) : Tn F S8192 .i1 :=
  cmpi .slt (x3) (val_main_v5 (F := F))
theorem val_main_v6_apply (x3 : Tn F S8192 .i32) (i : S8192.Idx) :
    val_main_v6 (F := F) x3 i = IntOp.cmpi .slt (x3 i) (val_main_v5 (F := F) i) := rfl

def val_main_v7 : Tn F S8192 .i32 :=
  iotaInDim S8192 32 0
theorem val_main_v7_apply (i : S8192.Idx) :
    val_main_v7 (F := F) i = BitVec.ofNat 32 (i 0).val := rfl

def val_main_v8 : Tn F S8192x1 .i32 :=
  broadcastInDim S8192x1 ![0] bcast_S8192_S8192x1_0 (val_main_v7 (F := F))
abbrev idx_main_v8 (i : S8192x1.Idx) : S8192.Idx := fun a => match a with
  | ⟨0, _⟩ => ⟨(i 0).val, (i 0).isLt⟩
theorem val_main_v8_apply (i : S8192x1.Idx) :
    val_main_v8 (F := F) i = val_main_v7 (F := F) (idx_main_v8 i) := by
  unfold val_main_v8
  generalize val_main_v7 (F := F) = y
  exact broadcastInDim_apply _ bcast_S8192_S8192x1_0 y i (idx_main_v8 i) (fun a => match a with
    | ⟨0, _⟩ => by show (i 0).val = if (8192 : Nat) = 1 then 0 else (i 0).val; rw [if_neg (by decide)])

def val_main_v9 : Tn F S1x8192 .i32 :=
  broadcastInDim S1x8192 ![1] bcast_S8192_S1x8192_1 (val_main_v7 (F := F))
abbrev idx_main_v9 (i : S1x8192.Idx) : S8192.Idx := fun a => match a with
  | ⟨0, _⟩ => ⟨(i 1).val, (i 1).isLt⟩
theorem val_main_v9_apply (i : S1x8192.Idx) :
    val_main_v9 (F := F) i = val_main_v7 (F := F) (idx_main_v9 i) := by
  unfold val_main_v9
  generalize val_main_v7 (F := F) = y
  exact broadcastInDim_apply _ bcast_S8192_S1x8192_1 y i (idx_main_v9 i) (fun a => match a with
    | ⟨0, _⟩ => by show (i 1).val = if (8192 : Nat) = 1 then 0 else (i 1).val; rw [if_neg (by decide)])

def val_main_v10 : Tn F S8192x8192 .i32 :=
  broadcastInDim S8192x8192 ![0, 1] bcast_S8192x1_S8192x8192_0_1 (val_main_v8 (F := F))
abbrev idx_main_v10 (i : S8192x8192.Idx) : S8192x1.Idx := fun a => match a with
  | ⟨0, _⟩ => ⟨(i 0).val, (i 0).isLt⟩
  | ⟨1, _⟩ => ⟨0, Nat.one_pos⟩
theorem val_main_v10_apply (i : S8192x8192.Idx) :
    val_main_v10 (F := F) i = val_main_v8 (F := F) (idx_main_v10 i) := by
  unfold val_main_v10
  generalize val_main_v8 (F := F) = y
  exact broadcastInDim_apply _ bcast_S8192x1_S8192x8192_0_1 y i (idx_main_v10 i) (fun a => match a with
    | ⟨0, _⟩ => by show (i 0).val = if (8192 : Nat) = 1 then 0 else (i 0).val; rw [if_neg (by decide)]
    | ⟨1, _⟩ => by show 0 = if (1 : Nat) = 1 then 0 else (i 1).val; rw [if_pos rfl])

def val_main_v11 : Tn F S8192x8192 .i32 :=
  broadcastInDim S8192x8192 ![0, 1] bcast_S1x8192_S8192x8192_0_1 (val_main_v9 (F := F))
abbrev idx_main_v11 (i : S8192x8192.Idx) : S1x8192.Idx := fun a => match a with
  | ⟨0, _⟩ => ⟨0, Nat.one_pos⟩
  | ⟨1, _⟩ => ⟨(i 1).val, (i 1).isLt⟩
theorem val_main_v11_apply (i : S8192x8192.Idx) :
    val_main_v11 (F := F) i = val_main_v9 (F := F) (idx_main_v11 i) := by
  unfold val_main_v11
  generalize val_main_v9 (F := F) = y
  exact broadcastInDim_apply _ bcast_S1x8192_S8192x8192_0_1 y i (idx_main_v11 i) (fun a => match a with
    | ⟨0, _⟩ => by show 0 = if (1 : Nat) = 1 then 0 else (i 0).val; rw [if_pos rfl]
    | ⟨1, _⟩ => by show (i 1).val = if (8192 : Nat) = 1 then 0 else (i 1).val; rw [if_neg (by decide)])

def val_main_v12 : Tn F S8192x8192 .i1 :=
  cmpi .slt (val_main_v10 (F := F)) (val_main_v11 (F := F))
theorem val_main_v12_apply (i : S8192x8192.Idx) :
    val_main_v12 (F := F) i = IntOp.cmpi .slt (val_main_v10 (F := F) i) (val_main_v11 (F := F) i) := rfl

def val_main_v13 (x1 : Tn F S8192 .i32) : Tn F S8192x1 .i32 :=
  broadcastInDim S8192x1 ![0] bcast_S8192_S8192x1_0 (x1)
abbrev idx_main_v13 (i : S8192x1.Idx) : S8192.Idx := fun a => match a with
  | ⟨0, _⟩ => ⟨(i 0).val, (i 0).isLt⟩
theorem val_main_v13_apply (x1 : Tn F S8192 .i32) (i : S8192x1.Idx) :
    val_main_v13 (F := F) x1 i = x1 (idx_main_v13 i) := by
  unfold val_main_v13
  exact broadcastInDim_apply _ bcast_S8192_S8192x1_0 x1 i (idx_main_v13 i) (fun a => match a with
    | ⟨0, _⟩ => by show (i 0).val = if (8192 : Nat) = 1 then 0 else (i 0).val; rw [if_neg (by decide)])

def val_main_v14 (x1 : Tn F S8192 .i32) : Tn F S1x8192 .i32 :=
  broadcastInDim S1x8192 ![1] bcast_S8192_S1x8192_1 (x1)
abbrev idx_main_v14 (i : S1x8192.Idx) : S8192.Idx := fun a => match a with
  | ⟨0, _⟩ => ⟨(i 1).val, (i 1).isLt⟩
theorem val_main_v14_apply (x1 : Tn F S8192 .i32) (i : S1x8192.Idx) :
    val_main_v14 (F := F) x1 i = x1 (idx_main_v14 i) := by
  unfold val_main_v14
  exact broadcastInDim_apply _ bcast_S8192_S1x8192_1 x1 i (idx_main_v14 i) (fun a => match a with
    | ⟨0, _⟩ => by show (i 1).val = if (8192 : Nat) = 1 then 0 else (i 1).val; rw [if_neg (by decide)])

def val_main_v15 (x1 : Tn F S8192 .i32) : Tn F S8192x8192 .i32 :=
  broadcastInDim S8192x8192 ![0, 1] bcast_S8192x1_S8192x8192_0_1 (val_main_v13 (F := F) x1)
abbrev idx_main_v15 (i : S8192x8192.Idx) : S8192x1.Idx := fun a => match a with
  | ⟨0, _⟩ => ⟨(i 0).val, (i 0).isLt⟩
  | ⟨1, _⟩ => ⟨0, Nat.one_pos⟩
theorem val_main_v15_apply (x1 : Tn F S8192 .i32) (i : S8192x8192.Idx) :
    val_main_v15 (F := F) x1 i = val_main_v13 (F := F) x1 (idx_main_v15 i) := by
  unfold val_main_v15
  generalize val_main_v13 (F := F) x1 = y
  exact broadcastInDim_apply _ bcast_S8192x1_S8192x8192_0_1 y i (idx_main_v15 i) (fun a => match a with
    | ⟨0, _⟩ => by show (i 0).val = if (8192 : Nat) = 1 then 0 else (i 0).val; rw [if_neg (by decide)]
    | ⟨1, _⟩ => by show 0 = if (1 : Nat) = 1 then 0 else (i 1).val; rw [if_pos rfl])

def val_main_v16 (x1 : Tn F S8192 .i32) : Tn F S8192x8192 .i32 :=
  broadcastInDim S8192x8192 ![0, 1] bcast_S1x8192_S8192x8192_0_1 (val_main_v14 (F := F) x1)
abbrev idx_main_v16 (i : S8192x8192.Idx) : S1x8192.Idx := fun a => match a with
  | ⟨0, _⟩ => ⟨0, Nat.one_pos⟩
  | ⟨1, _⟩ => ⟨(i 1).val, (i 1).isLt⟩
theorem val_main_v16_apply (x1 : Tn F S8192 .i32) (i : S8192x8192.Idx) :
    val_main_v16 (F := F) x1 i = val_main_v14 (F := F) x1 (idx_main_v16 i) := by
  unfold val_main_v16
  generalize val_main_v14 (F := F) x1 = y
  exact broadcastInDim_apply _ bcast_S1x8192_S8192x8192_0_1 y i (idx_main_v16 i) (fun a => match a with
    | ⟨0, _⟩ => by show 0 = if (1 : Nat) = 1 then 0 else (i 0).val; rw [if_pos rfl]
    | ⟨1, _⟩ => by show (i 1).val = if (8192 : Nat) = 1 then 0 else (i 1).val; rw [if_neg (by decide)])

def val_main_v17 (x1 : Tn F S8192 .i32) : Tn F S8192x8192 .i1 :=
  cmpi .eq (val_main_v15 (F := F) x1) (val_main_v16 (F := F) x1)
theorem val_main_v17_apply (x1 : Tn F S8192 .i32) (i : S8192x8192.Idx) :
    val_main_v17 (F := F) x1 i = IntOp.cmpi .eq (val_main_v15 (F := F) x1 i) (val_main_v16 (F := F) x1 i) := rfl

def val_main_v18 (x2 : Tn F S8192 .i32) : Tn F S8192x1 .i32 :=
  broadcastInDim S8192x1 ![0] bcast_S8192_S8192x1_0 (x2)
abbrev idx_main_v18 (i : S8192x1.Idx) : S8192.Idx := fun a => match a with
  | ⟨0, _⟩ => ⟨(i 0).val, (i 0).isLt⟩
theorem val_main_v18_apply (x2 : Tn F S8192 .i32) (i : S8192x1.Idx) :
    val_main_v18 (F := F) x2 i = x2 (idx_main_v18 i) := by
  unfold val_main_v18
  exact broadcastInDim_apply _ bcast_S8192_S8192x1_0 x2 i (idx_main_v18 i) (fun a => match a with
    | ⟨0, _⟩ => by show (i 0).val = if (8192 : Nat) = 1 then 0 else (i 0).val; rw [if_neg (by decide)])

def val_main_v19 (x2 : Tn F S8192 .i32) : Tn F S1x8192 .i32 :=
  broadcastInDim S1x8192 ![1] bcast_S8192_S1x8192_1 (x2)
abbrev idx_main_v19 (i : S1x8192.Idx) : S8192.Idx := fun a => match a with
  | ⟨0, _⟩ => ⟨(i 1).val, (i 1).isLt⟩
theorem val_main_v19_apply (x2 : Tn F S8192 .i32) (i : S1x8192.Idx) :
    val_main_v19 (F := F) x2 i = x2 (idx_main_v19 i) := by
  unfold val_main_v19
  exact broadcastInDim_apply _ bcast_S8192_S1x8192_1 x2 i (idx_main_v19 i) (fun a => match a with
    | ⟨0, _⟩ => by show (i 1).val = if (8192 : Nat) = 1 then 0 else (i 1).val; rw [if_neg (by decide)])

def val_main_v20 (x2 : Tn F S8192 .i32) : Tn F S8192x8192 .i32 :=
  broadcastInDim S8192x8192 ![0, 1] bcast_S8192x1_S8192x8192_0_1 (val_main_v18 (F := F) x2)
abbrev idx_main_v20 (i : S8192x8192.Idx) : S8192x1.Idx := fun a => match a with
  | ⟨0, _⟩ => ⟨(i 0).val, (i 0).isLt⟩
  | ⟨1, _⟩ => ⟨0, Nat.one_pos⟩
theorem val_main_v20_apply (x2 : Tn F S8192 .i32) (i : S8192x8192.Idx) :
    val_main_v20 (F := F) x2 i = val_main_v18 (F := F) x2 (idx_main_v20 i) := by
  unfold val_main_v20
  generalize val_main_v18 (F := F) x2 = y
  exact broadcastInDim_apply _ bcast_S8192x1_S8192x8192_0_1 y i (idx_main_v20 i) (fun a => match a with
    | ⟨0, _⟩ => by show (i 0).val = if (8192 : Nat) = 1 then 0 else (i 0).val; rw [if_neg (by decide)]
    | ⟨1, _⟩ => by show 0 = if (1 : Nat) = 1 then 0 else (i 1).val; rw [if_pos rfl])

def val_main_v21 (x2 : Tn F S8192 .i32) : Tn F S8192x8192 .i32 :=
  broadcastInDim S8192x8192 ![0, 1] bcast_S1x8192_S8192x8192_0_1 (val_main_v19 (F := F) x2)
abbrev idx_main_v21 (i : S8192x8192.Idx) : S1x8192.Idx := fun a => match a with
  | ⟨0, _⟩ => ⟨0, Nat.one_pos⟩
  | ⟨1, _⟩ => ⟨(i 1).val, (i 1).isLt⟩
theorem val_main_v21_apply (x2 : Tn F S8192 .i32) (i : S8192x8192.Idx) :
    val_main_v21 (F := F) x2 i = val_main_v19 (F := F) x2 (idx_main_v21 i) := by
  unfold val_main_v21
  generalize val_main_v19 (F := F) x2 = y
  exact broadcastInDim_apply _ bcast_S1x8192_S8192x8192_0_1 y i (idx_main_v21 i) (fun a => match a with
    | ⟨0, _⟩ => by show 0 = if (1 : Nat) = 1 then 0 else (i 0).val; rw [if_pos rfl]
    | ⟨1, _⟩ => by show (i 1).val = if (8192 : Nat) = 1 then 0 else (i 1).val; rw [if_neg (by decide)])

def val_main_v22 (x2 : Tn F S8192 .i32) : Tn F S8192x8192 .i1 :=
  cmpi .ne (val_main_v20 (F := F) x2) (val_main_v21 (F := F) x2)
theorem val_main_v22_apply (x2 : Tn F S8192 .i32) (i : S8192x8192.Idx) :
    val_main_v22 (F := F) x2 i = IntOp.cmpi .ne (val_main_v20 (F := F) x2 i) (val_main_v21 (F := F) x2 i) := rfl

def val_main_v23 (x1 : Tn F S8192 .i32) : Tn F S8192x8192 .i1 :=
  andi (val_main_v12 (F := F)) (val_main_v17 (F := F) x1)
theorem val_main_v23_apply (x1 : Tn F S8192 .i32) (i : S8192x8192.Idx) :
    val_main_v23 (F := F) x1 i = IntOp.andi (val_main_v12 (F := F) i) (val_main_v17 (F := F) x1 i) := rfl

def val_main_v24 (x1 x2 : Tn F S8192 .i32) : Tn F S8192x8192 .i1 :=
  andi (val_main_v23 (F := F) x1) (val_main_v22 (F := F) x2)
theorem val_main_v24_apply (x1 x2 : Tn F S8192 .i32) (i : S8192x8192.Idx) :
    val_main_v24 (F := F) x1 x2 i = IntOp.andi (val_main_v23 (F := F) x1 i) (val_main_v22 (F := F) x2 i) := rfl

def val_main_v25 (x3 : Tn F S8192 .i32) : Tn F S8192x1 .i1 :=
  broadcastInDim S8192x1 ![0] bcast_S8192_S8192x1_0 (val_main_v6 (F := F) x3)
abbrev idx_main_v25 (i : S8192x1.Idx) : S8192.Idx := fun a => match a with
  | ⟨0, _⟩ => ⟨(i 0).val, (i 0).isLt⟩
theorem val_main_v25_apply (x3 : Tn F S8192 .i32) (i : S8192x1.Idx) :
    val_main_v25 (F := F) x3 i = val_main_v6 (F := F) x3 (idx_main_v25 i) := by
  unfold val_main_v25
  generalize val_main_v6 (F := F) x3 = y
  exact broadcastInDim_apply _ bcast_S8192_S8192x1_0 y i (idx_main_v25 i) (fun a => match a with
    | ⟨0, _⟩ => by show (i 0).val = if (8192 : Nat) = 1 then 0 else (i 0).val; rw [if_neg (by decide)])

def val_main_v26 (x3 : Tn F S8192 .i32) : Tn F S8192x8192 .i1 :=
  broadcastInDim S8192x8192 ![0, 1] bcast_S8192x1_S8192x8192_0_1 (val_main_v25 (F := F) x3)
abbrev idx_main_v26 (i : S8192x8192.Idx) : S8192x1.Idx := fun a => match a with
  | ⟨0, _⟩ => ⟨(i 0).val, (i 0).isLt⟩
  | ⟨1, _⟩ => ⟨0, Nat.one_pos⟩
theorem val_main_v26_apply (x3 : Tn F S8192 .i32) (i : S8192x8192.Idx) :
    val_main_v26 (F := F) x3 i = val_main_v25 (F := F) x3 (idx_main_v26 i) := by
  unfold val_main_v26
  generalize val_main_v25 (F := F) x3 = y
  exact broadcastInDim_apply _ bcast_S8192x1_S8192x8192_0_1 y i (idx_main_v26 i) (fun a => match a with
    | ⟨0, _⟩ => by show (i 0).val = if (8192 : Nat) = 1 then 0 else (i 0).val; rw [if_neg (by decide)]
    | ⟨1, _⟩ => by show 0 = if (1 : Nat) = 1 then 0 else (i 1).val; rw [if_pos rfl])

def val_main_v27 (x1 x2 x3 : Tn F S8192 .i32) : Tn F S8192x8192 .i1 :=
  andi (val_main_v24 (F := F) x1 x2) (val_main_v26 (F := F) x3)
theorem val_main_v27_apply (x1 x2 x3 : Tn F S8192 .i32) (i : S8192x8192.Idx) :
    val_main_v27 (F := F) x1 x2 x3 i = IntOp.andi (val_main_v24 (F := F) x1 x2 i) (val_main_v26 (F := F) x3 i) := rfl

def val_main_v28 (x3 : Tn F S8192 .i32) : Tn F S1x8192 .i1 :=
  broadcastInDim S1x8192 ![1] bcast_S8192_S1x8192_1 (val_main_v6 (F := F) x3)
abbrev idx_main_v28 (i : S1x8192.Idx) : S8192.Idx := fun a => match a with
  | ⟨0, _⟩ => ⟨(i 1).val, (i 1).isLt⟩
theorem val_main_v28_apply (x3 : Tn F S8192 .i32) (i : S1x8192.Idx) :
    val_main_v28 (F := F) x3 i = val_main_v6 (F := F) x3 (idx_main_v28 i) := by
  unfold val_main_v28
  generalize val_main_v6 (F := F) x3 = y
  exact broadcastInDim_apply _ bcast_S8192_S1x8192_1 y i (idx_main_v28 i) (fun a => match a with
    | ⟨0, _⟩ => by show (i 1).val = if (8192 : Nat) = 1 then 0 else (i 1).val; rw [if_neg (by decide)])

def val_main_v29 (x3 : Tn F S8192 .i32) : Tn F S8192x8192 .i1 :=
  broadcastInDim S8192x8192 ![0, 1] bcast_S1x8192_S8192x8192_0_1 (val_main_v28 (F := F) x3)
abbrev idx_main_v29 (i : S8192x8192.Idx) : S1x8192.Idx := fun a => match a with
  | ⟨0, _⟩ => ⟨0, Nat.one_pos⟩
  | ⟨1, _⟩ => ⟨(i 1).val, (i 1).isLt⟩
theorem val_main_v29_apply (x3 : Tn F S8192 .i32) (i : S8192x8192.Idx) :
    val_main_v29 (F := F) x3 i = val_main_v28 (F := F) x3 (idx_main_v29 i) := by
  unfold val_main_v29
  generalize val_main_v28 (F := F) x3 = y
  exact broadcastInDim_apply _ bcast_S1x8192_S8192x8192_0_1 y i (idx_main_v29 i) (fun a => match a with
    | ⟨0, _⟩ => by show 0 = if (1 : Nat) = 1 then 0 else (i 0).val; rw [if_pos rfl]
    | ⟨1, _⟩ => by show (i 1).val = if (8192 : Nat) = 1 then 0 else (i 1).val; rw [if_neg (by decide)])

def val_main_v30 (x1 x2 x3 : Tn F S8192 .i32) : Tn F S8192x8192 .i1 :=
  andi (val_main_v27 (F := F) x1 x2 x3) (val_main_v29 (F := F) x3)
theorem val_main_v30_apply (x1 x2 x3 : Tn F S8192 .i32) (i : S8192x8192.Idx) :
    val_main_v30 (F := F) x1 x2 x3 i = IntOp.andi (val_main_v27 (F := F) x1 x2 x3 i) (val_main_v29 (F := F) x3 i) := rfl

def val_main_v31 (x0 : Tn F S8192x512 .f32) : Tn F S512x8192 .f32 :=
  transpose S512x8192 [1, 0] (val_main_v4 (F := F) x0) transposes_S8192x512_S512x8192_1_0
abbrev idx_main_v31 (i : S512x8192.Idx) : S8192x512.Idx := fun a => match a with
  | ⟨0, _⟩ => ⟨(i 1).val, (i 1).isLt⟩
  | ⟨1, _⟩ => ⟨(i 0).val, (i 0).isLt⟩
theorem val_main_v31_apply (x0 : Tn F S8192x512 .f32) (i : S512x8192.Idx) :
    val_main_v31 (F := F) x0 i = val_main_v4 (F := F) x0 (idx_main_v31 i) := by
  unfold val_main_v31
  generalize val_main_v4 (F := F) x0 = y
  exact transpose_apply [1, 0] y transposes_S8192x512_S512x8192_1_0 i (idx_main_v31 i) (fun b => match b with
    | ⟨0, _⟩ => rfl
    | ⟨1, _⟩ => rfl)

def val_main_v32 (x0 : Tn F S8192x512 .f32) : Tn F S8192x8192 .f32 :=
  Host.dotGeneral dot_S8192x512_S512x8192_S8192x8192_1_0_0_1_n_n none (val_main_v4 (F := F) x0) (val_main_v31 (F := F) x0)
theorem lhs_main_v32_0 (i : S8192x8192.Idx) (q : dot_S8192x512_S512x8192_S8192x8192_1_0_0_1_n_n.contr.Idx) :
    (dot_S8192x512_S512x8192_S8192x8192_1_0_0_1_n_n.lhsIdx i q 0).val = (i 0).val := by
  unfold DotDims.lhsIdx
  rw [dif_neg (show ¬(0 : Fin S8192x512.rank) ∈ dot_S8192x512_S512x8192_S8192x8192_1_0_0_1_n_n.lhsBatch by decide), dif_pos (show (0 : Fin S8192x512.rank) ∈ dot_S8192x512_S512x8192_S8192x8192_1_0_0_1_n_n.lhsNonContracting by decide)]
  rfl
theorem lhs_main_v32_1 (i : S8192x8192.Idx) (q : dot_S8192x512_S512x8192_S8192x8192_1_0_0_1_n_n.contr.Idx) :
    (dot_S8192x512_S512x8192_S8192x8192_1_0_0_1_n_n.lhsIdx i q 1).val = (q ⟨0, by decide⟩).val :=
  dot_S8192x512_S512x8192_S8192x8192_1_0_0_1_n_n.lhsIdx_val_of_single rfl i q
theorem rhs_main_v32_0 (i : S8192x8192.Idx) (q : dot_S8192x512_S512x8192_S8192x8192_1_0_0_1_n_n.contr.Idx) :
    (dot_S8192x512_S512x8192_S8192x8192_1_0_0_1_n_n.rhsIdx i q 0).val = (q ⟨0, by decide⟩).val :=
  dot_S8192x512_S512x8192_S8192x8192_1_0_0_1_n_n.rhsIdx_val_of_single rfl i q
theorem rhs_main_v32_1 (i : S8192x8192.Idx) (q : dot_S8192x512_S512x8192_S8192x8192_1_0_0_1_n_n.contr.Idx) :
    (dot_S8192x512_S512x8192_S8192x8192_1_0_0_1_n_n.rhsIdx i q 1).val = (i 1).val := by
  unfold DotDims.rhsIdx
  rw [dif_neg (show ¬(1 : Fin S512x8192.rank) ∈ dot_S8192x512_S512x8192_S8192x8192_1_0_0_1_n_n.rhsBatch by decide), dif_pos (show (1 : Fin S512x8192.rank) ∈ dot_S8192x512_S512x8192_S8192x8192_1_0_0_1_n_n.rhsNonContracting by decide)]
  rfl
abbrev lidx_main_v32 (i : S8192x8192.Idx) (k : Fin 512) : S8192x512.Idx := fun a => match a with
  | ⟨0, _⟩ => ⟨(i 0).val, (i 0).isLt⟩
  | ⟨1, _⟩ => ⟨k.val, k.isLt⟩
abbrev ridx_main_v32 (i : S8192x8192.Idx) (k : Fin 512) : S512x8192.Idx := fun a => match a with
  | ⟨0, _⟩ => ⟨k.val, k.isLt⟩
  | ⟨1, _⟩ => ⟨(i 1).val, (i 1).isLt⟩
theorem val_main_v32_apply (x0 : Tn Ideal S8192x512 .f32) (i : S8192x8192.Idx) :
    val_main_v32 (F := Ideal) x0 i = ∑ k : Fin 512, (val_main_v4 (F := Ideal) x0) (lidx_main_v32 i k) * (val_main_v31 (F := Ideal) x0) (ridx_main_v32 i k) := by
  unfold val_main_v32
  generalize val_main_v4 (F := Ideal) x0 = y0
  generalize val_main_v31 (F := Ideal) x0 = y1
  simp only [Host.dotGeneral]
  rw [Ideal.dotGeneral_apply, ← Equiv.sum_comp (ValueIdx.contrEquiv1 dot_S8192x512_S512x8192_S8192x8192_1_0_0_1_n_n 512 rfl rfl).symm]
  refine Finset.sum_congr rfl fun k _ => ?_
  have hk := ValueIdx.contrEquiv1_symm_val dot_S8192x512_S512x8192_S8192x8192_1_0_0_1_n_n 512 rfl rfl k
  have el : dot_S8192x512_S512x8192_S8192x8192_1_0_0_1_n_n.lhsIdx i ((ValueIdx.contrEquiv1 dot_S8192x512_S512x8192_S8192x8192_1_0_0_1_n_n 512 rfl rfl).symm k) = lidx_main_v32 i k := funext fun a => Fin.ext (by
    match a with
    | ⟨0, _⟩ => exact lhs_main_v32_0 _ _
    | ⟨1, _⟩ => exact (lhs_main_v32_1 _ _).trans hk)
  have er : dot_S8192x512_S512x8192_S8192x8192_1_0_0_1_n_n.rhsIdx i ((ValueIdx.contrEquiv1 dot_S8192x512_S512x8192_S8192x8192_1_0_0_1_n_n 512 rfl rfl).symm k) = ridx_main_v32 i k := funext fun a => Fin.ext (by
    match a with
    | ⟨0, _⟩ => exact (rhs_main_v32_0 _ _).trans hk
    | ⟨1, _⟩ => exact rhs_main_v32_1 _ _)
  rw [el, er]

def val_main_v33 (x1 x2 x3 : Tn F S8192 .i32) : Tn F S8192x8192 .i32 :=
  extui 32 (val_main_v30 (F := F) x1 x2 x3) natLt_1_32

def val_main_c_0 : Tn F S_ .i32 :=
  constantI S_ 32 0#32

def val_main_v34 (x1 x2 x3 : Tn F S8192 .i32) : Tn F S_ .i32 :=
  Host.reduce IntOp.addi (val_main_v33 (F := F) x1 x2 x3) (val_main_c_0 (F := F)) reducesTo_S8192x8192_S_d0_1 h_S_

def val_main_cst_1 : Tn F S_ .f32 :=
  constant S_ .f32 0x3F800000#32
theorem val_main_cst_1_apply (i : S_.Idx) :
    val_main_cst_1 (F := F) i = FloatOps.ofBits .f32 0x3F800000#32 := rfl

def val_main_v35 : Tn F S8192x8192 .f32 :=
  broadcastInDim S8192x8192 ![] bcast_S_S8192x8192 (val_main_cst_1 (F := F))
abbrev idx_main_v35 (i : S8192x8192.Idx) : S_.Idx := fun a => a.elim0
theorem val_main_v35_apply (i : S8192x8192.Idx) :
    val_main_v35 (F := F) i = val_main_cst_1 (F := F) (idx_main_v35 i) := by
  unfold val_main_v35
  generalize val_main_cst_1 (F := F) = y
  exact broadcastInDim_apply _ bcast_S_S8192x8192 y i (idx_main_v35 i) (fun a => a.elim0)

def val_main_v36 (x0 : Tn F S8192x512 .f32) : Tn F S8192x8192 .f32 :=
  subf (val_main_v35 (F := F)) (val_main_v32 (F := F) x0)
theorem val_main_v36_apply (x0 : Tn F S8192x512 .f32) (i : S8192x8192.Idx) :
    val_main_v36 (F := F) x0 i = FloatOps.subf (val_main_v35 (F := F) i) (val_main_v32 (F := F) x0 i) := rfl

def val_main_cst_2 : Tn F S_ .f32 :=
  constant S_ .f32 0x00000000#32
theorem val_main_cst_2_apply (i : S_.Idx) :
    val_main_cst_2 (F := F) i = FloatOps.ofBits .f32 0x00000000#32 := rfl

def val_main_call1_v0 : Tn F S_ .f32 :=
  id (val_main_cst_2 (F := F))
theorem val_main_call1_v0_apply (i : S_.Idx) :
    val_main_call1_v0 (F := F) i = (val_main_cst_2 (F := F) i) := rfl

def val_main_call1_v1 : Tn F S8192x8192 .f32 :=
  broadcastInDim S8192x8192 ![] bcast_S_S8192x8192 (val_main_call1_v0 (F := F))
abbrev idx_main_call1_v1 (i : S8192x8192.Idx) : S_.Idx := fun a => a.elim0
theorem val_main_call1_v1_apply (i : S8192x8192.Idx) :
    val_main_call1_v1 (F := F) i = val_main_call1_v0 (F := F) (idx_main_call1_v1 i) := by
  unfold val_main_call1_v1
  generalize val_main_call1_v0 (F := F) = y
  exact broadcastInDim_apply _ bcast_S_S8192x8192 y i (idx_main_call1_v1 i) (fun a => a.elim0)

def val_main_v37 (x0 : Tn F S8192x512 .f32) (x1 x2 x3 : Tn F S8192 .i32) : Tn F S8192x8192 .f32 :=
  select (val_main_v30 (F := F) x1 x2 x3) (val_main_v36 (F := F) x0) (val_main_call1_v1 (F := F))
theorem val_main_v37_apply (x0 : Tn F S8192x512 .f32) (x1 x2 x3 : Tn F S8192 .i32) (i : S8192x8192.Idx) :
    val_main_v37 (F := F) x0 x1 x2 x3 i = Scalar.select (val_main_v30 (F := F) x1 x2 x3 i) (val_main_v36 (F := F) x0 i) (val_main_call1_v1 (F := F) i) := rfl

def val_main_cst_3 : Tn F S_ .f32 :=
  constant S_ .f32 0x00000000#32
theorem val_main_cst_3_apply (i : S_.Idx) :
    val_main_cst_3 (F := F) i = FloatOps.ofBits .f32 0x00000000#32 := rfl

def val_main_v38 (x0 : Tn F S8192x512 .f32) (x1 x2 x3 : Tn F S8192 .i32) : Tn F S_ .f32 :=
  Host.reduceAdd (val_main_v37 (F := F) x0 x1 x2 x3) (val_main_cst_3 (F := F)) reducesTo_S8192x8192_S_d0_1 h_S_
theorem val_main_v38_apply (x0 : Tn Ideal S8192x512 .f32) (x1 x2 x3 : Tn Ideal S8192 .i32) (i : S_.Idx) :
    val_main_v38 (F := Ideal) x0 x1 x2 x3 i = (val_main_cst_3 (F := Ideal)) (Shape.Idx.first h_S_) + ∑ j : S8192x8192.Idx, (val_main_v37 (F := Ideal) x0 x1 x2 x3) j := by
  unfold val_main_v38
  generalize val_main_v37 (F := Ideal) x0 x1 x2 x3 = y0
  simp only [Host.reduceAdd, Ideal.hostReduceAdd_def]
  exact Ideal.hostReduceAdd_total reducesTo_S8192x8192_S_d0_1 (fun b => b.elim0) y0 _ i

def val_main_c_4 : Tn F S_ .i32 :=
  constantI S_ 32 0#32
theorem val_main_c_4_apply (i : S_.Idx) :
    val_main_c_4 (F := F) i = 0#32 := rfl

def val_main_v39 (x1 x2 x3 : Tn F S8192 .i32) : Tn F S_ .i1 :=
  cmpi .sgt (val_main_v34 (F := F) x1 x2 x3) (val_main_c_4 (F := F))
theorem val_main_v39_apply (x1 x2 x3 : Tn F S8192 .i32) (i : S_.Idx) :
    val_main_v39 (F := F) x1 x2 x3 i = IntOp.cmpi .sgt (val_main_v34 (F := F) x1 x2 x3 i) (val_main_c_4 (F := F) i) := rfl

def val_main_c_5 : Tn F S_ .i32 :=
  constantI S_ 32 1#32
theorem val_main_c_5_apply (i : S_.Idx) :
    val_main_c_5 (F := F) i = 1#32 := rfl

def val_main_v40 (x1 x2 x3 : Tn F S8192 .i32) : Tn F S_ .i32 :=
  maxsi (val_main_v34 (F := F) x1 x2 x3) (val_main_c_5 (F := F))
theorem val_main_v40_apply (x1 x2 x3 : Tn F S8192 .i32) (i : S_.Idx) :
    val_main_v40 (F := F) x1 x2 x3 i = IntOp.maxsi (val_main_v34 (F := F) x1 x2 x3 i) (val_main_c_5 (F := F) i) := rfl

def val_main_v41 (x1 x2 x3 : Tn F S8192 .i32) : Tn F S_ .f32 :=
  sitofp .f32 (val_main_v40 (F := F) x1 x2 x3)
theorem val_main_v41_apply (x1 x2 x3 : Tn F S8192 .i32) (i : S_.Idx) :
    val_main_v41 (F := F) x1 x2 x3 i = FloatOps.sitofp .f32 (val_main_v40 (F := F) x1 x2 x3 i) := rfl

def val_main_v42 (x0 : Tn F S8192x512 .f32) (x1 x2 x3 : Tn F S8192 .i32) : Tn F S_ .f32 :=
  Host.divf (val_main_v38 (F := F) x0 x1 x2 x3) (val_main_v41 (F := F) x1 x2 x3)
theorem val_main_v42_apply (x0 : Tn F S8192x512 .f32) (x1 x2 x3 : Tn F S8192 .i32) (i : S_.Idx) :
    val_main_v42 (F := F) x0 x1 x2 x3 i = FloatOps.hostDivf (val_main_v38 (F := F) x0 x1 x2 x3 i) (val_main_v41 (F := F) x1 x2 x3 i) := rfl

def val_main_cst_6 : Tn F S_ .f32 :=
  constant S_ .f32 0x00000000#32
theorem val_main_cst_6_apply (i : S_.Idx) :
    val_main_cst_6 (F := F) i = FloatOps.ofBits .f32 0x00000000#32 := rfl

def val_main_call2_v0 : Tn F S_ .f32 :=
  id (val_main_cst_6 (F := F))
theorem val_main_call2_v0_apply (i : S_.Idx) :
    val_main_call2_v0 (F := F) i = (val_main_cst_6 (F := F) i) := rfl

def val_main_v43 (x0 : Tn F S8192x512 .f32) (x1 x2 x3 : Tn F S8192 .i32) : Tn F S_ .f32 :=
  select (val_main_v39 (F := F) x1 x2 x3) (val_main_v42 (F := F) x0 x1 x2 x3) (val_main_call2_v0 (F := F))
theorem val_main_v43_apply (x0 : Tn F S8192x512 .f32) (x1 x2 x3 : Tn F S8192 .i32) (i : S_.Idx) :
    val_main_v43 (F := F) x0 x1 x2 x3 i = Scalar.select (val_main_v39 (F := F) x1 x2 x3 i) (val_main_v42 (F := F) x0 x1 x2 x3 i) (val_main_call2_v0 (F := F) i) := rfl

def val_main_c_7 : Tn F S_ .i32 :=
  constantI S_ 32 0#32

def val_main_v44 : Tn F S5000 .i32 :=
  broadcastInDim S5000 ![] bcast_S_S5000 (val_main_c_7 (F := F))

def val_main_v45 (x4 : Tn F S5000 .i32) : Tn F S5000 .i1 :=
  cmpi .slt (x4) (val_main_v44 (F := F))

def val_main_c_8 : Tn F S_ .i32 :=
  constantI S_ 32 8192#32

def val_main_v46 : Tn F S5000 .i32 :=
  broadcastInDim S5000 ![] bcast_S_S5000 (val_main_c_8 (F := F))

def val_main_v47 (x4 : Tn F S5000 .i32) : Tn F S5000 .i32 :=
  addi (x4) (val_main_v46 (F := F))

def val_main_v48 (x4 : Tn F S5000 .i32) : Tn F S5000 .i32 :=
  select (val_main_v45 (F := F) x4) (val_main_v47 (F := F) x4) (x4)

def val_main_v49 (x4 : Tn F S5000 .i32) : Tn F S5000x1 .i32 :=
  broadcastInDim S5000x1 ![0] bcast_S5000_S5000x1_0 (val_main_v48 (F := F) x4)

def val_main_v50 (x2 : Tn F S8192 .i32) (x4 : Tn F S5000 .i32) : Tn F S5000 .i32 :=
  Host.gather gather_S8192_S5000x1_S5000_n_0_n_n_0_1_1 (x2) (val_main_v49 (F := F) x4)

def val_main_c_9 : Tn F S_ .i32 :=
  constantI S_ 32 0#32

def val_main_v51 : Tn F S5000 .i32 :=
  broadcastInDim S5000 ![] bcast_S_S5000 (val_main_c_9 (F := F))

def val_main_v52 (x5 : Tn F S5000 .i32) : Tn F S5000 .i1 :=
  cmpi .slt (x5) (val_main_v51 (F := F))

def val_main_c_10 : Tn F S_ .i32 :=
  constantI S_ 32 8192#32

def val_main_v53 : Tn F S5000 .i32 :=
  broadcastInDim S5000 ![] bcast_S_S5000 (val_main_c_10 (F := F))

def val_main_v54 (x5 : Tn F S5000 .i32) : Tn F S5000 .i32 :=
  addi (x5) (val_main_v53 (F := F))

def val_main_v55 (x5 : Tn F S5000 .i32) : Tn F S5000 .i32 :=
  select (val_main_v52 (F := F) x5) (val_main_v54 (F := F) x5) (x5)

def val_main_v56 (x5 : Tn F S5000 .i32) : Tn F S5000x1 .i32 :=
  broadcastInDim S5000x1 ![0] bcast_S5000_S5000x1_0 (val_main_v55 (F := F) x5)

def val_main_v57 (x2 : Tn F S8192 .i32) (x5 : Tn F S5000 .i32) : Tn F S5000 .i32 :=
  Host.gather gather_S8192_S5000x1_S5000_n_0_n_n_0_1_1 (x2) (val_main_v56 (F := F) x5)

def val_main_v58 (x2 : Tn F S8192 .i32) (x4 x5 : Tn F S5000 .i32) : Tn F S5000 .i1 :=
  cmpi .ne (val_main_v50 (F := F) x2 x4) (val_main_v57 (F := F) x2 x5)

def val_main_c_11 : Tn F S_ .i32 :=
  constantI S_ 32 0#32

def val_main_v59 : Tn F S5000 .i32 :=
  broadcastInDim S5000 ![] bcast_S_S5000 (val_main_c_11 (F := F))

def val_main_v60 (x4 : Tn F S5000 .i32) : Tn F S5000 .i1 :=
  cmpi .slt (x4) (val_main_v59 (F := F))

def val_main_c_12 : Tn F S_ .i32 :=
  constantI S_ 32 8192#32

def val_main_v61 : Tn F S5000 .i32 :=
  broadcastInDim S5000 ![] bcast_S_S5000 (val_main_c_12 (F := F))

def val_main_v62 (x4 : Tn F S5000 .i32) : Tn F S5000 .i32 :=
  addi (x4) (val_main_v61 (F := F))

def val_main_v63 (x4 : Tn F S5000 .i32) : Tn F S5000 .i32 :=
  select (val_main_v60 (F := F) x4) (val_main_v62 (F := F) x4) (x4)

def val_main_v64 (x4 : Tn F S5000 .i32) : Tn F S5000x1 .i32 :=
  broadcastInDim S5000x1 ![0] bcast_S5000_S5000x1_0 (val_main_v63 (F := F) x4)

def val_main_v65 (x1 : Tn F S8192 .i32) (x4 : Tn F S5000 .i32) : Tn F S5000 .i32 :=
  Host.gather gather_S8192_S5000x1_S5000_n_0_n_n_0_1_1 (x1) (val_main_v64 (F := F) x4)

def val_main_c_13 : Tn F S_ .i32 :=
  constantI S_ 32 0#32

def val_main_v66 : Tn F S5000 .i32 :=
  broadcastInDim S5000 ![] bcast_S_S5000 (val_main_c_13 (F := F))

def val_main_v67 (x5 : Tn F S5000 .i32) : Tn F S5000 .i1 :=
  cmpi .slt (x5) (val_main_v66 (F := F))

def val_main_c_14 : Tn F S_ .i32 :=
  constantI S_ 32 8192#32

def val_main_v68 : Tn F S5000 .i32 :=
  broadcastInDim S5000 ![] bcast_S_S5000 (val_main_c_14 (F := F))

def val_main_v69 (x5 : Tn F S5000 .i32) : Tn F S5000 .i32 :=
  addi (x5) (val_main_v68 (F := F))

def val_main_v70 (x5 : Tn F S5000 .i32) : Tn F S5000 .i32 :=
  select (val_main_v67 (F := F) x5) (val_main_v69 (F := F) x5) (x5)

def val_main_v71 (x5 : Tn F S5000 .i32) : Tn F S5000x1 .i32 :=
  broadcastInDim S5000x1 ![0] bcast_S5000_S5000x1_0 (val_main_v70 (F := F) x5)

def val_main_v72 (x1 : Tn F S8192 .i32) (x5 : Tn F S5000 .i32) : Tn F S5000 .i32 :=
  Host.gather gather_S8192_S5000x1_S5000_n_0_n_n_0_1_1 (x1) (val_main_v71 (F := F) x5)

def val_main_v73 (x1 : Tn F S8192 .i32) (x4 x5 : Tn F S5000 .i32) : Tn F S5000 .i1 :=
  cmpi .ne (val_main_v65 (F := F) x1 x4) (val_main_v72 (F := F) x1 x5)

def val_main_v74 (x1 x2 : Tn F S8192 .i32) (x4 x5 : Tn F S5000 .i32) : Tn F S5000 .i1 :=
  andi (val_main_v58 (F := F) x2 x4 x5) (val_main_v73 (F := F) x1 x4 x5)

def val_main_c_15 : Tn F S_ .i32 :=
  constantI S_ 32 0#32

def val_main_v75 : Tn F S5000 .i32 :=
  broadcastInDim S5000 ![] bcast_S_S5000 (val_main_c_15 (F := F))

def val_main_v76 (x4 : Tn F S5000 .i32) : Tn F S5000 .i1 :=
  cmpi .slt (x4) (val_main_v75 (F := F))

def val_main_c_16 : Tn F S_ .i32 :=
  constantI S_ 32 8192#32

def val_main_v77 : Tn F S5000 .i32 :=
  broadcastInDim S5000 ![] bcast_S_S5000 (val_main_c_16 (F := F))

def val_main_v78 (x4 : Tn F S5000 .i32) : Tn F S5000 .i32 :=
  addi (x4) (val_main_v77 (F := F))

def val_main_v79 (x4 : Tn F S5000 .i32) : Tn F S5000 .i32 :=
  select (val_main_v76 (F := F) x4) (val_main_v78 (F := F) x4) (x4)

def val_main_v80 (x4 : Tn F S5000 .i32) : Tn F S5000x1 .i32 :=
  broadcastInDim S5000x1 ![0] bcast_S5000_S5000x1_0 (val_main_v79 (F := F) x4)

def val_main_v81 (x3 : Tn F S8192 .i32) (x4 : Tn F S5000 .i32) : Tn F S5000 .i32 :=
  Host.gather gather_S8192_S5000x1_S5000_n_0_n_n_0_1_1 (x3) (val_main_v80 (F := F) x4)

def val_main_c_17 : Tn F S_ .i32 :=
  constantI S_ 32 3#32

def val_main_v82 : Tn F S5000 .i32 :=
  broadcastInDim S5000 ![] bcast_S_S5000 (val_main_c_17 (F := F))

def val_main_v83 (x3 : Tn F S8192 .i32) (x4 : Tn F S5000 .i32) : Tn F S5000 .i1 :=
  cmpi .slt (val_main_v81 (F := F) x3 x4) (val_main_v82 (F := F))

def val_main_c_18 : Tn F S_ .i32 :=
  constantI S_ 32 0#32

def val_main_v84 : Tn F S5000 .i32 :=
  broadcastInDim S5000 ![] bcast_S_S5000 (val_main_c_18 (F := F))

def val_main_v85 (x5 : Tn F S5000 .i32) : Tn F S5000 .i1 :=
  cmpi .slt (x5) (val_main_v84 (F := F))

def val_main_c_19 : Tn F S_ .i32 :=
  constantI S_ 32 8192#32

def val_main_v86 : Tn F S5000 .i32 :=
  broadcastInDim S5000 ![] bcast_S_S5000 (val_main_c_19 (F := F))

def val_main_v87 (x5 : Tn F S5000 .i32) : Tn F S5000 .i32 :=
  addi (x5) (val_main_v86 (F := F))

def val_main_v88 (x5 : Tn F S5000 .i32) : Tn F S5000 .i32 :=
  select (val_main_v85 (F := F) x5) (val_main_v87 (F := F) x5) (x5)

def val_main_v89 (x5 : Tn F S5000 .i32) : Tn F S5000x1 .i32 :=
  broadcastInDim S5000x1 ![0] bcast_S5000_S5000x1_0 (val_main_v88 (F := F) x5)

def val_main_v90 (x3 : Tn F S8192 .i32) (x5 : Tn F S5000 .i32) : Tn F S5000 .i32 :=
  Host.gather gather_S8192_S5000x1_S5000_n_0_n_n_0_1_1 (x3) (val_main_v89 (F := F) x5)

def val_main_c_20 : Tn F S_ .i32 :=
  constantI S_ 32 3#32

def val_main_v91 : Tn F S5000 .i32 :=
  broadcastInDim S5000 ![] bcast_S_S5000 (val_main_c_20 (F := F))

def val_main_v92 (x3 : Tn F S8192 .i32) (x5 : Tn F S5000 .i32) : Tn F S5000 .i1 :=
  cmpi .slt (val_main_v90 (F := F) x3 x5) (val_main_v91 (F := F))

def val_main_v93 (x3 : Tn F S8192 .i32) (x4 x5 : Tn F S5000 .i32) : Tn F S5000 .i1 :=
  ori (val_main_v83 (F := F) x3 x4) (val_main_v92 (F := F) x3 x5)

def val_main_v94 (x1 x2 x3 : Tn F S8192 .i32) (x4 x5 : Tn F S5000 .i32) : Tn F S5000 .i1 :=
  andi (val_main_v74 (F := F) x1 x2 x4 x5) (val_main_v93 (F := F) x3 x4 x5)

def val_main_c_21 : Tn F S_ .i32 :=
  constantI S_ 32 0#32

def val_main_v95 : Tn F S5000 .i32 :=
  broadcastInDim S5000 ![] bcast_S_S5000 (val_main_c_21 (F := F))

def val_main_v96 (x4 : Tn F S5000 .i32) : Tn F S5000 .i1 :=
  cmpi .slt (x4) (val_main_v95 (F := F))

def val_main_c_22 : Tn F S_ .i32 :=
  constantI S_ 32 8192#32

def val_main_v97 : Tn F S5000 .i32 :=
  broadcastInDim S5000 ![] bcast_S_S5000 (val_main_c_22 (F := F))

def val_main_v98 (x4 : Tn F S5000 .i32) : Tn F S5000 .i32 :=
  addi (x4) (val_main_v97 (F := F))

def val_main_v99 (x4 : Tn F S5000 .i32) : Tn F S5000 .i32 :=
  select (val_main_v96 (F := F) x4) (val_main_v98 (F := F) x4) (x4)

def val_main_v100 (x4 : Tn F S5000 .i32) : Tn F S5000x1 .i32 :=
  broadcastInDim S5000x1 ![0] bcast_S5000_S5000x1_0 (val_main_v99 (F := F) x4)

def val_main_v101 (x0 : Tn F S8192x512 .f32) (x4 : Tn F S5000 .i32) : Tn F S5000x512 .f32 :=
  Host.gather gather_S8192x512_S5000x1_S5000x512_1_0_n_n_0_1_1512 (val_main_v4 (F := F) x0) (val_main_v100 (F := F) x4)

def val_main_c_23 : Tn F S_ .i32 :=
  constantI S_ 32 0#32

def val_main_v102 : Tn F S5000 .i32 :=
  broadcastInDim S5000 ![] bcast_S_S5000 (val_main_c_23 (F := F))

def val_main_v103 (x5 : Tn F S5000 .i32) : Tn F S5000 .i1 :=
  cmpi .slt (x5) (val_main_v102 (F := F))

def val_main_c_24 : Tn F S_ .i32 :=
  constantI S_ 32 8192#32

def val_main_v104 : Tn F S5000 .i32 :=
  broadcastInDim S5000 ![] bcast_S_S5000 (val_main_c_24 (F := F))

def val_main_v105 (x5 : Tn F S5000 .i32) : Tn F S5000 .i32 :=
  addi (x5) (val_main_v104 (F := F))

def val_main_v106 (x5 : Tn F S5000 .i32) : Tn F S5000 .i32 :=
  select (val_main_v103 (F := F) x5) (val_main_v105 (F := F) x5) (x5)

def val_main_v107 (x5 : Tn F S5000 .i32) : Tn F S5000x1 .i32 :=
  broadcastInDim S5000x1 ![0] bcast_S5000_S5000x1_0 (val_main_v106 (F := F) x5)

def val_main_v108 (x0 : Tn F S8192x512 .f32) (x5 : Tn F S5000 .i32) : Tn F S5000x512 .f32 :=
  Host.gather gather_S8192x512_S5000x1_S5000x512_1_0_n_n_0_1_1512 (val_main_v4 (F := F) x0) (val_main_v107 (F := F) x5)

def val_main_v109 (x0 : Tn F S8192x512 .f32) (x4 x5 : Tn F S5000 .i32) : Tn F S5000x512 .f32 :=
  mulf (val_main_v101 (F := F) x0 x4) (val_main_v108 (F := F) x0 x5)

def val_main_cst_25 : Tn F S_ .f32 :=
  constant S_ .f32 0x00000000#32

def val_main_v110 (x0 : Tn F S8192x512 .f32) (x4 x5 : Tn F S5000 .i32) : Tn F S5000 .f32 :=
  Host.reduceAdd (val_main_v109 (F := F) x0 x4 x5) (val_main_cst_25 (F := F)) reducesTo_S5000x512_S5000_d1 h_S_

def val_main_cst_26 : Tn F S_ .f32 :=
  constant S_ .f32 0x00000000#32

def val_main_v111 : Tn F S5000 .f32 :=
  broadcastInDim S5000 ![] bcast_S_S5000 (val_main_cst_26 (F := F))

def val_main_v112 (x0 : Tn F S8192x512 .f32) (x4 x5 : Tn F S5000 .i32) : Tn F S5000 .f32 :=
  subf (val_main_v110 (F := F) x0 x4 x5) (val_main_v111 (F := F))

def val_main_cst_27 : Tn F S_ .f32 :=
  constant S_ .f32 0x00000000#32

def val_main_v113 : Tn F S5000 .f32 :=
  broadcastInDim S5000 ![] bcast_S_S5000 (val_main_cst_27 (F := F))

def val_main_v114 (x0 : Tn F S8192x512 .f32) (x4 x5 : Tn F S5000 .i32) : Tn F S5000 .f32 :=
  maximumf (val_main_v112 (F := F) x0 x4 x5) (val_main_v113 (F := F))

def val_main_v115 (x1 x2 x3 : Tn F S8192 .i32) (x4 x5 : Tn F S5000 .i32) : Tn F S5000 .i32 :=
  extui 32 (val_main_v94 (F := F) x1 x2 x3 x4 x5) natLt_1_32

def val_main_c_28 : Tn F S_ .i32 :=
  constantI S_ 32 0#32

def val_main_v116 (x1 x2 x3 : Tn F S8192 .i32) (x4 x5 : Tn F S5000 .i32) : Tn F S_ .i32 :=
  Host.reduce IntOp.addi (val_main_v115 (F := F) x1 x2 x3 x4 x5) (val_main_c_28 (F := F)) reducesTo_S5000_S_d0 h_S_

def val_main_cst_29 : Tn F S_ .f32 :=
  constant S_ .f32 0x00000000#32

def val_main_call3_v0 : Tn F S_ .f32 :=
  id (val_main_cst_29 (F := F))

def val_main_call3_v1 : Tn F S5000 .f32 :=
  broadcastInDim S5000 ![] bcast_S_S5000 (val_main_call3_v0 (F := F))

def val_main_v117 (x0 : Tn F S8192x512 .f32) (x1 x2 x3 : Tn F S8192 .i32) (x4 x5 : Tn F S5000 .i32) : Tn F S5000 .f32 :=
  select (val_main_v94 (F := F) x1 x2 x3 x4 x5) (val_main_v114 (F := F) x0 x4 x5) (val_main_call3_v1 (F := F))

def val_main_cst_30 : Tn F S_ .f32 :=
  constant S_ .f32 0x00000000#32

def val_main_v118 (x0 : Tn F S8192x512 .f32) (x1 x2 x3 : Tn F S8192 .i32) (x4 x5 : Tn F S5000 .i32) : Tn F S_ .f32 :=
  Host.reduceAdd (val_main_v117 (F := F) x0 x1 x2 x3 x4 x5) (val_main_cst_30 (F := F)) reducesTo_S5000_S_d0 h_S_

def val_main_c_31 : Tn F S_ .i32 :=
  constantI S_ 32 0#32

def val_main_v119 (x1 x2 x3 : Tn F S8192 .i32) (x4 x5 : Tn F S5000 .i32) : Tn F S_ .i1 :=
  cmpi .sgt (val_main_v116 (F := F) x1 x2 x3 x4 x5) (val_main_c_31 (F := F))

def val_main_c_32 : Tn F S_ .i32 :=
  constantI S_ 32 1#32

def val_main_v120 (x1 x2 x3 : Tn F S8192 .i32) (x4 x5 : Tn F S5000 .i32) : Tn F S_ .i32 :=
  maxsi (val_main_v116 (F := F) x1 x2 x3 x4 x5) (val_main_c_32 (F := F))

def val_main_v121 (x1 x2 x3 : Tn F S8192 .i32) (x4 x5 : Tn F S5000 .i32) : Tn F S_ .f32 :=
  sitofp .f32 (val_main_v120 (F := F) x1 x2 x3 x4 x5)

def val_main_v122 (x0 : Tn F S8192x512 .f32) (x1 x2 x3 : Tn F S8192 .i32) (x4 x5 : Tn F S5000 .i32) : Tn F S_ .f32 :=
  Host.divf (val_main_v118 (F := F) x0 x1 x2 x3 x4 x5) (val_main_v121 (F := F) x1 x2 x3 x4 x5)

def val_main_cst_33 : Tn F S_ .f32 :=
  constant S_ .f32 0x00000000#32

def val_main_call4_v0 : Tn F S_ .f32 :=
  id (val_main_cst_33 (F := F))

def val_main_v123 (x0 : Tn F S8192x512 .f32) (x1 x2 x3 : Tn F S8192 .i32) (x4 x5 : Tn F S5000 .i32) : Tn F S_ .f32 :=
  select (val_main_v119 (F := F) x1 x2 x3 x4 x5) (val_main_v122 (F := F) x0 x1 x2 x3 x4 x5) (val_main_call4_v0 (F := F))

def val_main_v124 (x0 : Tn F S8192x512 .f32) (x1 x2 x3 : Tn F S8192 .i32) (x4 x5 : Tn F S5000 .i32) : Tn F S_ .f32 :=
  addf (val_main_v43 (F := F) x0 x1 x2 x3) (val_main_v123 (F := F) x0 x1 x2 x3 x4 x5)
theorem val_main_v124_apply (x0 : Tn F S8192x512 .f32) (x1 x2 x3 : Tn F S8192 .i32) (x4 x5 : Tn F S5000 .i32) (i : S_.Idx) :
    val_main_v124 (F := F) x0 x1 x2 x3 x4 x5 i = FloatOps.addf (val_main_v43 (F := F) x0 x1 x2 x3 i) (val_main_v123 (F := F) x0 x1 x2 x3 x4 x5 i) := rfl

end Cert.ReferenceIdeal.ReadP

end
-- ==== Proof.RefChunks.lean ====
import proofs.«407225_j55808805044518_3_alg».proof.Proof.RefRead
import proofs.«407225_j55808805044518_3_alg».proof.Proof.RefStage

/-! The reference's 171 host operations in 22 pieces, and what the buffers hold after each piece. -/

noncomputable section

namespace Cert.ReferenceIdeal.RunC

open Cert.ReferenceIdeal Cert.ReferenceIdeal.Gen Idealize.ShloMosaic Idealize.ShloMosaic.TcCoe Idealize.SL.Sem Idealize.ShloMosaic.StableHlo
open Cert.ReferenceIdeal.ReadP Cert.RefStage

variable {F : FTy → Type} [FloatOps F]

abbrev opsR0 : List (HloOp τ sig (Elt F)) :=
  [ binary main_arg0 main_arg0 main_call0_v0 ((mulf) : Tn F S8192x512 .f32 → Tn F S8192x512 .f32 → Tn F S8192x512 .f32),
    nullary main_call0_cst ((constant S_ .f32 0x00000000#32) : Tn F S_ .f32),
    binary main_call0_v0 main_call0_cst main_call0_v1 ((fun x v => Host.reduceAdd x v reducesTo_S8192x512_S8192_d1 h_S_) : Tn F S8192x512 .f32 → Tn F S_ .f32 → Tn F S8192 .f32),
    unary main_call0_v1 main_call0_v2 ((broadcastInDim S8192x1 ![0] bcast_S8192_S8192x1_0) : Tn F S8192 .f32 → Tn F S8192x1 .f32),
    unary main_call0_v2 main_v0 ((Host.sqrt) : Tn F S8192x1 .f32 → Tn F S8192x1 .f32),
    nullary main_cst (constant S_ .f32 0x2B8CBCCC#32),
    unary main_cst main_v1 (broadcastInDim S8192x1 ![] bcast_S_S8192x1 : Tn F S_ .f32 → Tn F S8192x1 .f32),
    binary main_v0 main_v1 main_v2 (maximumf : Tn F S8192x1 .f32 → Tn F S8192x1 .f32 → Tn F S8192x1 .f32) ]

abbrev opsR1 : List (HloOp τ sig (Elt F)) :=
  [ unary main_v2 main_v3 (broadcastInDim S8192x512 ![0, 1] bcast_S8192x1_S8192x512_0_1 : Tn F S8192x1 .f32 → Tn F S8192x512 .f32),
    binary main_arg0 main_v3 main_v4 (Host.divf : Tn F S8192x512 .f32 → Tn F S8192x512 .f32 → Tn F S8192x512 .f32),
    nullary main_c (constantI S_ 32 3#32),
    unary main_c main_v5 (broadcastInDim S8192 ![] bcast_S_S8192 : Tn F S_ .i32 → Tn F S8192 .i32),
    binary main_arg3 main_v5 main_v6 (cmpi .slt : Tn F S8192 .i32 → Tn F S8192 .i32 → Tn F S8192 .i1),
    nullary main_v7 (iotaInDim S8192 32 0),
    unary main_v7 main_v8 (broadcastInDim S8192x1 ![0] bcast_S8192_S8192x1_0 : Tn F S8192 .i32 → Tn F S8192x1 .i32),
    unary main_v7 main_v9 (broadcastInDim S1x8192 ![1] bcast_S8192_S1x8192_1 : Tn F S8192 .i32 → Tn F S1x8192 .i32) ]

abbrev opsR2 : List (HloOp τ sig (Elt F)) :=
  [ unary main_v8 main_v10 (broadcastInDim S8192x8192 ![0, 1] bcast_S8192x1_S8192x8192_0_1 : Tn F S8192x1 .i32 → Tn F S8192x8192 .i32),
    unary main_v9 main_v11 (broadcastInDim S8192x8192 ![0, 1] bcast_S1x8192_S8192x8192_0_1 : Tn F S1x8192 .i32 → Tn F S8192x8192 .i32),
    binary main_v10 main_v11 main_v12 (cmpi .slt : Tn F S8192x8192 .i32 → Tn F S8192x8192 .i32 → Tn F S8192x8192 .i1),
    unary main_arg1 main_v13 (broadcastInDim S8192x1 ![0] bcast_S8192_S8192x1_0 : Tn F S8192 .i32 → Tn F S8192x1 .i32),
    unary main_arg1 main_v14 (broadcastInDim S1x8192 ![1] bcast_S8192_S1x8192_1 : Tn F S8192 .i32 → Tn F S1x8192 .i32),
    unary main_v13 main_v15 (broadcastInDim S8192x8192 ![0, 1] bcast_S8192x1_S8192x8192_0_1 : Tn F S8192x1 .i32 → Tn F S8192x8192 .i32),
    unary main_v14 main_v16 (broadcastInDim S8192x8192 ![0, 1] bcast_S1x8192_S8192x8192_0_1 : Tn F S1x8192 .i32 → Tn F S8192x8192 .i32),
    binary main_v15 main_v16 main_v17 (cmpi .eq : Tn F S8192x8192 .i32 → Tn F S8192x8192 .i32 → Tn F S8192x8192 .i1) ]

abbrev opsR3 : List (HloOp τ sig (Elt F)) :=
  [ unary main_arg2 main_v18 (broadcastInDim S8192x1 ![0] bcast_S8192_S8192x1_0 : Tn F S8192 .i32 → Tn F S8192x1 .i32),
    unary main_arg2 main_v19 (broadcastInDim S1x8192 ![1] bcast_S8192_S1x8192_1 : Tn F S8192 .i32 → Tn F S1x8192 .i32),
    unary main_v18 main_v20 (broadcastInDim S8192x8192 ![0, 1] bcast_S8192x1_S8192x8192_0_1 : Tn F S8192x1 .i32 → Tn F S8192x8192 .i32),
    unary main_v19 main_v21 (broadcastInDim S8192x8192 ![0, 1] bcast_S1x8192_S8192x8192_0_1 : Tn F S1x8192 .i32 → Tn F S8192x8192 .i32),
    binary main_v20 main_v21 main_v22 (cmpi .ne : Tn F S8192x8192 .i32 → Tn F S8192x8192 .i32 → Tn F S8192x8192 .i1),
    binary main_v12 main_v17 main_v23 (andi : Tn F S8192x8192 .i1 → Tn F S8192x8192 .i1 → Tn F S8192x8192 .i1),
    binary main_v23 main_v22 main_v24 (andi : Tn F S8192x8192 .i1 → Tn F S8192x8192 .i1 → Tn F S8192x8192 .i1),
    unary main_v6 main_v25 (broadcastInDim S8192x1 ![0] bcast_S8192_S8192x1_0 : Tn F S8192 .i1 → Tn F S8192x1 .i1) ]

abbrev opsR4 : List (HloOp τ sig (Elt F)) :=
  [ unary main_v25 main_v26 (broadcastInDim S8192x8192 ![0, 1] bcast_S8192x1_S8192x8192_0_1 : Tn F S8192x1 .i1 → Tn F S8192x8192 .i1),
    binary main_v24 main_v26 main_v27 (andi : Tn F S8192x8192 .i1 → Tn F S8192x8192 .i1 → Tn F S8192x8192 .i1),
    unary main_v6 main_v28 (broadcastInDim S1x8192 ![1] bcast_S8192_S1x8192_1 : Tn F S8192 .i1 → Tn F S1x8192 .i1),
    unary main_v28 main_v29 (broadcastInDim S8192x8192 ![0, 1] bcast_S1x8192_S8192x8192_0_1 : Tn F S1x8192 .i1 → Tn F S8192x8192 .i1),
    binary main_v27 main_v29 main_v30 (andi : Tn F S8192x8192 .i1 → Tn F S8192x8192 .i1 → Tn F S8192x8192 .i1),
    unary main_v4 main_v31 ((transpose S512x8192 [1, 0] · transposes_S8192x512_S512x8192_1_0) : Tn F S8192x512 .f32 → Tn F S512x8192 .f32),
    binary main_v4 main_v31 main_v32 ((fun l r => Host.dotGeneral dot_S8192x512_S512x8192_S8192x8192_1_0_0_1_n_n none l r) : Tn F S8192x512 .f32 → Tn F S512x8192 .f32 → Tn F S8192x8192 .f32),
    unary main_v30 main_v33 ((extui 32 · natLt_1_32) : Tn F S8192x8192 .i1 → Tn F S8192x8192 .i32) ]

abbrev opsR5 : List (HloOp τ sig (Elt F)) :=
  [ nullary main_c_0 (constantI S_ 32 0#32),
    binary main_v33 main_c_0 main_v34 ((fun x v => Host.reduce IntOp.addi x v reducesTo_S8192x8192_S_d0_1 h_S_) : Tn F S8192x8192 .i32 → Tn F S_ .i32 → Tn F S_ .i32),
    nullary main_cst_1 (constant S_ .f32 0x3F800000#32),
    unary main_cst_1 main_v35 (broadcastInDim S8192x8192 ![] bcast_S_S8192x8192 : Tn F S_ .f32 → Tn F S8192x8192 .f32),
    binary main_v35 main_v32 main_v36 (subf : Tn F S8192x8192 .f32 → Tn F S8192x8192 .f32 → Tn F S8192x8192 .f32),
    nullary main_cst_2 (constant S_ .f32 0x00000000#32),
    unary main_cst_2 main_call1_v0 ((id) : Tn F S_ .f32 → Tn F S_ .f32),
    unary main_call1_v0 main_call1_v1 ((broadcastInDim S8192x8192 ![] bcast_S_S8192x8192) : Tn F S_ .f32 → Tn F S8192x8192 .f32) ]

abbrev opsR6 : List (HloOp τ sig (Elt F)) :=
  [ ternary main_v30 main_v36 main_call1_v1 main_v37 ((select) : Tn F S8192x8192 .i1 → Tn F S8192x8192 .f32 → Tn F S8192x8192 .f32 → Tn F S8192x8192 .f32),
    nullary main_cst_3 (constant S_ .f32 0x00000000#32),
    binary main_v37 main_cst_3 main_v38 ((fun x v => Host.reduceAdd x v reducesTo_S8192x8192_S_d0_1 h_S_) : Tn F S8192x8192 .f32 → Tn F S_ .f32 → Tn F S_ .f32),
    nullary main_c_4 (constantI S_ 32 0#32),
    binary main_v34 main_c_4 main_v39 (cmpi .sgt : Tn F S_ .i32 → Tn F S_ .i32 → Tn F S_ .i1),
    nullary main_c_5 (constantI S_ 32 1#32),
    binary main_v34 main_c_5 main_v40 (maxsi : Tn F S_ .i32 → Tn F S_ .i32 → Tn F S_ .i32),
    unary main_v40 main_v41 (sitofp .f32 : Tn F S_ .i32 → Tn F S_ .f32) ]

abbrev opsR7 : List (HloOp τ sig (Elt F)) :=
  [ binary main_v38 main_v41 main_v42 (Host.divf : Tn F S_ .f32 → Tn F S_ .f32 → Tn F S_ .f32),
    nullary main_cst_6 (constant S_ .f32 0x00000000#32),
    unary main_cst_6 main_call2_v0 ((id) : Tn F S_ .f32 → Tn F S_ .f32),
    ternary main_v39 main_v42 main_call2_v0 main_v43 ((select) : Tn F S_ .i1 → Tn F S_ .f32 → Tn F S_ .f32 → Tn F S_ .f32),
    nullary main_c_7 (constantI S_ 32 0#32),
    unary main_c_7 main_v44 (broadcastInDim S5000 ![] bcast_S_S5000 : Tn F S_ .i32 → Tn F S5000 .i32),
    binary main_arg4 main_v44 main_v45 (cmpi .slt : Tn F S5000 .i32 → Tn F S5000 .i32 → Tn F S5000 .i1),
    nullary main_c_8 (constantI S_ 32 8192#32) ]

abbrev opsR8 : List (HloOp τ sig (Elt F)) :=
  [ unary main_c_8 main_v46 (broadcastInDim S5000 ![] bcast_S_S5000 : Tn F S_ .i32 → Tn F S5000 .i32),
    binary main_arg4 main_v46 main_v47 (addi : Tn F S5000 .i32 → Tn F S5000 .i32 → Tn F S5000 .i32),
    ternary main_v45 main_v47 main_arg4 main_v48 (select : Tn F S5000 .i1 → Tn F S5000 .i32 → Tn F S5000 .i32 → Tn F S5000 .i32),
    unary main_v48 main_v49 (broadcastInDim S5000x1 ![0] bcast_S5000_S5000x1_0 : Tn F S5000 .i32 → Tn F S5000x1 .i32),
    binary main_arg2 main_v49 main_v50 ((fun x i => Host.gather gather_S8192_S5000x1_S5000_n_0_n_n_0_1_1 x i) : Tn F S8192 .i32 → Tn F S5000x1 .i32 → Tn F S5000 .i32),
    nullary main_c_9 (constantI S_ 32 0#32),
    unary main_c_9 main_v51 (broadcastInDim S5000 ![] bcast_S_S5000 : Tn F S_ .i32 → Tn F S5000 .i32),
    binary main_arg5 main_v51 main_v52 (cmpi .slt : Tn F S5000 .i32 → Tn F S5000 .i32 → Tn F S5000 .i1) ]

abbrev opsR9 : List (HloOp τ sig (Elt F)) :=
  [ nullary main_c_10 (constantI S_ 32 8192#32),
    unary main_c_10 main_v53 (broadcastInDim S5000 ![] bcast_S_S5000 : Tn F S_ .i32 → Tn F S5000 .i32),
    binary main_arg5 main_v53 main_v54 (addi : Tn F S5000 .i32 → Tn F S5000 .i32 → Tn F S5000 .i32),
    ternary main_v52 main_v54 main_arg5 main_v55 (select : Tn F S5000 .i1 → Tn F S5000 .i32 → Tn F S5000 .i32 → Tn F S5000 .i32),
    unary main_v55 main_v56 (broadcastInDim S5000x1 ![0] bcast_S5000_S5000x1_0 : Tn F S5000 .i32 → Tn F S5000x1 .i32),
    binary main_arg2 main_v56 main_v57 ((fun x i => Host.gather gather_S8192_S5000x1_S5000_n_0_n_n_0_1_1 x i) : Tn F S8192 .i32 → Tn F S5000x1 .i32 → Tn F S5000 .i32),
    binary main_v50 main_v57 main_v58 (cmpi .ne : Tn F S5000 .i32 → Tn F S5000 .i32 → Tn F S5000 .i1),
    nullary main_c_11 (constantI S_ 32 0#32) ]

abbrev opsR10 : List (HloOp τ sig (Elt F)) :=
  [ unary main_c_11 main_v59 (broadcastInDim S5000 ![] bcast_S_S5000 : Tn F S_ .i32 → Tn F S5000 .i32),
    binary main_arg4 main_v59 main_v60 (cmpi .slt : Tn F S5000 .i32 → Tn F S5000 .i32 → Tn F S5000 .i1),
    nullary main_c_12 (constantI S_ 32 8192#32),
    unary main_c_12 main_v61 (broadcastInDim S5000 ![] bcast_S_S5000 : Tn F S_ .i32 → Tn F S5000 .i32),
    binary main_arg4 main_v61 main_v62 (addi : Tn F S5000 .i32 → Tn F S5000 .i32 → Tn F S5000 .i32),
    ternary main_v60 main_v62 main_arg4 main_v63 (select : Tn F S5000 .i1 → Tn F S5000 .i32 → Tn F S5000 .i32 → Tn F S5000 .i32),
    unary main_v63 main_v64 (broadcastInDim S5000x1 ![0] bcast_S5000_S5000x1_0 : Tn F S5000 .i32 → Tn F S5000x1 .i32),
    binary main_arg1 main_v64 main_v65 ((fun x i => Host.gather gather_S8192_S5000x1_S5000_n_0_n_n_0_1_1 x i) : Tn F S8192 .i32 → Tn F S5000x1 .i32 → Tn F S5000 .i32) ]

abbrev opsR11 : List (HloOp τ sig (Elt F)) :=
  [ nullary main_c_13 (constantI S_ 32 0#32),
    unary main_c_13 main_v66 (broadcastInDim S5000 ![] bcast_S_S5000 : Tn F S_ .i32 → Tn F S5000 .i32),
    binary main_arg5 main_v66 main_v67 (cmpi .slt : Tn F S5000 .i32 → Tn F S5000 .i32 → Tn F S5000 .i1),
    nullary main_c_14 (constantI S_ 32 8192#32),
    unary main_c_14 main_v68 (broadcastInDim S5000 ![] bcast_S_S5000 : Tn F S_ .i32 → Tn F S5000 .i32),
    binary main_arg5 main_v68 main_v69 (addi : Tn F S5000 .i32 → Tn F S5000 .i32 → Tn F S5000 .i32),
    ternary main_v67 main_v69 main_arg5 main_v70 (select : Tn F S5000 .i1 → Tn F S5000 .i32 → Tn F S5000 .i32 → Tn F S5000 .i32),
    unary main_v70 main_v71 (broadcastInDim S5000x1 ![0] bcast_S5000_S5000x1_0 : Tn F S5000 .i32 → Tn F S5000x1 .i32) ]

abbrev opsR12 : List (HloOp τ sig (Elt F)) :=
  [ binary main_arg1 main_v71 main_v72 ((fun x i => Host.gather gather_S8192_S5000x1_S5000_n_0_n_n_0_1_1 x i) : Tn F S8192 .i32 → Tn F S5000x1 .i32 → Tn F S5000 .i32),
    binary main_v65 main_v72 main_v73 (cmpi .ne : Tn F S5000 .i32 → Tn F S5000 .i32 → Tn F S5000 .i1),
    binary main_v58 main_v73 main_v74 (andi : Tn F S5000 .i1 → Tn F S5000 .i1 → Tn F S5000 .i1),
    nullary main_c_15 (constantI S_ 32 0#32),
    unary main_c_15 main_v75 (broadcastInDim S5000 ![] bcast_S_S5000 : Tn F S_ .i32 → Tn F S5000 .i32),
    binary main_arg4 main_v75 main_v76 (cmpi .slt : Tn F S5000 .i32 → Tn F S5000 .i32 → Tn F S5000 .i1),
    nullary main_c_16 (constantI S_ 32 8192#32),
    unary main_c_16 main_v77 (broadcastInDim S5000 ![] bcast_S_S5000 : Tn F S_ .i32 → Tn F S5000 .i32) ]

abbrev opsR13 : List (HloOp τ sig (Elt F)) :=
  [ binary main_arg4 main_v77 main_v78 (addi : Tn F S5000 .i32 → Tn F S5000 .i32 → Tn F S5000 .i32),
    ternary main_v76 main_v78 main_arg4 main_v79 (select : Tn F S5000 .i1 → Tn F S5000 .i32 → Tn F S5000 .i32 → Tn F S5000 .i32),
    unary main_v79 main_v80 (broadcastInDim S5000x1 ![0] bcast_S5000_S5000x1_0 : Tn F S5000 .i32 → Tn F S5000x1 .i32),
    binary main_arg3 main_v80 main_v81 ((fun x i => Host.gather gather_S8192_S5000x1_S5000_n_0_n_n_0_1_1 x i) : Tn F S8192 .i32 → Tn F S5000x1 .i32 → Tn F S5000 .i32),
    nullary main_c_17 (constantI S_ 32 3#32),
    unary main_c_17 main_v82 (broadcastInDim S5000 ![] bcast_S_S5000 : Tn F S_ .i32 → Tn F S5000 .i32),
    binary main_v81 main_v82 main_v83 (cmpi .slt : Tn F S5000 .i32 → Tn F S5000 .i32 → Tn F S5000 .i1),
    nullary main_c_18 (constantI S_ 32 0#32) ]

abbrev opsR14 : List (HloOp τ sig (Elt F)) :=
  [ unary main_c_18 main_v84 (broadcastInDim S5000 ![] bcast_S_S5000 : Tn F S_ .i32 → Tn F S5000 .i32),
    binary main_arg5 main_v84 main_v85 (cmpi .slt : Tn F S5000 .i32 → Tn F S5000 .i32 → Tn F S5000 .i1),
    nullary main_c_19 (constantI S_ 32 8192#32),
    unary main_c_19 main_v86 (broadcastInDim S5000 ![] bcast_S_S5000 : Tn F S_ .i32 → Tn F S5000 .i32),
    binary main_arg5 main_v86 main_v87 (addi : Tn F S5000 .i32 → Tn F S5000 .i32 → Tn F S5000 .i32),
    ternary main_v85 main_v87 main_arg5 main_v88 (select : Tn F S5000 .i1 → Tn F S5000 .i32 → Tn F S5000 .i32 → Tn F S5000 .i32),
    unary main_v88 main_v89 (broadcastInDim S5000x1 ![0] bcast_S5000_S5000x1_0 : Tn F S5000 .i32 → Tn F S5000x1 .i32),
    binary main_arg3 main_v89 main_v90 ((fun x i => Host.gather gather_S8192_S5000x1_S5000_n_0_n_n_0_1_1 x i) : Tn F S8192 .i32 → Tn F S5000x1 .i32 → Tn F S5000 .i32) ]

abbrev opsR15 : List (HloOp τ sig (Elt F)) :=
  [ nullary main_c_20 (constantI S_ 32 3#32),
    unary main_c_20 main_v91 (broadcastInDim S5000 ![] bcast_S_S5000 : Tn F S_ .i32 → Tn F S5000 .i32),
    binary main_v90 main_v91 main_v92 (cmpi .slt : Tn F S5000 .i32 → Tn F S5000 .i32 → Tn F S5000 .i1),
    binary main_v83 main_v92 main_v93 (ori : Tn F S5000 .i1 → Tn F S5000 .i1 → Tn F S5000 .i1),
    binary main_v74 main_v93 main_v94 (andi : Tn F S5000 .i1 → Tn F S5000 .i1 → Tn F S5000 .i1),
    nullary main_c_21 (constantI S_ 32 0#32),
    unary main_c_21 main_v95 (broadcastInDim S5000 ![] bcast_S_S5000 : Tn F S_ .i32 → Tn F S5000 .i32),
    binary main_arg4 main_v95 main_v96 (cmpi .slt : Tn F S5000 .i32 → Tn F S5000 .i32 → Tn F S5000 .i1) ]

abbrev opsR16 : List (HloOp τ sig (Elt F)) :=
  [ nullary main_c_22 (constantI S_ 32 8192#32),
    unary main_c_22 main_v97 (broadcastInDim S5000 ![] bcast_S_S5000 : Tn F S_ .i32 → Tn F S5000 .i32),
    binary main_arg4 main_v97 main_v98 (addi : Tn F S5000 .i32 → Tn F S5000 .i32 → Tn F S5000 .i32),
    ternary main_v96 main_v98 main_arg4 main_v99 (select : Tn F S5000 .i1 → Tn F S5000 .i32 → Tn F S5000 .i32 → Tn F S5000 .i32),
    unary main_v99 main_v100 (broadcastInDim S5000x1 ![0] bcast_S5000_S5000x1_0 : Tn F S5000 .i32 → Tn F S5000x1 .i32),
    binary main_v4 main_v100 main_v101 ((fun x i => Host.gather gather_S8192x512_S5000x1_S5000x512_1_0_n_n_0_1_1512 x i) : Tn F S8192x512 .f32 → Tn F S5000x1 .i32 → Tn F S5000x512 .f32),
    nullary main_c_23 (constantI S_ 32 0#32),
    unary main_c_23 main_v102 (broadcastInDim S5000 ![] bcast_S_S5000 : Tn F S_ .i32 → Tn F S5000 .i32) ]

abbrev opsR17 : List (HloOp τ sig (Elt F)) :=
  [ binary main_arg5 main_v102 main_v103 (cmpi .slt : Tn F S5000 .i32 → Tn F S5000 .i32 → Tn F S5000 .i1),
    nullary main_c_24 (constantI S_ 32 8192#32),
    unary main_c_24 main_v104 (broadcastInDim S5000 ![] bcast_S_S5000 : Tn F S_ .i32 → Tn F S5000 .i32),
    binary main_arg5 main_v104 main_v105 (addi : Tn F S5000 .i32 → Tn F S5000 .i32 → Tn F S5000 .i32),
    ternary main_v103 main_v105 main_arg5 main_v106 (select : Tn F S5000 .i1 → Tn F S5000 .i32 → Tn F S5000 .i32 → Tn F S5000 .i32),
    unary main_v106 main_v107 (broadcastInDim S5000x1 ![0] bcast_S5000_S5000x1_0 : Tn F S5000 .i32 → Tn F S5000x1 .i32),
    binary main_v4 main_v107 main_v108 ((fun x i => Host.gather gather_S8192x512_S5000x1_S5000x512_1_0_n_n_0_1_1512 x i) : Tn F S8192x512 .f32 → Tn F S5000x1 .i32 → Tn F S5000x512 .f32),
    binary main_v101 main_v108 main_v109 (mulf : Tn F S5000x512 .f32 → Tn F S5000x512 .f32 → Tn F S5000x512 .f32) ]

abbrev opsR18 : List (HloOp τ sig (Elt F)) :=
  [ nullary main_cst_25 (constant S_ .f32 0x00000000#32),
    binary main_v109 main_cst_25 main_v110 ((fun x v => Host.reduceAdd x v reducesTo_S5000x512_S5000_d1 h_S_) : Tn F S5000x512 .f32 → Tn F S_ .f32 → Tn F S5000 .f32),
    nullary main_cst_26 (constant S_ .f32 0x00000000#32),
    unary main_cst_26 main_v111 (broadcastInDim S5000 ![] bcast_S_S5000 : Tn F S_ .f32 → Tn F S5000 .f32),
    binary main_v110 main_v111 main_v112 (subf : Tn F S5000 .f32 → Tn F S5000 .f32 → Tn F S5000 .f32),
    nullary main_cst_27 (constant S_ .f32 0x00000000#32),
    unary main_cst_27 main_v113 (broadcastInDim S5000 ![] bcast_S_S5000 : Tn F S_ .f32 → Tn F S5000 .f32),
    binary main_v112 main_v113 main_v114 (maximumf : Tn F S5000 .f32 → Tn F S5000 .f32 → Tn F S5000 .f32) ]

abbrev opsR19 : List (HloOp τ sig (Elt F)) :=
  [ unary main_v94 main_v115 ((extui 32 · natLt_1_32) : Tn F S5000 .i1 → Tn F S5000 .i32),
    nullary main_c_28 (constantI S_ 32 0#32),
    binary main_v115 main_c_28 main_v116 ((fun x v => Host.reduce IntOp.addi x v reducesTo_S5000_S_d0 h_S_) : Tn F S5000 .i32 → Tn F S_ .i32 → Tn F S_ .i32),
    nullary main_cst_29 (constant S_ .f32 0x00000000#32),
    unary main_cst_29 main_call3_v0 ((id) : Tn F S_ .f32 → Tn F S_ .f32),
    unary main_call3_v0 main_call3_v1 ((broadcastInDim S5000 ![] bcast_S_S5000) : Tn F S_ .f32 → Tn F S5000 .f32),
    ternary main_v94 main_v114 main_call3_v1 main_v117 ((select) : Tn F S5000 .i1 → Tn F S5000 .f32 → Tn F S5000 .f32 → Tn F S5000 .f32),
    nullary main_cst_30 (constant S_ .f32 0x00000000#32) ]

abbrev opsR20 : List (HloOp τ sig (Elt F)) :=
  [ binary main_v117 main_cst_30 main_v118 ((fun x v => Host.reduceAdd x v reducesTo_S5000_S_d0 h_S_) : Tn F S5000 .f32 → Tn F S_ .f32 → Tn F S_ .f32),
    nullary main_c_31 (constantI S_ 32 0#32),
    binary main_v116 main_c_31 main_v119 (cmpi .sgt : Tn F S_ .i32 → Tn F S_ .i32 → Tn F S_ .i1),
    nullary main_c_32 (constantI S_ 32 1#32),
    binary main_v116 main_c_32 main_v120 (maxsi : Tn F S_ .i32 → Tn F S_ .i32 → Tn F S_ .i32),
    unary main_v120 main_v121 (sitofp .f32 : Tn F S_ .i32 → Tn F S_ .f32),
    binary main_v118 main_v121 main_v122 (Host.divf : Tn F S_ .f32 → Tn F S_ .f32 → Tn F S_ .f32),
    nullary main_cst_33 (constant S_ .f32 0x00000000#32) ]

abbrev opsR21 : List (HloOp τ sig (Elt F)) :=
  [ unary main_cst_33 main_call4_v0 ((id) : Tn F S_ .f32 → Tn F S_ .f32),
    ternary main_v119 main_v122 main_call4_v0 main_v123 ((select) : Tn F S_ .i1 → Tn F S_ .f32 → Tn F S_ .f32 → Tn F S_ .f32),
    binary main_v43 main_v123 main_v124 (addf : Tn F S_ .f32 → Tn F S_ .f32 → Tn F S_ .f32) ]

noncomputable def piece : ℕ → List (HloOp τ sig (Elt F))
  | 0 => opsR0
  | 1 => opsR1
  | 2 => opsR2
  | 3 => opsR3
  | 4 => opsR4
  | 5 => opsR5
  | 6 => opsR6
  | 7 => opsR7
  | 8 => opsR8
  | 9 => opsR9
  | 10 => opsR10
  | 11 => opsR11
  | 12 => opsR12
  | 13 => opsR13
  | 14 => opsR14
  | 15 => opsR15
  | 16 => opsR16
  | 17 => opsR17
  | 18 => opsR18
  | 19 => opsR19
  | 20 => opsR20
  | 21 => opsR21
  | _ => []

noncomputable def pieceW : ℕ → List (Ref sig .tc)
  | 0 => [ main_call0_v0, main_call0_cst, main_call0_v1, main_call0_v2, main_v0, main_cst, main_v1, main_v2 ]
  | 1 => [ main_v3, main_v4, main_c, main_v5, main_v6, main_v7, main_v8, main_v9 ]
  | 2 => [ main_v10, main_v11, main_v12, main_v13, main_v14, main_v15, main_v16, main_v17 ]
  | 3 => [ main_v18, main_v19, main_v20, main_v21, main_v22, main_v23, main_v24, main_v25 ]
  | 4 => [ main_v26, main_v27, main_v28, main_v29, main_v30, main_v31, main_v32, main_v33 ]
  | 5 => [ main_c_0, main_v34, main_cst_1, main_v35, main_v36, main_cst_2, main_call1_v0, main_call1_v1 ]
  | 6 => [ main_v37, main_cst_3, main_v38, main_c_4, main_v39, main_c_5, main_v40, main_v41 ]
  | 7 => [ main_v42, main_cst_6, main_call2_v0, main_v43, main_c_7, main_v44, main_v45, main_c_8 ]
  | 8 => [ main_v46, main_v47, main_v48, main_v49, main_v50, main_c_9, main_v51, main_v52 ]
  | 9 => [ main_c_10, main_v53, main_v54, main_v55, main_v56, main_v57, main_v58, main_c_11 ]
  | 10 => [ main_v59, main_v60, main_c_12, main_v61, main_v62, main_v63, main_v64, main_v65 ]
  | 11 => [ main_c_13, main_v66, main_v67, main_c_14, main_v68, main_v69, main_v70, main_v71 ]
  | 12 => [ main_v72, main_v73, main_v74, main_c_15, main_v75, main_v76, main_c_16, main_v77 ]
  | 13 => [ main_v78, main_v79, main_v80, main_v81, main_c_17, main_v82, main_v83, main_c_18 ]
  | 14 => [ main_v84, main_v85, main_c_19, main_v86, main_v87, main_v88, main_v89, main_v90 ]
  | 15 => [ main_c_20, main_v91, main_v92, main_v93, main_v94, main_c_21, main_v95, main_v96 ]
  | 16 => [ main_c_22, main_v97, main_v98, main_v99, main_v100, main_v101, main_c_23, main_v102 ]
  | 17 => [ main_v103, main_c_24, main_v104, main_v105, main_v106, main_v107, main_v108, main_v109 ]
  | 18 => [ main_cst_25, main_v110, main_cst_26, main_v111, main_v112, main_cst_27, main_v113, main_v114 ]
  | 19 => [ main_v115, main_c_28, main_v116, main_cst_29, main_call3_v0, main_call3_v1, main_v117, main_cst_30 ]
  | 20 => [ main_v118, main_c_31, main_v119, main_c_32, main_v120, main_v121, main_v122, main_cst_33 ]
  | 21 => [ main_call4_v0, main_v123, main_v124 ]
  | _ => []

theorem piece_at : ∀ k, WritesAt (piece (F := F) k) (pieceW k)
  | 0 | 1 | 2 | 3 | 4 | 5 | 6 | 7 | 8 | 9 | 10 | 11 | 12 | 13 | 14 | 15 | 16 | 17 | 18 | 19 | 20 | 21 => by repeat' constructor
  | _ + 22 => .nil

theorem piece_sub : ∀ k, (piece (F := F) k).Forall fun op => op.bufs ⊆ tcRefs τ sig
  | 0 => ⟨binary_bufs_sub .., nullary_bufs_sub .., binary_bufs_sub .., unary_bufs_sub .., unary_bufs_sub .., nullary_bufs_sub .., unary_bufs_sub .., binary_bufs_sub ..⟩
  | 1 => ⟨unary_bufs_sub .., binary_bufs_sub .., nullary_bufs_sub .., unary_bufs_sub .., binary_bufs_sub .., nullary_bufs_sub .., unary_bufs_sub .., unary_bufs_sub ..⟩
  | 2 => ⟨unary_bufs_sub .., unary_bufs_sub .., binary_bufs_sub .., unary_bufs_sub .., unary_bufs_sub .., unary_bufs_sub .., unary_bufs_sub .., binary_bufs_sub ..⟩
  | 3 => ⟨unary_bufs_sub .., unary_bufs_sub .., unary_bufs_sub .., unary_bufs_sub .., binary_bufs_sub .., binary_bufs_sub .., binary_bufs_sub .., unary_bufs_sub ..⟩
  | 4 => ⟨unary_bufs_sub .., binary_bufs_sub .., unary_bufs_sub .., unary_bufs_sub .., binary_bufs_sub .., unary_bufs_sub .., binary_bufs_sub .., unary_bufs_sub ..⟩
  | 5 => ⟨nullary_bufs_sub .., binary_bufs_sub .., nullary_bufs_sub .., unary_bufs_sub .., binary_bufs_sub .., nullary_bufs_sub .., unary_bufs_sub .., unary_bufs_sub ..⟩
  | 6 => ⟨ternary_bufs_sub .., nullary_bufs_sub .., binary_bufs_sub .., nullary_bufs_sub .., binary_bufs_sub .., nullary_bufs_sub .., binary_bufs_sub .., unary_bufs_sub ..⟩
  | 7 => ⟨binary_bufs_sub .., nullary_bufs_sub .., unary_bufs_sub .., ternary_bufs_sub .., nullary_bufs_sub .., unary_bufs_sub .., binary_bufs_sub .., nullary_bufs_sub ..⟩
  | 8 => ⟨unary_bufs_sub .., binary_bufs_sub .., ternary_bufs_sub .., unary_bufs_sub .., binary_bufs_sub .., nullary_bufs_sub .., unary_bufs_sub .., binary_bufs_sub ..⟩
  | 9 => ⟨nullary_bufs_sub .., unary_bufs_sub .., binary_bufs_sub .., ternary_bufs_sub .., unary_bufs_sub .., binary_bufs_sub .., binary_bufs_sub .., nullary_bufs_sub ..⟩
  | 10 => ⟨unary_bufs_sub .., binary_bufs_sub .., nullary_bufs_sub .., unary_bufs_sub .., binary_bufs_sub .., ternary_bufs_sub .., unary_bufs_sub .., binary_bufs_sub ..⟩
  | 11 => ⟨nullary_bufs_sub .., unary_bufs_sub .., binary_bufs_sub .., nullary_bufs_sub .., unary_bufs_sub .., binary_bufs_sub .., ternary_bufs_sub .., unary_bufs_sub ..⟩
  | 12 => ⟨binary_bufs_sub .., binary_bufs_sub .., binary_bufs_sub .., nullary_bufs_sub .., unary_bufs_sub .., binary_bufs_sub .., nullary_bufs_sub .., unary_bufs_sub ..⟩
  | 13 => ⟨binary_bufs_sub .., ternary_bufs_sub .., unary_bufs_sub .., binary_bufs_sub .., nullary_bufs_sub .., unary_bufs_sub .., binary_bufs_sub .., nullary_bufs_sub ..⟩
  | 14 => ⟨unary_bufs_sub .., binary_bufs_sub .., nullary_bufs_sub .., unary_bufs_sub .., binary_bufs_sub .., ternary_bufs_sub .., unary_bufs_sub .., binary_bufs_sub ..⟩
  | 15 => ⟨nullary_bufs_sub .., unary_bufs_sub .., binary_bufs_sub .., binary_bufs_sub .., binary_bufs_sub .., nullary_bufs_sub .., unary_bufs_sub .., binary_bufs_sub ..⟩
  | 16 => ⟨nullary_bufs_sub .., unary_bufs_sub .., binary_bufs_sub .., ternary_bufs_sub .., unary_bufs_sub .., binary_bufs_sub .., nullary_bufs_sub .., unary_bufs_sub ..⟩
  | 17 => ⟨binary_bufs_sub .., nullary_bufs_sub .., unary_bufs_sub .., binary_bufs_sub .., ternary_bufs_sub .., unary_bufs_sub .., binary_bufs_sub .., binary_bufs_sub ..⟩
  | 18 => ⟨nullary_bufs_sub .., binary_bufs_sub .., nullary_bufs_sub .., unary_bufs_sub .., binary_bufs_sub .., nullary_bufs_sub .., unary_bufs_sub .., binary_bufs_sub ..⟩
  | 19 => ⟨unary_bufs_sub .., nullary_bufs_sub .., binary_bufs_sub .., nullary_bufs_sub .., unary_bufs_sub .., unary_bufs_sub .., ternary_bufs_sub .., nullary_bufs_sub ..⟩
  | 20 => ⟨binary_bufs_sub .., nullary_bufs_sub .., binary_bufs_sub .., nullary_bufs_sub .., binary_bufs_sub .., unary_bufs_sub .., binary_bufs_sub .., nullary_bufs_sub ..⟩
  | 21 => ⟨unary_bufs_sub .., ternary_bufs_sub .., binary_bufs_sub ..⟩
  | _ + 22 => trivial

theorem pieceW_nil : ∀ i, 22 ≤ i → pieceW i = []
  | i + 22, _ => rfl

variable (m : (ℓ : Loc nD τ sig) → Buf (Elt F) ℓ)

/-- Core `c`'s buffers after the first `k` pieces. -/
def Wn (c : Dev nD) : ℕ → Valuation τ sig (Elt F) := afterPieces piece (launchContents m c)

/-- Past the last piece nothing is written, so the pieces below 22 decide what a reference keeps. -/
theorem Wn_stable (c : Dev nD) {r : Ref sig .tc} {j k : ℕ} (hjk : j ≤ k) (hr : ∀ i, i < 22 → j ≤ i → r ∉ pieceW i) :
    Wn m c k (Proc.devRef .tc r) = Wn m c j (Proc.devRef .tc r) :=
  afterPieces_stable piece_at _ hjk fun i _ hji =>
    if h : i < 22 then hr i h hji else by rw [pieceW_nil i (Nat.le_of_not_lt h)]; exact List.not_mem_nil

macro "ref_stage " p:ident hk:ident " [" ls:Lean.Parser.Tactic.rwRule,* "]" : tactic =>
  `(tactic| (refine (Wn_stable _ _ $hk (by decide)).trans ?_; show after $p (Wn _ _ _) _ = _; after_results; rw [$ls,*]; all_goals rfl))

macro "ref_stage0 " p:ident hk:ident : tactic =>
  `(tactic| (refine (Wn_stable _ _ $hk (by decide)).trans ?_; show after $p (Wn _ _ _) _ = _; after_results; all_goals rfl))

theorem W_arg (c : Dev nD) (r : Ref sig .tc) (hr : ∀ i, i < 22 → 0 ≤ i → r ∉ pieceW i) (k : ℕ) :
    Wn m c k (Proc.devRef .tc r) = m ((c.tc : Thread nD τ).loc r) :=
  Wn_stable m c (Nat.zero_le k) hr
theorem W_arg0 (c : Dev nD) (k : ℕ) : Wn m c k (Proc.devRef .tc main_arg0) = m ((c.tc : Thread nD τ).loc main_arg0) := W_arg m c main_arg0 (by decide) k
theorem W_arg1 (c : Dev nD) (k : ℕ) : Wn m c k (Proc.devRef .tc main_arg1) = m ((c.tc : Thread nD τ).loc main_arg1) := W_arg m c main_arg1 (by decide) k
theorem W_arg2 (c : Dev nD) (k : ℕ) : Wn m c k (Proc.devRef .tc main_arg2) = m ((c.tc : Thread nD τ).loc main_arg2) := W_arg m c main_arg2 (by decide) k
theorem W_arg3 (c : Dev nD) (k : ℕ) : Wn m c k (Proc.devRef .tc main_arg3) = m ((c.tc : Thread nD τ).loc main_arg3) := W_arg m c main_arg3 (by decide) k
theorem W_arg4 (c : Dev nD) (k : ℕ) : Wn m c k (Proc.devRef .tc main_arg4) = m ((c.tc : Thread nD τ).loc main_arg4) := W_arg m c main_arg4 (by decide) k
theorem W_arg5 (c : Dev nD) (k : ℕ) : Wn m c k (Proc.devRef .tc main_arg5) = m ((c.tc : Thread nD τ).loc main_arg5) := W_arg m c main_arg5 (by decide) k

theorem W_main_v2 (c : Dev nD) (k : ℕ) (hk : 1 ≤ k) : Wn m c k (Proc.devRef .tc main_v2) = val_main_v2 (F := F) (m ((c.tc : Thread nD τ).loc main_arg0)) := by
  ref_stage opsR0 hk [W_arg0 m c 0]
theorem W_main_v4 (c : Dev nD) (k : ℕ) (hk : 2 ≤ k) : Wn m c k (Proc.devRef .tc main_v4) = val_main_v4 (F := F) (m ((c.tc : Thread nD τ).loc main_arg0)) := by
  ref_stage opsR1 hk [W_arg0 m c 1, W_main_v2 m c 1 (by decide)]
theorem W_main_v6 (c : Dev nD) (k : ℕ) (hk : 2 ≤ k) : Wn m c k (Proc.devRef .tc main_v6) = val_main_v6 (F := F) (m ((c.tc : Thread nD τ).loc main_arg3)) := by
  ref_stage opsR1 hk [W_arg3 m c 1]
theorem W_main_v8 (c : Dev nD) (k : ℕ) (hk : 2 ≤ k) : Wn m c k (Proc.devRef .tc main_v8) = val_main_v8 (F := F) := by
  ref_stage0 opsR1 hk
theorem W_main_v9 (c : Dev nD) (k : ℕ) (hk : 2 ≤ k) : Wn m c k (Proc.devRef .tc main_v9) = val_main_v9 (F := F) := by
  ref_stage0 opsR1 hk
theorem W_main_v12 (c : Dev nD) (k : ℕ) (hk : 3 ≤ k) : Wn m c k (Proc.devRef .tc main_v12) = val_main_v12 (F := F) := by
  ref_stage opsR2 hk [W_main_v8 m c 2 (by decide), W_main_v9 m c 2 (by decide)]
theorem W_main_v17 (c : Dev nD) (k : ℕ) (hk : 3 ≤ k) : Wn m c k (Proc.devRef .tc main_v17) = val_main_v17 (F := F) (m ((c.tc : Thread nD τ).loc main_arg1)) := by
  ref_stage opsR2 hk [W_arg1 m c 2]
theorem W_main_v24 (c : Dev nD) (k : ℕ) (hk : 4 ≤ k) : Wn m c k (Proc.devRef .tc main_v24) = val_main_v24 (F := F) (m ((c.tc : Thread nD τ).loc main_arg1)) (m ((c.tc : Thread nD τ).loc main_arg2)) := by
  ref_stage opsR3 hk [W_main_v12 m c 3 (by decide), W_main_v17 m c 3 (by decide), W_arg2 m c 3]
theorem W_main_v25 (c : Dev nD) (k : ℕ) (hk : 4 ≤ k) : Wn m c k (Proc.devRef .tc main_v25) = val_main_v25 (F := F) (m ((c.tc : Thread nD τ).loc main_arg3)) := by
  ref_stage opsR3 hk [W_main_v6 m c 3 (by decide)]
theorem W_main_v30 (c : Dev nD) (k : ℕ) (hk : 5 ≤ k) : Wn m c k (Proc.devRef .tc main_v30) = val_main_v30 (F := F) (m ((c.tc : Thread nD τ).loc main_arg1)) (m ((c.tc : Thread nD τ).loc main_arg2)) (m ((c.tc : Thread nD τ).loc main_arg3)) := by
  ref_stage opsR4 hk [W_main_v24 m c 4 (by decide), W_main_v25 m c 4 (by decide), W_main_v6 m c 4 (by decide)]
theorem W_main_v32 (c : Dev nD) (k : ℕ) (hk : 5 ≤ k) : Wn m c k (Proc.devRef .tc main_v32) = val_main_v32 (F := F) (m ((c.tc : Thread nD τ).loc main_arg0)) := by
  ref_stage opsR4 hk [W_main_v4 m c 4 (by decide)]
theorem W_main_v33 (c : Dev nD) (k : ℕ) (hk : 5 ≤ k) : Wn m c k (Proc.devRef .tc main_v33) = val_main_v33 (F := F) (m ((c.tc : Thread nD τ).loc main_arg1)) (m ((c.tc : Thread nD τ).loc main_arg2)) (m ((c.tc : Thread nD τ).loc main_arg3)) := by
  ref_stage opsR4 hk [W_main_v24 m c 4 (by decide), W_main_v25 m c 4 (by decide), W_main_v6 m c 4 (by decide)]
theorem W_main_v34 (c : Dev nD) (k : ℕ) (hk : 6 ≤ k) : Wn m c k (Proc.devRef .tc main_v34) = val_main_v34 (F := F) (m ((c.tc : Thread nD τ).loc main_arg1)) (m ((c.tc : Thread nD τ).loc main_arg2)) (m ((c.tc : Thread nD τ).loc main_arg3)) := by
  ref_stage opsR5 hk [W_main_v33 m c 5 (by decide)]
theorem W_main_v36 (c : Dev nD) (k : ℕ) (hk : 6 ≤ k) : Wn m c k (Proc.devRef .tc main_v36) = val_main_v36 (F := F) (m ((c.tc : Thread nD τ).loc main_arg0)) := by
  ref_stage opsR5 hk [W_main_v32 m c 5 (by decide)]
theorem W_main_call1_v1 (c : Dev nD) (k : ℕ) (hk : 6 ≤ k) : Wn m c k (Proc.devRef .tc main_call1_v1) = val_main_call1_v1 (F := F) := by
  ref_stage0 opsR5 hk
theorem W_main_v38 (c : Dev nD) (k : ℕ) (hk : 7 ≤ k) : Wn m c k (Proc.devRef .tc main_v38) = val_main_v38 (F := F) (m ((c.tc : Thread nD τ).loc main_arg0)) (m ((c.tc : Thread nD τ).loc main_arg1)) (m ((c.tc : Thread nD τ).loc main_arg2)) (m ((c.tc : Thread nD τ).loc main_arg3)) := by
  ref_stage opsR6 hk [W_main_v30 m c 6 (by decide), W_main_v36 m c 6 (by decide), W_main_call1_v1 m c 6 (by decide)]
theorem W_main_v39 (c : Dev nD) (k : ℕ) (hk : 7 ≤ k) : Wn m c k (Proc.devRef .tc main_v39) = val_main_v39 (F := F) (m ((c.tc : Thread nD τ).loc main_arg1)) (m ((c.tc : Thread nD τ).loc main_arg2)) (m ((c.tc : Thread nD τ).loc main_arg3)) := by
  ref_stage opsR6 hk [W_main_v34 m c 6 (by decide)]
theorem W_main_v41 (c : Dev nD) (k : ℕ) (hk : 7 ≤ k) : Wn m c k (Proc.devRef .tc main_v41) = val_main_v41 (F := F) (m ((c.tc : Thread nD τ).loc main_arg1)) (m ((c.tc : Thread nD τ).loc main_arg2)) (m ((c.tc : Thread nD τ).loc main_arg3)) := by
  ref_stage opsR6 hk [W_main_v34 m c 6 (by decide)]
theorem W_main_v43 (c : Dev nD) (k : ℕ) (hk : 8 ≤ k) : Wn m c k (Proc.devRef .tc main_v43) = val_main_v43 (F := F) (m ((c.tc : Thread nD τ).loc main_arg0)) (m ((c.tc : Thread nD τ).loc main_arg1)) (m ((c.tc : Thread nD τ).loc main_arg2)) (m ((c.tc : Thread nD τ).loc main_arg3)) := by
  ref_stage opsR7 hk [W_main_v39 m c 7 (by decide), W_main_v38 m c 7 (by decide), W_main_v41 m c 7 (by decide)]
theorem W_main_v45 (c : Dev nD) (k : ℕ) (hk : 8 ≤ k) : Wn m c k (Proc.devRef .tc main_v45) = val_main_v45 (F := F) (m ((c.tc : Thread nD τ).loc main_arg4)) := by
  ref_stage opsR7 hk [W_arg4 m c 7]
theorem W_main_c_8 (c : Dev nD) (k : ℕ) (hk : 8 ≤ k) : Wn m c k (Proc.devRef .tc main_c_8) = val_main_c_8 (F := F) := by
  ref_stage0 opsR7 hk
theorem W_main_v50 (c : Dev nD) (k : ℕ) (hk : 9 ≤ k) : Wn m c k (Proc.devRef .tc main_v50) = val_main_v50 (F := F) (m ((c.tc : Thread nD τ).loc main_arg2)) (m ((c.tc : Thread nD τ).loc main_arg4)) := by
  ref_stage opsR8 hk [W_arg2 m c 8, W_main_v45 m c 8 (by decide), W_arg4 m c 8, W_main_c_8 m c 8 (by decide)]
theorem W_main_v52 (c : Dev nD) (k : ℕ) (hk : 9 ≤ k) : Wn m c k (Proc.devRef .tc main_v52) = val_main_v52 (F := F) (m ((c.tc : Thread nD τ).loc main_arg5)) := by
  ref_stage opsR8 hk [W_arg5 m c 8]
theorem W_main_v58 (c : Dev nD) (k : ℕ) (hk : 10 ≤ k) : Wn m c k (Proc.devRef .tc main_v58) = val_main_v58 (F := F) (m ((c.tc : Thread nD τ).loc main_arg2)) (m ((c.tc : Thread nD τ).loc main_arg4)) (m ((c.tc : Thread nD τ).loc main_arg5)) := by
  ref_stage opsR9 hk [W_main_v50 m c 9 (by decide), W_arg2 m c 9, W_main_v52 m c 9 (by decide), W_arg5 m c 9]
theorem W_main_c_11 (c : Dev nD) (k : ℕ) (hk : 10 ≤ k) : Wn m c k (Proc.devRef .tc main_c_11) = val_main_c_11 (F := F) := by
  ref_stage0 opsR9 hk
theorem W_main_v65 (c : Dev nD) (k : ℕ) (hk : 11 ≤ k) : Wn m c k (Proc.devRef .tc main_v65) = val_main_v65 (F := F) (m ((c.tc : Thread nD τ).loc main_arg1)) (m ((c.tc : Thread nD τ).loc main_arg4)) := by
  ref_stage opsR10 hk [W_arg1 m c 10, W_arg4 m c 10, W_main_c_11 m c 10 (by decide)]
theorem W_main_v71 (c : Dev nD) (k : ℕ) (hk : 12 ≤ k) : Wn m c k (Proc.devRef .tc main_v71) = val_main_v71 (F := F) (m ((c.tc : Thread nD τ).loc main_arg5)) := by
  ref_stage opsR11 hk [W_arg5 m c 11]
theorem W_main_v74 (c : Dev nD) (k : ℕ) (hk : 13 ≤ k) : Wn m c k (Proc.devRef .tc main_v74) = val_main_v74 (F := F) (m ((c.tc : Thread nD τ).loc main_arg1)) (m ((c.tc : Thread nD τ).loc main_arg2)) (m ((c.tc : Thread nD τ).loc main_arg4)) (m ((c.tc : Thread nD τ).loc main_arg5)) := by
  ref_stage opsR12 hk [W_main_v58 m c 12 (by decide), W_main_v65 m c 12 (by decide), W_arg1 m c 12, W_main_v71 m c 12 (by decide)]
theorem W_main_v76 (c : Dev nD) (k : ℕ) (hk : 13 ≤ k) : Wn m c k (Proc.devRef .tc main_v76) = val_main_v76 (F := F) (m ((c.tc : Thread nD τ).loc main_arg4)) := by
  ref_stage opsR12 hk [W_arg4 m c 12]
theorem W_main_v77 (c : Dev nD) (k : ℕ) (hk : 13 ≤ k) : Wn m c k (Proc.devRef .tc main_v77) = val_main_v77 (F := F) := by
  ref_stage0 opsR12 hk
theorem W_main_v83 (c : Dev nD) (k : ℕ) (hk : 14 ≤ k) : Wn m c k (Proc.devRef .tc main_v83) = val_main_v83 (F := F) (m ((c.tc : Thread nD τ).loc main_arg3)) (m ((c.tc : Thread nD τ).loc main_arg4)) := by
  ref_stage opsR13 hk [W_arg3 m c 13, W_main_v76 m c 13 (by decide), W_arg4 m c 13, W_main_v77 m c 13 (by decide)]
theorem W_main_c_18 (c : Dev nD) (k : ℕ) (hk : 14 ≤ k) : Wn m c k (Proc.devRef .tc main_c_18) = val_main_c_18 (F := F) := by
  ref_stage0 opsR13 hk
theorem W_main_v90 (c : Dev nD) (k : ℕ) (hk : 15 ≤ k) : Wn m c k (Proc.devRef .tc main_v90) = val_main_v90 (F := F) (m ((c.tc : Thread nD τ).loc main_arg3)) (m ((c.tc : Thread nD τ).loc main_arg5)) := by
  ref_stage opsR14 hk [W_arg3 m c 14, W_arg5 m c 14, W_main_c_18 m c 14 (by decide)]
theorem W_main_v94 (c : Dev nD) (k : ℕ) (hk : 16 ≤ k) : Wn m c k (Proc.devRef .tc main_v94) = val_main_v94 (F := F) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  ref_stage opsR15 hk [W_main_v74 m c 15 (by decide), W_main_v83 m c 15 (by decide), W_main_v90 m c 15 (by decide)]
theorem W_main_v96 (c : Dev nD) (k : ℕ) (hk : 16 ≤ k) : Wn m c k (Proc.devRef .tc main_v96) = val_main_v96 (F := F) (m ((c.tc : Thread nD τ).loc main_arg4)) := by
  ref_stage opsR15 hk [W_arg4 m c 15]
theorem W_main_v101 (c : Dev nD) (k : ℕ) (hk : 17 ≤ k) : Wn m c k (Proc.devRef .tc main_v101) = val_main_v101 (F := F) (m ((c.tc : Thread nD τ).loc main_arg0)) (m ((c.tc : Thread nD τ).loc main_arg4)) := by
  ref_stage opsR16 hk [W_main_v4 m c 16 (by decide), W_main_v96 m c 16 (by decide), W_arg4 m c 16]
theorem W_main_v102 (c : Dev nD) (k : ℕ) (hk : 17 ≤ k) : Wn m c k (Proc.devRef .tc main_v102) = val_main_v102 (F := F) := by
  ref_stage0 opsR16 hk
theorem W_main_v109 (c : Dev nD) (k : ℕ) (hk : 18 ≤ k) : Wn m c k (Proc.devRef .tc main_v109) = val_main_v109 (F := F) (m ((c.tc : Thread nD τ).loc main_arg0)) (m ((c.tc : Thread nD τ).loc main_arg4)) (m ((c.tc : Thread nD τ).loc main_arg5)) := by
  ref_stage opsR17 hk [W_main_v101 m c 17 (by decide), W_main_v4 m c 17 (by decide), W_arg5 m c 17, W_main_v102 m c 17 (by decide)]
theorem W_main_v114 (c : Dev nD) (k : ℕ) (hk : 19 ≤ k) : Wn m c k (Proc.devRef .tc main_v114) = val_main_v114 (F := F) (m ((c.tc : Thread nD τ).loc main_arg0)) (m ((c.tc : Thread nD τ).loc main_arg4)) (m ((c.tc : Thread nD τ).loc main_arg5)) := by
  ref_stage opsR18 hk [W_main_v109 m c 18 (by decide)]
theorem W_main_v116 (c : Dev nD) (k : ℕ) (hk : 20 ≤ k) : Wn m c k (Proc.devRef .tc main_v116) = val_main_v116 (F := F) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  ref_stage opsR19 hk [W_main_v94 m c 19 (by decide)]
theorem W_main_v117 (c : Dev nD) (k : ℕ) (hk : 20 ≤ k) : Wn m c k (Proc.devRef .tc main_v117) = val_main_v117 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  ref_stage opsR19 hk [W_main_v94 m c 19 (by decide), W_main_v114 m c 19 (by decide)]
theorem W_main_cst_30 (c : Dev nD) (k : ℕ) (hk : 20 ≤ k) : Wn m c k (Proc.devRef .tc main_cst_30) = val_main_cst_30 (F := F) := by
  ref_stage0 opsR19 hk
theorem W_main_v119 (c : Dev nD) (k : ℕ) (hk : 21 ≤ k) : Wn m c k (Proc.devRef .tc main_v119) = val_main_v119 (F := F) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  ref_stage opsR20 hk [W_main_v116 m c 20 (by decide)]
theorem W_main_v122 (c : Dev nD) (k : ℕ) (hk : 21 ≤ k) : Wn m c k (Proc.devRef .tc main_v122) = val_main_v122 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  ref_stage opsR20 hk [W_main_v117 m c 20 (by decide), W_main_cst_30 m c 20 (by decide), W_main_v116 m c 20 (by decide)]
theorem W_main_cst_33 (c : Dev nD) (k : ℕ) (hk : 21 ≤ k) : Wn m c k (Proc.devRef .tc main_cst_33) = val_main_cst_33 (F := F) := by
  ref_stage0 opsR20 hk
theorem W_main_v124 (c : Dev nD) (k : ℕ) (hk : 22 ≤ k) : Wn m c k (Proc.devRef .tc main_v124) = val_main_v124 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  ref_stage opsR21 hk [W_main_v43 m c 21 (by decide), W_main_v119 m c 21 (by decide), W_main_v122 m c 21 (by decide), W_main_cst_33 m c 21 (by decide)]

end Cert.ReferenceIdeal.RunC

end
-- ==== Proof.RefRunC.lean ====
import proofs.«407225_j55808805044518_3_alg».proof.Proof.RefChunks

/-! The run of the reference: its main function is the line of its pieces, whose fold ends at the last valuation. -/

noncomputable section

namespace Cert.ReferenceIdeal.RunC

open Cert.ReferenceIdeal Cert.ReferenceIdeal.Gen Idealize.ShloMosaic Idealize.ShloMosaic.TcCoe Idealize.SL.Sem Idealize.ShloMosaic.StableHlo
open Cert.ReferenceIdeal.ReadP Cert.RefStage

variable {F : FTy → Type} [FloatOps F]

/-- The pieces one after the other. -/
def opsR : List (HloOp τ sig (Elt F)) := ((List.range 22).map piece).flatten

set_option maxRecDepth 8192 in
set_option maxHeartbeats 4000000 in
theorem main_eq (c : Dev nD) : main (F := F) c = seq opsR := rfl

theorem scopedRefs_eq : (Finset.univ.filter fun b : Ref sig .tc => b.isScoped) = ∅ := by decide
theorem scopedSems_eq : (Finset.univ.filter fun sm : SemLoc sig => sm.isScoped .tc) = ∅ := by decide

theorem run' (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v124) = val_main_v124 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono
    (fun _ h c =>
      have e : ∀ b : Ref sig .tc, after opsR (launchContents m c) (Proc.devRef .tc b) = Wn m c 22 (Proc.devRef .tc b) :=
        fun b => congrFun (after_appends piece _ 22) _
      ⟨(h c main_v124).trans ((e main_v124).trans (W_main_v124 m c 22 (by decide))),
        (h c main_arg0).trans ((e main_arg0).trans (W_arg0 m c 22)),
        (h c main_arg1).trans ((e main_arg1).trans (W_arg1 m c 22)),
        (h c main_arg2).trans ((e main_arg2).trans (W_arg2 m c 22)),
        (h c main_arg3).trans ((e main_arg3).trans (W_arg3 m c 22)),
        (h c main_arg4).trans ((e main_arg4).trans (W_arg4 m c 22)),
        (h c main_arg5).trans ((e main_arg5).trans (W_arg5 m c 22))⟩)
    (run_seq scopedRefs_eq scopedSems_eq defs main (fun _ => opsR) main_eq (fun _ => appends_forall piece_sub 22) m ρ (fun _ => appends_fresh piece_at 22))

end Cert.ReferenceIdeal.RunC

end
-- ==== Proof.LibCount.lean ====
import Idealize.ShloMosaic.PureOps.Ideal
import Idealize.ShloMosaic.Lib.ValueIdx
import Idealize.ShloMosaic.Lib.IndicatorCount
import Idealize.ShloMosaic.Lib.Affine

noncomputable section

open scoped BigOperators

namespace Cert.LibCount

open Idealize.ShloMosaic Idealize.ShloMosaic.ValueIdx

theorem reduce_addi_total_count {s t u : Shape} {axes : List (Fin s.rank)} [Subsingleton t.Idx]
    (p : s.Idx → BitVec 1) (hlt : 1 < 32) (init : u.Idx → BitVec 32) (h : s.ReducesTo axes t) (hu : 0 < u.numel)
    (hinit : init (Shape.Idx.first hu) = 0#32) (j : t.Idx) :
    Host.reduce IntOp.addi (extui 32 p hlt) init h hu j
      = BitVec.ofNat 32 (Finset.univ.filter fun k => p k = 1#1).card := by
  rw [Host.reduce_eq_fold, hinit]
  have hall : (Finset.univ.filter fun i => h.drop i = j) = Finset.univ :=
    Finset.filter_true_of_mem fun i _ => Subsingleton.elim _ _
  rw [hall]
  exact IndicatorCount.fold_addi_setWidth_eq_card p Finset.univ

theorem card_idx2 {n0 n1 : Nat} (p : (⟨2, ![n0, n1]⟩ : Shape).Idx → BitVec 1) :
    (Finset.univ.filter fun k => p k = 1#1).card
      = (Finset.univ.filter fun q : Fin n0 × Fin n1 => p (ix2 q.1 q.2) = 1#1).card := by
  refine Finset.card_bij (fun k _ => idxEquiv2 k) ?_ ?_ ?_
  · intro k hk
    exact Finset.mem_filter.2 ⟨Finset.mem_univ _, (congrArg p (eq_ix2 k)).symm.trans (Finset.mem_filter.1 hk).2⟩
  · intro a _ b _ hab
    exact idxEquiv2.injective hab
  · intro q hq
    rw [Finset.mem_filter] at hq
    exact ⟨ix2 q.1 q.2, Finset.mem_filter.2 ⟨Finset.mem_univ _, hq.2⟩, rfl⟩

theorem card_idx1 {n : Nat} (p : (⟨1, ![n]⟩ : Shape).Idx → BitVec 1) :
    (Finset.univ.filter fun k => p k = 1#1).card
      = (Finset.univ.filter fun a : Fin n => p (ix1 a) = 1#1).card := by
  refine Finset.card_bij (fun (k : (⟨1, ![n]⟩ : Shape).Idx) _ => (k (0 : Fin 1) : Fin n)) ?_ ?_ ?_
  · intro k hk
    exact Finset.mem_filter.2 ⟨Finset.mem_univ _, (congrArg p (eq_ix1 k)).symm.trans (Finset.mem_filter.1 hk).2⟩
  · intro a _ b _ hab
    rw [eq_ix1 a, eq_ix1 b]
    exact congrArg ix1 hab
  · intro a ha
    rw [Finset.mem_filter] at ha
    exact ⟨ix1 a, Finset.mem_filter.2 ⟨Finset.mem_univ _, ha.2⟩, rfl⟩

theorem sum_idx1 {M : Type*} [AddCommMonoid M] {n : Nat} (f : (⟨1, ![n]⟩ : Shape).Idx → M) :
    ∑ i, f i = ∑ a : Fin n, f (ix1 a) := by
  refine Finset.sum_bij (fun (k : (⟨1, ![n]⟩ : Shape).Idx) _ => (k (0 : Fin 1) : Fin n)) (fun _ _ => Finset.mem_univ _) ?_ ?_ ?_
  · intro a _ b _ hab
    rw [eq_ix1 a, eq_ix1 b]
    exact congrArg ix1 hab
  · intro a _
    exact ⟨ix1 a, Finset.mem_univ _, rfl⟩
  · intro k _
    exact congrArg f (eq_ix1 k)

theorem toInt_ofNat_of_lt {n : ℕ} (hn : n < 2 ^ 31) : (BitVec.ofNat 32 n).toInt = (n : ℤ) := by
  have h31 : (2 : ℕ) ^ 31 = 2147483648 := by norm_num
  have hm : n % 2 ^ 32 = n := Nat.mod_eq_of_lt (by omega)
  rw [BitVec.toInt_eq_toNat_of_lt (by rw [BitVec.toNat_ofNat, hm]; omega), BitVec.toNat_ofNat, hm]

theorem sgt_ofNat_zero {n : ℕ} (hn : n < 2 ^ 31) : IntOp.cmpi .sgt (BitVec.ofNat 32 n) 0#32 = 1#1 ↔ 0 < n := by
  rw [IntOp.cmpi_sgt, toInt_ofNat_of_lt hn]
  have h0 : (0#32 : BitVec 32).toInt = 0 := by decide
  rw [h0]
  exact Int.natCast_pos

theorem toInt_maxsi_ofNat_one {n : ℕ} (hn : n < 2 ^ 31) :
    (IntOp.maxsi (BitVec.ofNat 32 n) 1#32).toInt = ((max n 1 : ℕ) : ℤ) := by
  unfold IntOp.maxsi
  have h1 : (1#32 : BitVec 32).toInt = 1 := by decide
  by_cases hs : (1#32 : BitVec 32).slt (BitVec.ofNat 32 n)
  · rw [if_pos hs]
    rw [BitVec.slt_iff_toInt_lt, toInt_ofNat_of_lt hn, h1] at hs
    rw [toInt_ofNat_of_lt hn]
    omega
  · rw [if_neg hs]
    rw [BitVec.slt_iff_toInt_lt, toInt_ofNat_of_lt hn, h1] at hs
    rw [h1]
    omega

section VecGather
variable {α : Type}

abbrev vecGatherDims (n e : Nat)
    (wf : GatherDims.WF ⟨1, ![n]⟩ ⟨2, ![e, 1]⟩ ⟨1, ![e]⟩ [] [0] [] [0] [] 1 ![1]) :
    GatherDims ⟨1, ![n]⟩ ⟨2, ![e, 1]⟩ ⟨1, ![e]⟩ where
  offsetDims := []
  collapsedSliceDims := [0]
  operandBatchingDims := []
  startIndicesBatchingDims := []
  startIndexMap := [0]
  indexVectorDim := 1
  sliceSizes := ![1]
  wf := wf

theorem vecGather_apply {n e w : Nat} (hn : 0 < n)
    (wf : GatherDims.WF ⟨1, ![n]⟩ ⟨2, ![e, 1]⟩ ⟨1, ![e]⟩ [] [0] [] [0] [] 1 ![1])
    (x : (⟨1, ![n]⟩ : Shape).Idx → α) (idx : IVec ⟨2, ![e, 1]⟩ w) (p : Fin e) :
    Host.gather (vecGatherDims n e wf) x idx (ix1 p)
      = x (ix1 ⟨min (idx (ix2 p (0 : Fin 1))).toInt.toNat (n - 1), by omega⟩) := by
  unfold Host.gather
  congr 1
  funext a
  obtain rfl : a = 0 := Subsingleton.elim _ _
  refine Fin.ext ?_
  show (vecGatherDims n e wf).start (ix1 p) idx 0 + (vecGatherDims n e wf).batchCoord (ix1 p) 0
      + (vecGatherDims n e wf).offCoord (ix1 p) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims n e wf).startIndexMap from List.mem_singleton.mpr rfl)]
  have hsi : (vecGatherDims n e wf).siIdx (ix1 p) ⟨List.idxOf (0 : Fin 1) (vecGatherDims n e wf).startIndexMap,
      List.idxOf_lt_length_iff.2 (List.mem_singleton.mpr rfl)⟩ = ix2 p (0 : Fin 1) := by
    funext b; refine Fin.ext ?_
    match b with
    | ⟨0, _⟩ => rfl
    | ⟨1, _⟩ => rfl
  rw [hsi]
  rfl

end VecGather

end Cert.LibCount

end
-- ==== Proof.RefAvg.lean ====
import proofs.«407225_j55808805044518_3_alg».proof.Proof.Spec
import proofs.«407225_j55808805044518_3_alg».proof.Proof.LibCount

noncomputable section

namespace Cert.RefAvg

open Idealize.ShloMosaic

theorem avg_select (n : ℕ) (hn : n < 2 ^ 31) (s : EReal) :
    Scalar.select (IntOp.cmpi .sgt (BitVec.ofNat 32 n) 0#32)
        (Ideal.div s (((IntOp.maxsi (BitVec.ofNat 32 n) 1#32).toInt : ℝ) : EReal))
        (Ideal.ofBits .f32 0x00000000#32)
      = Cert.Spec.avg n s := by
  unfold Cert.Spec.avg
  by_cases h : 0 < n
  · rw [(Cert.LibCount.sgt_ofNat_zero hn).2 h, ValueIdx.select_one, if_pos h, Cert.LibCount.toInt_maxsi_ofNat_one hn,
      Int.cast_natCast]
  · rw [ValueIdx.eq_zero_of_ne_one (fun hh => h ((Cert.LibCount.sgt_ofNat_zero hn).1 hh)), ValueIdx.select_zero, if_neg h]
    rfl

end Cert.RefAvg

end
-- ==== Proof.RefNeg.lean ====
import proofs.«407225_j55808805044518_3_alg».proof.ReferenceIdeal
import proofs.«407225_j55808805044518_3_alg».proof.Proof.Spec
import proofs.«407225_j55808805044518_3_alg».proof.Proof.Args
import proofs.«407225_j55808805044518_3_alg».proof.Proof.LibRows
import proofs.«407225_j55808805044518_3_alg».proof.Proof.LibCount
import proofs.«407225_j55808805044518_3_alg».proof.Proof.WordCount
import proofs.«407225_j55808805044518_3_alg».proof.Proof.RefAvg
import Idealize.ShloMosaic.PureOps.Ideal.Laws
import Idealize.ShloMosaic.Lib.ValueIdx
import Idealize.ShloMosaic.Lib.Affine

noncomputable section

open scoped BigOperators

namespace Cert.ReferenceIdeal.RefValue

open Cert.ReferenceIdeal Idealize.ShloMosaic Idealize.ShloMosaic.ValueIdx

variable [Facts₀]
open Facts₀

def wrap (x : IVec S5000 32) : IVec S5000 32 :=
  select (cmpi .slt x (broadcastInDim S5000 ![] bcast_S_S5000 (constantI S_ 32 0#32)))
    (addi x (broadcastInDim S5000 ![] bcast_S_S5000 (constantI S_ 32 8192#32))) x

def col (x : IVec S5000 32) : IVec S5000x1 32 :=
  broadcastInDim S5000x1 ![0] bcast_S5000_S5000x1_0 (wrap x)

def take (v : IVec S8192 32) (x : IVec S5000 32) : IVec S5000 32 :=
  Host.gather gather_S8192_S5000x1_S5000_n_0_n_n_0_1_1 v (col x)

def mask (gid lab cat : IVec S8192 32) (i1 i2 : IVec S5000 32) : IVec S5000 1 :=
  andi (andi (cmpi .ne (take gid i1) (take gid i2)) (cmpi .ne (take lab i1) (take lab i2)))
    (ori (cmpi .slt (take cat i1) (broadcastInDim S5000 ![] bcast_S_S5000 (constantI S_ 32 3#32)))
      (cmpi .slt (take cat i2) (broadcastInDim S5000 ![] bcast_S_S5000 (constantI S_ 32 3#32))))

def rows (E' : FVec Ideal S8192x512 .f32) (x : IVec S5000 32) : FVec Ideal S5000x512 .f32 :=
  Host.gather gather_S8192x512_S5000x1_S5000x512_1_0_n_n_0_1_1512 E' (col x)

def vals (E' : FVec Ideal S8192x512 .f32) (i1 i2 : IVec S5000 32) : FVec Ideal S5000 .f32 :=
  maximumf
    (subf
      (Host.reduceAdd (mulf (rows E' i1) (rows E' i2)) (constant S_ .f32 0x00000000#32) reducesTo_S5000x512_S5000_d1 h_S_)
      (broadcastInDim S5000 ![] bcast_S_S5000 (constant S_ .f32 0x00000000#32)))
    (broadcastInDim S5000 ![] bcast_S_S5000 (constant S_ .f32 0x00000000#32))

def cntW (gid lab cat : IVec S8192 32) (i1 i2 : IVec S5000 32) : IVec S_ 32 :=
  Host.reduce IntOp.addi (extui 32 (mask gid lab cat i1 i2) natLt_1_32) (constantI S_ 32 0#32) reducesTo_S5000_S_d0 h_S_

def sumV (E' : FVec Ideal S8192x512 .f32) (gid lab cat : IVec S8192 32) (i1 i2 : IVec S5000 32) : FVec Ideal S_ .f32 :=
  Host.reduceAdd
    (select (mask gid lab cat i1 i2) (vals E' i1 i2)
      (broadcastInDim S5000 ![] bcast_S_S5000 (id (constant S_ .f32 0x00000000#32))))
    (constant S_ .f32 0x00000000#32) reducesTo_S5000_S_d0 h_S_

def negTerm (E' : FVec Ideal S8192x512 .f32) (gid lab cat : IVec S8192 32) (i1 i2 : IVec S5000 32) : FVec Ideal S_ .f32 :=
  select (cmpi .sgt (cntW gid lab cat i1 i2) (constantI S_ 32 0#32))
    (Host.divf (sumV E' gid lab cat i1 i2) (sitofp .f32 (maxsi (cntW gid lab cat i1 i2) (constantI S_ 32 1#32))))
    (id (constant S_ .f32 0x00000000#32))

instance : Subsingleton S_.Idx := ⟨fun a b => funext fun d => d.elim0⟩

theorem ofBool_one (b : Bool) : BitVec.ofBool b = 1#1 ↔ b = true := by cases b <;> decide

theorem cmpi_slt_bool {x y : BitVec 32} : IntOp.cmpi .slt x y = 1#1 ↔ x.slt y = true := by
  unfold IntOp.cmpi; exact ofBool_one _

theorem wrap_apply (x : IVec S5000 32) (p : Fin 5000) :
    wrap x (ix1 p) = if (x (ix1 p)).slt 0#32 then x (ix1 p) + 8192#32 else x (ix1 p) := by
  show Scalar.select (BitVec.ofBool ((x (ix1 p)).slt 0#32)) (x (ix1 p) + 8192#32) (x (ix1 p)) = _
  unfold Scalar.select
  cases (x (ix1 p)).slt 0#32 <;> rfl

theorem col_apply (x : IVec S5000 32) (p : Fin 5000) : col x (ix2 p (0 : Fin 1)) = wrap x (ix1 p) := by
  simp only [col, broadcastInDim]
  congr 1
  funext a
  have ha : a = 0 := Subsingleton.elim _ _
  subst ha
  apply Fin.ext
  split
  · next h1 => change (5000 : Nat) = 1 at h1; omega
  · rfl

theorem row_eq (x : IVec S5000 32) (p : Fin 5000) (h : min ((col x) (ix2 p (0 : Fin 1))).toInt.toNat (8192 - 1) < 8192) :
    (⟨min ((col x) (ix2 p (0 : Fin 1))).toInt.toNat (8192 - 1), h⟩ : Fin 8192) = Cert.Spec.rowOf (x (ix1 p)) := by
  apply Fin.ext
  show min ((col x) (ix2 p (0 : Fin 1))).toInt.toNat (8192 - 1) = min ((if (x (ix1 p)).slt 0#32 then x (ix1 p) + 8192#32 else x (ix1 p)).toInt.toNat) 8191
  rw [col_apply, wrap_apply]

theorem take_apply (v : IVec S8192 32) (x : IVec S5000 32) (p : Fin 5000) :
    take v x (ix1 p) = v (ix1 (Cert.Spec.rowOf (x (ix1 p)))) := by
  have h := Cert.LibCount.vecGather_apply (n := 8192) (e := 5000) (by decide)
    gather_S8192_S5000x1_S5000_n_0_n_n_0_1_1_wf v (col x) p
  refine h.trans ?_
  rw [row_eq]

theorem rows_apply (E' : FVec Ideal S8192x512 .f32) (x : IVec S5000 32) (p : Fin 5000) (q : Fin 512) :
    rows E' x (ix2 p q) = E' (ix2 (Cert.Spec.rowOf (x (ix1 p))) q) := by
  have h := Cert.LibRows.rowGather_apply (n := 8192) (e := 5000) (c := 512) (by decide)
    gather_S8192x512_S5000x1_S5000x512_1_0_n_n_0_1_1512_wf E' (col x) p q
  refine h.trans ?_
  rw [row_eq]

theorem mask_apply (gid lab cat : IVec S8192 32) (i1 i2 : IVec S5000 32) (s : Fin 5000) :
    mask gid lab cat i1 i2 (ix1 s) = 1#1
      ↔ Cert.Spec.negValid (Cert.Args.vec lab) (Cert.Args.vec gid) (Cert.Args.vec cat) (Cert.Args.vecS i1) (Cert.Args.vecS i2) s := by
  show IntOp.andi
      (IntOp.andi (IntOp.cmpi .ne (take gid i1 (ix1 s)) (take gid i2 (ix1 s)))
        (IntOp.cmpi .ne (take lab i1 (ix1 s)) (take lab i2 (ix1 s))))
      (IntOp.ori (IntOp.cmpi .slt (take cat i1 (ix1 s)) 3#32) (IntOp.cmpi .slt (take cat i2 (ix1 s)) 3#32)) = 1#1 ↔ _
  rw [IntOp.andi_eq_one, IntOp.andi_eq_one, IntOp.ori_eq_one, IntOp.cmpi_ne, IntOp.cmpi_ne, cmpi_slt_bool, cmpi_slt_bool]
  simp only [take_apply]
  unfold Cert.Spec.negValid Cert.Spec.cons Cert.Args.vec Cert.Args.vecS
  exact and_assoc

theorem rowSum_apply (E' : FVec Ideal S8192x512 .f32) (i1 i2 : IVec S5000 32) (s : Fin 5000) :
    Host.reduceAdd (mulf (rows E' i1) (rows E' i2)) (constant S_ .f32 0x00000000#32) reducesTo_S5000x512_S5000_d1 h_S_ (ix1 s)
      = ∑ d : Fin 512, E' (ix2 (Cert.Spec.rowOf (i1 (ix1 s))) d) * E' (ix2 (Cert.Spec.rowOf (i2 (ix1 s))) d) := by
  simp only [Host.reduceAdd, Ideal.hostReduceAdd_def]
  rw [Ideal.hostReduceAdd_single reducesTo_S5000x512_S5000_d1 (by decide)]
  have h0 : (constant (F := Ideal) S_ .f32 0x00000000#32) (Shape.Idx.first h_S_) = 0 := Ideal.ofBits_zero_f32
  rw [h0, zero_add]
  refine Finset.sum_congr rfl fun k _ => ?_
  have hk : (Shape.Reduces.lift (s := S5000x512) (t := S5000) (a := (1 : Fin 2)) (by decide) (ix1 s) k) = ix2 s k :=
    funext fun a => Fin.ext (by match a with | ⟨0, _⟩ => rfl | ⟨1, _⟩ => rfl)
  rw [hk]
  exact congrArg₂ (fun a b : EReal => a * b) (rows_apply E' i1 s k) (rows_apply E' i2 s k)

theorem vals_apply (E : Fin 8192 → Fin 512 → EReal) (E' : FVec Ideal S8192x512 .f32)
    (hE : ∀ i d, E' (ix2 i d) = Cert.Spec.e E i d) (i1 i2 : IVec S5000 32) (s : Fin 5000) :
    vals E' i1 i2 (ix1 s)
      = max (Cert.Spec.sim E (Cert.Spec.rowOf (i1 (ix1 s))) (Cert.Spec.rowOf (i2 (ix1 s))) - Cert.Spec.zero) Cert.Spec.zero := by
  show max ((Host.reduceAdd (mulf (rows E' i1) (rows E' i2)) (constant S_ .f32 0x00000000#32) reducesTo_S5000x512_S5000_d1 h_S_) (ix1 s)
      - Ideal.ofBits .f32 0x00000000#32) (Ideal.ofBits .f32 0x00000000#32) = _
  rw [rowSum_apply]
  unfold Cert.Spec.sim Cert.Spec.zero
  simp only [hE]

theorem cntW_eq (gid lab cat : IVec S8192 32) (i1 i2 : IVec S5000 32) (j : S_.Idx) :
    cntW gid lab cat i1 i2 j
      = BitVec.ofNat 32 (Cert.Spec.negCnt (Cert.Args.vec lab) (Cert.Args.vec gid) (Cert.Args.vec cat) (Cert.Args.vecS i1) (Cert.Args.vecS i2)) := by
  unfold cntW
  rw [Cert.LibCount.reduce_addi_total_count (mask gid lab cat i1 i2) natLt_1_32 (constantI S_ 32 0#32) reducesTo_S5000_S_d0 h_S_ rfl j,
    Cert.LibCount.card_idx1]
  unfold Cert.Spec.negCnt
  exact congrArg (fun n => BitVec.ofNat 32 n) (congrArg Finset.card (Finset.filter_congr fun s _ => mask_apply gid lab cat i1 i2 s))

theorem negCnt_lt (lab gid cat : Fin 8192 → BitVec 32) (i1 i2 : Fin 5000 → BitVec 32) :
    Cert.Spec.negCnt lab gid cat i1 i2 < 2 ^ 31 := by
  unfold Cert.Spec.negCnt
  have h := Finset.card_le_univ (Finset.univ.filter fun s : Fin 5000 => Cert.Spec.negValid lab gid cat i1 i2 s)
  rw [Fintype.card_fin] at h
  omega

theorem sumV_eq (E : Fin 8192 → Fin 512 → EReal) (E' : FVec Ideal S8192x512 .f32)
    (hE : ∀ i d, E' (ix2 i d) = Cert.Spec.e E i d) (gid lab cat : IVec S8192 32) (i1 i2 : IVec S5000 32) (j : S_.Idx) :
    sumV E' gid lab cat i1 i2 j
      = Cert.Spec.negSum E (Cert.Args.vec lab) (Cert.Args.vec gid) (Cert.Args.vec cat) (Cert.Args.vecS i1) (Cert.Args.vecS i2) := by
  simp only [sumV, Host.reduceAdd, Ideal.hostReduceAdd_def]
  rw [Ideal.hostReduceAdd_total reducesTo_S5000_S_d0 (fun b => b.elim0)]
  have h0 : (constant (F := Ideal) S_ .f32 0x00000000#32) (Shape.Idx.first h_S_) = 0 := Ideal.ofBits_zero_f32
  rw [h0, zero_add, Cert.LibCount.sum_idx1]
  unfold Cert.Spec.negSum
  refine Finset.sum_congr rfl fun s _ => ?_
  show (if mask gid lab cat i1 i2 (ix1 s) = 1 then vals E' i1 i2 (ix1 s) else Ideal.ofBits .f32 0x00000000#32) = _
  rw [vals_apply E E' hE]
  exact if_congr (mask_apply gid lab cat i1 i2 s) rfl rfl

theorem negTerm_eq (E : Fin 8192 → Fin 512 → EReal) (E' : S8192x512.Idx → EReal)
    (hE : ∀ i d, E' (ix2 i d) = Cert.Spec.e E i d) (gid lab cat : S8192.Idx → BitVec 32) (i1 i2 : S5000.Idx → BitVec 32)
    (j : S_.Idx) :
    negTerm E' gid lab cat i1 i2 j
      = Cert.Spec.avg
          (Cert.Spec.negCnt (Cert.Args.vec lab) (Cert.Args.vec gid) (Cert.Args.vec cat) (Cert.Args.vecS i1) (Cert.Args.vecS i2))
          (Cert.Spec.negSum E (Cert.Args.vec lab) (Cert.Args.vec gid) (Cert.Args.vec cat) (Cert.Args.vecS i1) (Cert.Args.vecS i2)) := by
  show Scalar.select (IntOp.cmpi .sgt (cntW gid lab cat i1 i2 j) 0#32)
      (Ideal.div (sumV E' gid lab cat i1 i2 j) (((IntOp.maxsi (cntW gid lab cat i1 i2 j) 1#32).toInt : ℝ) : EReal))
      (Ideal.ofBits .f32 0x00000000#32) = _
  rw [cntW_eq, sumV_eq E E' hE]
  exact Cert.RefAvg.avg_select _ (negCnt_lt _ _ _ _ _) _

end Cert.ReferenceIdeal.RefValue

end
-- ==== Proof.RefValue.lean ====
import proofs.«407225_j55808805044518_3_alg».proof.Proof.RefRead
import proofs.«407225_j55808805044518_3_alg».proof.Proof.Spec
import proofs.«407225_j55808805044518_3_alg».proof.Proof.Args
import proofs.«407225_j55808805044518_3_alg».proof.Proof.LibCount
import proofs.«407225_j55808805044518_3_alg».proof.Proof.RefAvg
import proofs.«407225_j55808805044518_3_alg».proof.Proof.RefNeg
import Idealize.ShloMosaic.Lib.Affine

noncomputable section

namespace Cert.ReferenceIdeal.RefValue

open Cert.ReferenceIdeal Cert.ReferenceIdeal.Gen Cert.ReferenceIdeal.ReadP Idealize.ShloMosaic Idealize.ShloMosaic.TcCoe Idealize.SL.Sem Idealize.ShloMosaic.StableHlo Idealize.ShloMosaic.ValueIdx

open scoped BigOperators

variable (x0 : (⟨S8192x512, .f32⟩ : BufTy).Contents (Elt Ideal)) (x1 x2 x3 : (⟨S8192, .i32⟩ : BufTy).Contents (Elt Ideal))
  (x4 x5 : (⟨S5000, .i32⟩ : BufTy).Contents (Elt Ideal))

theorem v2_eq (i : Fin 8192) (z : Fin 1) :
    val_main_v2 (F := Ideal) x0 (ix2 i z) = Cert.Spec.nrm (Cert.Args.mat x0) i := by
  rw [val_main_v2_apply, val_main_v0_apply, val_main_call0_v2_apply, val_main_call0_v1_apply, val_main_v1_apply,
    val_main_cst_apply, val_main_call0_cst_apply]
  show max (Ideal.sqrt (Ideal.ofBits .f32 0x00000000#32 + ∑ k : Fin 512, _)) (Ideal.ofBits .f32 0x2B8CBCCC#32) = _
  rw [Ideal.ofBits_zero_f32, zero_add]
  refine congrArg (fun s => max (Ideal.sqrt s) _) (Finset.sum_congr rfl fun k _ => ?_)
  have hk : idx_main_call0_v1 (idx_main_call0_v2 (ix2 i z)) k = ix2 i k := by
    funext a; match a with | ⟨0, _⟩ => rfl | ⟨1, _⟩ => rfl
  rw [hk, val_main_call0_v0_apply]
  rfl

theorem v4_eq (i : Fin 8192) (d : Fin 512) :
    val_main_v4 (F := Ideal) x0 (ix2 i d) = Cert.Spec.e (Cert.Args.mat x0) i d := by
  rw [val_main_v4_apply, val_main_v3_apply]
  have hi : idx_main_v3 (ix2 i d) = ix2 i (0 : Fin 1) := by
    funext a; match a with | ⟨0, _⟩ => rfl | ⟨1, _⟩ => rfl
  rw [hi, v2_eq]
  rfl

theorem cmpi_slt_iff (x y : BitVec 32) : IntOp.cmpi .slt x y = 1#1 ↔ x.slt y = true := by
  show BitVec.ofBool (x.slt y) = 1#1 ↔ x.slt y = true
  cases x.slt y <;> decide

theorem v6_iff (i : Fin 8192) :
    val_main_v6 (F := Ideal) x3 (ix1 i) = 1#1 ↔ Cert.Spec.cons (Cert.Args.vec x3) i := by
  rw [val_main_v6_apply, val_main_v5_apply, val_main_c_apply]
  exact cmpi_slt_iff _ _

theorem v12_iff (i j : Fin 8192) : val_main_v12 (F := Ideal) (ix2 i j) = 1#1 ↔ i < j := by
  rw [val_main_v12_apply, val_main_v10_apply, val_main_v11_apply, val_main_v8_apply, val_main_v9_apply,
    val_main_v7_apply, val_main_v7_apply, IntOp.cmpi_slt]
  show (BitVec.ofNat 32 i.val).toInt < (BitVec.ofNat 32 j.val).toInt ↔ i < j
  rw [Cert.LibCount.toInt_ofNat_of_lt (lt_trans i.isLt (by norm_num)),
    Cert.LibCount.toInt_ofNat_of_lt (lt_trans j.isLt (by norm_num))]
  exact Int.ofNat_lt.trans Fin.lt_def.symm

theorem v17_iff (i j : Fin 8192) :
    val_main_v17 (F := Ideal) x1 (ix2 i j) = 1#1 ↔ Cert.Args.vec x1 i = Cert.Args.vec x1 j := by
  rw [val_main_v17_apply, val_main_v15_apply, val_main_v16_apply, val_main_v13_apply, val_main_v14_apply, IntOp.cmpi_eq]
  have h1 : idx_main_v13 (idx_main_v15 (ix2 i j)) = ix1 i := by funext a; match a with | ⟨0, _⟩ => rfl
  have h2 : idx_main_v14 (idx_main_v16 (ix2 i j)) = ix1 j := by funext a; match a with | ⟨0, _⟩ => rfl
  rw [h1, h2]
  rfl

theorem v22_iff (i j : Fin 8192) :
    val_main_v22 (F := Ideal) x2 (ix2 i j) = 1#1 ↔ Cert.Args.vec x2 i ≠ Cert.Args.vec x2 j := by
  rw [val_main_v22_apply, val_main_v20_apply, val_main_v21_apply, val_main_v18_apply, val_main_v19_apply, IntOp.cmpi_ne]
  have h1 : idx_main_v18 (idx_main_v20 (ix2 i j)) = ix1 i := by funext a; match a with | ⟨0, _⟩ => rfl
  have h2 : idx_main_v19 (idx_main_v21 (ix2 i j)) = ix1 j := by funext a; match a with | ⟨0, _⟩ => rfl
  rw [h1, h2]
  rfl

theorem v26_iff (i j : Fin 8192) :
    val_main_v26 (F := Ideal) x3 (ix2 i j) = 1#1 ↔ Cert.Spec.cons (Cert.Args.vec x3) i := by
  rw [val_main_v26_apply, val_main_v25_apply]
  have h1 : idx_main_v25 (idx_main_v26 (ix2 i j)) = ix1 i := by funext a; match a with | ⟨0, _⟩ => rfl
  rw [h1]
  exact v6_iff x3 i

theorem v29_iff (i j : Fin 8192) :
    val_main_v29 (F := Ideal) x3 (ix2 i j) = 1#1 ↔ Cert.Spec.cons (Cert.Args.vec x3) j := by
  rw [val_main_v29_apply, val_main_v28_apply]
  have h1 : idx_main_v28 (idx_main_v29 (ix2 i j)) = ix1 j := by funext a; match a with | ⟨0, _⟩ => rfl
  rw [h1]
  exact v6_iff x3 j

theorem v30_iff (i j : Fin 8192) :
    val_main_v30 (F := Ideal) x1 x2 x3 (ix2 i j) = 1#1
      ↔ Cert.Spec.validPos (Cert.Args.vec x1) (Cert.Args.vec x2) (Cert.Args.vec x3) i j := by
  rw [val_main_v30_apply, val_main_v27_apply, val_main_v24_apply, val_main_v23_apply, IntOp.andi_eq_one,
    IntOp.andi_eq_one, IntOp.andi_eq_one, IntOp.andi_eq_one, v12_iff, v17_iff, v22_iff, v26_iff, v29_iff]
  unfold Cert.Spec.validPos
  tauto

instance : Subsingleton S_.Idx := ⟨fun _ _ => funext fun k => k.elim0⟩

theorem v34_eq (j : S_.Idx) :
    val_main_v34 (F := Ideal) x1 x2 x3 j
      = BitVec.ofNat 32 (Cert.Spec.posCnt (Cert.Args.vec x1) (Cert.Args.vec x2) (Cert.Args.vec x3)) := by
  unfold val_main_v34 val_main_v33
  rw [Cert.LibCount.reduce_addi_total_count (val_main_v30 (F := Ideal) x1 x2 x3) natLt_1_32 _
    reducesTo_S8192x8192_S_d0_1 h_S_ rfl j, Cert.LibCount.card_idx2]
  unfold Cert.Spec.posCnt
  exact congrArg (fun S : Finset (Fin 8192 × Fin 8192) => BitVec.ofNat 32 S.card)
    (Finset.filter_congr fun q _ => v30_iff x1 x2 x3 q.1 q.2)

theorem posCnt_lt (lab gid cat : Fin 8192 → BitVec 32) : Cert.Spec.posCnt lab gid cat < 2 ^ 31 := by
  unfold Cert.Spec.posCnt
  refine lt_of_le_of_lt (Finset.card_filter_le _ _) ?_
  rw [Finset.card_univ, Fintype.card_prod, Fintype.card_fin]
  norm_num

theorem v36_eq (i j : Fin 8192) :
    val_main_v36 (F := Ideal) x0 (ix2 i j) = Cert.Spec.one - Cert.Spec.sim (Cert.Args.mat x0) i j := by
  rw [val_main_v36_apply, val_main_v35_apply, val_main_cst_1_apply, val_main_v32_apply]
  refine congrArg (fun s : EReal => Ideal.ofBits .f32 0x3F800000#32 - s) (Finset.sum_congr rfl fun k _ => ?_)
  rw [val_main_v31_apply]
  have h1 : lidx_main_v32 (ix2 i j) k = ix2 i k := by funext a; match a with | ⟨0, _⟩ => rfl | ⟨1, _⟩ => rfl
  have h2 : idx_main_v31 (ridx_main_v32 (ix2 i j) k) = ix2 j k := by funext a; match a with | ⟨0, _⟩ => rfl | ⟨1, _⟩ => rfl
  rw [h1, h2, v4_eq, v4_eq]

theorem v38_eq (j : S_.Idx) :
    val_main_v38 (F := Ideal) x0 x1 x2 x3 j
      = Cert.Spec.posSum (Cert.Args.mat x0) (Cert.Args.vec x1) (Cert.Args.vec x2) (Cert.Args.vec x3) := by
  rw [val_main_v38_apply, val_main_cst_3_apply]
  show Ideal.ofBits .f32 0x00000000#32 + _ = _
  rw [Ideal.ofBits_zero_f32, zero_add, sum_idx2]
  unfold Cert.Spec.posSum
  refine Finset.sum_congr rfl fun a _ => Finset.sum_congr rfl fun b _ => ?_
  rw [val_main_v37_apply]
  by_cases h : Cert.Spec.validPos (Cert.Args.vec x1) (Cert.Args.vec x2) (Cert.Args.vec x3) a b
  · rw [(v30_iff x1 x2 x3 a b).2 h, select_one, if_pos h, v36_eq]
  · rw [eq_zero_of_ne_one (fun hh => h ((v30_iff x1 x2 x3 a b).1 hh)), select_zero, if_neg h, val_main_call1_v1_apply,
      val_main_call1_v0_apply, val_main_cst_2_apply]
    rfl

theorem v43_eq (j : S_.Idx) :
    val_main_v43 (F := Ideal) x0 x1 x2 x3 j
      = Cert.Spec.avg (Cert.Spec.posCnt (Cert.Args.vec x1) (Cert.Args.vec x2) (Cert.Args.vec x3))
          (Cert.Spec.posSum (Cert.Args.mat x0) (Cert.Args.vec x1) (Cert.Args.vec x2) (Cert.Args.vec x3)) := by
  rw [val_main_v43_apply, val_main_v39_apply, val_main_v42_apply, val_main_v41_apply, val_main_v40_apply, v34_eq, v38_eq,
    val_main_c_4_apply, val_main_c_5_apply, val_main_call2_v0_apply, val_main_cst_6_apply]
  exact Cert.RefAvg.avg_select _ (posCnt_lt _ _ _) _

theorem v124_eq_of_neg
    (hneg : ∀ j, val_main_v123 (F := Ideal) x0 x1 x2 x3 x4 x5 j
      = Cert.Spec.avg (Cert.Spec.negCnt (Cert.Args.vec x1) (Cert.Args.vec x2) (Cert.Args.vec x3) (Cert.Args.vecS x4) (Cert.Args.vecS x5))
          (Cert.Spec.negSum (Cert.Args.mat x0) (Cert.Args.vec x1) (Cert.Args.vec x2) (Cert.Args.vec x3) (Cert.Args.vecS x4) (Cert.Args.vecS x5)))
    (j : S_.Idx) :
    val_main_v124 (F := Ideal) x0 x1 x2 x3 x4 x5 j = Cert.Args.lossOf x0 x1 x2 x3 x4 x5 := by
  rw [val_main_v124_apply, v43_eq, hneg]
  rfl

theorem v123_eq (j : S_.Idx) :
    val_main_v123 (F := Ideal) x0 x1 x2 x3 x4 x5 j
      = Cert.Spec.avg (Cert.Spec.negCnt (Cert.Args.vec x1) (Cert.Args.vec x2) (Cert.Args.vec x3) (Cert.Args.vecS x4) (Cert.Args.vecS x5))
          (Cert.Spec.negSum (Cert.Args.mat x0) (Cert.Args.vec x1) (Cert.Args.vec x2) (Cert.Args.vec x3) (Cert.Args.vecS x4) (Cert.Args.vecS x5)) := by
  have hb : val_main_v123 (F := Ideal) x0 x1 x2 x3 x4 x5 = negTerm (val_main_v4 (F := Ideal) x0) x2 x1 x3 x4 x5 := rfl
  rw [hb]
  exact negTerm_eq (Cert.Args.mat x0) (val_main_v4 (F := Ideal) x0) (fun i d => v4_eq x0 i d) x2 x1 x3 x4 x5 j

theorem v124_eq (j : S_.Idx) :
    val_main_v124 (F := Ideal) x0 x1 x2 x3 x4 x5 j = Cert.Args.lossOf x0 x1 x2 x3 x4 x5 :=
  v124_eq_of_neg x0 x1 x2 x3 x4 x5 (v123_eq x0 x1 x2 x3 x4 x5) j

end Cert.ReferenceIdeal.RefValue

end
-- ==== Proof.PreRange.lean ====
import proofs.«407225_j55808805044518_3_alg».proof.Pre_finite_inputs
import proofs.«407225_j55808805044518_3_alg».proof.Proof.Gen.Pre_finite_inputs
import proofs.«407225_j55808805044518_3_alg».proof.Proof.Args
import proofs.«407225_j55808805044518_3_alg».proof.Defs
import Idealize.ShloMosaic.Lib.ReduceAll
import Idealize.ShloMosaic.Lib.StableHlo.Predicate
import Idealize.ShloMosaic.Lib.ValueIdx

namespace Cert.PreRange

open Idealize.ShloMosaic Idealize.ShloMosaic.ValueIdx Idealize.SL.Sem Cert.Pre_finite_inputs

instance : Subsingleton S_.Idx := ⟨fun a b => funext fun d => d.elim0⟩

theorem range_of_word {x lo hi : BitVec 32}
    (h : IntOp.andi (IntOp.cmpi .sge x lo) (IntOp.cmpi .slt x hi) = 1#1) : lo.toInt ≤ x.toInt ∧ x.toInt < hi.toInt := by
  obtain ⟨h1, h2⟩ := IntOp.andi_eq_one.1 h
  exact ⟨IntOp.cmpi_sge.1 h1, IntOp.cmpi_slt.1 h2⟩

theorem inRange_of_pre {F : FTy → Type} [FloatOps F] [Cert.Pre_finite_inputs.Facts]
    (a0 : FVec F S8192x512 .f32) (a1 a2 a3 : IVec S8192 32) (a4 a5 : IVec S5000 32)
    (h : Cert.Pre_finite_inputs.fn (F := F) a0 a1 a2 a3 a4 a5 = fun _ => 1#1) : Cert.Args.InRange a1 a2 := by
  have h0 := congrFun h ix0
  dsimp only [Cert.Pre_finite_inputs.fn, Cert.Pre_finite_inputs.fn_part1] at h0
  obtain ⟨h12, h3⟩ := IntOp.andi_eq_one.1 (show IntOp.andi _ _ = 1#1 from h0)
  obtain ⟨-, h2⟩ := IntOp.andi_eq_one.1 (show IntOp.andi _ _ = 1#1 from h12)
  have z0 : (0#32 : BitVec 32).toInt = 0 := by decide
  have z512 : (512#32 : BitVec 32).toInt = 512 := by decide
  have z16 : (16#32 : BitVec 32).toInt = 16 := by decide
  refine ⟨fun i => ?_, fun i => ?_⟩
  · have e := Host.reduce_andi_all _ _ _ _ _ h2 (ix1 i)
    have r := range_of_word (x := a1 (ix1 i)) (lo := 0#32) (hi := 512#32) e
    rw [z0, z512] at r
    exact r
  · have e := Host.reduce_andi_all _ _ _ _ _ h3 (ix1 i)
    have r := range_of_word (x := a2 (ix1 i)) (lo := 0#32) (hi := 16#32) e
    rw [z0, z16] at r
    exact r

theorem inRange_of_Pre_KernelIdeal [Cert.Pre_finite_inputs.Facts]
    (m : (ℓ : Loc Cert.KernelIdeal.nD Cert.KernelIdeal.τ Cert.KernelIdeal.sig) → Buf (Elt Ideal) ℓ)
    (hp : Cert.Pre_KernelIdeal m) (c : Dev Cert.KernelIdeal.nD) :
    Cert.Args.InRange (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) :=
  inRange_of_pre (F := Ideal) _ _ _ _ _ _ (hp c)

end Cert.PreRange
-- ==== Proof.lean ====
/-
  Both programs compute the pair loss of Proof/Spec.lean: the sum of `1 - ⟨eᵢ, eⱼ⟩` over the masked pairs `i < j` of
  normalised rows, divided by the number of such pairs, plus the mean over the sampled pairs.  The kernel adds the masked
  values tile by tile over the tiles that meet the upper triangle and counts the pairs from a histogram of the labels by
  graph; the reference sums and counts over the whole square.
-/
import proofs.«407225_j55808805044518_3_alg».proof.Defs
import proofs.«407225_j55808805044518_3_alg».proof.Proof.Gen.Kernel
import proofs.«407225_j55808805044518_3_alg».proof.Proof.Gen.KernelIdeal
import proofs.«407225_j55808805044518_3_alg».proof.Proof.Gen.ReferenceIdeal
import proofs.«407225_j55808805044518_3_alg».proof.Proof.Gen.Pre_finite_inputs
import proofs.«407225_j55808805044518_3_alg».proof.Proof.RunMainK
import proofs.«407225_j55808805044518_3_alg».proof.Proof.RunMainTKI
import proofs.«407225_j55808805044518_3_alg».proof.Proof.KernelValueKI
import proofs.«407225_j55808805044518_3_alg».proof.Proof.RefRunC
import proofs.«407225_j55808805044518_3_alg».proof.Proof.RefValue
import proofs.«407225_j55808805044518_3_alg».proof.Proof.PreRange
import Idealize.ShloMosaic.Adequacy
import Idealize.ShloMosaic.Init

noncomputable section

namespace Cert.Proof

open Idealize.ShloMosaic Idealize.ShloMosaic.TcCoe Idealize.SL.Sem

theorem frame_k : @Cert.frame_Kernel Cert.Kernel.Gen.facts Cert.Pre_finite_inputs.Gen.facts := fun m g _ =>
  (θ_run (Cert.Kernel.defs (F := Bits)) _ _).mono
    (fun r h c => ⟨(h c Cert.Kernel.main_arg0 rfl).trans (Cert.Kernel.Hand.V21_keep m _ c Cert.Kernel.main_arg0 (by decide)),
      (h c Cert.Kernel.main_arg1 rfl).trans (Cert.Kernel.Hand.V21_keep m _ c Cert.Kernel.main_arg1 (by decide)),
      (h c Cert.Kernel.main_arg2 rfl).trans (Cert.Kernel.Hand.V21_keep m _ c Cert.Kernel.main_arg2 (by decide)),
      (h c Cert.Kernel.main_arg3 rfl).trans (Cert.Kernel.Hand.V21_keep m _ c Cert.Kernel.main_arg3 (by decide)),
      (h c Cert.Kernel.main_arg4 rfl).trans (Cert.Kernel.Hand.V21_keep m _ c Cert.Kernel.main_arg4 (by decide)),
      (h c Cert.Kernel.main_arg5 rfl).trans (Cert.Kernel.Hand.V21_keep m _ c Cert.Kernel.main_arg5 (by decide))⟩)
    (Cert.Kernel.Hand.run_main_out (F := Bits) m g)

theorem frame_ki : @Cert.frame_KernelIdeal Cert.KernelIdeal.Gen.facts Cert.Pre_finite_inputs.Gen.facts := fun m g _ =>
  (θ_run (Cert.KernelIdeal.defs (F := Ideal)) _ _).mono
    (fun r h c => ⟨(h c Cert.KernelIdeal.main_arg0 rfl).trans (Cert.KernelIdeal.Hand.V21_keep m _ c Cert.KernelIdeal.main_arg0 (by decide)),
      (h c Cert.KernelIdeal.main_arg1 rfl).trans (Cert.KernelIdeal.Hand.V21_keep m _ c Cert.KernelIdeal.main_arg1 (by decide)),
      (h c Cert.KernelIdeal.main_arg2 rfl).trans (Cert.KernelIdeal.Hand.V21_keep m _ c Cert.KernelIdeal.main_arg2 (by decide)),
      (h c Cert.KernelIdeal.main_arg3 rfl).trans (Cert.KernelIdeal.Hand.V21_keep m _ c Cert.KernelIdeal.main_arg3 (by decide)),
      (h c Cert.KernelIdeal.main_arg4 rfl).trans (Cert.KernelIdeal.Hand.V21_keep m _ c Cert.KernelIdeal.main_arg4 (by decide)),
      (h c Cert.KernelIdeal.main_arg5 rfl).trans (Cert.KernelIdeal.Hand.V21_keep m _ c Cert.KernelIdeal.main_arg5 (by decide))⟩)
    (Cert.KernelIdeal.Hand.run_main_out (F := Ideal) m g)

theorem frame_ri : @Cert.frame_ReferenceIdeal Cert.ReferenceIdeal.Gen.facts Cert.Pre_finite_inputs.Gen.facts := fun m g _ =>
  (θ_run (Cert.ReferenceIdeal.defs (F := Ideal)) _ _).mono (fun _ h c => (h c).2)
    (Cert.ReferenceIdeal.RunC.run' (F := Ideal) m g)

theorem algebraic : @Cert.algebraic_KernelIdeal_ReferenceIdeal Cert.KernelIdeal.Gen.facts Cert.ReferenceIdeal.Gen.facts Cert.Pre_finite_inputs.Gen.facts := by
  intro m g m' g' hpre hagree
  refine ⟨fun c => fun _ => Cert.Args.lossOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run (Cert.KernelIdeal.defs (F := Ideal)) _ _).mono (fun r h c => ⟨?_,
      (h c Cert.KernelIdeal.main_arg0 rfl).trans (Cert.KernelIdeal.Hand.V21_keep m _ c Cert.KernelIdeal.main_arg0 (by decide)),
      (h c Cert.KernelIdeal.main_arg1 rfl).trans (Cert.KernelIdeal.Hand.V21_keep m _ c Cert.KernelIdeal.main_arg1 (by decide)),
      (h c Cert.KernelIdeal.main_arg2 rfl).trans (Cert.KernelIdeal.Hand.V21_keep m _ c Cert.KernelIdeal.main_arg2 (by decide)),
      (h c Cert.KernelIdeal.main_arg3 rfl).trans (Cert.KernelIdeal.Hand.V21_keep m _ c Cert.KernelIdeal.main_arg3 (by decide)),
      (h c Cert.KernelIdeal.main_arg4 rfl).trans (Cert.KernelIdeal.Hand.V21_keep m _ c Cert.KernelIdeal.main_arg4 (by decide)),
      (h c Cert.KernelIdeal.main_arg5 rfl).trans (Cert.KernelIdeal.Hand.V21_keep m _ c Cert.KernelIdeal.main_arg5 (by decide))⟩)
      (Cert.KernelIdeal.Hand.run_main (F := Ideal) m g)
    exact (h c Cert.KernelIdeal.main_v150 rfl).trans
      (Cert.KernelIdeal.Hand.kernel_value m c (Cert.PreRange.inRange_of_Pre_KernelIdeal m hpre c))
  · refine (θ_run (Cert.ReferenceIdeal.defs (F := Ideal)) _ _).mono (fun r h c => ⟨?_, (h c).2⟩)
      (Cert.ReferenceIdeal.RunC.run' (F := Ideal) m' g')
    rw [(h c).1, (hagree c).1, (hagree c).2.1, (hagree c).2.2.1, (hagree c).2.2.2.1, (hagree c).2.2.2.2.1, (hagree c).2.2.2.2.2]
    exact funext fun j => Cert.ReferenceIdeal.RefValue.v124_eq _ _ _ _ _ _ j

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
